-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30)) (m ((c.tc : Thread Cert.Kernel.nD Cert.Kernel.τ).loc Cert.Kernel.main_arg31)) (m ((c.tc : Thread Cert.Kernel.nD Cert.Kernel.τ).loc Cert.Kernel.main_arg32)) (m ((c.tc : Thread Cert.Kernel.nD Cert.Kernel.τ).loc Cert.Kernel.main_arg33)) (m ((c.tc : Thread Cert.Kernel.nD Cert.Kernel.τ).loc Cert.Kernel.main_arg34)) (m ((c.tc : Thread Cert.Kernel.nD Cert.Kernel.τ).loc Cert.Kernel.main_arg35)) (m ((c.tc : Thread Cert.Kernel.nD Cert.Kernel.τ).loc Cert.Kernel.main_arg36))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31)) (m ((c.tc : Thread Cert.KernelIdeal.nD Cert.KernelIdeal.τ).loc Cert.KernelIdeal.main_arg32)) (m ((c.tc : Thread Cert.KernelIdeal.nD Cert.KernelIdeal.τ).loc Cert.KernelIdeal.main_arg33)) (m ((c.tc : Thread Cert.KernelIdeal.nD Cert.KernelIdeal.τ).loc Cert.KernelIdeal.main_arg34)) (m ((c.tc : Thread Cert.KernelIdeal.nD Cert.KernelIdeal.τ).loc Cert.KernelIdeal.main_arg35)) (m ((c.tc : Thread Cert.KernelIdeal.nD Cert.KernelIdeal.τ).loc Cert.KernelIdeal.main_arg36))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31)) (m ((c.tc : Thread Cert.ReferenceIdeal.nD Cert.ReferenceIdeal.τ).loc Cert.ReferenceIdeal.main_arg32)) (m ((c.tc : Thread Cert.ReferenceIdeal.nD Cert.ReferenceIdeal.τ).loc Cert.ReferenceIdeal.main_arg33)) (m ((c.tc : Thread Cert.ReferenceIdeal.nD Cert.ReferenceIdeal.τ).loc Cert.ReferenceIdeal.main_arg34)) (m ((c.tc : Thread Cert.ReferenceIdeal.nD Cert.ReferenceIdeal.τ).loc Cert.ReferenceIdeal.main_arg35)) (m ((c.tc : Thread Cert.ReferenceIdeal.nD Cert.ReferenceIdeal.τ).loc Cert.ReferenceIdeal.main_arg36))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31)
      ∧ r.2.mem ((c.tc : Thread Cert.Kernel.nD Cert.Kernel.τ).loc Cert.Kernel.main_arg32) = m ((c.tc : Thread Cert.Kernel.nD Cert.Kernel.τ).loc Cert.Kernel.main_arg32)
      ∧ r.2.mem ((c.tc : Thread Cert.Kernel.nD Cert.Kernel.τ).loc Cert.Kernel.main_arg33) = m ((c.tc : Thread Cert.Kernel.nD Cert.Kernel.τ).loc Cert.Kernel.main_arg33)
      ∧ r.2.mem ((c.tc : Thread Cert.Kernel.nD Cert.Kernel.τ).loc Cert.Kernel.main_arg34) = m ((c.tc : Thread Cert.Kernel.nD Cert.Kernel.τ).loc Cert.Kernel.main_arg34)
      ∧ r.2.mem ((c.tc : Thread Cert.Kernel.nD Cert.Kernel.τ).loc Cert.Kernel.main_arg35) = m ((c.tc : Thread Cert.Kernel.nD Cert.Kernel.τ).loc Cert.Kernel.main_arg35)
      ∧ r.2.mem ((c.tc : Thread Cert.Kernel.nD Cert.Kernel.τ).loc Cert.Kernel.main_arg36) = m ((c.tc : Thread Cert.Kernel.nD Cert.Kernel.τ).loc Cert.Kernel.main_arg36))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
      ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
      ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
      ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
      ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
      ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31)
      ∧ r.2.mem ((c.tc : Thread Cert.ReferenceIdeal.nD Cert.ReferenceIdeal.τ).loc Cert.ReferenceIdeal.main_arg32) = m ((c.tc : Thread Cert.ReferenceIdeal.nD Cert.ReferenceIdeal.τ).loc Cert.ReferenceIdeal.main_arg32)
      ∧ r.2.mem ((c.tc : Thread Cert.ReferenceIdeal.nD Cert.ReferenceIdeal.τ).loc Cert.ReferenceIdeal.main_arg33) = m ((c.tc : Thread Cert.ReferenceIdeal.nD Cert.ReferenceIdeal.τ).loc Cert.ReferenceIdeal.main_arg33)
      ∧ r.2.mem ((c.tc : Thread Cert.ReferenceIdeal.nD Cert.ReferenceIdeal.τ).loc Cert.ReferenceIdeal.main_arg34) = m ((c.tc : Thread Cert.ReferenceIdeal.nD Cert.ReferenceIdeal.τ).loc Cert.ReferenceIdeal.main_arg34)
      ∧ r.2.mem ((c.tc : Thread Cert.ReferenceIdeal.nD Cert.ReferenceIdeal.τ).loc Cert.ReferenceIdeal.main_arg35) = m ((c.tc : Thread Cert.ReferenceIdeal.nD Cert.ReferenceIdeal.τ).loc Cert.ReferenceIdeal.main_arg35)
      ∧ r.2.mem ((c.tc : Thread Cert.ReferenceIdeal.nD Cert.ReferenceIdeal.τ).loc Cert.ReferenceIdeal.main_arg36) = m ((c.tc : Thread Cert.ReferenceIdeal.nD Cert.ReferenceIdeal.τ).loc Cert.ReferenceIdeal.main_arg36))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)
      ∧ m' ((c.tc : Thread Cert.ReferenceIdeal.nD Cert.ReferenceIdeal.τ).loc Cert.ReferenceIdeal.main_arg32) = m ((c.tc : Thread Cert.KernelIdeal.nD Cert.KernelIdeal.τ).loc Cert.KernelIdeal.main_arg32)
      ∧ m' ((c.tc : Thread Cert.ReferenceIdeal.nD Cert.ReferenceIdeal.τ).loc Cert.ReferenceIdeal.main_arg33) = m ((c.tc : Thread Cert.KernelIdeal.nD Cert.KernelIdeal.τ).loc Cert.KernelIdeal.main_arg33)
      ∧ m' ((c.tc : Thread Cert.ReferenceIdeal.nD Cert.ReferenceIdeal.τ).loc Cert.ReferenceIdeal.main_arg34) = m ((c.tc : Thread Cert.KernelIdeal.nD Cert.KernelIdeal.τ).loc Cert.KernelIdeal.main_arg34)
      ∧ m' ((c.tc : Thread Cert.ReferenceIdeal.nD Cert.ReferenceIdeal.τ).loc Cert.ReferenceIdeal.main_arg35) = m ((c.tc : Thread Cert.KernelIdeal.nD Cert.KernelIdeal.τ).loc Cert.KernelIdeal.main_arg35)
      ∧ m' ((c.tc : Thread Cert.ReferenceIdeal.nD Cert.ReferenceIdeal.τ).loc Cert.ReferenceIdeal.main_arg36) = m ((c.tc : Thread Cert.KernelIdeal.nD Cert.KernelIdeal.τ).loc Cert.KernelIdeal.main_arg36)) →
    ∃ (v0 : (c : Dev Cert.KernelIdeal.nD) → Buf (Elt Ideal) ((c.tc : Thread Cert.KernelIdeal.nD Cert.KernelIdeal.τ).loc Cert.KernelIdeal.main_v29_0)) (v1 : (c : Dev Cert.KernelIdeal.nD) → Buf (Elt Ideal) ((c.tc : Thread Cert.KernelIdeal.nD Cert.KernelIdeal.τ).loc Cert.KernelIdeal.main_v29_1)) (v2 : (c : Dev Cert.KernelIdeal.nD) → Buf (Elt Ideal) ((c.tc : Thread Cert.KernelIdeal.nD Cert.KernelIdeal.τ).loc Cert.KernelIdeal.main_v29_2)) (v3 : (c : Dev Cert.KernelIdeal.nD) → Buf (Elt Ideal) ((c.tc : Thread Cert.KernelIdeal.nD Cert.KernelIdeal.τ).loc Cert.KernelIdeal.main_v29_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29_0) = v0 c
          ∧ r.2.mem ((c.tc : Thread Cert.KernelIdeal.nD Cert.KernelIdeal.τ).loc Cert.KernelIdeal.main_v29_1) = v1 c
          ∧ r.2.mem ((c.tc : Thread Cert.KernelIdeal.nD Cert.KernelIdeal.τ).loc Cert.KernelIdeal.main_v29_2) = v2 c
          ∧ r.2.mem ((c.tc : Thread Cert.KernelIdeal.nD Cert.KernelIdeal.τ).loc Cert.KernelIdeal.main_v29_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31)
          ∧ r.2.mem ((c.tc : Thread Cert.KernelIdeal.nD Cert.KernelIdeal.τ).loc Cert.KernelIdeal.main_arg32) = m ((c.tc : Thread Cert.KernelIdeal.nD Cert.KernelIdeal.τ).loc Cert.KernelIdeal.main_arg32)
          ∧ r.2.mem ((c.tc : Thread Cert.KernelIdeal.nD Cert.KernelIdeal.τ).loc Cert.KernelIdeal.main_arg33) = m ((c.tc : Thread Cert.KernelIdeal.nD Cert.KernelIdeal.τ).loc Cert.KernelIdeal.main_arg33)
          ∧ r.2.mem ((c.tc : Thread Cert.KernelIdeal.nD Cert.KernelIdeal.τ).loc Cert.KernelIdeal.main_arg34) = m ((c.tc : Thread Cert.KernelIdeal.nD Cert.KernelIdeal.τ).loc Cert.KernelIdeal.main_arg34)
          ∧ r.2.mem ((c.tc : Thread Cert.KernelIdeal.nD Cert.KernelIdeal.τ).loc Cert.KernelIdeal.main_arg35) = m ((c.tc : Thread Cert.KernelIdeal.nD Cert.KernelIdeal.τ).loc Cert.KernelIdeal.main_arg35)
          ∧ r.2.mem ((c.tc : Thread Cert.KernelIdeal.nD Cert.KernelIdeal.τ).loc Cert.KernelIdeal.main_arg36) = m ((c.tc : Thread Cert.KernelIdeal.nD Cert.KernelIdeal.τ).loc Cert.KernelIdeal.main_arg36))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_v150) = v1 c
          ∧ r.2.mem ((c.tc : Thread Cert.ReferenceIdeal.nD Cert.ReferenceIdeal.τ).loc Cert.ReferenceIdeal.main_v152) = v2 c
          ∧ r.2.mem ((c.tc : Thread Cert.ReferenceIdeal.nD Cert.ReferenceIdeal.τ).loc Cert.ReferenceIdeal.main_v154) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31)
          ∧ r.2.mem ((c.tc : Thread Cert.ReferenceIdeal.nD Cert.ReferenceIdeal.τ).loc Cert.ReferenceIdeal.main_arg32) = m' ((c.tc : Thread Cert.ReferenceIdeal.nD Cert.ReferenceIdeal.τ).loc Cert.ReferenceIdeal.main_arg32)
          ∧ r.2.mem ((c.tc : Thread Cert.ReferenceIdeal.nD Cert.ReferenceIdeal.τ).loc Cert.ReferenceIdeal.main_arg33) = m' ((c.tc : Thread Cert.ReferenceIdeal.nD Cert.ReferenceIdeal.τ).loc Cert.ReferenceIdeal.main_arg33)
          ∧ r.2.mem ((c.tc : Thread Cert.ReferenceIdeal.nD Cert.ReferenceIdeal.τ).loc Cert.ReferenceIdeal.main_arg34) = m' ((c.tc : Thread Cert.ReferenceIdeal.nD Cert.ReferenceIdeal.τ).loc Cert.ReferenceIdeal.main_arg34)
          ∧ r.2.mem ((c.tc : Thread Cert.ReferenceIdeal.nD Cert.ReferenceIdeal.τ).loc Cert.ReferenceIdeal.main_arg35) = m' ((c.tc : Thread Cert.ReferenceIdeal.nD Cert.ReferenceIdeal.τ).loc Cert.ReferenceIdeal.main_arg35)
          ∧ r.2.mem ((c.tc : Thread Cert.ReferenceIdeal.nD Cert.ReferenceIdeal.τ).loc Cert.ReferenceIdeal.main_arg36) = m' ((c.tc : Thread Cert.ReferenceIdeal.nD Cert.ReferenceIdeal.τ).loc Cert.ReferenceIdeal.main_arg36))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x256 : Shape := ⟨3, ![16, 256, 256]⟩
abbrev S16x129 : Shape := ⟨2, ![16, 129]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x256 : Shape := ⟨2, ![128, 256]⟩
abbrev S256x1 : Shape := ⟨2, ![256, 1]⟩
abbrev S1 : Shape := ⟨1, ![1]⟩
abbrev S_ : Shape := ⟨0, ![]⟩

class Facts : Prop where
  bcast_S_S16x256x256 : S_.BroadcastsInDim S16x256x256 (![] : Fin 0 → Fin S16x256x256.rank)
  reducesTo_S16x256x256_S_d0_1_2 : S16x256x256.ReducesTo [0, 1, 2] S_
  h_S_ : 0 < S_.numel
  bcast_S_S16x129 : S_.BroadcastsInDim S16x129 (![] : Fin 0 → Fin S16x129.rank)
  reducesTo_S16x129_S_d0_1 : S16x129.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part10 {F : FTy → Type} [FloatOps F] (main_arg35 : FVec F S256x1 .f32) (main_arg36 : FVec F S1 .f32) (main_v168 : IVec S_ 1) (main_v169 : FVec F S256 .f32) (main_v170 : FVec F S256 .f32) : IVec S_ 1 :=
  let main_v171 : IVec S256 1 := cmpf .olt main_v169 main_v170
  let main_c_67 : IVec S_ 1 := constantI S_ 1 1#1
  let main_v172 : IVec S_ 1 := (fun x v => Host.reduce IntOp.andi x v reducesTo_S256_S_d0 h_S_) main_v171 main_c_67
  let main_v173 : IVec S_ 1 := andi main_v168 main_v172
  let main_v174 : FVec F S256x1 .f32 := Host.absf main_arg35
  let main_cst_68 : FVec F S_ .f32 := constant S_ .f32 0x7F800000#32
  let main_v175 : FVec F S256x1 .f32 := broadcastInDim S256x1 ![] bcast_S_S256x1 main_cst_68
  let main_v176 : IVec S256x1 1 := cmpf .olt main_v174 main_v175
  let main_c_69 : IVec S_ 1 := constantI S_ 1 1#1
  let main_v177 : IVec S_ 1 := (fun x v => Host.reduce IntOp.andi x v reducesTo_S256x1_S_d0_1 h_S_) main_v176 main_c_69
  let main_v178 : IVec S_ 1 := andi main_v173 main_v177
  let main_v179 : FVec F S1 .f32 := Host.absf main_arg36
  let main_cst_70 : FVec F S_ .f32 := constant S_ .f32 0x7F800000#32
  let main_v180 : FVec F S1 .f32 := broadcastInDim S1 ![] bcast_S_S1 main_cst_70
  let main_v181 : IVec S1 1 := cmpf .olt main_v179 main_v180
  let main_c_71 : IVec S_ 1 := constantI S_ 1 1#1
  let main_v182 : IVec S_ 1 := (fun x v => Host.reduce IntOp.andi x v reducesTo_S1_S_d0 h_S_) main_v181 main_c_71
  let main_v183 : IVec S_ 1 := andi main_v178 main_v182
  main_v183

def fn_part9 {F : FTy → Type} [FloatOps F] (main_arg31 : FVec F S256x1 .f32) (main_arg32 : FVec F S1 .f32) (main_arg33 : FVec F S128x256 .f32) (main_arg34 : FVec F S256 .f32) (main_arg35 : FVec F S256x1 .f32) (main_arg36 : FVec F S1 .f32) (main_v153 : IVec S_ 1) : IVec S_ 1 :=
  let main_v154 : FVec F S256x1 .f32 := Host.absf main_arg31
  let main_cst_60 : FVec F S_ .f32 := constant S_ .f32 0x7F800000#32
  let main_v155 : FVec F S256x1 .f32 := broadcastInDim S256x1 ![] bcast_S_S256x1 main_cst_60
  let main_v156 : IVec S256x1 1 := cmpf .olt main_v154 main_v155
  let main_c_61 : IVec S_ 1 := constantI S_ 1 1#1
  let main_v157 : IVec S_ 1 := (fun x v => Host.reduce IntOp.andi x v reducesTo_S256x1_S_d0_1 h_S_) main_v156 main_c_61
  let main_v158 : IVec S_ 1 := andi main_v153 main_v157
  let main_v159 : FVec F S1 .f32 := Host.absf main_arg32
  let main_cst_62 : FVec F S_ .f32 := constant S_ .f32 0x7F800000#32
  let main_v160 : FVec F S1 .f32 := broadcastInDim S1 ![] bcast_S_S1 main_cst_62
  let main_v161 : IVec S1 1 := cmpf .olt main_v159 main_v160
  let main_c_63 : IVec S_ 1 := constantI S_ 1 1#1
  let main_v162 : IVec S_ 1 := (fun x v => Host.reduce IntOp.andi x v reducesTo_S1_S_d0 h_S_) main_v161 main_c_63
  let main_v163 : IVec S_ 1 := andi main_v158 main_v162
  let main_v164 : FVec F S128x256 .f32 := Host.absf main_arg33
  let main_cst_64 : FVec F S_ .f32 := constant S_ .f32 0x7F800000#32
  let main_v165 : FVec F S128x256 .f32 := broadcastInDim S128x256 ![] bcast_S_S128x256 main_cst_64
  let main_v166 : IVec S128x256 1 := cmpf .olt main_v164 main_v165
  let main_c_65 : IVec S_ 1 := constantI S_ 1 1#1
  let main_v167 : IVec S_ 1 := (fun x v => Host.reduce IntOp.andi x v reducesTo_S128x256_S_d0_1 h_S_) main_v166 main_c_65
  let main_v168 : IVec S_ 1 := andi main_v163 main_v167
  let main_v169 : FVec F S256 .f32 := Host.absf main_arg34
  let main_cst_66 : FVec F S_ .f32 := constant S_ .f32 0x7F800000#32
  let main_v170 : FVec F S256 .f32 := broadcastInDim S256 ![] bcast_S_S256 main_cst_66
  fn_part10 (F := F) main_arg35 main_arg36 main_v168 main_v169 main_v170

def fn_part8 {F : FTy → Type} [FloatOps F] (main_arg28 : FVec F S128 .f32) (main_arg29 : FVec F S128x256 .f32) (main_arg30 : FVec F S256 .f32) (main_arg31 : FVec F S256x1 .f32) (main_arg32 : FVec F S1 .f32) (main_arg33 : FVec F S128x256 .f32) (main_arg34 : FVec F S256 .f32) (main_arg35 : FVec F S256x1 .f32) (main_arg36 : FVec F S1 .f32) (main_v133 : IVec S_ 1) (main_v136 : IVec S256x128 1) : IVec S_ 1 :=
  let main_c_53 : IVec S_ 1 := constantI S_ 1 1#1
  let main_v137 : IVec S_ 1 := (fun x v => Host.reduce IntOp.andi x v reducesTo_S256x128_S_d0_1 h_S_) main_v136 main_c_53
  let main_v138 : IVec S_ 1 := andi main_v133 main_v137
  let main_v139 : FVec F S128 .f32 := Host.absf main_arg28
  let main_cst_54 : FVec F S_ .f32 := constant S_ .f32 0x7F800000#32
  let main_v140 : FVec F S128 .f32 := broadcastInDim S128 ![] bcast_S_S128 main_cst_54
  let main_v141 : IVec S128 1 := cmpf .olt main_v139 main_v140
  let main_c_55 : IVec S_ 1 := constantI S_ 1 1#1
  let main_v142 : IVec S_ 1 := (fun x v => Host.reduce IntOp.andi x v reducesTo_S128_S_d0 h_S_) main_v141 main_c_55
  let main_v143 : IVec S_ 1 := andi main_v138 main_v142
  let main_v144 : FVec F S128x256 .f32 := Host.absf main_arg29
  let main_cst_56 : FVec F S_ .f32 := constant S_ .f32 0x7F800000#32
  let main_v145 : FVec F S128x256 .f32 := broadcastInDim S128x256 ![] bcast_S_S128x256 main_cst_56
  let main_v146 : IVec S128x256 1 := cmpf .olt main_v144 main_v145
  let main_c_57 : IVec S_ 1 := constantI S_ 1 1#1
  let main_v147 : IVec S_ 1 := (fun x v => Host.reduce IntOp.andi x v reducesTo_S128x256_S_d0_1 h_S_) main_v146 main_c_57
  let main_v148 : IVec S_ 1 := andi main_v143 main_v147
  let main_v149 : FVec F S256 .f32 := Host.absf main_arg30
  let main_cst_58 : FVec F S_ .f32 := constant S_ .f32 0x7F800000#32
  let main_v150 : FVec F S256 .f32 := broadcastInDim S256 ![] bcast_S_S256 main_cst_58
  let main_v151 : IVec S256 1 := cmpf .olt main_v149 main_v150
  let main_c_59 : IVec S_ 1 := constantI S_ 1 1#1
  let main_v152 : IVec S_ 1 := (fun x v => Host.reduce IntOp.andi x v reducesTo_S256_S_d0 h_S_) main_v151 main_c_59
  let main_v153 : IVec S_ 1 := andi main_v148 main_v152
  fn_part9 (F := F) main_arg31 main_arg32 main_arg33 main_arg34 main_arg35 main_arg36 main_v153

def fn_part7 {F : FTy → Type} [FloatOps F] (main_arg25 : FVec F S128x256 .f32) (main_arg26 : FVec F S256 .f32) (main_arg27 : FVec F S256x128 .f32) (main_arg28 : FVec F S128 .f32) (main_arg29 : FVec F S128x256 .f32) (main_arg30 : FVec F S256 .f32) (main_arg31 : FVec F S256x1 .f32) (main_arg32 : FVec F S1 .f32) (main_arg33 : FVec F S128x256 .f32) (main_arg34 : FVec F S256 .f32) (main_arg35 : FVec F S256x1 .f32) (main_arg36 : FVec F S1 .f32) (main_v118 : IVec S_ 1) (main_v119 : FVec F S128 .f32) : IVec S_ 1 :=
  let main_cst_46 : FVec F S_ .f32 := constant S_ .f32 0x7F800000#32
  let main_v120 : FVec F S128 .f32 := broadcastInDim S128 ![] bcast_S_S128 main_cst_46
  let main_v121 : IVec S128 1 := cmpf .olt main_v119 main_v120
  let main_c_47 : IVec S_ 1 := constantI S_ 1 1#1
  let main_v122 : IVec S_ 1 := (fun x v => Host.reduce IntOp.andi x v reducesTo_S128_S_d0 h_S_) main_v121 main_c_47
  let main_v123 : IVec S_ 1 := andi main_v118 main_v122
  let main_v124 : FVec F S128x256 .f32 := Host.absf main_arg25
  let main_cst_48 : FVec F S_ .f32 := constant S_ .f32 0x7F800000#32
  let main_v125 : FVec F S128x256 .f32 := broadcastInDim S128x256 ![] bcast_S_S128x256 main_cst_48
  let main_v126 : IVec S128x256 1 := cmpf .olt main_v124 main_v125
  let main_c_49 : IVec S_ 1 := constantI S_ 1 1#1
  let main_v127 : IVec S_ 1 := (fun x v => Host.reduce IntOp.andi x v reducesTo_S128x256_S_d0_1 h_S_) main_v126 main_c_49
  let main_v128 : IVec S_ 1 := andi main_v123 main_v127
  let main_v129 : FVec F S256 .f32 := Host.absf main_arg26
  let main_cst_50 : FVec F S_ .f32 := constant S_ .f32 0x7F800000#32
  let main_v130 : FVec F S256 .f32 := broadcastInDim S256 ![] bcast_S_S256 main_cst_50
  let main_v131 : IVec S256 1 := cmpf .olt main_v129 main_v130
  let main_c_51 : IVec S_ 1 := constantI S_ 1 1#1
  let main_v132 : IVec S_ 1 := (fun x v => Host.reduce IntOp.andi x v reducesTo_S256_S_d0 h_S_) main_v131 main_c_51
  let main_v133 : IVec S_ 1 := andi main_v128 main_v132
  let main_v134 : FVec F S256x128 .f32 := Host.absf main_arg27
  let main_cst_52 : FVec F S_ .f32 := constant S_ .f32 0x7F800000#32
  let main_v135 : FVec F S256x128 .f32 := broadcastInDim S256x128 ![] bcast_S_S256x128 main_cst_52
  let main_v136 : IVec S256x128 1 := cmpf .olt main_v134 main_v135
  fn_part8 (F := F) main_arg28 main_arg29 main_arg30 main_arg31 main_arg32 main_arg33 main_arg34 main_arg35 main_arg36 main_v133 main_v136

def fn_part6 {F : FTy → Type} [FloatOps F] (main_arg21 : FVec F S256x256 .f32) (main_arg22 : FVec F S256 .f32) (main_arg23 : FVec F S256x128 .f32) (main_arg24 : FVec F S128 .f32) (main_arg25 : FVec F S128x256 .f32) (main_arg26 : FVec F S256 .f32) (main_arg27 : FVec F S256x128 .f32) (main_arg28 : FVec F S128 .f32) (main_arg29 : FVec F S128x256 .f32) (main_arg30 : FVec F S256 .f32) (main_arg31 : FVec F S256x1 .f32) (main_arg32 : FVec F S1 .f32) (main_arg33 : FVec F S128x256 .f32) (main_arg34 : FVec F S256 .f32) (main_arg35 : FVec F S256x1 .f32) (main_arg36 : FVec F S1 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S256x256 .f32 := Host.absf main_arg21
  let main_cst_40 : FVec F S_ .f32 := constant S_ .f32 0x7F800000#32
  let main_v105 : FVec F S256x256 .f32 := broadcastInDim S256x256 ![] bcast_S_S256x256 main_cst_40
  let main_v106 : IVec S256x256 1 := cmpf .olt main_v104 main_v105
  let main_c_41 : IVec S_ 1 := constantI S_ 1 1#1
  let main_v107 : IVec S_ 1 := (fun x v => Host.reduce IntOp.andi x v reducesTo_S256x256_S_d0_1 h_S_) main_v106 main_c_41
  let main_v108 : IVec S_ 1 := andi main_v103 main_v107
  let main_v109 : FVec F S256 .f32 := Host.absf main_arg22
  let main_cst_42 : FVec F S_ .f32 := constant S_ .f32 0x7F800000#32
  let main_v110 : FVec F S256 .f32 := broadcastInDim S256 ![] bcast_S_S256 main_cst_42
  let main_v111 : IVec S256 1 := cmpf .olt main_v109 main_v110
  let main_c_43 : IVec S_ 1 := constantI S_ 1 1#1
  let main_v112 : IVec S_ 1 := (fun x v => Host.reduce IntOp.andi x v reducesTo_S256_S_d0 h_S_) main_v111 main_c_43
  let main_v113 : IVec S_ 1 := andi main_v108 main_v112
  let main_v114 : FVec F S256x128 .f32 := Host.absf main_arg23
  let main_cst_44 : FVec F S_ .f32 := constant S_ .f32 0x7F800000#32
  let main_v115 : FVec F S256x128 .f32 := broadcastInDim S256x128 ![] bcast_S_S256x128 main_cst_44
  let main_v116 : IVec S256x128 1 := cmpf .olt main_v114 main_v115
  let main_c_45 : IVec S_ 1 := constantI S_ 1 1#1
  let main_v117 : IVec S_ 1 := (fun x v => Host.reduce IntOp.andi x v reducesTo_S256x128_S_d0_1 h_S_) main_v116 main_c_45
  let main_v118 : IVec S_ 1 := andi main_v113 main_v117
  let main_v119 : FVec F S128 .f32 := Host.absf main_arg24
  fn_part7 (F := F) main_arg25 main_arg26 main_arg27 main_arg28 main_arg29 main_arg30 main_arg31 main_arg32 main_arg33 main_arg34 main_arg35 main_arg36 main_v118 main_v119

def fn_part5 {F : FTy → Type} [FloatOps F] (main_arg18 : FVec F S256 .f32) (main_arg19 : FVec F S256x128 .f32) (main_arg20 : FVec F S128 .f32) (main_arg21 : FVec F S256x256 .f32) (main_arg22 : FVec F S256 .f32) (main_arg23 : FVec F S256x128 .f32) (main_arg24 : FVec F S128 .f32) (main_arg25 : FVec F S128x256 .f32) (main_arg26 : FVec F S256 .f32) (main_arg27 : FVec F S256x128 .f32) (main_arg28 : FVec F S128 .f32) (main_arg29 : FVec F S128x256 .f32) (main_arg30 : FVec F S256 .f32) (main_arg31 : FVec F S256x1 .f32) (main_arg32 : FVec F S1 .f32) (main_arg33 : FVec F S128x256 .f32) (main_arg34 : FVec F S256 .f32) (main_arg35 : FVec F S256x1 .f32) (main_arg36 : FVec F S1 .f32) (main_v83 : IVec S_ 1) (main_v84 : FVec F S128x256 .f32) (main_cst_32 : FVec F S_ .f32) : IVec S_ 1 :=
  let main_v85 : FVec F S128x256 .f32 := broadcastInDim S128x256 ![] bcast_S_S128x256 main_cst_32
  let main_v86 : IVec S128x256 1 := cmpf .olt main_v84 main_v85
  let main_c_33 : IVec S_ 1 := constantI S_ 1 1#1
  let main_v87 : IVec S_ 1 := (fun x v => Host.reduce IntOp.andi x v reducesTo_S128x256_S_d0_1 h_S_) main_v86 main_c_33
  let main_v88 : IVec S_ 1 := andi main_v83 main_v87
  let main_v89 : FVec F S256 .f32 := Host.absf main_arg18
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256x128 .f32 := Host.absf main_arg19
  let main_cst_36 : FVec F S_ .f32 := constant S_ .f32 0x7F800000#32
  let main_v95 : FVec F S256x128 .f32 := broadcastInDim S256x128 ![] bcast_S_S256x128 main_cst_36
  let main_v96 : IVec S256x128 1 := cmpf .olt main_v94 main_v95
  let main_c_37 : IVec S_ 1 := constantI S_ 1 1#1
  let main_v97 : IVec S_ 1 := (fun x v => Host.reduce IntOp.andi x v reducesTo_S256x128_S_d0_1 h_S_) main_v96 main_c_37
  let main_v98 : IVec S_ 1 := andi main_v93 main_v97
  let main_v99 : FVec F S128 .f32 := Host.absf main_arg20
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg21 main_arg22 main_arg23 main_arg24 main_arg25 main_arg26 main_arg27 main_arg28 main_arg29 main_arg30 main_arg31 main_arg32 main_arg33 main_arg34 main_arg35 main_arg36 main_v98 main_v101 main_c_39

def fn_part4 {F : FTy → Type} [FloatOps F] (main_arg14 : FVec F S256 .f32) (main_arg15 : FVec F S256x128 .f32) (main_arg16 : FVec F S128 .f32) (main_arg17 : FVec F S128x256 .f32) (main_arg18 : FVec F S256 .f32) (main_arg19 : FVec F S256x128 .f32) (main_arg20 : FVec F S128 .f32) (main_arg21 : FVec F S256x256 .f32) (main_arg22 : FVec F S256 .f32) (main_arg23 : FVec F S256x128 .f32) (main_arg24 : FVec F S128 .f32) (main_arg25 : FVec F S128x256 .f32) (main_arg26 : FVec F S256 .f32) (main_arg27 : FVec F S256x128 .f32) (main_arg28 : FVec F S128 .f32) (main_arg29 : FVec F S128x256 .f32) (main_arg30 : FVec F S256 .f32) (main_arg31 : FVec F S256x1 .f32) (main_arg32 : FVec F S1 .f32) (main_arg33 : FVec F S128x256 .f32) (main_arg34 : FVec F S256 .f32) (main_arg35 : FVec F S256x1 .f32) (main_arg36 : FVec F S1 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x128 .f32 := Host.absf main_arg15
  let main_cst_28 : FVec F S_ .f32 := constant S_ .f32 0x7F800000#32
  let main_v75 : FVec F S256x128 .f32 := broadcastInDim S256x128 ![] bcast_S_S256x128 main_cst_28
  let main_v76 : IVec S256x128 1 := cmpf .olt main_v74 main_v75
  let main_c_29 : IVec S_ 1 := constantI S_ 1 1#1
  let main_v77 : IVec S_ 1 := (fun x v => Host.reduce IntOp.andi x v reducesTo_S256x128_S_d0_1 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x256 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_arg30 main_arg31 main_arg32 main_arg33 main_arg34 main_arg35 main_arg36 main_v83 main_v84 main_cst_32

def fn_part3 {F : FTy → Type} [FloatOps F] (main_arg11 : FVec F S256x128 .f32) (main_arg12 : FVec F S128 .f32) (main_arg13 : FVec F S128x256 .f32) (main_arg14 : FVec F S256 .f32) (main_arg15 : FVec F S256x128 .f32) (main_arg16 : FVec F S128 .f32) (main_arg17 : FVec F S128x256 .f32) (main_arg18 : FVec F S256 .f32) (main_arg19 : FVec F S256x128 .f32) (main_arg20 : FVec F S128 .f32) (main_arg21 : FVec F S256x256 .f32) (main_arg22 : FVec F S256 .f32) (main_arg23 : FVec F S256x128 .f32) (main_arg24 : FVec F S128 .f32) (main_arg25 : FVec F S128x256 .f32) (main_arg26 : FVec F S256 .f32) (main_arg27 : FVec F S256x128 .f32) (main_arg28 : FVec F S128 .f32) (main_arg29 : FVec F S128x256 .f32) (main_arg30 : FVec F S256 .f32) (main_arg31 : FVec F S256x1 .f32) (main_arg32 : FVec F S1 .f32) (main_arg33 : FVec F S128x256 .f32) (main_arg34 : FVec F S256 .f32) (main_arg35 : FVec F S256x1 .f32) (main_arg36 : FVec F S1 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x128 .f32 := Host.absf main_arg11
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x256 .f32 := Host.absf main_arg13
  let main_cst_24 : FVec F S_ .f32 := constant S_ .f32 0x7F800000#32
  let main_v65 : FVec F S128x256 .f32 := broadcastInDim S128x256 ![] bcast_S_S128x256 main_cst_24
  let main_v66 : IVec S128x256 1 := cmpf .olt main_v64 main_v65
  let main_c_25 : IVec S_ 1 := constantI S_ 1 1#1
  let main_v67 : IVec S_ 1 := (fun x v => Host.reduce IntOp.andi x v reducesTo_S128x256_S_d0_1 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_v63 main_v67

def fn_part2 {F : FTy → Type} [FloatOps F] (main_arg7 : FVec F S256x128 .f32) (main_arg8 : FVec F S128 .f32) (main_arg9 : FVec F S256x256 .f32) (main_arg10 : FVec F S256 .f32) (main_arg11 : FVec F S256x128 .f32) (main_arg12 : FVec F S128 .f32) (main_arg13 : FVec F S128x256 .f32) (main_arg14 : FVec F S256 .f32) (main_arg15 : FVec F S256x128 .f32) (main_arg16 : FVec F S128 .f32) (main_arg17 : FVec F S128x256 .f32) (main_arg18 : FVec F S256 .f32) (main_arg19 : FVec F S256x128 .f32) (main_arg20 : FVec F S128 .f32) (main_arg21 : FVec F S256x256 .f32) (main_arg22 : FVec F S256 .f32) (main_arg23 : FVec F S256x128 .f32) (main_arg24 : FVec F S128 .f32) (main_arg25 : FVec F S128x256 .f32) (main_arg26 : FVec F S256 .f32) (main_arg27 : FVec F S256x128 .f32) (main_arg28 : FVec F S128 .f32) (main_arg29 : FVec F S128x256 .f32) (main_arg30 : FVec F S256 .f32) (main_arg31 : FVec F S256x1 .f32) (main_arg32 : FVec F S1 .f32) (main_arg33 : FVec F S128x256 .f32) (main_arg34 : FVec F S256 .f32) (main_arg35 : FVec F S256x1 .f32) (main_arg36 : FVec F S1 .f32) (main_v33 : IVec S_ 1) : IVec S_ 1 :=
  let main_v34 : FVec F S256x128 .f32 := Host.absf main_arg7
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_v48 main_v49 main_v50

def fn_part1 {F : FTy → Type} [FloatOps F] (main_arg4 : FVec F S16x129 .f32) (main_arg5 : FVec F S256x256 .f32) (main_arg6 : FVec F S256 .f32) (main_arg7 : FVec F S256x128 .f32) (main_arg8 : FVec F S128 .f32) (main_arg9 : FVec F S256x256 .f32) (main_arg10 : FVec F S256 .f32) (main_arg11 : FVec F S256x128 .f32) (main_arg12 : FVec F S128 .f32) (main_arg13 : FVec F S128x256 .f32) (main_arg14 : FVec F S256 .f32) (main_arg15 : FVec F S256x128 .f32) (main_arg16 : FVec F S128 .f32) (main_arg17 : FVec F S128x256 .f32) (main_arg18 : FVec F S256 .f32) (main_arg19 : FVec F S256x128 .f32) (main_arg20 : FVec F S128 .f32) (main_arg21 : FVec F S256x256 .f32) (main_arg22 : FVec F S256 .f32) (main_arg23 : FVec F S256x128 .f32) (main_arg24 : FVec F S128 .f32) (main_arg25 : FVec F S128x256 .f32) (main_arg26 : FVec F S256 .f32) (main_arg27 : FVec F S256x128 .f32) (main_arg28 : FVec F S128 .f32) (main_arg29 : FVec F S128x256 .f32) (main_arg30 : FVec F S256 .f32) (main_arg31 : FVec F S256x1 .f32) (main_arg32 : FVec F S1 .f32) (main_arg33 : FVec F S128x256 .f32) (main_arg34 : FVec F S256 .f32) (main_arg35 : FVec F S256x1 .f32) (main_arg36 : FVec F S1 .f32) (main_v13 : IVec S_ 1) (main_v16 : IVec S16x256x256 1) : IVec S_ 1 :=
  let main_c_5 : IVec S_ 1 := constantI S_ 1 1#1
  let main_v17 : IVec S_ 1 := (fun x v => Host.reduce IntOp.andi x v reducesTo_S16x256x256_S_d0_1_2 h_S_) main_v16 main_c_5
  let main_v18 : IVec S_ 1 := andi main_v13 main_v17
  let main_v19 : FVec F S16x129 .f32 := Host.absf main_arg4
  let main_cst_6 : FVec F S_ .f32 := constant S_ .f32 0x7F800000#32
  let main_v20 : FVec F S16x129 .f32 := broadcastInDim S16x129 ![] bcast_S_S16x129 main_cst_6
  let main_v21 : IVec S16x129 1 := cmpf .olt main_v19 main_v20
  let main_c_7 : IVec S_ 1 := constantI S_ 1 1#1
  let main_v22 : IVec S_ 1 := (fun x v => Host.reduce IntOp.andi x v reducesTo_S16x129_S_d0_1 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_v33

def fn {F : FTy → Type} [FloatOps F] (main_arg0 : FVec F S16x256x256 .f32) (main_arg1 : FVec F S16x256x256 .f32) (main_arg2 : FVec F S16x256x256 .f32) (main_arg3 : FVec F S16x256x256 .f32) (main_arg4 : FVec F S16x129 .f32) (main_arg5 : FVec F S256x256 .f32) (main_arg6 : FVec F S256 .f32) (main_arg7 : FVec F S256x128 .f32) (main_arg8 : FVec F S128 .f32) (main_arg9 : FVec F S256x256 .f32) (main_arg10 : FVec F S256 .f32) (main_arg11 : FVec F S256x128 .f32) (main_arg12 : FVec F S128 .f32) (main_arg13 : FVec F S128x256 .f32) (main_arg14 : FVec F S256 .f32) (main_arg15 : FVec F S256x128 .f32) (main_arg16 : FVec F S128 .f32) (main_arg17 : FVec F S128x256 .f32) (main_arg18 : FVec F S256 .f32) (main_arg19 : FVec F S256x128 .f32) (main_arg20 : FVec F S128 .f32) (main_arg21 : FVec F S256x256 .f32) (main_arg22 : FVec F S256 .f32) (main_arg23 : FVec F S256x128 .f32) (main_arg24 : FVec F S128 .f32) (main_arg25 : FVec F S128x256 .f32) (main_arg26 : FVec F S256 .f32) (main_arg27 : FVec F S256x128 .f32) (main_arg28 : FVec F S128 .f32) (main_arg29 : FVec F S128x256 .f32) (main_arg30 : FVec F S256 .f32) (main_arg31 : FVec F S256x1 .f32) (main_arg32 : FVec F S1 .f32) (main_arg33 : FVec F S128x256 .f32) (main_arg34 : FVec F S256 .f32) (main_arg35 : FVec F S256x1 .f32) (main_arg36 : FVec F S1 .f32) : IVec S_ 1 :=
  let main_v0 : FVec F S16x256x256 .f32 := Host.absf main_arg0
  let main_cst : FVec F S_ .f32 := constant S_ .f32 0x7F800000#32
  let main_v1 : FVec F S16x256x256 .f32 := broadcastInDim S16x256x256 ![] bcast_S_S16x256x256 main_cst
  let main_v2 : IVec S16x256x256 1 := cmpf .olt main_v0 main_v1
  let main_c : IVec S_ 1 := constantI S_ 1 1#1
  let main_v3 : IVec S_ 1 := (fun x v => Host.reduce IntOp.andi x v reducesTo_S16x256x256_S_d0_1_2 h_S_) main_v2 main_c
  let main_v4 : FVec F S16x256x256 .f32 := Host.absf main_arg1
  let main_cst_0 : FVec F S_ .f32 := constant S_ .f32 0x7F800000#32
  let main_v5 : FVec F S16x256x256 .f32 := broadcastInDim S16x256x256 ![] bcast_S_S16x256x256 main_cst_0
  let main_v6 : IVec S16x256x256 1 := cmpf .olt main_v4 main_v5
  let main_c_1 : IVec S_ 1 := constantI S_ 1 1#1
  let main_v7 : IVec S_ 1 := (fun x v => Host.reduce IntOp.andi x v reducesTo_S16x256x256_S_d0_1_2 h_S_) main_v6 main_c_1
  let main_v8 : IVec S_ 1 := andi main_v3 main_v7
  let main_v9 : FVec F S16x256x256 .f32 := Host.absf main_arg2
  let main_cst_2 : FVec F S_ .f32 := constant S_ .f32 0x7F800000#32
  let main_v10 : FVec F S16x256x256 .f32 := broadcastInDim S16x256x256 ![] bcast_S_S16x256x256 main_cst_2
  let main_v11 : IVec S16x256x256 1 := cmpf .olt main_v9 main_v10
  let main_c_3 : IVec S_ 1 := constantI S_ 1 1#1
  let main_v12 : IVec S_ 1 := (fun x v => Host.reduce IntOp.andi x v reducesTo_S16x256x256_S_d0_1_2 h_S_) main_v11 main_c_3
  let main_v13 : IVec S_ 1 := andi main_v8 main_v12
  let main_v14 : FVec F S16x256x256 .f32 := Host.absf main_arg3
  let main_cst_4 : FVec F S_ .f32 := constant S_ .f32 0x7F800000#32
  let main_v15 : FVec F S16x256x256 .f32 := broadcastInDim S16x256x256 ![] bcast_S_S16x256x256 main_cst_4
  let main_v16 : IVec S16x256x256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_arg31 main_arg32 main_arg33 main_arg34 main_arg35 main_arg36 main_v13 main_v16
-- ==== Kernel.lean ====
abbrev S16x256x256 : Shape := ⟨3, ![16, 256, 256]⟩
abbrev S16x129 : Shape := ⟨2, ![16, 129]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x256 : Shape := ⟨2, ![128, 256]⟩
abbrev S256x1 : Shape := ⟨2, ![256, 1]⟩
abbrev S1 : Shape := ⟨1, ![1]⟩
abbrev S1x256 : Shape := ⟨2, ![1, 256]⟩
abbrev S1x128 : Shape := ⟨2, ![1, 128]⟩
abbrev S1x1 : Shape := ⟨2, ![1, 1]⟩
abbrev S8x256x256 : Shape := ⟨3, ![8, 256, 256]⟩
abbrev S8x129 : Shape := ⟨2, ![8, 129]⟩
abbrev S2048x256 : Shape := ⟨2, ![2048, 256]⟩
abbrev S2048x128 : Shape := ⟨2, ![2048, 128]⟩
abbrev S8x256x128 : Shape := ⟨3, ![8, 256, 128]⟩
abbrev S8x128x128 : Shape := ⟨3, ![8, 128, 128]⟩
abbrev S1024x128 : Shape := ⟨2, ![1024, 128]⟩
abbrev S1024x256 : Shape := ⟨2, ![1024, 256]⟩
abbrev S1024x1 : Shape := ⟨2, ![1024, 1]⟩
abbrev S8x128 : Shape := ⟨2, ![8, 128]⟩
abbrev S8x256 : Shape := ⟨2, ![8, 256]⟩
abbrev S8x1 : Shape := ⟨2, ![8, 1]⟩
abbrev S8 : Shape := ⟨1, ![8]⟩

abbrev nBuf : Space → Nat
  | .hbm => 70
  | .vmem => 50
  | .smem => 0
  | _ => 0

abbrev bufTy : (tb : Table) → Fin (tcTables nBuf tb) → BufTy
  | .hbm, ⟨0, _⟩ => ⟨S16x256x256, .f32⟩
  | .hbm, ⟨1, _⟩ => ⟨S16x256x256, .f32⟩
  | .hbm, ⟨2, _⟩ => ⟨S16x256x256, .f32⟩
  | .hbm, ⟨3, _⟩ => ⟨S16x256x256, .f32⟩
  | .hbm, ⟨4, _⟩ => ⟨S16x129, .f32⟩
  | .hbm, ⟨5, _⟩ => ⟨S256x256, .f32⟩
  | .hbm, ⟨6, _⟩ => ⟨S256, .f32⟩
  | .hbm, ⟨7, _⟩ => ⟨S256x128, .f32⟩
  | .hbm, ⟨8, _⟩ => ⟨S128, .f32⟩
  | .hbm, ⟨9, _⟩ => ⟨S256x256, .f32⟩
  | .hbm, ⟨10, _⟩ => ⟨S256, .f32⟩
  | .hbm, ⟨11, _⟩ => ⟨S256x128, .f32⟩
  | .hbm, ⟨12, _⟩ => ⟨S128, .f32⟩
  | .hbm, ⟨13, _⟩ => ⟨S128x256, .f32⟩
  | .hbm, ⟨14, _⟩ => ⟨S256, .f32⟩
  | .hbm, ⟨15, _⟩ => ⟨S256x128, .f32⟩
  | .hbm, ⟨16, _⟩ => ⟨S128, .f32⟩
  | .hbm, ⟨17, _⟩ => ⟨S128x256, .f32⟩
  | .hbm, ⟨18, _⟩ => ⟨S256, .f32⟩
  | .hbm, ⟨19, _⟩ => ⟨S256x128, .f32⟩
  | .hbm, ⟨20, _⟩ => ⟨S128, .f32⟩
  | .hbm, ⟨21, _⟩ => ⟨S256x256, .f32⟩
  | .hbm, ⟨22, _⟩ => ⟨S256, .f32⟩
  | .hbm, ⟨23, _⟩ => ⟨S256x128, .f32⟩
  | .hbm, ⟨24, _⟩ => ⟨S128, .f32⟩
  | .hbm, ⟨25, _⟩ => ⟨S128x256, .f32⟩
  | .hbm, ⟨26, _⟩ => ⟨S256, .f32⟩
  | .hbm, ⟨27, _⟩ => ⟨S256x128, .f32⟩
  | .hbm, ⟨28, _⟩ => ⟨S128, .f32⟩
  | .hbm, ⟨29, _⟩ => ⟨S128x256, .f32⟩
  | .hbm, ⟨30, _⟩ => ⟨S256, .f32⟩
  | .hbm, ⟨31, _⟩ => ⟨S256x1, .f32⟩
  | .hbm, ⟨32, _⟩ => ⟨S1, .f32⟩
  | .hbm, ⟨33, _⟩ => ⟨S128x256, .f32⟩
  | .hbm, ⟨34, _⟩ => ⟨S256, .f32⟩
  | .hbm, ⟨35, _⟩ => ⟨S256x1, .f32⟩
  | .hbm, ⟨36, _⟩ => ⟨S1, .f32⟩
  | .hbm, ⟨37, _⟩ => ⟨S256x256, .bf16⟩
  | .hbm, ⟨38, _⟩ => ⟨S1x256, .f32⟩
  | .hbm, ⟨39, _⟩ => ⟨S256x128, .bf16⟩
  | .hbm, ⟨40, _⟩ => ⟨S1x128, .f32⟩
  | .hbm, ⟨41, _⟩ => ⟨S256x256, .bf16⟩
  | .hbm, ⟨42, _⟩ => ⟨S1x256, .f32⟩
  | .hbm, ⟨43, _⟩ => ⟨S256x128, .bf16⟩
  | .hbm, ⟨44, _⟩ => ⟨S1x128, .f32⟩
  | .hbm, ⟨45, _⟩ => ⟨S128x256, .bf16⟩
  | .hbm, ⟨46, _⟩ => ⟨S1x256, .f32⟩
  | .hbm, ⟨47, _⟩ => ⟨S256x128, .bf16⟩
  | .hbm, ⟨48, _⟩ => ⟨S1x128, .f32⟩
  | .hbm, ⟨49, _⟩ => ⟨S128x256, .bf16⟩
  | .hbm, ⟨50, _⟩ => ⟨S1x256, .f32⟩
  | .hbm, ⟨51, _⟩ => ⟨S256x128, .bf16⟩
  | .hbm, ⟨52, _⟩ => ⟨S1x128, .f32⟩
  | .hbm, ⟨53, _⟩ => ⟨S256x256, .bf16⟩
  | .hbm, ⟨54, _⟩ => ⟨S1x256, .f32⟩
  | .hbm, ⟨55, _⟩ => ⟨S256x128, .bf16⟩
  | .hbm, ⟨56, _⟩ => ⟨S1x128, .f32⟩
  | .hbm, ⟨57, _⟩ => ⟨S128x256, .bf16⟩
  | .hbm, ⟨58, _⟩ => ⟨S1x256, .f32⟩
  | .hbm, ⟨59, _⟩ => ⟨S256x128, .bf16⟩
  | .hbm, ⟨60, _⟩ => ⟨S1x128, .f32⟩
  | .hbm, ⟨61, _⟩ => ⟨S128x256, .bf16⟩
  | .hbm, ⟨62, _⟩ => ⟨S1x256, .f32⟩
  | .hbm, ⟨63, _⟩ => ⟨S1x1, .f32⟩
  | .hbm, ⟨64, _⟩ => ⟨S1x256, .f32⟩
  | .hbm, ⟨65, _⟩ => ⟨S1x1, .f32⟩
  | .hbm, ⟨66, _⟩ => ⟨S16x129, .f32⟩
  | .hbm, ⟨67, _⟩ => ⟨S16x129, .f32⟩
  | .hbm, ⟨68, _⟩ => ⟨S16x129, .f32⟩
  | .hbm, ⟨69, _⟩ => ⟨S16x129, .f32⟩
  | .local _ .vmem, ⟨0, _⟩ => ⟨S8x256x256, .f32⟩
  | .local _ .vmem, ⟨1, _⟩ => ⟨S8x256x256, .f32⟩
  | .local _ .vmem, ⟨2, _⟩ => ⟨S8x256x256, .f32⟩
  | .local _ .vmem, ⟨3, _⟩ => ⟨S8x256x256, .f32⟩
  | .local _ .vmem, ⟨4, _⟩ => ⟨S8x256x256, .f32⟩
  | .local _ .vmem, ⟨5, _⟩ => ⟨S8x256x256, .f32⟩
  | .local _ .vmem, ⟨6, _⟩ => ⟨S8x256x256, .f32⟩
  | .local _ .vmem, ⟨7, _⟩ => ⟨S8x256x256, .f32⟩
  | .local _ .vmem, ⟨8, _⟩ => ⟨S8x129, .f32⟩
  | .local _ .vmem, ⟨9, _⟩ => ⟨S8x129, .f32⟩
  | .local _ .vmem, ⟨10, _⟩ => ⟨S256x256, .bf16⟩
  | .local _ .vmem, ⟨11, _⟩ => ⟨S1x256, .f32⟩
  | .local _ .vmem, ⟨12, _⟩ => ⟨S256x128, .bf16⟩
  | .local _ .vmem, ⟨13, _⟩ => ⟨S1x128, .f32⟩
  | .local _ .vmem, ⟨14, _⟩ => ⟨S256x256, .bf16⟩
  | .local _ .vmem, ⟨15, _⟩ => ⟨S1x256, .f32⟩
  | .local _ .vmem, ⟨16, _⟩ => ⟨S256x128, .bf16⟩
  | .local _ .vmem, ⟨17, _⟩ => ⟨S1x128, .f32⟩
  | .local _ .vmem, ⟨18, _⟩ => ⟨S128x256, .bf16⟩
  | .local _ .vmem, ⟨19, _⟩ => ⟨S1x256, .f32⟩
  | .local _ .vmem, ⟨20, _⟩ => ⟨S256x128, .bf16⟩
  | .local _ .vmem, ⟨21, _⟩ => ⟨S1x128, .f32⟩
  | .local _ .vmem, ⟨22, _⟩ => ⟨S128x256, .bf16⟩
  | .local _ .vmem, ⟨23, _⟩ => ⟨S1x256, .f32⟩
  | .local _ .vmem, ⟨24, _⟩ => ⟨S256x128, .bf16⟩
  | .local _ .vmem, ⟨25, _⟩ => ⟨S1x128, .f32⟩
  | .local _ .vmem, ⟨26, _⟩ => ⟨S256x256, .bf16⟩
  | .local _ .vmem, ⟨27, _⟩ => ⟨S1x256, .f32⟩
  | .local _ .vmem, ⟨28, _⟩ => ⟨S256x128, .bf16⟩
  | .local _ .vmem, ⟨29, _⟩ => ⟨S1x128, .f32⟩
  | .local _ .vmem, ⟨30, _⟩ => ⟨S128x256, .bf16⟩
  | .local _ .vmem, ⟨31, _⟩ => ⟨S1x256, .f32⟩
  | .local _ .vmem, ⟨32, _⟩ => ⟨S256x128, .bf16⟩
  | .local _ .vmem, ⟨33, _⟩ => ⟨S1x128, .f32⟩
  | .local _ .vmem, ⟨34, _⟩ => ⟨S128x256, .bf16⟩
  | .local _ .vmem, ⟨35, _⟩ => ⟨S1x256, .f32⟩
  | .local _ .vmem, ⟨36, _⟩ => ⟨S256x1, .f32⟩
  | .local _ .vmem, ⟨37, _⟩ => ⟨S1x1, .f32⟩
  | .local _ .vmem, ⟨38, _⟩ => ⟨S128x256, .f32⟩
  | .local _ .vmem, ⟨39, _⟩ => ⟨S1x256, .f32⟩
  | .local _ .vmem, ⟨40, _⟩ => ⟨S256x1, .f32⟩
  | .local _ .vmem, ⟨41, _⟩ => ⟨S1x1, .f32⟩
  | .local _ .vmem, ⟨42, _⟩ => ⟨S8x129, .f32⟩
  | .local _ .vmem, ⟨43, _⟩ => ⟨S8x129, .f32⟩
  | .local _ .vmem, ⟨44, _⟩ => ⟨S8x129, .f32⟩
  | .local _ .vmem, ⟨45, _⟩ => ⟨S8x129, .f32⟩
  | .local _ .vmem, ⟨46, _⟩ => ⟨S8x129, .f32⟩
  | .local _ .vmem, ⟨47, _⟩ => ⟨S8x129, .f32⟩
  | .local _ .vmem, ⟨48, _⟩ => ⟨S8x129, .f32⟩
  | .local _ .vmem, ⟨49, _⟩ => ⟨S8x129, .f32⟩
  | _, _ => ⟨S16x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_v0 : Ref sig .tc := ⟨.hbm, 37, rfl⟩
abbrev main_v1 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29_0 : Ref sig .tc := ⟨.hbm, 66, rfl⟩
abbrev main_v29_1 : Ref sig .tc := ⟨.hbm, 67, rfl⟩
abbrev main_v29_2 : Ref sig .tc := ⟨.hbm, 68, rfl⟩
abbrev main_v29_3 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg19_0 : Ref sig .tc := ⟨.vmem, 24, rfl⟩
abbrev cc0_stg20_0 : Ref sig .tc := ⟨.vmem, 25, rfl⟩
abbrev cc0_stg21_0 : Ref sig .tc := ⟨.vmem, 26, rfl⟩
abbrev cc0_stg22_0 : Ref sig .tc := ⟨.vmem, 27, rfl⟩
abbrev cc0_stg23_0 : Ref sig .tc := ⟨.vmem, 28, rfl⟩
abbrev cc0_stg24_0 : Ref sig .tc := ⟨.vmem, 29, rfl⟩
abbrev cc0_stg25_0 : Ref sig .tc := ⟨.vmem, 30, rfl⟩
abbrev cc0_stg26_0 : Ref sig .tc := ⟨.vmem, 31, rfl⟩
abbrev cc0_stg27_0 : Ref sig .tc := ⟨.vmem, 32, rfl⟩
abbrev cc0_stg28_0 : Ref sig .tc := ⟨.vmem, 33, rfl⟩
abbrev cc0_stg29_0 : Ref sig .tc := ⟨.vmem, 34, rfl⟩
abbrev cc0_stg30_0 : Ref sig .tc := ⟨.vmem, 35, rfl⟩
abbrev cc0_stg31_0 : Ref sig .tc := ⟨.vmem, 36, rfl⟩
abbrev cc0_stg32_0 : Ref sig .tc := ⟨.vmem, 37, rfl⟩
abbrev cc0_stg33_0 : Ref sig .tc := ⟨.vmem, 38, rfl⟩
abbrev cc0_stg34_0 : Ref sig .tc := ⟨.vmem, 39, rfl⟩
abbrev cc0_stg35_0 : Ref sig .tc := ⟨.vmem, 40, rfl⟩
abbrev cc0_stg36_0 : Ref sig .tc := ⟨.vmem, 41, rfl⟩
abbrev cc0_stg37_0 : Ref sig .tc := ⟨.vmem, 42, rfl⟩
abbrev cc0_stg37_1 : Ref sig .tc := ⟨.vmem, 43, rfl⟩
abbrev cc0_stg38_0 : Ref sig .tc := ⟨.vmem, 44, rfl⟩
abbrev cc0_stg38_1 : Ref sig .tc := ⟨.vmem, 45, rfl⟩
abbrev cc0_stg39_0 : Ref sig .tc := ⟨.vmem, 46, rfl⟩
abbrev cc0_stg39_1 : Ref sig .tc := ⟨.vmem, 47, rfl⟩
abbrev cc0_stg40_0 : Ref sig .tc := ⟨.vmem, 48, rfl⟩
abbrev cc0_stg40_1 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem19_0 : DmaSem sig := 24
abbrev cc0_sem20_0 : DmaSem sig := 25
abbrev cc0_sem21_0 : DmaSem sig := 26
abbrev cc0_sem22_0 : DmaSem sig := 27
abbrev cc0_sem23_0 : DmaSem sig := 28
abbrev cc0_sem24_0 : DmaSem sig := 29
abbrev cc0_sem25_0 : DmaSem sig := 30
abbrev cc0_sem26_0 : DmaSem sig := 31
abbrev cc0_sem27_0 : DmaSem sig := 32
abbrev cc0_sem28_0 : DmaSem sig := 33
abbrev cc0_sem29_0 : DmaSem sig := 34
abbrev cc0_sem30_0 : DmaSem sig := 35
abbrev cc0_sem31_0 : DmaSem sig := 36
abbrev cc0_sem32_0 : DmaSem sig := 37
abbrev cc0_sem33_0 : DmaSem sig := 38
abbrev cc0_sem34_0 : DmaSem sig := 39
abbrev cc0_sem35_0 : DmaSem sig := 40
abbrev cc0_sem36_0 : DmaSem sig := 41
abbrev cc0_sem37_0 : DmaSem sig := 42
abbrev cc0_sem37_1 : DmaSem sig := 43
abbrev cc0_sem38_0 : DmaSem sig := 44
abbrev cc0_sem38_1 : DmaSem sig := 45
abbrev cc0_sem39_0 : DmaSem sig := 46
abbrev cc0_sem39_1 : DmaSem sig := 47
abbrev cc0_sem40_0 : DmaSem sig := 48
abbrev cc0_sem40_1 : DmaSem sig := 49

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_35 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_36 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_37 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_38 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_39 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_40 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x129 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x128 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S256x256 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S256x128 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S128x256 .bf16 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x256 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S256x128 .bf16 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S128x256 .bf16 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S1x256 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S256x1 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S1x1 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S128x256 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 1 → Memref sig .tc .vmem S1x256 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false]

abbrev stage0_35 : Fin 1 → Memref sig .tc .vmem S256x1 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))
abbrev reads0_35 : Fin grid0.rank → Bool := ![false]

abbrev stage0_36 : Fin 1 → Memref sig .tc .vmem S1x1 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))
abbrev reads0_36 : Fin grid0.rank → Bool := ![false]

abbrev stage0_37 : Fin 2 → Memref sig .tc .vmem S8x129 .f32 := fun | 0 => Memref.whole cc0_stg37_0 | 1 => Memref.whole cc0_stg37_1 | ⟨_ + 2, h⟩ => absurd h (Nat.not_lt.2 (Nat.le_add_left _ _))
abbrev sem0_37 : Fin 2 → DmaSem sig := fun | 0 => cc0_sem37_0 | 1 => cc0_sem37_1 | ⟨_ + 2, h⟩ => absurd h (Nat.not_lt.2 (Nat.le_add_left _ _))
abbrev reads0_37 : Fin grid0.rank → Bool := ![true]

abbrev stage0_38 : Fin 2 → Memref sig .tc .vmem S8x129 .f32 := fun | 0 => Memref.whole cc0_stg38_0 | 1 => Memref.whole cc0_stg38_1 | ⟨_ + 2, h⟩ => absurd h (Nat.not_lt.2 (Nat.le_add_left _ _))
abbrev sem0_38 : Fin 2 → DmaSem sig := fun | 0 => cc0_sem38_0 | 1 => cc0_sem38_1 | ⟨_ + 2, h⟩ => absurd h (Nat.not_lt.2 (Nat.le_add_left _ _))
abbrev reads0_38 : Fin grid0.rank → Bool := ![true]

abbrev stage0_39 : Fin 2 → Memref sig .tc .vmem S8x129 .f32 := fun | 0 => Memref.whole cc0_stg39_0 | 1 => Memref.whole cc0_stg39_1 | ⟨_ + 2, h⟩ => absurd h (Nat.not_lt.2 (Nat.le_add_left _ _))
abbrev sem0_39 : Fin 2 → DmaSem sig := fun | 0 => cc0_sem39_0 | 1 => cc0_sem39_1 | ⟨_ + 2, h⟩ => absurd h (Nat.not_lt.2 (Nat.le_add_left _ _))
abbrev reads0_39 : Fin grid0.rank → Bool := ![true]

abbrev stage0_40 : Fin 2 → Memref sig .tc .vmem S8x129 .f32 := fun | 0 => Memref.whole cc0_stg40_0 | 1 => Memref.whole cc0_stg40_1 | ⟨_ + 2, h⟩ => absurd h (Nat.not_lt.2 (Nat.le_add_left _ _))
abbrev sem0_40 : Fin 2 → DmaSem sig := fun | 0 => cc0_sem40_0 | 1 => cc0_sem40_1 | ⟨_ + 2, h⟩ => absurd h (Nat.not_lt.2 (Nat.le_add_left _ _))
abbrev reads0_40 : Fin grid0.rank → Bool := ![true]

class Facts₀ : Prop where
  bitsLt_bf16_f32 : FTy.bits .bf16 < FTy.bits .f32
  shapeCasts_S256_S1x256 : S256.ShapeCasts S1x256
  shapeCasts_S128_S1x128 : S128.ShapeCasts S1x128
  shapeCasts_S1_S1x1 : S1.ShapeCasts S1x1
  inb_S8x256x256_S8x256x256_0_0_0 : ∀ a, (![0, 0, 0] : Fin 3 → Nat) a + S8x256x256.size a ≤ S8x256x256.size a
  h_S8x256x256 : 0 < S8x256x256.numel
  shapeCasts_S8x256x256_S2048x256 : S8x256x256.ShapeCasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x256_S2048x256 : S1x256.Broadcasts S2048x256
  broadcasts_S1x128_S2048x128 : S1x128.Broadcasts S2048x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  shapeCasts_S2048x128_S8x256x128 : S2048x128.ShapeCasts S8x256x128
  shapeCasts_S8x256x128_S2048x128 : S8x256x128.ShapeCasts S2048x128
  concatenates_S2048x128_S2048x128_S2048x256_d1 : Shape.Concatenates [S2048x128, S2048x128] S2048x256 1
  slices_S8x256x128_o0_0_0_S8x128x128 : S8x256x128.Slices ![0, 0, 0] S8x128x128
  shapeCasts_S8x128x128_S1024x128 : S8x128x128.ShapeCasts S1024x128
  broadcasts_S1x256_S1024x256 : S1x256.Broadcasts S1024x256
  broadcasts_S1x128_S1024x128 : S1x128.Broadcasts S1024x128
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1024x1 : S1x1.Broadcasts S1024x1
  shapeCasts_S1024x128_S8x128x128 : S1024x128.ShapeCasts S8x128x128
  reduces_S8x128x128_S8x128 : S8x128x128.Reduces [1] S8x128
  broadcasts_S1x256_S8x256 : S1x256.Broadcasts S8x256
  broadcasts_S1x1_S8x1 : S1x1.Broadcasts S8x1
  shapeCasts_S1024x1_S8x128 : S1024x1.ShapeCasts S8x128
  concatenates_S8x128_S8x1_S8x129_d1 : Shape.Concatenates [S8x128, S8x1] S8x129 1
  reduces_S8x129_S8 : S8x129.Reduces [1] S8
  shapeCasts_S8_S8x1 : S8.ShapeCasts S8x1
  broadcasts_S8x1_S8x129 : S8x1.Broadcasts S8x129
  inb_S8x129_S8x129_0_0 : ∀ a, (![0, 0] : Fin 2 → Nat) a + S8x129.size a ≤ S8x129.size a
  h_S8x129 : 0 < S8x129.numel
  dot_S2048x256_S256x256_S2048x256_1_0_0_1_n_n_wf : DotDims.WF S2048x256 S256x256 S2048x256 [1] [0] [0] [1] [] []
  dot_S2048x256_S256x128_S2048x128_1_0_0_1_n_n_wf : DotDims.WF S2048x256 S256x128 S2048x128 [1] [0] [0] [1] [] []
  dot_S2048x128_S128x256_S2048x256_1_0_0_1_n_n_wf : DotDims.WF S2048x128 S128x256 S2048x256 [1] [0] [0] [1] [] []
  dot_S8x256x256_S8x256x128_S8x256x128_2_1_1_2_0_0_wf : DotDims.WF S8x256x256 S8x256x128 S8x256x128 [2] [1] [1] [2] [0] [0]
  dot_S1024x128_S128x256_S1024x256_1_0_0_1_n_n_wf : DotDims.WF S1024x128 S128x256 S1024x256 [1] [0] [0] [1] [] []
  dot_S1024x256_S256x128_S1024x128_1_0_0_1_n_n_wf : DotDims.WF S1024x256 S256x128 S1024x128 [1] [0] [0] [1] [] []
  dot_S1024x256_S256x1_S1024x1_1_0_0_1_n_n_wf : DotDims.WF S1024x256 S256x1 S1024x1 [1] [0] [0] [1] [] []
  dot_S8x128_S128x256_S8x256_1_0_0_1_n_n_wf : DotDims.WF S8x128 S128x256 S8x256 [1] [0] [0] [1] [] []
  dot_S8x256_S256x1_S8x1_1_0_0_1_n_n_wf : DotDims.WF S8x256 S256x1 S8x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x256.size a ≤ S16x256x256.size a
  hwx0_0 : ∀ i : grid0.Coords, EltTy.bits .f32 = 32 ∨ (Rect.block (s := S16x256x256) S8x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x256.size a ≤ S16x256x256.size a
  hwx0_1 : ∀ i : grid0.Coords, EltTy.bits .f32 = 32 ∨ (Rect.block (s := S16x256x256) S8x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x256x256.size a ≤ S16x256x256.size a
  hwx0_2 : ∀ i : grid0.Coords, EltTy.bits .f32 = 32 ∨ (Rect.block (s := S16x256x256) S8x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256x256.size a ≤ S16x256x256.size a
  hwx0_3 : ∀ i : grid0.Coords, EltTy.bits .f32 = 32 ∨ (Rect.block (s := S16x256x256) S8x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x129.size a ≤ S16x129.size a
  hwx0_4 : ∀ i : grid0.Coords, EltTy.bits .f32 = 32 ∨ (Rect.block (s := S16x129) S8x129.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S256x128.size a
  hwx0_7 : ∀ i : grid0.Coords, EltTy.bits .bf16 = 32 ∨ (Rect.block (s := S256x128) S256x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .bf16 = 32 ∨ (Rect.block (s := S256x256) S256x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x128.size a ≤ S256x128.size a
  hwx0_11 : ∀ i : grid0.Coords, EltTy.bits .bf16 = 32 ∨ (Rect.block (s := S256x128) S256x128.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x256.size a ≤ S128x256.size a
  hwx0_13 : ∀ i : grid0.Coords, EltTy.bits .bf16 = 32 ∨ (Rect.block (s := S128x256) S128x256.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x256.size a
  hwx0_14 : ∀ i : grid0.Coords, EltTy.bits .f32 = 32 ∨ (Rect.block (s := S1x256) S1x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256x128.size a ≤ S256x128.size a
  hwx0_15 : ∀ i : grid0.Coords, EltTy.bits .bf16 = 32 ∨ (Rect.block (s := S256x128) S256x128.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x128.size a ≤ S1x128.size a
  hwx0_16 : ∀ i : grid0.Coords, EltTy.bits .f32 = 32 ∨ (Rect.block (s := S1x128) S1x128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128x256.size a ≤ S128x256.size a
  hwx0_17 : ∀ i : grid0.Coords, EltTy.bits .bf16 = 32 ∨ (Rect.block (s := S128x256) S128x256.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x256.size a ≤ S1x256.size a
  hwx0_18 : ∀ i : grid0.Coords, EltTy.bits .f32 = 32 ∨ (Rect.block (s := S1x256) S1x256.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S256x128.size a ≤ S256x128.size a
  hwx0_19 : ∀ i : grid0.Coords, EltTy.bits .bf16 = 32 ∨ (Rect.block (s := S256x128) S256x128.size (cc0_transform_19 i) (hinb0_19 i)).WholeWords (EltTy.packing .bf16)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x128.size a ≤ S1x128.size a
  hwx0_20 : ∀ i : grid0.Coords, EltTy.bits .f32 = 32 ∨ (Rect.block (s := S1x128) S1x128.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S256x256.size a ≤ S256x256.size a
  hwx0_21 : ∀ i : grid0.Coords, EltTy.bits .bf16 = 32 ∨ (Rect.block (s := S256x256) S256x256.size (cc0_transform_21 i) (hinb0_21 i)).WholeWords (EltTy.packing .bf16)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x256.size a ≤ S1x256.size a
  hwx0_22 : ∀ i : grid0.Coords, EltTy.bits .f32 = 32 ∨ (Rect.block (s := S1x256) S1x256.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S256x128.size a ≤ S256x128.size a
  hwx0_23 : ∀ i : grid0.Coords, EltTy.bits .bf16 = 32 ∨ (Rect.block (s := S256x128) S256x128.size (cc0_transform_23 i) (hinb0_23 i)).WholeWords (EltTy.packing .bf16)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S1x128.size a ≤ S1x128.size a
  hwx0_24 : ∀ i : grid0.Coords, EltTy.bits .f32 = 32 ∨ (Rect.block (s := S1x128) S1x128.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S128x256.size a ≤ S128x256.size a
  hwx0_25 : ∀ i : grid0.Coords, EltTy.bits .bf16 = 32 ∨ (Rect.block (s := S128x256) S128x256.size (cc0_transform_25 i) (hinb0_25 i)).WholeWords (EltTy.packing .bf16)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S1x256.size a ≤ S1x256.size a
  hwx0_26 : ∀ i : grid0.Coords, EltTy.bits .f32 = 32 ∨ (Rect.block (s := S1x256) S1x256.size (cc0_transform_26 i) (hinb0_26 i)).WholeWords (EltTy.packing .f32)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S256x128.size a ≤ S256x128.size a
  hwx0_27 : ∀ i : grid0.Coords, EltTy.bits .bf16 = 32 ∨ (Rect.block (s := S256x128) S256x128.size (cc0_transform_27 i) (hinb0_27 i)).WholeWords (EltTy.packing .bf16)
  hstage0_28 : ∀ j, (stage0_28 j).IsWhole
  nbuf0_28 : grid0.bufCount reads0_28 true = 1
  hreads0_28 : ∀ i i' : grid0.Coords, (∀ a, reads0_28 a = true → i a = i' a) → cc0_transform_28 i = cc0_transform_28 i'
  hinb0_28 : ∀ (i : grid0.Coords) a, (cc0_transform_28 i a + 1) * S1x128.size a ≤ S1x128.size a
  hwx0_28 : ∀ i : grid0.Coords, EltTy.bits .f32 = 32 ∨ (Rect.block (s := S1x128) S1x128.size (cc0_transform_28 i) (hinb0_28 i)).WholeWords (EltTy.packing .f32)
  hstage0_29 : ∀ j, (stage0_29 j).IsWhole
  nbuf0_29 : grid0.bufCount reads0_29 true = 1
  hreads0_29 : ∀ i i' : grid0.Coords, (∀ a, reads0_29 a = true → i a = i' a) → cc0_transform_29 i = cc0_transform_29 i'
  hinb0_29 : ∀ (i : grid0.Coords) a, (cc0_transform_29 i a + 1) * S128x256.size a ≤ S128x256.size a
  hwx0_29 : ∀ i : grid0.Coords, EltTy.bits .bf16 = 32 ∨ (Rect.block (s := S128x256) S128x256.size (cc0_transform_29 i) (hinb0_29 i)).WholeWords (EltTy.packing .bf16)
  hstage0_30 : ∀ j, (stage0_30 j).IsWhole
  nbuf0_30 : grid0.bufCount reads0_30 true = 1
  hreads0_30 : ∀ i i' : grid0.Coords, (∀ a, reads0_30 a = true → i a = i' a) → cc0_transform_30 i = cc0_transform_30 i'
  hinb0_30 : ∀ (i : grid0.Coords) a, (cc0_transform_30 i a + 1) * S1x256.size a ≤ S1x256.size a
  hwx0_30 : ∀ i : grid0.Coords, EltTy.bits .f32 = 32 ∨ (Rect.block (s := S1x256) S1x256.size (cc0_transform_30 i) (hinb0_30 i)).WholeWords (EltTy.packing .f32)
  hstage0_31 : ∀ j, (stage0_31 j).IsWhole
  nbuf0_31 : grid0.bufCount reads0_31 true = 1
  hreads0_31 : ∀ i i' : grid0.Coords, (∀ a, reads0_31 a = true → i a = i' a) → cc0_transform_31 i = cc0_transform_31 i'
  hinb0_31 : ∀ (i : grid0.Coords) a, (cc0_transform_31 i a + 1) * S256x1.size a ≤ S256x1.size a
  hwx0_31 : ∀ i : grid0.Coords, EltTy.bits .f32 = 32 ∨ (Rect.block (s := S256x1) S256x1.size (cc0_transform_31 i) (hinb0_31 i)).WholeWords (EltTy.packing .f32)
  hstage0_32 : ∀ j, (stage0_32 j).IsWhole
  nbuf0_32 : grid0.bufCount reads0_32 true = 1
  hreads0_32 : ∀ i i' : grid0.Coords, (∀ a, reads0_32 a = true → i a = i' a) → cc0_transform_32 i = cc0_transform_32 i'
  hinb0_32 : ∀ (i : grid0.Coords) a, (cc0_transform_32 i a + 1) * S1x1.size a ≤ S1x1.size a
  hwx0_32 : ∀ i : grid0.Coords, EltTy.bits .f32 = 32 ∨ (Rect.block (s := S1x1) S1x1.size (cc0_transform_32 i) (hinb0_32 i)).WholeWords (EltTy.packing .f32)
  hstage0_33 : ∀ j, (stage0_33 j).IsWhole
  nbuf0_33 : grid0.bufCount reads0_33 true = 1
  hreads0_33 : ∀ i i' : grid0.Coords, (∀ a, reads0_33 a = true → i a = i' a) → cc0_transform_33 i = cc0_transform_33 i'
  hinb0_33 : ∀ (i : grid0.Coords) a, (cc0_transform_33 i a + 1) * S128x256.size a ≤ S128x256.size a
  hwx0_33 : ∀ i : grid0.Coords, EltTy.bits .f32 = 32 ∨ (Rect.block (s := S128x256) S128x256.size (cc0_transform_33 i) (hinb0_33 i)).WholeWords (EltTy.packing .f32)
  hstage0_34 : ∀ j, (stage0_34 j).IsWhole
  nbuf0_34 : grid0.bufCount reads0_34 true = 1
  hreads0_34 : ∀ i i' : grid0.Coords, (∀ a, reads0_34 a = true → i a = i' a) → cc0_transform_34 i = cc0_transform_34 i'
  hinb0_34 : ∀ (i : grid0.Coords) a, (cc0_transform_34 i a + 1) * S1x256.size a ≤ S1x256.size a
  hwx0_34 : ∀ i : grid0.Coords, EltTy.bits .f32 = 32 ∨ (Rect.block (s := S1x256) S1x256.size (cc0_transform_34 i) (hinb0_34 i)).WholeWords (EltTy.packing .f32)
  hstage0_35 : ∀ j, (stage0_35 j).IsWhole
  nbuf0_35 : grid0.bufCount reads0_35 true = 1
  hreads0_35 : ∀ i i' : grid0.Coords, (∀ a, reads0_35 a = true → i a = i' a) → cc0_transform_35 i = cc0_transform_35 i'
  hinb0_35 : ∀ (i : grid0.Coords) a, (cc0_transform_35 i a + 1) * S256x1.size a ≤ S256x1.size a
  hwx0_35 : ∀ i : grid0.Coords, EltTy.bits .f32 = 32 ∨ (Rect.block (s := S256x1) S256x1.size (cc0_transform_35 i) (hinb0_35 i)).WholeWords (EltTy.packing .f32)
  hstage0_36 : ∀ j, (stage0_36 j).IsWhole
  nbuf0_36 : grid0.bufCount reads0_36 true = 1
  hreads0_36 : ∀ i i' : grid0.Coords, (∀ a, reads0_36 a = true → i a = i' a) → cc0_transform_36 i = cc0_transform_36 i'
  hinb0_36 : ∀ (i : grid0.Coords) a, (cc0_transform_36 i a + 1) * S1x1.size a ≤ S1x1.size a
  hwx0_36 : ∀ i : grid0.Coords, EltTy.bits .f32 = 32 ∨ (Rect.block (s := S1x1) S1x1.size (cc0_transform_36 i) (hinb0_36 i)).WholeWords (EltTy.packing .f32)
  hstage0_37 : ∀ j, (stage0_37 j).IsWhole
  nbuf0_37 : grid0.bufCount reads0_37 false = 2
  hreads0_37 : ∀ i i' : grid0.Coords, (∀ a, reads0_37 a = true → i a = i' a) → cc0_transform_37 i = cc0_transform_37 i'
  hinb0_37 : ∀ (i : grid0.Coords) a, (cc0_transform_37 i a + 1) * S8x129.size a ≤ S16x129.size a
  hwx0_37 : ∀ i : grid0.Coords, EltTy.bits .f32 = 32 ∨ (Rect.block (s := S16x129) S8x129.size (cc0_transform_37 i) (hinb0_37 i)).WholeWords (EltTy.packing .f32)
  hstage0_38 : ∀ j, (stage0_38 j).IsWhole
  nbuf0_38 : grid0.bufCount reads0_38 false = 2
  hreads0_38 : ∀ i i' : grid0.Coords, (∀ a, reads0_38 a = true → i a = i' a) → cc0_transform_38 i = cc0_transform_38 i'
  hinb0_38 : ∀ (i : grid0.Coords) a, (cc0_transform_38 i a + 1) * S8x129.size a ≤ S16x129.size a
  hwx0_38 : ∀ i : grid0.Coords, EltTy.bits .f32 = 32 ∨ (Rect.block (s := S16x129) S8x129.size (cc0_transform_38 i) (hinb0_38 i)).WholeWords (EltTy.packing .f32)
  hstage0_39 : ∀ j, (stage0_39 j).IsWhole
  nbuf0_39 : grid0.bufCount reads0_39 false = 2
  hreads0_39 : ∀ i i' : grid0.Coords, (∀ a, reads0_39 a = true → i a = i' a) → cc0_transform_39 i = cc0_transform_39 i'
  hinb0_39 : ∀ (i : grid0.Coords) a, (cc0_transform_39 i a + 1) * S8x129.size a ≤ S16x129.size a
  hwx0_39 : ∀ i : grid0.Coords, EltTy.bits .f32 = 32 ∨ (Rect.block (s := S16x129) S8x129.size (cc0_transform_39 i) (hinb0_39 i)).WholeWords (EltTy.packing .f32)
  hstage0_40 : ∀ j, (stage0_40 j).IsWhole
  nbuf0_40 : grid0.bufCount reads0_40 false = 2
  hreads0_40 : ∀ i i' : grid0.Coords, (∀ a, reads0_40 a = true → i a = i' a) → cc0_transform_40 i = cc0_transform_40 i'
  hinb0_40 : ∀ (i : grid0.Coords) a, (cc0_transform_40 i a + 1) * S8x129.size a ≤ S16x129.size a
  hwx0_40 : ∀ i : grid0.Coords, EltTy.bits .f32 = 32 ∨ (Rect.block (s := S16x129) S8x129.size (cc0_transform_40 i) (hinb0_40 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S8x256x256_S8x256x128_S8x256x128_2_1_1_2_0_0 : DotDims S8x256x256 S8x256x128 S8x256x128 where
  lhsContracting := [2]
  rhsContracting := [1]
  lhsNonContracting := [1]
  rhsNonContracting := [2]
  lhsBatch := [0]
  rhsBatch := [0]
  wf := dot_S8x256x256_S8x256x128_S8x256x128_2_1_1_2_0_0_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf
def dot_S8x128_S128x256_S8x256_1_0_0_1_n_n : DotDims S8x128 S128x256 S8x256 where
  lhsContracting := [1]
  rhsContracting := [0]
  lhsNonContracting := [0]
  rhsNonContracting := [1]
  lhsBatch := []
  rhsBatch := []
  wf := dot_S8x128_S128x256_S8x256_1_0_0_1_n_n_wf
def dot_S8x256_S256x1_S8x1_1_0_0_1_n_n : DotDims S8x256 S256x1 S8x1 where
  lhsContracting := [1]
  rhsContracting := [0]
  lhsNonContracting := [0]
  rhsNonContracting := [1]
  lhsBatch := []
  rhsBatch := []
  wf := dot_S8x256_S256x1_S8x1_1_0_0_1_n_n_wf

abbrev win0_0 : Pipeline.Window sig grid0 :=
  Pipeline.Window.ofSpec (Memref.whole main_arg0) S8x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8x256x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S8x129.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S256x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v4) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v6) S256x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v7) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v8) S128x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v9) S1x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v10) S256x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v11) S1x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v12) S128x256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v13) S1x256.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v14) S256x128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v15) S1x128.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v16) S256x256.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v17) S1x256.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v18) S256x128.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v19) S1x128.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v20) S128x256.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v21) S1x256.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_v22) S256x128.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_v23) S1x128.size cc0_transform_28 reads0_28 false true 1 stage0_28 sem0_28
    hrank0 hreads0_28 hinb0_28 nbuf0_28 (Memref.isWhole_whole _) hwx0_28 hstage0_28

abbrev win0_29 : Pipeline.Window sig grid0 :=
  Pipeline.Window.ofSpec (Memref.whole main_v24) S128x256.size cc0_transform_29 reads0_29 false true 1 stage0_29 sem0_29
    hrank0 hreads0_29 hinb0_29 nbuf0_29 (Memref.isWhole_whole _) hwx0_29 hstage0_29

abbrev win0_30 : Pipeline.Window sig grid0 :=
  Pipeline.Window.ofSpec (Memref.whole main_v25) S1x256.size cc0_transform_30 reads0_30 false true 1 stage0_30 sem0_30
    hrank0 hreads0_30 hinb0_30 nbuf0_30 (Memref.isWhole_whole _) hwx0_30 hstage0_30

abbrev win0_31 : Pipeline.Window sig grid0 :=
  Pipeline.Window.ofSpec (Memref.whole main_arg31) S256x1.size cc0_transform_31 reads0_31 false true 1 stage0_31 sem0_31
    hrank0 hreads0_31 hinb0_31 nbuf0_31 (Memref.isWhole_whole _) hwx0_31 hstage0_31

abbrev win0_32 : Pipeline.Window sig grid0 :=
  Pipeline.Window.ofSpec (Memref.whole main_v26) S1x1.size cc0_transform_32 reads0_32 false true 1 stage0_32 sem0_32
    hrank0 hreads0_32 hinb0_32 nbuf0_32 (Memref.isWhole_whole _) hwx0_32 hstage0_32

abbrev win0_33 : Pipeline.Window sig grid0 :=
  Pipeline.Window.ofSpec (Memref.whole main_arg33) S128x256.size cc0_transform_33 reads0_33 false true 1 stage0_33 sem0_33
    hrank0 hreads0_33 hinb0_33 nbuf0_33 (Memref.isWhole_whole _) hwx0_33 hstage0_33

abbrev win0_34 : Pipeline.Window sig grid0 :=
  Pipeline.Window.ofSpec (Memref.whole main_v27) S1x256.size cc0_transform_34 reads0_34 false true 1 stage0_34 sem0_34
    hrank0 hreads0_34 hinb0_34 nbuf0_34 (Memref.isWhole_whole _) hwx0_34 hstage0_34

abbrev win0_35 : Pipeline.Window sig grid0 :=
  Pipeline.Window.ofSpec (Memref.whole main_arg35) S256x1.size cc0_transform_35 reads0_35 false true 1 stage0_35 sem0_35
    hrank0 hreads0_35 hinb0_35 nbuf0_35 (Memref.isWhole_whole _) hwx0_35 hstage0_35

abbrev win0_36 : Pipeline.Window sig grid0 :=
  Pipeline.Window.ofSpec (Memref.whole main_v28) S1x1.size cc0_transform_36 reads0_36 false true 1 stage0_36 sem0_36
    hrank0 hreads0_36 hinb0_36 nbuf0_36 (Memref.isWhole_whole _) hwx0_36 hstage0_36

abbrev win0_37 : Pipeline.Window sig grid0 :=
  Pipeline.Window.ofSpec (Memref.whole main_v29_0) S8x129.size cc0_transform_37 reads0_37 true false 2 stage0_37 sem0_37
    hrank0 hreads0_37 hinb0_37 nbuf0_37 (Memref.isWhole_whole _) hwx0_37 hstage0_37

abbrev win0_38 : Pipeline.Window sig grid0 :=
  Pipeline.Window.ofSpec (Memref.whole main_v29_1) S8x129.size cc0_transform_38 reads0_38 true false 2 stage0_38 sem0_38
    hrank0 hreads0_38 hinb0_38 nbuf0_38 (Memref.isWhole_whole _) hwx0_38 hstage0_38

abbrev win0_39 : Pipeline.Window sig grid0 :=
  Pipeline.Window.ofSpec (Memref.whole main_v29_2) S8x129.size cc0_transform_39 reads0_39 true false 2 stage0_39 sem0_39
    hrank0 hreads0_39 hinb0_39 nbuf0_39 (Memref.isWhole_whole _) hwx0_39 hstage0_39

abbrev win0_40 : Pipeline.Window sig grid0 :=
  Pipeline.Window.ofSpec (Memref.whole main_v29_3) S8x129.size cc0_transform_40 reads0_40 true false 2 stage0_40 sem0_40
    hrank0 hreads0_40 hinb0_40 nbuf0_40 (Memref.isWhole_whole _) hwx0_40 hstage0_40

abbrev win0 : Fin 41 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | 29 => win0_29 | 30 => win0_30 | 31 => win0_31 | 32 => win0_32 | 33 => win0_33 | 34 => win0_34 | 35 => win0_35 | 36 => win0_36 | 37 => win0_37 | 38 => win0_38 | 39 => win0_39 | 40 => win0_40 | ⟨_ + 41, h⟩ => absurd h (Nat.not_lt.2 (Nat.le_add_left _ _))
abbrev spec0 : Fin 41 → Pipeline.WinSpec sig grid0.rank := fun w => (win0 w).toWinSpec

class Facts : Prop extends Facts₀ where

variable [Facts]
-- ==== ReferenceIdeal.lean ====
abbrev S16x256x256 : Shape := ⟨3, ![16, 256, 256]⟩
abbrev S16x129 : Shape := ⟨2, ![16, 129]⟩
abbrev S256x256 : Shape := ⟨2, ![256, 256]⟩
abbrev S256 : Shape := ⟨1, ![256]⟩
abbrev S256x128 : Shape := ⟨2, ![256, 128]⟩
abbrev S128 : Shape := ⟨1, ![128]⟩
abbrev S128x256 : Shape := ⟨2, ![128, 256]⟩
abbrev S256x1 : Shape := ⟨2, ![256, 1]⟩
abbrev S1 : Shape := ⟨1, ![1]⟩
abbrev S_ : Shape := ⟨0, ![]⟩
abbrev S512x512 : Shape := ⟨2, ![512, 512]⟩
abbrev S2 : Shape := ⟨1, ![2]⟩
abbrev S512 : Shape := ⟨1, ![512]⟩
abbrev S512x256 : Shape := ⟨2, ![512, 256]⟩
abbrev S256x512 : Shape := ⟨2, ![256, 512]⟩
abbrev S520x512 : Shape := ⟨2, ![520, 512]⟩
abbrev S264x512 : Shape := ⟨2, ![264, 512]⟩
abbrev S136x512 : Shape := ⟨2, ![136, 512]⟩
abbrev S3552x512 : Shape := ⟨2, ![3552, 512]⟩
abbrev S16x256x512 : Shape := ⟨3, ![16, 256, 512]⟩
abbrev S16x1x256x256 : Shape := ⟨4, ![16, 1, 256, 256]⟩
abbrev S16x2x256x256 : Shape := ⟨4, ![16, 2, 256, 256]⟩
abbrev S16x129x1 : Shape := ⟨3, ![16, 129, 1]⟩
abbrev S16x129x4 : Shape := ⟨3, ![16, 129, 4]⟩
abbrev S4096x512 : Shape := ⟨2, ![4096, 512]⟩
abbrev S1x512 : Shape := ⟨2, ![1, 512]⟩
abbrev S1x256 : Shape := ⟨2, ![1, 256]⟩
abbrev S4096x256 : Shape := ⟨2, ![4096, 256]⟩
abbrev S16x256x128 : Shape := ⟨3, ![16, 256, 128]⟩
abbrev S1x128 : Shape := ⟨2, ![1, 128]⟩
abbrev S4096x128 : Shape := ⟨2, ![4096, 128]⟩
abbrev S128x128 : Shape := ⟨2, ![128, 128]⟩
abbrev S2048x128 : Shape := ⟨2, ![2048, 128]⟩
abbrev S2048x256 : Shape := ⟨2, ![2048, 256]⟩
abbrev S1x1 : Shape := ⟨2, ![1, 1]⟩
abbrev S2048x1 : Shape := ⟨2, ![2048, 1]⟩
abbrev S128x1 : Shape := ⟨2, ![128, 1]⟩
abbrev S129x1 : Shape := ⟨2, ![129, 1]⟩
abbrev S1x129x1 : Shape := ⟨3, ![1, 129, 1]⟩
abbrev S129x4 : Shape := ⟨2, ![129, 4]⟩
abbrev S1x129x4 : Shape := ⟨3, ![1, 129, 4]⟩

abbrev nBuf : Space → Nat
  | .hbm => 268
  | .vmem => 5
  | .smem => 0
  | _ => 0

abbrev hbmTy0_0 (i : Nat) : BufTy := match i % 128 with
  | 0 => ⟨S16x256x256, .f32⟩
  | 1 => ⟨S16x256x256, .f32⟩
  | 2 => ⟨S16x256x256, .f32⟩
  | 3 => ⟨S16x256x256, .f32⟩
  | 4 => ⟨S16x129, .f32⟩
  | 5 => ⟨S256x256, .f32⟩
  | 6 => ⟨S256, .f32⟩
  | 7 => ⟨S256x128, .f32⟩
  | 8 => ⟨S128, .f32⟩
  | 9 => ⟨S256x256, .f32⟩
  | 10 => ⟨S256, .f32⟩
  | 11 => ⟨S256x128, .f32⟩
  | 12 => ⟨S128, .f32⟩
  | 13 => ⟨S128x256, .f32⟩
  | 14 => ⟨S256, .f32⟩
  | 15 => ⟨S256x128, .f32⟩
  | 16 => ⟨S128, .f32⟩
  | 17 => ⟨S128x256, .f32⟩
  | 18 => ⟨S256, .f32⟩
  | 19 => ⟨S256x128, .f32⟩
  | 20 => ⟨S128, .f32⟩
  | 21 => ⟨S256x256, .f32⟩
  | 22 => ⟨S256, .f32⟩
  | 23 => ⟨S256x128, .f32⟩
  | 24 => ⟨S128, .f32⟩
  | 25 => ⟨S128x256, .f32⟩
  | 26 => ⟨S256, .f32⟩
  | 27 => ⟨S256x128, .f32⟩
  | 28 => ⟨S128, .f32⟩
  | 29 => ⟨S128x256, .f32⟩
  | 30 => ⟨S256, .f32⟩
  | 31 => ⟨S256x1, .f32⟩
  | 32 => ⟨S1, .f32⟩
  | 33 => ⟨S128x256, .f32⟩
  | 34 => ⟨S256, .f32⟩
  | 35 => ⟨S256x1, .f32⟩
  | 36 => ⟨S1, .f32⟩
  | 37 => ⟨S_, .f32⟩
  | 38 => ⟨S512x512, .f32⟩
  | 39 => ⟨S_, .i32⟩
  | 40 => ⟨S1, .i32⟩
  | 41 => ⟨S_, .i32⟩
  | 42 => ⟨S1, .i32⟩
  | 43 => ⟨S2, .i32⟩
  | 44 => ⟨S512x512, .f32⟩
  | 45 => ⟨S_, .i32⟩
  | 46 => ⟨S1, .i32⟩
  | 47 => ⟨S_, .i32⟩
  | 48 => ⟨S1, .i32⟩
  | 49 => ⟨S2, .i32⟩
  | 50 => ⟨S512x512, .f32⟩
  | 51 => ⟨S512, .f32⟩
  | 52 => ⟨S_, .f32⟩
  | 53 => ⟨S512x256, .f32⟩
  | 54 => ⟨S_, .i32⟩
  | 55 => ⟨S1, .i32⟩
  | 56 => ⟨S_, .i32⟩
  | 57 => ⟨S1, .i32⟩
  | 58 => ⟨S2, .i32⟩
  | 59 => ⟨S512x256, .f32⟩
  | 60 => ⟨S_, .i32⟩
  | 61 => ⟨S1, .i32⟩
  | 62 => ⟨S_, .i32⟩
  | 63 => ⟨S1, .i32⟩
  | 64 => ⟨S2, .i32⟩
  | 65 => ⟨S512x256, .f32⟩
  | 66 => ⟨S256, .f32⟩
  | 67 => ⟨S_, .f32⟩
  | 68 => ⟨S256x512, .f32⟩
  | 69 => ⟨S_, .i32⟩
  | 70 => ⟨S1, .i32⟩
  | 71 => ⟨S_, .i32⟩
  | 72 => ⟨S1, .i32⟩
  | 73 => ⟨S2, .i32⟩
  | 74 => ⟨S256x512, .f32⟩
  | 75 => ⟨S_, .i32⟩
  | 76 => ⟨S1, .i32⟩
  | 77 => ⟨S_, .i32⟩
  | 78 => ⟨S1, .i32⟩
  | 79 => ⟨S2, .i32⟩
  | 80 => ⟨S256x512, .f32⟩
  | 81 => ⟨S512, .f32⟩
  | 82 => ⟨S_, .f32⟩
  | 83 => ⟨S512x256, .f32⟩
  | 84 => ⟨S_, .i32⟩
  | 85 => ⟨S1, .i32⟩
  | 86 => ⟨S_, .i32⟩
  | 87 => ⟨S1, .i32⟩
  | 88 => ⟨S2, .i32⟩
  | 89 => ⟨S512x256, .f32⟩
  | 90 => ⟨S_, .i32⟩
  | 91 => ⟨S1, .i32⟩
  | 92 => ⟨S_, .i32⟩
  | 93 => ⟨S1, .i32⟩
  | 94 => ⟨S2, .i32⟩
  | 95 => ⟨S512x256, .f32⟩
  | 96 => ⟨S256, .f32⟩
  | 97 => ⟨S_, .f32⟩
  | 98 => ⟨S520x512, .f32⟩
  | 99 => ⟨S_, .i32⟩
  | 100 => ⟨S1, .i32⟩
  | 101 => ⟨S520x512, .f32⟩
  | 102 => ⟨S_, .i32⟩
  | 103 => ⟨S1, .i32⟩
  | 104 => ⟨S520x512, .f32⟩
  | 105 => ⟨S_, .f32⟩
  | 106 => ⟨S520x512, .f32⟩
  | 107 => ⟨S_, .i32⟩
  | 108 => ⟨S1, .i32⟩
  | 109 => ⟨S_, .i32⟩
  | 110 => ⟨S1, .i32⟩
  | 111 => ⟨S2, .i32⟩
  | 112 => ⟨S520x512, .f32⟩
  | 113 => ⟨S_, .i32⟩
  | 114 => ⟨S1, .i32⟩
  | 115 => ⟨S_, .i32⟩
  | 116 => ⟨S1, .i32⟩
  | 117 => ⟨S2, .i32⟩
  | 118 => ⟨S520x512, .f32⟩
  | 119 => ⟨S_, .f32⟩
  | 120 => ⟨S264x512, .f32⟩
  | 121 => ⟨S_, .i32⟩
  | 122 => ⟨S1, .i32⟩
  | 123 => ⟨S264x512, .f32⟩
  | 124 => ⟨S_, .i32⟩
  | 125 => ⟨S1, .i32⟩
  | 126 => ⟨S264x512, .f32⟩
  | 127 => ⟨S_, .f32⟩
  | _ => ⟨S16x256x256, .f32⟩

abbrev hbmTy0_1 (i : Nat) : BufTy := match i % 128 with
  | 0 => ⟨S520x512, .f32⟩
  | 1 => ⟨S_, .i32⟩
  | 2 => ⟨S1, .i32⟩
  | 3 => ⟨S_, .i32⟩
  | 4 => ⟨S1, .i32⟩
  | 5 => ⟨S2, .i32⟩
  | 6 => ⟨S520x512, .f32⟩
  | 7 => ⟨S_, .i32⟩
  | 8 => ⟨S1, .i32⟩
  | 9 => ⟨S_, .i32⟩
  | 10 => ⟨S1, .i32⟩
  | 11 => ⟨S2, .i32⟩
  | 12 => ⟨S520x512, .f32⟩
  | 13 => ⟨S_, .f32⟩
  | 14 => ⟨S264x512, .f32⟩
  | 15 => ⟨S_, .i32⟩
  | 16 => ⟨S1, .i32⟩
  | 17 => ⟨S_, .i32⟩
  | 18 => ⟨S1, .i32⟩
  | 19 => ⟨S2, .i32⟩
  | 20 => ⟨S264x512, .f32⟩
  | 21 => ⟨S_, .i32⟩
  | 22 => ⟨S1, .i32⟩
  | 23 => ⟨S_, .i32⟩
  | 24 => ⟨S1, .i32⟩
  | 25 => ⟨S2, .i32⟩
  | 26 => ⟨S264x512, .f32⟩
  | 27 => ⟨S_, .f32⟩
  | 28 => ⟨S264x512, .f32⟩
  | 29 => ⟨S_, .i32⟩
  | 30 => ⟨S1, .i32⟩
  | 31 => ⟨S_, .i32⟩
  | 32 => ⟨S1, .i32⟩
  | 33 => ⟨S2, .i32⟩
  | 34 => ⟨S264x512, .f32⟩
  | 35 => ⟨S_, .i32⟩
  | 36 => ⟨S1, .i32⟩
  | 37 => ⟨S_, .i32⟩
  | 38 => ⟨S1, .i32⟩
  | 39 => ⟨S2, .i32⟩
  | 40 => ⟨S264x512, .f32⟩
  | 41 => ⟨S_, .f32⟩
  | 42 => ⟨S136x512, .f32⟩
  | 43 => ⟨S_, .i32⟩
  | 44 => ⟨S1, .i32⟩
  | 45 => ⟨S_, .i32⟩
  | 46 => ⟨S1, .i32⟩
  | 47 => ⟨S2, .i32⟩
  | 48 => ⟨S136x512, .f32⟩
  | 49 => ⟨S_, .i32⟩
  | 50 => ⟨S1, .i32⟩
  | 51 => ⟨S_, .i32⟩
  | 52 => ⟨S1, .i32⟩
  | 53 => ⟨S2, .i32⟩
  | 54 => ⟨S136x512, .f32⟩
  | 55 => ⟨S_, .f32⟩
  | 56 => ⟨S264x512, .f32⟩
  | 57 => ⟨S_, .i32⟩
  | 58 => ⟨S1, .i32⟩
  | 59 => ⟨S_, .i32⟩
  | 60 => ⟨S1, .i32⟩
  | 61 => ⟨S2, .i32⟩
  | 62 => ⟨S264x512, .f32⟩
  | 63 => ⟨S_, .i32⟩
  | 64 => ⟨S1, .i32⟩
  | 65 => ⟨S_, .i32⟩
  | 66 => ⟨S1, .i32⟩
  | 67 => ⟨S2, .i32⟩
  | 68 => ⟨S264x512, .f32⟩
  | 69 => ⟨S_, .f32⟩
  | 70 => ⟨S136x512, .f32⟩
  | 71 => ⟨S_, .i32⟩
  | 72 => ⟨S1, .i32⟩
  | 73 => ⟨S_, .i32⟩
  | 74 => ⟨S1, .i32⟩
  | 75 => ⟨S2, .i32⟩
  | 76 => ⟨S136x512, .f32⟩
  | 77 => ⟨S_, .i32⟩
  | 78 => ⟨S1, .i32⟩
  | 79 => ⟨S_, .i32⟩
  | 80 => ⟨S1, .i32⟩
  | 81 => ⟨S2, .i32⟩
  | 82 => ⟨S136x512, .f32⟩
  | 83 => ⟨S_, .f32⟩
  | 84 => ⟨S264x512, .f32⟩
  | 85 => ⟨S_, .i32⟩
  | 86 => ⟨S1, .i32⟩
  | 87 => ⟨S_, .i32⟩
  | 88 => ⟨S1, .i32⟩
  | 89 => ⟨S2, .i32⟩
  | 90 => ⟨S264x512, .f32⟩
  | 91 => ⟨S_, .i32⟩
  | 92 => ⟨S1, .i32⟩
  | 93 => ⟨S_, .i32⟩
  | 94 => ⟨S1, .i32⟩
  | 95 => ⟨S2, .i32⟩
  | 96 => ⟨S264x512, .f32⟩
  | 97 => ⟨S_, .f32⟩
  | 98 => ⟨S136x512, .f32⟩
  | 99 => ⟨S_, .i32⟩
  | 100 => ⟨S1, .i32⟩
  | 101 => ⟨S_, .i32⟩
  | 102 => ⟨S1, .i32⟩
  | 103 => ⟨S2, .i32⟩
  | 104 => ⟨S136x512, .f32⟩
  | 105 => ⟨S_, .i32⟩
  | 106 => ⟨S1, .i32⟩
  | 107 => ⟨S_, .i32⟩
  | 108 => ⟨S1, .i32⟩
  | 109 => ⟨S2, .i32⟩
  | 110 => ⟨S136x512, .f32⟩
  | 111 => ⟨S_, .f32⟩
  | 112 => ⟨S264x512, .f32⟩
  | 113 => ⟨S_, .i32⟩
  | 114 => ⟨S1, .i32⟩
  | 115 => ⟨S_, .i32⟩
  | 116 => ⟨S1, .i32⟩
  | 117 => ⟨S2, .i32⟩
  | 118 => ⟨S264x512, .f32⟩
  | 119 => ⟨S_, .i32⟩
  | 120 => ⟨S1, .i32⟩
  | 121 => ⟨S_, .i32⟩
  | 122 => ⟨S1, .i32⟩
  | 123 => ⟨S2, .i32⟩
  | 124 => ⟨S264x512, .f32⟩
  | 125 => ⟨S3552x512, .f32⟩
  | 126 => ⟨S16x256x512, .f32⟩
  | 127 => ⟨S16x1x256x256, .f32⟩
  | _ => ⟨S16x256x256, .f32⟩

abbrev hbmTy0_2 (i : Nat) : BufTy := match i % 128 with
  | 0 => ⟨S16x1x256x256, .f32⟩
  | 1 => ⟨S16x2x256x256, .f32⟩
  | 2 => ⟨S16x129x1, .f32⟩
  | 3 => ⟨S16x129x4, .f32⟩
  | 4 => ⟨S16x129x1, .f32⟩
  | 5 => ⟨S16x129, .f32⟩
  | 6 => ⟨S16x129x1, .f32⟩
  | 7 => ⟨S16x129, .f32⟩
  | 8 => ⟨S16x129x1, .f32⟩
  | 9 => ⟨S16x129, .f32⟩
  | 10 => ⟨S16x129x1, .f32⟩
  | 11 => ⟨S16x129, .f32⟩
  | _ => ⟨S16x256x256, .f32⟩

abbrev hbmTy (i : Nat) : BufTy := match i / 128 with
  | 0 => hbmTy0_0 i
  | 1 => hbmTy0_1 i
  | 2 => hbmTy0_2 i
  | _ => ⟨S16x256x256, .f32⟩

abbrev bufTy : (tb : Table) → Fin (tcTables nBuf tb) → BufTy
  | .hbm, ⟨i, _⟩ => hbmTy i
  | .local _ .vmem, ⟨0, _⟩ => ⟨S16x256x512, .f32⟩
  | .local _ .vmem, ⟨1, _⟩ => ⟨S16x2x256x256, .f32⟩
  | .local _ .vmem, ⟨2, _⟩ => ⟨S16x129x1, .f32⟩
  | .local _ .vmem, ⟨3, _⟩ => ⟨S3552x512, .f32⟩
  | .local _ .vmem, ⟨4, _⟩ => ⟨S16x129x4, .f32⟩
  | _, _ => ⟨S16x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_cst : Ref sig .tc := ⟨.hbm, 37, rfl⟩
abbrev main_v0 : Ref sig .tc := ⟨.hbm, 38, rfl⟩
abbrev main_c : Ref sig .tc := ⟨.hbm, 39, rfl⟩
abbrev main_v1 : Ref sig .tc := ⟨.hbm, 40, rfl⟩
abbrev main_c_0 : Ref sig .tc := ⟨.hbm, 41, rfl⟩
abbrev main_v2 : Ref sig .tc := ⟨.hbm, 42, rfl⟩
abbrev main_v3 : Ref sig .tc := ⟨.hbm, 43, rfl⟩
abbrev main_v4 : Ref sig .tc := ⟨.hbm, 44, rfl⟩
abbrev main_c_1 : Ref sig .tc := ⟨.hbm, 45, rfl⟩
abbrev main_v5 : Ref sig .tc := ⟨.hbm, 46, rfl⟩
abbrev main_c_2 : Ref sig .tc := ⟨.hbm, 47, rfl⟩
abbrev main_v6 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_cst_3 : Ref sig .tc := ⟨.hbm, 52, rfl⟩
abbrev main_v10 : Ref sig .tc := ⟨.hbm, 53, rfl⟩
abbrev main_c_4 : Ref sig .tc := ⟨.hbm, 54, rfl⟩
abbrev main_v11 : Ref sig .tc := ⟨.hbm, 55, rfl⟩
abbrev main_c_5 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_c_6 : Ref sig .tc := ⟨.hbm, 60, rfl⟩
abbrev main_v15 : Ref sig .tc := ⟨.hbm, 61, rfl⟩
abbrev main_c_7 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_cst_8 : Ref sig .tc := ⟨.hbm, 67, rfl⟩
abbrev main_v20 : Ref sig .tc := ⟨.hbm, 68, rfl⟩
abbrev main_c_9 : Ref sig .tc := ⟨.hbm, 69, rfl⟩
abbrev main_v21 : Ref sig .tc := ⟨.hbm, 70, rfl⟩
abbrev main_c_10 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_c_11 : Ref sig .tc := ⟨.hbm, 75, rfl⟩
abbrev main_v25 : Ref sig .tc := ⟨.hbm, 76, rfl⟩
abbrev main_c_12 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_cst_13 : Ref sig .tc := ⟨.hbm, 82, rfl⟩
abbrev main_v30 : Ref sig .tc := ⟨.hbm, 83, rfl⟩
abbrev main_c_14 : Ref sig .tc := ⟨.hbm, 84, rfl⟩
abbrev main_v31 : Ref sig .tc := ⟨.hbm, 85, rfl⟩
abbrev main_c_15 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_c_16 : Ref sig .tc := ⟨.hbm, 90, rfl⟩
abbrev main_v35 : Ref sig .tc := ⟨.hbm, 91, rfl⟩
abbrev main_c_17 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_cst_18 : Ref sig .tc := ⟨.hbm, 97, rfl⟩
abbrev main_v40 : Ref sig .tc := ⟨.hbm, 98, rfl⟩
abbrev main_c_19 : Ref sig .tc := ⟨.hbm, 99, rfl⟩
abbrev main_v41 : Ref sig .tc := ⟨.hbm, 100, rfl⟩
abbrev main_v42 : Ref sig .tc := ⟨.hbm, 101, rfl⟩
abbrev main_c_20 : Ref sig .tc := ⟨.hbm, 102, rfl⟩
abbrev main_v43 : Ref sig .tc := ⟨.hbm, 103, rfl⟩
abbrev main_v44 : Ref sig .tc := ⟨.hbm, 104, rfl⟩
abbrev main_cst_21 : Ref sig .tc := ⟨.hbm, 105, rfl⟩
abbrev main_v45 : Ref sig .tc := ⟨.hbm, 106, rfl⟩
abbrev main_c_22 : Ref sig .tc := ⟨.hbm, 107, rfl⟩
abbrev main_v46 : Ref sig .tc := ⟨.hbm, 108, rfl⟩
abbrev main_c_23 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_c_24 : Ref sig .tc := ⟨.hbm, 113, rfl⟩
abbrev main_v50 : Ref sig .tc := ⟨.hbm, 114, rfl⟩
abbrev main_c_25 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_cst_26 : Ref sig .tc := ⟨.hbm, 119, rfl⟩
abbrev main_v54 : Ref sig .tc := ⟨.hbm, 120, rfl⟩
abbrev main_c_27 : Ref sig .tc := ⟨.hbm, 121, rfl⟩
abbrev main_v55 : Ref sig .tc := ⟨.hbm, 122, rfl⟩
abbrev main_v56 : Ref sig .tc := ⟨.hbm, 123, rfl⟩
abbrev main_c_28 : Ref sig .tc := ⟨.hbm, 124, rfl⟩
abbrev main_v57 : Ref sig .tc := ⟨.hbm, 125, rfl⟩
abbrev main_v58 : Ref sig .tc := ⟨.hbm, 126, rfl⟩
abbrev main_cst_29 : Ref sig .tc := ⟨.hbm, 127, rfl⟩
abbrev main_v59 : Ref sig .tc := ⟨.hbm, 128, rfl⟩
abbrev main_c_30 : Ref sig .tc := ⟨.hbm, 129, rfl⟩
abbrev main_v60 : Ref sig .tc := ⟨.hbm, 130, rfl⟩
abbrev main_c_31 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_c_32 : Ref sig .tc := ⟨.hbm, 135, rfl⟩
abbrev main_v64 : Ref sig .tc := ⟨.hbm, 136, rfl⟩
abbrev main_c_33 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_cst_34 : Ref sig .tc := ⟨.hbm, 141, rfl⟩
abbrev main_v68 : Ref sig .tc := ⟨.hbm, 142, rfl⟩
abbrev main_c_35 : Ref sig .tc := ⟨.hbm, 143, rfl⟩
abbrev main_v69 : Ref sig .tc := ⟨.hbm, 144, rfl⟩
abbrev main_c_36 : Ref sig .tc := ⟨.hbm, 145, rfl⟩
abbrev main_v70 : Ref sig .tc := ⟨.hbm, 146, rfl⟩
abbrev main_v71 : Ref sig .tc := ⟨.hbm, 147, rfl⟩
abbrev main_v72 : Ref sig .tc := ⟨.hbm, 148, rfl⟩
abbrev main_c_37 : Ref sig .tc := ⟨.hbm, 149, rfl⟩
abbrev main_v73 : Ref sig .tc := ⟨.hbm, 150, rfl⟩
abbrev main_c_38 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_cst_39 : Ref sig .tc := ⟨.hbm, 155, rfl⟩
abbrev main_v77 : Ref sig .tc := ⟨.hbm, 156, rfl⟩
abbrev main_c_40 : Ref sig .tc := ⟨.hbm, 157, rfl⟩
abbrev main_v78 : Ref sig .tc := ⟨.hbm, 158, rfl⟩
abbrev main_c_41 : Ref sig .tc := ⟨.hbm, 159, rfl⟩
abbrev main_v79 : Ref sig .tc := ⟨.hbm, 160, rfl⟩
abbrev main_v80 : Ref sig .tc := ⟨.hbm, 161, rfl⟩
abbrev main_v81 : Ref sig .tc := ⟨.hbm, 162, rfl⟩
abbrev main_c_42 : Ref sig .tc := ⟨.hbm, 163, rfl⟩
abbrev main_v82 : Ref sig .tc := ⟨.hbm, 164, rfl⟩
abbrev main_c_43 : Ref sig .tc := ⟨.hbm, 165, rfl⟩
abbrev main_v83 : Ref sig .tc := ⟨.hbm, 166, rfl⟩
abbrev main_v84 : Ref sig .tc := ⟨.hbm, 167, rfl⟩
abbrev main_v85 : Ref sig .tc := ⟨.hbm, 168, rfl⟩
abbrev main_cst_44 : Ref sig .tc := ⟨.hbm, 169, rfl⟩
abbrev main_v86 : Ref sig .tc := ⟨.hbm, 170, rfl⟩
abbrev main_c_45 : Ref sig .tc := ⟨.hbm, 171, rfl⟩
abbrev main_v87 : Ref sig .tc := ⟨.hbm, 172, rfl⟩
abbrev main_c_46 : Ref sig .tc := ⟨.hbm, 173, rfl⟩
abbrev main_v88 : Ref sig .tc := ⟨.hbm, 174, rfl⟩
abbrev main_v89 : Ref sig .tc := ⟨.hbm, 175, rfl⟩
abbrev main_v90 : Ref sig .tc := ⟨.hbm, 176, rfl⟩
abbrev main_c_47 : Ref sig .tc := ⟨.hbm, 177, rfl⟩
abbrev main_v91 : Ref sig .tc := ⟨.hbm, 178, rfl⟩
abbrev main_c_48 : Ref sig .tc := ⟨.hbm, 179, rfl⟩
abbrev main_v92 : Ref sig .tc := ⟨.hbm, 180, rfl⟩
abbrev main_v93 : Ref sig .tc := ⟨.hbm, 181, rfl⟩
abbrev main_v94 : Ref sig .tc := ⟨.hbm, 182, rfl⟩
abbrev main_cst_49 : Ref sig .tc := ⟨.hbm, 183, rfl⟩
abbrev main_v95 : Ref sig .tc := ⟨.hbm, 184, rfl⟩
abbrev main_c_50 : Ref sig .tc := ⟨.hbm, 185, rfl⟩
abbrev main_v96 : Ref sig .tc := ⟨.hbm, 186, rfl⟩
abbrev main_c_51 : Ref sig .tc := ⟨.hbm, 187, rfl⟩
abbrev main_v97 : Ref sig .tc := ⟨.hbm, 188, rfl⟩
abbrev main_v98 : Ref sig .tc := ⟨.hbm, 189, rfl⟩
abbrev main_v99 : Ref sig .tc := ⟨.hbm, 190, rfl⟩
abbrev main_c_52 : Ref sig .tc := ⟨.hbm, 191, rfl⟩
abbrev main_v100 : Ref sig .tc := ⟨.hbm, 192, rfl⟩
abbrev main_c_53 : Ref sig .tc := ⟨.hbm, 193, rfl⟩
abbrev main_v101 : Ref sig .tc := ⟨.hbm, 194, rfl⟩
abbrev main_v102 : Ref sig .tc := ⟨.hbm, 195, rfl⟩
abbrev main_v103 : Ref sig .tc := ⟨.hbm, 196, rfl⟩
abbrev main_cst_54 : Ref sig .tc := ⟨.hbm, 197, rfl⟩
abbrev main_v104 : Ref sig .tc := ⟨.hbm, 198, rfl⟩
abbrev main_c_55 : Ref sig .tc := ⟨.hbm, 199, rfl⟩
abbrev main_v105 : Ref sig .tc := ⟨.hbm, 200, rfl⟩
abbrev main_c_56 : Ref sig .tc := ⟨.hbm, 201, rfl⟩
abbrev main_v106 : Ref sig .tc := ⟨.hbm, 202, rfl⟩
abbrev main_v107 : Ref sig .tc := ⟨.hbm, 203, rfl⟩
abbrev main_v108 : Ref sig .tc := ⟨.hbm, 204, rfl⟩
abbrev main_c_57 : Ref sig .tc := ⟨.hbm, 205, rfl⟩
abbrev main_v109 : Ref sig .tc := ⟨.hbm, 206, rfl⟩
abbrev main_c_58 : Ref sig .tc := ⟨.hbm, 207, rfl⟩
abbrev main_v110 : Ref sig .tc := ⟨.hbm, 208, rfl⟩
abbrev main_v111 : Ref sig .tc := ⟨.hbm, 209, rfl⟩
abbrev main_v112 : Ref sig .tc := ⟨.hbm, 210, rfl⟩
abbrev main_cst_59 : Ref sig .tc := ⟨.hbm, 211, rfl⟩
abbrev main_v113 : Ref sig .tc := ⟨.hbm, 212, rfl⟩
abbrev main_c_60 : Ref sig .tc := ⟨.hbm, 213, rfl⟩
abbrev main_v114 : Ref sig .tc := ⟨.hbm, 214, rfl⟩
abbrev main_c_61 : Ref sig .tc := ⟨.hbm, 215, rfl⟩
abbrev main_v115 : Ref sig .tc := ⟨.hbm, 216, rfl⟩
abbrev main_v116 : Ref sig .tc := ⟨.hbm, 217, rfl⟩
abbrev main_v117 : Ref sig .tc := ⟨.hbm, 218, rfl⟩
abbrev main_c_62 : Ref sig .tc := ⟨.hbm, 219, rfl⟩
abbrev main_v118 : Ref sig .tc := ⟨.hbm, 220, rfl⟩
abbrev main_c_63 : Ref sig .tc := ⟨.hbm, 221, rfl⟩
abbrev main_v119 : Ref sig .tc := ⟨.hbm, 222, rfl⟩
abbrev main_v120 : Ref sig .tc := ⟨.hbm, 223, rfl⟩
abbrev main_v121 : Ref sig .tc := ⟨.hbm, 224, rfl⟩
abbrev main_cst_64 : Ref sig .tc := ⟨.hbm, 225, rfl⟩
abbrev main_v122 : Ref sig .tc := ⟨.hbm, 226, rfl⟩
abbrev main_c_65 : Ref sig .tc := ⟨.hbm, 227, rfl⟩
abbrev main_v123 : Ref sig .tc := ⟨.hbm, 228, rfl⟩
abbrev main_c_66 : Ref sig .tc := ⟨.hbm, 229, rfl⟩
abbrev main_v124 : Ref sig .tc := ⟨.hbm, 230, rfl⟩
abbrev main_v125 : Ref sig .tc := ⟨.hbm, 231, rfl⟩
abbrev main_v126 : Ref sig .tc := ⟨.hbm, 232, rfl⟩
abbrev main_c_67 : Ref sig .tc := ⟨.hbm, 233, rfl⟩
abbrev main_v127 : Ref sig .tc := ⟨.hbm, 234, rfl⟩
abbrev main_c_68 : Ref sig .tc := ⟨.hbm, 235, rfl⟩
abbrev main_v128 : Ref sig .tc := ⟨.hbm, 236, rfl⟩
abbrev main_v129 : Ref sig .tc := ⟨.hbm, 237, rfl⟩
abbrev main_v130 : Ref sig .tc := ⟨.hbm, 238, rfl⟩
abbrev main_cst_69 : Ref sig .tc := ⟨.hbm, 239, rfl⟩
abbrev main_v131 : Ref sig .tc := ⟨.hbm, 240, rfl⟩
abbrev main_c_70 : Ref sig .tc := ⟨.hbm, 241, rfl⟩
abbrev main_v132 : Ref sig .tc := ⟨.hbm, 242, rfl⟩
abbrev main_c_71 : Ref sig .tc := ⟨.hbm, 243, rfl⟩
abbrev main_v133 : Ref sig .tc := ⟨.hbm, 244, rfl⟩
abbrev main_v134 : Ref sig .tc := ⟨.hbm, 245, rfl⟩
abbrev main_v135 : Ref sig .tc := ⟨.hbm, 246, rfl⟩
abbrev main_c_72 : Ref sig .tc := ⟨.hbm, 247, rfl⟩
abbrev main_v136 : Ref sig .tc := ⟨.hbm, 248, rfl⟩
abbrev main_c_73 : Ref sig .tc := ⟨.hbm, 249, rfl⟩
abbrev main_v137 : Ref sig .tc := ⟨.hbm, 250, rfl⟩
abbrev main_v138 : Ref sig .tc := ⟨.hbm, 251, rfl⟩
abbrev main_v139 : Ref sig .tc := ⟨.hbm, 252, rfl⟩
abbrev main_v140 : Ref sig .tc := ⟨.hbm, 253, rfl⟩
abbrev main_v141 : Ref sig .tc := ⟨.hbm, 254, rfl⟩
abbrev main_v142 : Ref sig .tc := ⟨.hbm, 255, rfl⟩
abbrev main_v143 : Ref sig .tc := ⟨.hbm, 256, rfl⟩
abbrev main_v144 : Ref sig .tc := ⟨.hbm, 257, rfl⟩
abbrev main_v145 : Ref sig .tc := ⟨.hbm, 258, rfl⟩
abbrev main_v146 : Ref sig .tc := ⟨.hbm, 259, rfl⟩
abbrev main_v147 : Ref sig .tc := ⟨.hbm, 260, rfl⟩
abbrev main_v148 : Ref sig .tc := ⟨.hbm, 261, rfl⟩
abbrev main_v149 : Ref sig .tc := ⟨.hbm, 262, rfl⟩
abbrev main_v150 : Ref sig .tc := ⟨.hbm, 263, rfl⟩
abbrev main_v151 : Ref sig .tc := ⟨.hbm, 264, rfl⟩
abbrev main_v152 : Ref sig .tc := ⟨.hbm, 265, rfl⟩
abbrev main_v153 : Ref sig .tc := ⟨.hbm, 266, rfl⟩
abbrev main_v154 : Ref sig .tc := ⟨.hbm, 267, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x2x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x129x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3552x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x129x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

class Facts₀ : Prop where
  bcast_S_S512x512 : S_.BroadcastsInDim S512x512 (![] : Fin 0 → Fin S512x512.rank)
  bcast_S_S1 : S_.BroadcastsInDim S1 (![] : Fin 0 → Fin S1.rank)
  concatenates_S1_S1_S2_d0 : Shape.Concatenates [S1, S1] S2 0
  concatenates_S256_S256_S512_d0 : Shape.Concatenates [S256, S256] S512 0
  bcast_S_S512x256 : S_.BroadcastsInDim S512x256 (![] : Fin 0 → Fin S512x256.rank)
  concatenates_S128_S128_S256_d0 : Shape.Concatenates [S128, S128] S256 0
  bcast_S_S256x512 : S_.BroadcastsInDim S256x512 (![] : Fin 0 → Fin S256x512.rank)
  bcast_S_S520x512 : S_.BroadcastsInDim S520x512 (![] : Fin 0 → Fin S520x512.rank)
  bcast_S_S264x512 : S_.BroadcastsInDim S264x512 (![] : Fin 0 → Fin S264x512.rank)
  bcast_S_S136x512 : S_.BroadcastsInDim S136x512 (![] : Fin 0 → Fin S136x512.rank)
  concatenates_S520x512_S520x512_S264x512_S520x512_S264x512_S264x512_S136x512_S264x512_S136x512_S264x512_S136x512_S264x512_S3552x512_d0 : Shape.Concatenates [S520x512, S520x512, S264x512, S520x512, S264x512, S264x512, S136x512, S264x512, S136x512, S264x512, S136x512, S264x512] S3552x512 0
  concatenates_S16x256x256_S16x256x256_S16x256x512_d2 : Shape.Concatenates [S16x256x256, S16x256x256] S16x256x512 2
  bcast_S16x256x256_S16x1x256x256_0_2_3 : S16x256x256.BroadcastsInDim S16x1x256x256 (![0, 2, 3] : Fin 3 → Fin S16x1x256x256.rank)
  concatenates_S16x1x256x256_S16x1x256x256_S16x2x256x256_d1 : Shape.Concatenates [S16x1x256x256, S16x1x256x256] S16x2x256x256 1
  shapeCasts_S16x129_S16x129x1 : S16x129.ShapeCasts S16x129x1
  inb_S16x256x512_S16x256x512_0_0_0 : ∀ a, (![0, 0, 0] : Fin 3 → Nat) a + S16x256x512.size a ≤ S16x256x512.size a
  h_S16x256x512 : 0 < S16x256x512.numel
  shapeCasts_S16x256x512_S16x256x512 : S16x256x512.ShapeCasts S16x256x512
  shapeCasts_S16x256x512_S4096x512 : S16x256x512.ShapeCasts S4096x512
  inb_S3552x512_S512x512_0_0 : ∀ a, (![0, 0] : Fin 2 → Nat) a + S512x512.size a ≤ S3552x512.size a
  h_S512x512 : 0 < S512x512.numel
  shapeCasts_S512x512_S512x512 : S512x512.ShapeCasts S512x512
  inb_S3552x512_S1x512_512_0 : ∀ a, (![512, 0] : Fin 2 → Nat) a + S1x512.size a ≤ S3552x512.size a
  h_S1x512 : 0 < S1x512.numel
  shapeCasts_S1x512_S1x512 : S1x512.ShapeCasts S1x512
  broadcasts_S1x512_S4096x512 : S1x512.Broadcasts S4096x512
  inb_S3552x512_S512x256_520_0 : ∀ a, (![520, 0] : Fin 2 → Nat) a + S512x256.size a ≤ S3552x512.size a
  h_S512x256 : 0 < S512x256.numel
  shapeCasts_S512x256_S512x256 : S512x256.ShapeCasts S512x256
  inb_S3552x512_S1x256_1032_0 : ∀ a, (![1032, 0] : Fin 2 → Nat) a + S1x256.size a ≤ S3552x512.size a
  h_S1x256 : 0 < S1x256.numel
  shapeCasts_S1x256_S1x256 : S1x256.ShapeCasts S1x256
  broadcasts_S1x256_S4096x256 : S1x256.Broadcasts S4096x256
  inb_S16x2x256x256_S16x2x256x256_0_0_0_0 : ∀ a, (![0, 0, 0, 0] : Fin 4 → Nat) a + S16x2x256x256.size a ≤ S16x2x256x256.size a
  h_S16x2x256x256 : 0 < S16x2x256x256.numel
  shapeCasts_S16x2x256x256_S16x2x256x256 : S16x2x256x256.ShapeCasts S16x2x256x256
  inb_S3552x512_S256x512_1040_0 : ∀ a, (![1040, 0] : Fin 2 → Nat) a + S256x512.size a ≤ S3552x512.size a
  h_S256x512 : 0 < S256x512.numel
  shapeCasts_S256x512_S256x512 : S256x512.ShapeCasts S256x512
  inb_S3552x512_S1x512_1296_0 : ∀ a, (![1296, 0] : Fin 2 → Nat) a + S1x512.size a ≤ S3552x512.size a
  inb_S3552x512_S512x256_1304_0 : ∀ a, (![1304, 0] : Fin 2 → Nat) a + S512x256.size a ≤ S3552x512.size a
  inb_S3552x512_S1x256_1816_0 : ∀ a, (![1816, 0] : Fin 2 → Nat) a + S1x256.size a ≤ S3552x512.size a
  shapeCasts_S4096x256_S16x256x256 : S4096x256.ShapeCasts S16x256x256
  slices_S16x2x256x256_o0_0_0_0_S16x1x256x256 : S16x2x256x256.Slices ![0, 0, 0, 0] S16x1x256x256
  shapeCasts_S16x1x256x256_S16x256x256 : S16x1x256x256.ShapeCasts S16x256x256
  slices_S16x256x256_o0_0_0_S16x256x128 : S16x256x256.Slices ![0, 0, 0] S16x256x128
  slices_S16x2x256x256_o0_1_0_0_S16x1x256x256 : S16x2x256x256.Slices ![0, 1, 0, 0] S16x1x256x256
  slices_S16x256x256_o0_0_128_S16x256x128 : S16x256x256.Slices ![0, 0, 128] S16x256x128
  concatenates_S16x256x128_S16x256x128_S16x256x256_d2 : Shape.Concatenates [S16x256x128, S16x256x128] S16x256x256 2
  shapeCasts_S16x256x256_S4096x256 : S16x256x256.ShapeCasts S4096x256
  inb_S3552x512_S256x256_1824_0 : ∀ a, (![1824, 0] : Fin 2 → Nat) a + S256x256.size a ≤ S3552x512.size a
  h_S256x256 : 0 < S256x256.numel
  shapeCasts_S256x256_S256x256 : S256x256.ShapeCasts S256x256
  inb_S3552x512_S1x256_2080_0 : ∀ a, (![2080, 0] : Fin 2 → Nat) a + S1x256.size a ≤ S3552x512.size a
  inb_S3552x512_S256x128_2088_0 : ∀ a, (![2088, 0] : Fin 2 → Nat) a + S256x128.size a ≤ S3552x512.size a
  h_S256x128 : 0 < S256x128.numel
  shapeCasts_S256x128_S256x128 : S256x128.ShapeCasts S256x128
  inb_S3552x512_S1x128_2344_0 : ∀ a, (![2344, 0] : Fin 2 → Nat) a + S1x128.size a ≤ S3552x512.size a
  h_S1x128 : 0 < S1x128.numel
  shapeCasts_S1x128_S1x128 : S1x128.ShapeCasts S1x128
  broadcasts_S1x128_S4096x128 : S1x128.Broadcasts S4096x128
  slices_S4096x128_o0_0_S128x128 : S4096x128.Slices ![0, 0] S128x128
  slices_S4096x128_o256_0_S128x128 : S4096x128.Slices ![256, 0] S128x128
  slices_S4096x128_o512_0_S128x128 : S4096x128.Slices ![512, 0] S128x128
  slices_S4096x128_o768_0_S128x128 : S4096x128.Slices ![768, 0] S128x128
  slices_S4096x128_o1024_0_S128x128 : S4096x128.Slices ![1024, 0] S128x128
  slices_S4096x128_o1280_0_S128x128 : S4096x128.Slices ![1280, 0] S128x128
  slices_S4096x128_o1536_0_S128x128 : S4096x128.Slices ![1536, 0] S128x128
  slices_S4096x128_o1792_0_S128x128 : S4096x128.Slices ![1792, 0] S128x128
  slices_S4096x128_o2048_0_S128x128 : S4096x128.Slices ![2048, 0] S128x128
  slices_S4096x128_o2304_0_S128x128 : S4096x128.Slices ![2304, 0] S128x128
  slices_S4096x128_o2560_0_S128x128 : S4096x128.Slices ![2560, 0] S128x128
  slices_S4096x128_o2816_0_S128x128 : S4096x128.Slices ![2816, 0] S128x128
  slices_S4096x128_o3072_0_S128x128 : S4096x128.Slices ![3072, 0] S128x128
  slices_S4096x128_o3328_0_S128x128 : S4096x128.Slices ![3328, 0] S128x128
  slices_S4096x128_o3584_0_S128x128 : S4096x128.Slices ![3584, 0] S128x128
  slices_S4096x128_o3840_0_S128x128 : S4096x128.Slices ![3840, 0] S128x128
  concatenates_S128x128_S128x128_S128x128_S128x128_S128x128_S128x128_S128x128_S128x128_S128x128_S128x128_S128x128_S128x128_S128x128_S128x128_S128x128_S128x128_S2048x128_d0 : Shape.Concatenates [S128x128, S128x128, S128x128, S128x128, S128x128, S128x128, S128x128, S128x128, S128x128, S128x128, S128x128, S128x128, S128x128, S128x128, S128x128, S128x128] S2048x128 0
  inb_S3552x512_S128x256_2352_0 : ∀ a, (![2352, 0] : Fin 2 → Nat) a + S128x256.size a ≤ S3552x512.size a
  h_S128x256 : 0 < S128x256.numel
  shapeCasts_S128x256_S128x256 : S128x256.ShapeCasts S128x256
  inb_S3552x512_S1x256_2480_0 : ∀ a, (![2480, 0] : Fin 2 → Nat) a + S1x256.size a ≤ S3552x512.size a
  broadcasts_S1x256_S2048x256 : S1x256.Broadcasts S2048x256
  inb_S3552x512_S256x128_2488_0 : ∀ a, (![2488, 0] : Fin 2 → Nat) a + S256x128.size a ≤ S3552x512.size a
  inb_S3552x512_S1x128_2744_0 : ∀ a, (![2744, 0] : Fin 2 → Nat) a + S1x128.size a ≤ S3552x512.size a
  broadcasts_S1x128_S2048x128 : S1x128.Broadcasts S2048x128
  inb_S3552x512_S128x256_2752_0 : ∀ a, (![2752, 0] : Fin 2 → Nat) a + S128x256.size a ≤ S3552x512.size a
  inb_S3552x512_S1x256_2880_0 : ∀ a, (![2880, 0] : Fin 2 → Nat) a + S1x256.size a ≤ S3552x512.size a
  inb_S3552x512_S256x1_2888_0 : ∀ a, (![2888, 0] : Fin 2 → Nat) a + S256x1.size a ≤ S3552x512.size a
  h_S256x1 : 0 < S256x1.numel
  shapeCasts_S256x1_S256x1 : S256x1.ShapeCasts S256x1
  inb_S3552x512_S1x1_3144_0 : ∀ a, (![3144, 0] : Fin 2 → Nat) a + S1x1.size a ≤ S3552x512.size a
  h_S1x1 : 0 < S1x1.numel
  shapeCasts_S1x1_S1x1 : S1x1.ShapeCasts S1x1
  broadcasts_S1x1_S2048x1 : S1x1.Broadcasts S2048x1
  slices_S2048x128_o0_0_S128x128 : S2048x128.Slices ![0, 0] S128x128
  slices_S2048x1_o0_0_S128x1 : S2048x1.Slices ![0, 0] S128x1
  reduces_S128x128_S128 : S128x128.Reduces [0] S128
  shapeCasts_S128_S1x128 : S128.ShapeCasts S1x128
  inb_S3552x512_S128x256_3152_0 : ∀ a, (![3152, 0] : Fin 2 → Nat) a + S128x256.size a ≤ S3552x512.size a
  inb_S3552x512_S1x256_3280_0 : ∀ a, (![3280, 0] : Fin 2 → Nat) a + S1x256.size a ≤ S3552x512.size a
  inb_S3552x512_S256x1_3288_0 : ∀ a, (![3288, 0] : Fin 2 → Nat) a + S256x1.size a ≤ S3552x512.size a
  inb_S3552x512_S1x1_3544_0 : ∀ a, (![3544, 0] : Fin 2 → Nat) a + S1x1.size a ≤ S3552x512.size a
  concatenates_S128x1_S1x1_S129x1_d0 : Shape.Concatenates [S128x1, S1x1] S129x1 0
  reduces_S129x1_S1 : S129x1.Reduces [0] S1
  shapeCasts_S1_S1x1 : S1.ShapeCasts S1x1
  broadcasts_S1x1_S129x1 : S1x1.Broadcasts S129x1
  inb_S16x129x1_S1x129x1_0_0_0 : ∀ a, (![0, 0, 0] : Fin 3 → Nat) a + S1x129x1.size a ≤ S16x129x1.size a
  h_S1x129x1 : 0 < S1x129x1.numel
  shapeCasts_S1x129x1_S129x1 : S1x129x1.ShapeCasts S129x1
  concatenates_S129x1_S129x1_S129x1_S129x1_S129x4_d1 : Shape.Concatenates [S129x1, S129x1, S129x1, S129x1] S129x4 1
  inb_S16x129x4_S1x129x4_0_0_0 : ∀ a, (![0, 0, 0] : Fin 3 → Nat) a + S1x129x4.size a ≤ S16x129x4.size a
  h_S1x129x4 : 0 < S1x129x4.numel
  shapeCasts_S1x129x4_S129x4 : S1x129x4.ShapeCasts S129x4
  shapeCasts_S129x4_S1x129x4 : S129x4.ShapeCasts S1x129x4
  slices_S2048x128_o128_0_S128x128 : S2048x128.Slices ![128, 0] S128x128
  slices_S2048x1_o128_0_S128x1 : S2048x1.Slices ![128, 0] S128x1
  inb_S16x129x1_S1x129x1_1_0_0 : ∀ a, (![1, 0, 0] : Fin 3 → Nat) a + S1x129x1.size a ≤ S16x129x1.size a
  inb_S16x129x4_S1x129x4_1_0_0 : ∀ a, (![1, 0, 0] : Fin 3 → Nat) a + S1x129x4.size a ≤ S16x129x4.size a
  slices_S2048x128_o256_0_S128x128 : S2048x128.Slices ![256, 0] S128x128
  slices_S2048x1_o256_0_S128x1 : S2048x1.Slices ![256, 0] S128x1
  inb_S16x129x1_S1x129x1_2_0_0 : ∀ a, (![2, 0, 0] : Fin 3 → Nat) a + S1x129x1.size a ≤ S16x129x1.size a
  inb_S16x129x4_S1x129x4_2_0_0 : ∀ a, (![2, 0, 0] : Fin 3 → Nat) a + S1x129x4.size a ≤ S16x129x4.size a
  slices_S2048x128_o384_0_S128x128 : S2048x128.Slices ![384, 0] S128x128
  slices_S2048x1_o384_0_S128x1 : S2048x1.Slices ![384, 0] S128x1
  inb_S16x129x1_S1x129x1_3_0_0 : ∀ a, (![3, 0, 0] : Fin 3 → Nat) a + S1x129x1.size a ≤ S16x129x1.size a
  inb_S16x129x4_S1x129x4_3_0_0 : ∀ a, (![3, 0, 0] : Fin 3 → Nat) a + S1x129x4.size a ≤ S16x129x4.size a
  slices_S2048x128_o512_0_S128x128 : S2048x128.Slices ![512, 0] S128x128
  slices_S2048x1_o512_0_S128x1 : S2048x1.Slices ![512, 0] S128x1
  inb_S16x129x1_S1x129x1_4_0_0 : ∀ a, (![4, 0, 0] : Fin 3 → Nat) a + S1x129x1.size a ≤ S16x129x1.size a
  inb_S16x129x4_S1x129x4_4_0_0 : ∀ a, (![4, 0, 0] : Fin 3 → Nat) a + S1x129x4.size a ≤ S16x129x4.size a
  slices_S2048x128_o640_0_S128x128 : S2048x128.Slices ![640, 0] S128x128
  slices_S2048x1_o640_0_S128x1 : S2048x1.Slices ![640, 0] S128x1
  inb_S16x129x1_S1x129x1_5_0_0 : ∀ a, (![5, 0, 0] : Fin 3 → Nat) a + S1x129x1.size a ≤ S16x129x1.size a
  inb_S16x129x4_S1x129x4_5_0_0 : ∀ a, (![5, 0, 0] : Fin 3 → Nat) a + S1x129x4.size a ≤ S16x129x4.size a
  slices_S2048x128_o768_0_S128x128 : S2048x128.Slices ![768, 0] S128x128
  slices_S2048x1_o768_0_S128x1 : S2048x1.Slices ![768, 0] S128x1
  inb_S16x129x1_S1x129x1_6_0_0 : ∀ a, (![6, 0, 0] : Fin 3 → Nat) a + S1x129x1.size a ≤ S16x129x1.size a
  inb_S16x129x4_S1x129x4_6_0_0 : ∀ a, (![6, 0, 0] : Fin 3 → Nat) a + S1x129x4.size a ≤ S16x129x4.size a
  slices_S2048x128_o896_0_S128x128 : S2048x128.Slices ![896, 0] S128x128
  slices_S2048x1_o896_0_S128x1 : S2048x1.Slices ![896, 0] S128x1
  inb_S16x129x1_S1x129x1_7_0_0 : ∀ a, (![7, 0, 0] : Fin 3 → Nat) a + S1x129x1.size a ≤ S16x129x1.size a
  inb_S16x129x4_S1x129x4_7_0_0 : ∀ a, (![7, 0, 0] : Fin 3 → Nat) a + S1x129x4.size a ≤ S16x129x4.size a
  slices_S2048x128_o1024_0_S128x128 : S2048x128.Slices ![1024, 0] S128x128
  slices_S2048x1_o1024_0_S128x1 : S2048x1.Slices ![1024, 0] S128x1
  inb_S16x129x1_S1x129x1_8_0_0 : ∀ a, (![8, 0, 0] : Fin 3 → Nat) a + S1x129x1.size a ≤ S16x129x1.size a
  inb_S16x129x4_S1x129x4_8_0_0 : ∀ a, (![8, 0, 0] : Fin 3 → Nat) a + S1x129x4.size a ≤ S16x129x4.size a
  slices_S2048x128_o1152_0_S128x128 : S2048x128.Slices ![1152, 0] S128x128
  slices_S2048x1_o1152_0_S128x1 : S2048x1.Slices ![1152, 0] S128x1
  inb_S16x129x1_S1x129x1_9_0_0 : ∀ a, (![9, 0, 0] : Fin 3 → Nat) a + S1x129x1.size a ≤ S16x129x1.size a
  inb_S16x129x4_S1x129x4_9_0_0 : ∀ a, (![9, 0, 0] : Fin 3 → Nat) a + S1x129x4.size a ≤ S16x129x4.size a
  slices_S2048x128_o1280_0_S128x128 : S2048x128.Slices ![1280, 0] S128x128
  slices_S2048x1_o1280_0_S128x1 : S2048x1.Slices ![1280, 0] S128x1
  inb_S16x129x1_S1x129x1_10_0_0 : ∀ a, (![10, 0, 0] : Fin 3 → Nat) a + S1x129x1.size a ≤ S16x129x1.size a
  inb_S16x129x4_S1x129x4_10_0_0 : ∀ a, (![10, 0, 0] : Fin 3 → Nat) a + S1x129x4.size a ≤ S16x129x4.size a
  slices_S2048x128_o1408_0_S128x128 : S2048x128.Slices ![1408, 0] S128x128
  slices_S2048x1_o1408_0_S128x1 : S2048x1.Slices ![1408, 0] S128x1
  inb_S16x129x1_S1x129x1_11_0_0 : ∀ a, (![11, 0, 0] : Fin 3 → Nat) a + S1x129x1.size a ≤ S16x129x1.size a
  inb_S16x129x4_S1x129x4_11_0_0 : ∀ a, (![11, 0, 0] : Fin 3 → Nat) a + S1x129x4.size a ≤ S16x129x4.size a
  slices_S2048x128_o1536_0_S128x128 : S2048x128.Slices ![1536, 0] S128x128
  slices_S2048x1_o1536_0_S128x1 : S2048x1.Slices ![1536, 0] S128x1
  inb_S16x129x1_S1x129x1_12_0_0 : ∀ a, (![12, 0, 0] : Fin 3 → Nat) a + S1x129x1.size a ≤ S16x129x1.size a
  inb_S16x129x4_S1x129x4_12_0_0 : ∀ a, (![12, 0, 0] : Fin 3 → Nat) a + S1x129x4.size a ≤ S16x129x4.size a
  slices_S2048x128_o1664_0_S128x128 : S2048x128.Slices ![1664, 0] S128x128
  slices_S2048x1_o1664_0_S128x1 : S2048x1.Slices ![1664, 0] S128x1
  inb_S16x129x1_S1x129x1_13_0_0 : ∀ a, (![13, 0, 0] : Fin 3 → Nat) a + S1x129x1.size a ≤ S16x129x1.size a
  inb_S16x129x4_S1x129x4_13_0_0 : ∀ a, (![13, 0, 0] : Fin 3 → Nat) a + S1x129x4.size a ≤ S16x129x4.size a
  slices_S2048x128_o1792_0_S128x128 : S2048x128.Slices ![1792, 0] S128x128
  slices_S2048x1_o1792_0_S128x1 : S2048x1.Slices ![1792, 0] S128x1
  inb_S16x129x1_S1x129x1_14_0_0 : ∀ a, (![14, 0, 0] : Fin 3 → Nat) a + S1x129x1.size a ≤ S16x129x1.size a
  inb_S16x129x4_S1x129x4_14_0_0 : ∀ a, (![14, 0, 0] : Fin 3 → Nat) a + S1x129x4.size a ≤ S16x129x4.size a
  slices_S2048x128_o1920_0_S128x128 : S2048x128.Slices ![1920, 0] S128x128
  slices_S2048x1_o1920_0_S128x1 : S2048x1.Slices ![1920, 0] S128x1
  inb_S16x129x1_S1x129x1_15_0_0 : ∀ a, (![15, 0, 0] : Fin 3 → Nat) a + S1x129x1.size a ≤ S16x129x1.size a
  inb_S16x129x4_S1x129x4_15_0_0 : ∀ a, (![15, 0, 0] : Fin 3 → Nat) a + S1x129x4.size a ≤ S16x129x4.size a
  slices_S16x129x4_S16x129x1_0_0_0 : S16x129x4.Slices ![0, 0, 0] S16x129x1
  shapeCasts_S16x129x1_S16x129 : S16x129x1.ShapeCasts S16x129
  slices_S16x129x4_S16x129x1_0_0_1 : S16x129x4.Slices ![0, 0, 1] S16x129x1
  slices_S16x129x4_S16x129x1_0_0_2 : S16x129x4.Slices ![0, 0, 2] S16x129x1
  slices_S16x129x4_S16x129x1_0_0_3 : S16x129x4.Slices ![0, 0, 3] S16x129x1
  scatter_S512x512_S2_S256x256_01_n_01_0_wf : ScatterDims.WF S512x512 S2 S256x256 [0, 1] [] [0, 1] 0
  scatter_S512x256_S2_S256x128_01_n_01_0_wf : ScatterDims.WF S512x256 S2 S256x128 [0, 1] [] [0, 1] 0
  scatter_S256x512_S2_S128x256_01_n_01_0_wf : ScatterDims.WF S256x512 S2 S128x256 [0, 1] [] [0, 1] 0
  scatter_S520x512_S1_S512x512_01_n_0_0_wf : ScatterDims.WF S520x512 S1 S512x512 [0, 1] [] [0] 0
  scatter_S520x512_S1_S512_0_0_0_0_wf : ScatterDims.WF S520x512 S1 S512 [0] [0] [0] 0
  scatter_S520x512_S2_S512x256_01_n_01_0_wf : ScatterDims.WF S520x512 S2 S512x256 [0, 1] [] [0, 1] 0
  scatter_S520x512_S2_S256_0_0_01_0_wf : ScatterDims.WF S520x512 S2 S256 [0] [0] [0, 1] 0
  scatter_S264x512_S1_S256x512_01_n_0_0_wf : ScatterDims.WF S264x512 S1 S256x512 [0, 1] [] [0] 0
  scatter_S264x512_S1_S512_0_0_0_0_wf : ScatterDims.WF S264x512 S1 S512 [0] [0] [0] 0
  scatter_S264x512_S2_S256x256_01_n_01_0_wf : ScatterDims.WF S264x512 S2 S256x256 [0, 1] [] [0, 1] 0
  scatter_S264x512_S2_S256_0_0_01_0_wf : ScatterDims.WF S264x512 S2 S256 [0] [0] [0, 1] 0
  scatter_S264x512_S2_S256x128_01_n_01_0_wf : ScatterDims.WF S264x512 S2 S256x128 [0, 1] [] [0, 1] 0
  scatter_S264x512_S2_S128_0_0_01_0_wf : ScatterDims.WF S264x512 S2 S128 [0] [0] [0, 1] 0
  scatter_S136x512_S2_S128x256_01_n_01_0_wf : ScatterDims.WF S136x512 S2 S128x256 [0, 1] [] [0, 1] 0
  scatter_S136x512_S2_S256_0_0_01_0_wf : ScatterDims.WF S136x512 S2 S256 [0] [0] [0, 1] 0
  scatter_S264x512_S2_S256x1_01_n_01_0_wf : ScatterDims.WF S264x512 S2 S256x1 [0, 1] [] [0, 1] 0
  scatter_S264x512_S2_S1_0_0_01_0_wf : ScatterDims.WF S264x512 S2 S1 [0] [0] [0, 1] 0
  dot_S4096x512_S512x512_S4096x512_1_0_0_1_n_n_wf : DotDims.WF S4096x512 S512x512 S4096x512 [1] [0] [0] [1] [] []
  dot_S4096x512_S512x256_S4096x256_1_0_0_1_n_n_wf : DotDims.WF S4096x512 S512x256 S4096x256 [1] [0] [0] [1] [] []
  dot_S4096x256_S256x512_S4096x512_1_0_0_1_n_n_wf : DotDims.WF S4096x256 S256x512 S4096x512 [1] [0] [0] [1] [] []
  dot_S16x256x256_S16x256x128_S16x256x128_2_1_1_2_0_0_wf : DotDims.WF S16x256x256 S16x256x128 S16x256x128 [2] [1] [1] [2] [0] [0]
  dot_S4096x256_S256x256_S4096x256_1_0_0_1_n_n_wf : DotDims.WF S4096x256 S256x256 S4096x256 [1] [0] [0] [1] [] []
  dot_S4096x256_S256x128_S4096x128_1_0_0_1_n_n_wf : DotDims.WF S4096x256 S256x128 S4096x128 [1] [0] [0] [1] [] []
  dot_S2048x128_S128x256_S2048x256_1_0_0_1_n_n_wf : DotDims.WF S2048x128 S128x256 S2048x256 [1] [0] [0] [1] [] []
  dot_S2048x256_S256x128_S2048x128_1_0_0_1_n_n_wf : DotDims.WF S2048x256 S256x128 S2048x128 [1] [0] [0] [1] [] []
  dot_S2048x256_S256x1_S2048x1_1_0_0_1_n_n_wf : DotDims.WF S2048x256 S256x1 S2048x1 [1] [0] [0] [1] [] []
  dot_S1x128_S128x256_S1x256_1_0_0_1_n_n_wf : DotDims.WF S1x128 S128x256 S1x256 [1] [0] [0] [1] [] []
  dot_S1x256_S256x1_S1x1_1_0_0_1_n_n_wf : DotDims.WF S1x256 S256x1 S1x1 [1] [0] [0] [1] [] []
  hrank0 : 0 < grid0.rank
  hstage0_0 : ∀ j, (stage0_0 j).IsWhole
  nbuf0_0 : grid0.bufCount reads0_0 false = 1
  hreads0_0 : ∀ i i' : grid0.Coords, (∀ a, reads0_0 a = true → i a = i' a) → cc0_transform_0 i = cc0_transform_0 i'
  hinb0_0 : ∀ (i : grid0.Coords) a, (cc0_transform_0 i a + 1) * S16x256x512.size a ≤ S16x256x512.size a
  hwx0_0 : ∀ i : grid0.Coords, EltTy.bits .f32 = 32 ∨ (Rect.block (s := S16x256x512) S16x256x512.size (cc0_transform_0 i) (hinb0_0 i)).WholeWords (EltTy.packing .f32)
  hstage0_1 : ∀ j, (stage0_1 j).IsWhole
  nbuf0_1 : grid0.bufCount reads0_1 false = 1
  hreads0_1 : ∀ i i' : grid0.Coords, (∀ a, reads0_1 a = true → i a = i' a) → cc0_transform_1 i = cc0_transform_1 i'
  hinb0_1 : ∀ (i : grid0.Coords) a, (cc0_transform_1 i a + 1) * S16x2x256x256.size a ≤ S16x2x256x256.size a
  hwx0_1 : ∀ i : grid0.Coords, EltTy.bits .f32 = 32 ∨ (Rect.block (s := S16x2x256x256) S16x2x256x256.size (cc0_transform_1 i) (hinb0_1 i)).WholeWords (EltTy.packing .f32)
  hstage0_2 : ∀ j, (stage0_2 j).IsWhole
  nbuf0_2 : grid0.bufCount reads0_2 false = 1
  hreads0_2 : ∀ i i' : grid0.Coords, (∀ a, reads0_2 a = true → i a = i' a) → cc0_transform_2 i = cc0_transform_2 i'
  hinb0_2 : ∀ (i : grid0.Coords) a, (cc0_transform_2 i a + 1) * S16x129x1.size a ≤ S16x129x1.size a
  hwx0_2 : ∀ i : grid0.Coords, EltTy.bits .f32 = 32 ∨ (Rect.block (s := S16x129x1) S16x129x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3552x512.size a ≤ S3552x512.size a
  hwx0_3 : ∀ i : grid0.Coords, EltTy.bits .f32 = 32 ∨ (Rect.block (s := S3552x512) S3552x512.size (cc0_transform_3 i) (hinb0_3 i)).WholeWords (EltTy.packing .f32)
  hstage0_4 : ∀ j, (stage0_4 j).IsWhole
  nbuf0_4 : grid0.bufCount reads0_4 false = 1
  hreads0_4 : ∀ i i' : grid0.Coords, (∀ a, reads0_4 a = true → i a = i' a) → cc0_transform_4 i = cc0_transform_4 i'
  hinb0_4 : ∀ (i : grid0.Coords) a, (cc0_transform_4 i a + 1) * S16x129x4.size a ≤ S16x129x4.size a
  hwx0_4 : ∀ i : grid0.Coords, EltTy.bits .f32 = 32 ∨ (Rect.block (s := S16x129x4) S16x129x4.size (cc0_transform_4 i) (hinb0_4 i)).WholeWords (EltTy.packing .f32)

variable [Facts₀]

def scatter_S512x512_S2_S256x256_01_n_01_0 : ScatterDims S512x512 S2 S256x256 where
  updateWindowDims := [0, 1]
  insertedWindowDims := []
  scatterDimsToOperandDims := [0, 1]
  indexVectorDim := 0
  wf := scatter_S512x512_S2_S256x256_01_n_01_0_wf
def scatter_S512x256_S2_S256x128_01_n_01_0 : ScatterDims S512x256 S2 S256x128 where
  updateWindowDims := [0, 1]
  insertedWindowDims := []
  scatterDimsToOperandDims := [0, 1]
  indexVectorDim := 0
  wf := scatter_S512x256_S2_S256x128_01_n_01_0_wf
def scatter_S256x512_S2_S128x256_01_n_01_0 : ScatterDims S256x512 S2 S128x256 where
  updateWindowDims := [0, 1]
  insertedWindowDims := []
  scatterDimsToOperandDims := [0, 1]
  indexVectorDim := 0
  wf := scatter_S256x512_S2_S128x256_01_n_01_0_wf
def scatter_S520x512_S1_S512x512_01_n_0_0 : ScatterDims S520x512 S1 S512x512 where
  updateWindowDims := [0, 1]
  insertedWindowDims := []
  scatterDimsToOperandDims := [0]
  indexVectorDim := 0
  wf := scatter_S520x512_S1_S512x512_01_n_0_0_wf
def scatter_S520x512_S1_S512_0_0_0_0 : ScatterDims S520x512 S1 S512 where
  updateWindowDims := [0]
  insertedWindowDims := [0]
  scatterDimsToOperandDims := [0]
  indexVectorDim := 0
  wf := scatter_S520x512_S1_S512_0_0_0_0_wf
def scatter_S520x512_S2_S512x256_01_n_01_0 : ScatterDims S520x512 S2 S512x256 where
  updateWindowDims := [0, 1]
  insertedWindowDims := []
  scatterDimsToOperandDims := [0, 1]
  indexVectorDim := 0
  wf := scatter_S520x512_S2_S512x256_01_n_01_0_wf
def scatter_S520x512_S2_S256_0_0_01_0 : ScatterDims S520x512 S2 S256 where
  updateWindowDims := [0]
  insertedWindowDims := [0]
  scatterDimsToOperandDims := [0, 1]
  indexVectorDim := 0
  wf := scatter_S520x512_S2_S256_0_0_01_0_wf
def scatter_S264x512_S1_S256x512_01_n_0_0 : ScatterDims S264x512 S1 S256x512 where
  updateWindowDims := [0, 1]
  insertedWindowDims := []
  scatterDimsToOperandDims := [0]
  indexVectorDim := 0
  wf := scatter_S264x512_S1_S256x512_01_n_0_0_wf
def scatter_S264x512_S1_S512_0_0_0_0 : ScatterDims S264x512 S1 S512 where
  updateWindowDims := [0]
  insertedWindowDims := [0]
  scatterDimsToOperandDims := [0]
  indexVectorDim := 0
  wf := scatter_S264x512_S1_S512_0_0_0_0_wf
def scatter_S264x512_S2_S256x256_01_n_01_0 : ScatterDims S264x512 S2 S256x256 where
  updateWindowDims := [0, 1]
  insertedWindowDims := []
  scatterDimsToOperandDims := [0, 1]
  indexVectorDim := 0
  wf := scatter_S264x512_S2_S256x256_01_n_01_0_wf
def scatter_S264x512_S2_S256_0_0_01_0 : ScatterDims S264x512 S2 S256 where
  updateWindowDims := [0]
  insertedWindowDims := [0]
  scatterDimsToOperandDims := [0, 1]
  indexVectorDim := 0
  wf := scatter_S264x512_S2_S256_0_0_01_0_wf
def scatter_S264x512_S2_S256x128_01_n_01_0 : ScatterDims S264x512 S2 S256x128 where
  updateWindowDims := [0, 1]
  insertedWindowDims := []
  scatterDimsToOperandDims := [0, 1]
  indexVectorDim := 0
  wf := scatter_S264x512_S2_S256x128_01_n_01_0_wf
def scatter_S264x512_S2_S128_0_0_01_0 : ScatterDims S264x512 S2 S128 where
  updateWindowDims := [0]
  insertedWindowDims := [0]
  scatterDimsToOperandDims := [0, 1]
  indexVectorDim := 0
  wf := scatter_S264x512_S2_S128_0_0_01_0_wf
def scatter_S136x512_S2_S128x256_01_n_01_0 : ScatterDims S136x512 S2 S128x256 where
  updateWindowDims := [0, 1]
  insertedWindowDims := []
  scatterDimsToOperandDims := [0, 1]
  indexVectorDim := 0
  wf := scatter_S136x512_S2_S128x256_01_n_01_0_wf
def scatter_S136x512_S2_S256_0_0_01_0 : ScatterDims S136x512 S2 S256 where
  updateWindowDims := [0]
  insertedWindowDims := [0]
  scatterDimsToOperandDims := [0, 1]
  indexVectorDim := 0
  wf := scatter_S136x512_S2_S256_0_0_01_0_wf
def scatter_S264x512_S2_S256x1_01_n_01_0 : ScatterDims S264x512 S2 S256x1 where
  updateWindowDims := [0, 1]
  insertedWindowDims := []
  scatterDimsToOperandDims := [0, 1]
  indexVectorDim := 0
  wf := scatter_S264x512_S2_S256x1_01_n_01_0_wf
def scatter_S264x512_S2_S1_0_0_01_0 : ScatterDims S264x512 S2 S1 where
  updateWindowDims := [0]
  insertedWindowDims := [0]
  scatterDimsToOperandDims := [0, 1]
  indexVectorDim := 0
  wf := scatter_S264x512_S2_S1_0_0_01_0_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf
def dot_S16x256x256_S16x256x128_S16x256x128_2_1_1_2_0_0 : DotDims S16x256x256 S16x256x128 S16x256x128 where
  lhsContracting := [2]
  rhsContracting := [1]
  lhsNonContracting := [1]
  rhsNonContracting := [2]
  lhsBatch := [0]
  rhsBatch := [0]
  wf := dot_S16x256x256_S16x256x128_S16x256x128_2_1_1_2_0_0_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x256_S256x1_S2048x1_1_0_0_1_n_n : DotDims S2048x256 S256x1 S2048x1 where
  lhsContracting := [1]
  rhsContracting := [0]
  lhsNonContracting := [0]
  rhsNonContracting := [1]
  lhsBatch := []
  rhsBatch := []
  wf := dot_S2048x256_S256x1_S2048x1_1_0_0_1_n_n_wf
def dot_S1x128_S128x256_S1x256_1_0_0_1_n_n : DotDims S1x128 S128x256 S1x256 where
  lhsContracting := [1]
  rhsContracting := [0]
  lhsNonContracting := [0]
  rhsNonContracting := [1]
  lhsBatch := []
  rhsBatch := []
  wf := dot_S1x128_S128x256_S1x256_1_0_0_1_n_n_wf
def dot_S1x256_S256x1_S1x1_1_0_0_1_n_n : DotDims S1x256 S256x1 S1x1 where
  lhsContracting := [1]
  rhsContracting := [0]
  lhsNonContracting := [0]
  rhsNonContracting := [1]
  lhsBatch := []
  rhsBatch := []
  wf := dot_S1x256_S256x1_S1x1_1_0_0_1_n_n_wf

abbrev win0_0 : Pipeline.Window sig grid0 :=
  Pipeline.Window.ofSpec (Memref.whole main_v141) S16x256x512.size cc0_transform_0 reads0_0 false false 1 stage0_0 sem0_0
    hrank0 hreads0_0 hinb0_0 nbuf0_0 (Memref.isWhole_whole _) hwx0_0 hstage0_0

abbrev win0_1 : Pipeline.Window sig grid0 :=
  Pipeline.Window.ofSpec (Memref.whole main_v144) S16x2x256x256.size cc0_transform_1 reads0_1 false false 1 stage0_1 sem0_1
    hrank0 hreads0_1 hinb0_1 nbuf0_1 (Memref.isWhole_whole _) hwx0_1 hstage0_1

abbrev win0_2 : Pipeline.Window sig grid0 :=
  Pipeline.Window.ofSpec (Memref.whole main_v145) S16x129x1.size cc0_transform_2 reads0_2 false false 1 stage0_2 sem0_2
    hrank0 hreads0_2 hinb0_2 nbuf0_2 (Memref.isWhole_whole _) hwx0_2 hstage0_2

abbrev win0_3 : Pipeline.Window sig grid0 :=
  Pipeline.Window.ofSpec (Memref.whole main_v140) S3552x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v146) S16x129x4.size cc0_transform_4 reads0_4 true false 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== Proof.KernelFrameP.lean ====
import proofs.«126533_g2000204636238536_pallasbulk_491_2_alg».proof.Proof.Gen.Kernel.Launch
import proofs.«126533_g2000204636238536_pallasbulk_491_2_alg».proof.Proof.Gen.Kernel.Skeleton
import proofs.«126533_g2000204636238536_pallasbulk_491_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.GenP

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

def WritesFrom (k : ℕ) (op : HloOp τ sig (Elt F)) : Prop :=
  ∀ x ∈ op.writes, ∃ y : Ref sig .tc, k ≤ y.idx ∧ Proc.devRef .tc y = x

/-- Every host operation's result has index at least 37. -/
theorem hostOps0_writes : (hostOps0 (F := F)).Forall (WritesFrom 37) := by
  simp only [hostOps0, List.Forall, WritesFrom, StableHlo.nullary_writes, StableHlo.unary_writes, StableHlo.binary_writes,
    StableHlo.ternary_writes, StableHlo.quaternary_writes, StableHlo.reshape_writes, StableHlo.binaryIndexed_writes,
    Finset.mem_singleton, forall_eq]
  repeat' apply And.intro
  all_goals exact ⟨_, by decide, rfl⟩

/-- An argument has index below 37, so no host operation writes it: the region finds it as launched. -/
theorem V_low (c : Dev nD) (b : Ref sig .tc) (hb : b.idx.val < 37) : V m c b = m ((c : Thread nD τ).loc b) :=
  StableHlo.after_of_forall_not_mem (b := Proc.devRef .tc b) _ _ fun op hop hx => by
    obtain ⟨y, hy, he⟩ := List.forall_iff_forall_mem.mp hostOps0_writes op hop _ hx
    exact absurd (Proc.devRef_injective _ he ▸ hy) (not_le.mpr hb)

theorem V_main_arg0 (c : Dev nD) : V m c main_arg0 = m ((c : Thread nD τ).loc main_arg0) := V_low m c _ (by decide)
theorem V_main_arg1 (c : Dev nD) : V m c main_arg1 = m ((c : Thread nD τ).loc main_arg1) := V_low m c _ (by decide)
theorem V_main_arg2 (c : Dev nD) : V m c main_arg2 = m ((c : Thread nD τ).loc main_arg2) := V_low m c _ (by decide)
theorem V_main_arg3 (c : Dev nD) : V m c main_arg3 = m ((c : Thread nD τ).loc main_arg3) := V_low m c _ (by decide)
theorem V_main_arg4 (c : Dev nD) : V m c main_arg4 = m ((c : Thread nD τ).loc main_arg4) := V_low m c _ (by decide)
theorem V_main_arg31 (c : Dev nD) : V m c main_arg31 = m ((c : Thread nD τ).loc main_arg31) := V_low m c _ (by decide)
theorem V_main_arg33 (c : Dev nD) : V m c main_arg33 = m ((c : Thread nD τ).loc main_arg33) := V_low m c _ (by decide)
theorem V_main_arg35 (c : Dev nD) : V m c main_arg35 = m ((c : Thread nD τ).loc main_arg35) := V_low m c _ (by decide)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev r0_0 : Rect S8x256x256 := Rect.unit (s := S8x256x256) ![0, 0, 0] S8x256x256.size inb_S8x256x256_S8x256x256_0_0_0
abbrev r0_1 : Rect S256x256 := Rect.unit (s := S256x256) ![0, 0] S256x256.size inb_S256x256_S256x256_0_0
abbrev r0_2 : Rect S1x256 := Rect.unit (s := S1x256) ![0, 0] S1x256.size inb_S1x256_S1x256_0_0
abbrev r0_3 : Rect S256x128 := Rect.unit (s := S256x128) ![0, 0] S256x128.size inb_S256x128_S256x128_0_0
abbrev r0_4 : Rect S1x128 := Rect.unit (s := S1x128) ![0, 0] S1x128.size inb_S1x128_S1x128_0_0
abbrev r0_5 : Rect S128x256 := Rect.unit (s := S128x256) ![0, 0] S128x256.size inb_S128x256_S128x256_0_0
abbrev r0_6 : Rect S256x1 := Rect.unit (s := S256x1) ![0, 0] S256x1.size inb_S256x1_S256x1_0_0
abbrev r0_7 : Rect S1x1 := Rect.unit (s := S1x1) ![0, 0] S1x1.size inb_S1x1_S1x1_0_0
abbrev r0_8 : Rect S8x129 := Rect.unit (s := S8x129) ![0, 0] S8x129.size inb_S8x129_S8x129_0_0

/-- The value all four outputs are computed from. -/
def core0 (x0 : Vec F S8x256x256 .f32) (x1 : Vec F S8x256x256 .f32) (x2 : Vec F S8x256x256 .f32) (x3 : Vec F S8x256x256 .f32) (x4 : Vec F S8x129 .f32) (x5 : Vec F S256x256 .bf16) (x6 : Vec F S1x256 .f32) (x7 : Vec F S256x128 .bf16) (x8 : Vec F S1x128 .f32) (x9 : Vec F S256x256 .bf16) (x10 : Vec F S1x256 .f32) (x11 : Vec F S256x128 .bf16) (x12 : Vec F S1x128 .f32) (x13 : Vec F S128x256 .bf16) (x14 : Vec F S1x256 .f32) (x15 : Vec F S256x128 .bf16) (x16 : Vec F S1x128 .f32) (x17 : Vec F S128x256 .bf16) (x18 : Vec F S1x256 .f32) (x19 : Vec F S256x128 .bf16) (x20 : Vec F S1x128 .f32) (x21 : Vec F S256x256 .bf16) (x22 : Vec F S1x256 .f32) (x23 : Vec F S256x128 .bf16) (x24 : Vec F S1x128 .f32) (x25 : Vec F S128x256 .bf16) (x26 : Vec F S1x256 .f32) (x27 : Vec F S256x128 .bf16) (x28 : Vec F S1x128 .f32) (x29 : Vec F S128x256 .bf16) (x30 : Vec F S1x256 .f32) (x31 : Vec F S256x1 .f32) (x32 : Vec F S1x1 .f32) (x33 : Vec F S128x256 .f32) (x34 : Vec F S1x256 .f32) (x35 : Vec F S256x1 .f32) (x36 : Vec F S1x1 .f32) : FVec F S8x129 .f32 :=
  k0_pay32 (k0_pay30 (k0_pay27 (k0_pay7 (View.ld x2 r0_0)) (k0_pay8 (View.ld x3 r0_0)) (k0_pay24 (k0_pay7 (View.ld x2 r0_0)) (k0_pay17 (k0_pay7 (View.ld x2 r0_0)) (k0_pay10 (k0_pay2 (View.ld x0 r0_0) (View.ld x5 r0_1) (View.ld x6 r0_2) (View.ld x7 r0_3) (View.ld x8 r0_4)) (k0_pay7 (View.ld x2 r0_0)) (k0_pay9 (k0_pay2 (View.ld x0 r0_0) (View.ld x5 r0_1) (View.ld x6 r0_2) (View.ld x7 r0_3) (View.ld x8 r0_4)) (View.ld x13 r0_5) (View.ld x14 r0_2) (View.ld x15 r0_3) (View.ld x16 r0_4)) (Scalar.ofBits .f32 0x3C23D70A#32)) (k0_pay16 (k0_pay12 (k0_pay2 (View.ld x0 r0_0) (View.ld x5 r0_1) (View.ld x6 r0_2) (View.ld x7 r0_3) (View.ld x8 r0_4)) (k0_pay7 (View.ld x2 r0_0)) (k0_pay9 (k0_pay2 (View.ld x0 r0_0) (View.ld x5 r0_1) (View.ld x6 r0_2) (View.ld x7 r0_3) (View.ld x8 r0_4)) (View.ld x13 r0_5) (View.ld x14 r0_2) (View.ld x15 r0_3) (View.ld x16 r0_4)) (Scalar.ofBits .f32 0x3C23D70A#32)) (k0_pay13 (View.ld x13 r0_5)) (k0_pay14 (View.ld x14 r0_2)) (View.ld x15 r0_3) (View.ld x16 r0_4))) (k0_pay19 (k0_pay7 (View.ld x2 r0_0)) (k0_pay10 (k0_pay2 (View.ld x0 r0_0) (View.ld x5 r0_1) (View.ld x6 r0_2) (View.ld x7 r0_3) (View.ld x8 r0_4)) (k0_pay7 (View.ld x2 r0_0)) (k0_pay9 (k0_pay2 (View.ld x0 r0_0) (View.ld x5 r0_1) (View.ld x6 r0_2) (View.ld x7 r0_3) (View.ld x8 r0_4)) (View.ld x13 r0_5) (View.ld x14 r0_2) (View.ld x15 r0_3) (View.ld x16 r0_4)) (Scalar.ofBits .f32 0x3C23D70A#32)) (k0_pay16 (k0_pay12 (k0_pay2 (View.ld x0 r0_0) (View.ld x5 r0_1) (View.ld x6 r0_2) (View.ld x7 r0_3) (View.ld x8 r0_4)) (k0_pay7 (View.ld x2 r0_0)) (k0_pay9 (k0_pay2 (View.ld x0 r0_0) (View.ld x5 r0_1) (View.ld x6 r0_2) (View.ld x7 r0_3) (View.ld x8 r0_4)) (View.ld x13 r0_5) (View.ld x14 r0_2) (View.ld x15 r0_3) (View.ld x16 r0_4)) (Scalar.ofBits .f32 0x3C23D70A#32)) (k0_pay13 (View.ld x13 r0_5)) (k0_pay14 (View.ld x14 r0_2)) (View.ld x15 r0_3) (View.ld x16 r0_4)) (View.ld x13 r0_5) (View.ld x14 r0_2) (View.ld x15 r0_3) (View.ld x16 r0_4))) (k0_pay25 (k0_pay8 (View.ld x3 r0_0)) (k0_pay18 (k0_pay8 (View.ld x3 r0_0)) (k0_pay11 (k0_pay6 (k0_pay1 (View.ld x1 r0_0)) (k0_pay3 (View.ld x9 r0_1)) (k0_pay4 (View.ld x10 r0_2)) (k0_pay5 (View.ld x11 r0_3)) (View.ld x12 r0_4)) (k0_pay8 (View.ld x3 r0_0)) (View.ld x17 r0_5) (View.ld x18 r0_2) (View.ld x19 r0_3) (View.ld x20 r0_4)) (k0_pay15 (k0_pay11 (k0_pay6 (k0_pay1 (View.ld x1 r0_0)) (k0_pay3 (View.ld x9 r0_1)) (k0_pay4 (View.ld x10 r0_2)) (k0_pay5 (View.ld x11 r0_3)) (View.ld x12 r0_4)) (k0_pay8 (View.ld x3 r0_0)) (View.ld x17 r0_5) (View.ld x18 r0_2) (View.ld x19 r0_3) (View.ld x20 r0_4)) (View.ld x17 r0_5) (View.ld x18 r0_2) (View.ld x19 r0_3) (View.ld x20 r0_4))) (k0_pay20 (k0_pay8 (View.ld x3 r0_0)) (k0_pay11 (k0_pay6 (k0_pay1 (View.ld x1 r0_0)) (k0_pay3 (View.ld x9 r0_1)) (k0_pay4 (View.ld x10 r0_2)) (k0_pay5 (View.ld x11 r0_3)) (View.ld x12 r0_4)) (k0_pay8 (View.ld x3 r0_0)) (View.ld x17 r0_5) (View.ld x18 r0_2) (View.ld x19 r0_3) (View.ld x20 r0_4)) (k0_pay15 (k0_pay11 (k0_pay6 (k0_pay1 (View.ld x1 r0_0)) (k0_pay3 (View.ld x9 r0_1)) (k0_pay4 (View.ld x10 r0_2)) (k0_pay5 (View.ld x11 r0_3)) (View.ld x12 r0_4)) (k0_pay8 (View.ld x3 r0_0)) (View.ld x17 r0_5) (View.ld x18 r0_2) (View.ld x19 r0_3) (View.ld x20 r0_4)) (View.ld x17 r0_5) (View.ld x18 r0_2) (View.ld x19 r0_3) (View.ld x20 r0_4))) (k0_pay21 (View.ld x17 r0_5)) (k0_pay22 (View.ld x18 r0_2)) (k0_pay23 (View.ld x19 r0_3)) (View.ld x20 r0_4)) (k0_pay26 (k0_pay7 (View.ld x2 r0_0)) (k0_pay17 (k0_pay7 (View.ld x2 r0_0)) (k0_pay10 (k0_pay2 (View.ld x0 r0_0) (View.ld x5 r0_1) (View.ld x6 r0_2) (View.ld x7 r0_3) (View.ld x8 r0_4)) (k0_pay7 (View.ld x2 r0_0)) (k0_pay9 (k0_pay2 (View.ld x0 r0_0) (View.ld x5 r0_1) (View.ld x6 r0_2) (View.ld x7 r0_3) (View.ld x8 r0_4)) (View.ld x13 r0_5) (View.ld x14 r0_2) (View.ld x15 r0_3) (View.ld x16 r0_4)) (Scalar.ofBits .f32 0x3C23D70A#32)) (k0_pay16 (k0_pay12 (k0_pay2 (View.ld x0 r0_0) (View.ld x5 r0_1) (View.ld x6 r0_2) (View.ld x7 r0_3) (View.ld x8 r0_4)) (k0_pay7 (View.ld x2 r0_0)) (k0_pay9 (k0_pay2 (View.ld x0 r0_0) (View.ld x5 r0_1) (View.ld x6 r0_2) (View.ld x7 r0_3) (View.ld x8 r0_4)) (View.ld x13 r0_5) (View.ld x14 r0_2) (View.ld x15 r0_3) (View.ld x16 r0_4)) (Scalar.ofBits .f32 0x3C23D70A#32)) (k0_pay13 (View.ld x13 r0_5)) (k0_pay14 (View.ld x14 r0_2)) (View.ld x15 r0_3) (View.ld x16 r0_4))) (k0_pay19 (k0_pay7 (View.ld x2 r0_0)) (k0_pay10 (k0_pay2 (View.ld x0 r0_0) (View.ld x5 r0_1) (View.ld x6 r0_2) (View.ld x7 r0_3) (View.ld x8 r0_4)) (k0_pay7 (View.ld x2 r0_0)) (k0_pay9 (k0_pay2 (View.ld x0 r0_0) (View.ld x5 r0_1) (View.ld x6 r0_2) (View.ld x7 r0_3) (View.ld x8 r0_4)) (View.ld x13 r0_5) (View.ld x14 r0_2) (View.ld x15 r0_3) (View.ld x16 r0_4)) (Scalar.ofBits .f32 0x3C23D70A#32)) (k0_pay16 (k0_pay12 (k0_pay2 (View.ld x0 r0_0) (View.ld x5 r0_1) (View.ld x6 r0_2) (View.ld x7 r0_3) (View.ld x8 r0_4)) (k0_pay7 (View.ld x2 r0_0)) (k0_pay9 (k0_pay2 (View.ld x0 r0_0) (View.ld x5 r0_1) (View.ld x6 r0_2) (View.ld x7 r0_3) (View.ld x8 r0_4)) (View.ld x13 r0_5) (View.ld x14 r0_2) (View.ld x15 r0_3) (View.ld x16 r0_4)) (Scalar.ofBits .f32 0x3C23D70A#32)) (k0_pay13 (View.ld x13 r0_5)) (k0_pay14 (View.ld x14 r0_2)) (View.ld x15 r0_3) (View.ld x16 r0_4)) (View.ld x13 r0_5) (View.ld x14 r0_2) (View.ld x15 r0_3) (View.ld x16 r0_4)) (View.ld x13 r0_5) (View.ld x14 r0_2) (View.ld x15 r0_3) (View.ld x16 r0_4)) (Scalar.ofBits .f32 0x3C23D70A#32) (View.ld x17 r0_5) (View.ld x18 r0_2) (View.ld x19 r0_3) (View.ld x20 r0_4)) (k0_pay28 (View.ld x21 r0_1)) (k0_pay29 (View.ld x22 r0_2)) (View.ld x23 r0_3) (View.ld x24 r0_4) (View.ld x25 r0_5) (View.ld x26 r0_2) (View.ld x27 r0_3) (View.ld x28 r0_4)) (k0_pay31 (k0_pay27 (k0_pay7 (View.ld x2 r0_0)) (k0_pay8 (View.ld x3 r0_0)) (k0_pay24 (k0_pay7 (View.ld x2 r0_0)) (k0_pay17 (k0_pay7 (View.ld x2 r0_0)) (k0_pay10 (k0_pay2 (View.ld x0 r0_0) (View.ld x5 r0_1) (View.ld x6 r0_2) (View.ld x7 r0_3) (View.ld x8 r0_4)) (k0_pay7 (View.ld x2 r0_0)) (k0_pay9 (k0_pay2 (View.ld x0 r0_0) (View.ld x5 r0_1) (View.ld x6 r0_2) (View.ld x7 r0_3) (View.ld x8 r0_4)) (View.ld x13 r0_5) (View.ld x14 r0_2) (View.ld x15 r0_3) (View.ld x16 r0_4)) (Scalar.ofBits .f32 0x3C23D70A#32)) (k0_pay16 (k0_pay12 (k0_pay2 (View.ld x0 r0_0) (View.ld x5 r0_1) (View.ld x6 r0_2) (View.ld x7 r0_3) (View.ld x8 r0_4)) (k0_pay7 (View.ld x2 r0_0)) (k0_pay9 (k0_pay2 (View.ld x0 r0_0) (View.ld x5 r0_1) (View.ld x6 r0_2) (View.ld x7 r0_3) (View.ld x8 r0_4)) (View.ld x13 r0_5) (View.ld x14 r0_2) (View.ld x15 r0_3) (View.ld x16 r0_4)) (Scalar.ofBits .f32 0x3C23D70A#32)) (k0_pay13 (View.ld x13 r0_5)) (k0_pay14 (View.ld x14 r0_2)) (View.ld x15 r0_3) (View.ld x16 r0_4))) (k0_pay19 (k0_pay7 (View.ld x2 r0_0)) (k0_pay10 (k0_pay2 (View.ld x0 r0_0) (View.ld x5 r0_1) (View.ld x6 r0_2) (View.ld x7 r0_3) (View.ld x8 r0_4)) (k0_pay7 (View.ld x2 r0_0)) (k0_pay9 (k0_pay2 (View.ld x0 r0_0) (View.ld x5 r0_1) (View.ld x6 r0_2) (View.ld x7 r0_3) (View.ld x8 r0_4)) (View.ld x13 r0_5) (View.ld x14 r0_2) (View.ld x15 r0_3) (View.ld x16 r0_4)) (Scalar.ofBits .f32 0x3C23D70A#32)) (k0_pay16 (k0_pay12 (k0_pay2 (View.ld x0 r0_0) (View.ld x5 r0_1) (View.ld x6 r0_2) (View.ld x7 r0_3) (View.ld x8 r0_4)) (k0_pay7 (View.ld x2 r0_0)) (k0_pay9 (k0_pay2 (View.ld x0 r0_0) (View.ld x5 r0_1) (View.ld x6 r0_2) (View.ld x7 r0_3) (View.ld x8 r0_4)) (View.ld x13 r0_5) (View.ld x14 r0_2) (View.ld x15 r0_3) (View.ld x16 r0_4)) (Scalar.ofBits .f32 0x3C23D70A#32)) (k0_pay13 (View.ld x13 r0_5)) (k0_pay14 (View.ld x14 r0_2)) (View.ld x15 r0_3) (View.ld x16 r0_4)) (View.ld x13 r0_5) (View.ld x14 r0_2) (View.ld x15 r0_3) (View.ld x16 r0_4))) (k0_pay25 (k0_pay8 (View.ld x3 r0_0)) (k0_pay18 (k0_pay8 (View.ld x3 r0_0)) (k0_pay11 (k0_pay6 (k0_pay1 (View.ld x1 r0_0)) (k0_pay3 (View.ld x9 r0_1)) (k0_pay4 (View.ld x10 r0_2)) (k0_pay5 (View.ld x11 r0_3)) (View.ld x12 r0_4)) (k0_pay8 (View.ld x3 r0_0)) (View.ld x17 r0_5) (View.ld x18 r0_2) (View.ld x19 r0_3) (View.ld x20 r0_4)) (k0_pay15 (k0_pay11 (k0_pay6 (k0_pay1 (View.ld x1 r0_0)) (k0_pay3 (View.ld x9 r0_1)) (k0_pay4 (View.ld x10 r0_2)) (k0_pay5 (View.ld x11 r0_3)) (View.ld x12 r0_4)) (k0_pay8 (View.ld x3 r0_0)) (View.ld x17 r0_5) (View.ld x18 r0_2) (View.ld x19 r0_3) (View.ld x20 r0_4)) (View.ld x17 r0_5) (View.ld x18 r0_2) (View.ld x19 r0_3) (View.ld x20 r0_4))) (k0_pay20 (k0_pay8 (View.ld x3 r0_0)) (k0_pay11 (k0_pay6 (k0_pay1 (View.ld x1 r0_0)) (k0_pay3 (View.ld x9 r0_1)) (k0_pay4 (View.ld x10 r0_2)) (k0_pay5 (View.ld x11 r0_3)) (View.ld x12 r0_4)) (k0_pay8 (View.ld x3 r0_0)) (View.ld x17 r0_5) (View.ld x18 r0_2) (View.ld x19 r0_3) (View.ld x20 r0_4)) (k0_pay15 (k0_pay11 (k0_pay6 (k0_pay1 (View.ld x1 r0_0)) (k0_pay3 (View.ld x9 r0_1)) (k0_pay4 (View.ld x10 r0_2)) (k0_pay5 (View.ld x11 r0_3)) (View.ld x12 r0_4)) (k0_pay8 (View.ld x3 r0_0)) (View.ld x17 r0_5) (View.ld x18 r0_2) (View.ld x19 r0_3) (View.ld x20 r0_4)) (View.ld x17 r0_5) (View.ld x18 r0_2) (View.ld x19 r0_3) (View.ld x20 r0_4))) (k0_pay21 (View.ld x17 r0_5)) (k0_pay22 (View.ld x18 r0_2)) (k0_pay23 (View.ld x19 r0_3)) (View.ld x20 r0_4)) (k0_pay26 (k0_pay7 (View.ld x2 r0_0)) (k0_pay17 (k0_pay7 (View.ld x2 r0_0)) (k0_pay10 (k0_pay2 (View.ld x0 r0_0) (View.ld x5 r0_1) (View.ld x6 r0_2) (View.ld x7 r0_3) (View.ld x8 r0_4)) (k0_pay7 (View.ld x2 r0_0)) (k0_pay9 (k0_pay2 (View.ld x0 r0_0) (View.ld x5 r0_1) (View.ld x6 r0_2) (View.ld x7 r0_3) (View.ld x8 r0_4)) (View.ld x13 r0_5) (View.ld x14 r0_2) (View.ld x15 r0_3) (View.ld x16 r0_4)) (Scalar.ofBits .f32 0x3C23D70A#32)) (k0_pay16 (k0_pay12 (k0_pay2 (View.ld x0 r0_0) (View.ld x5 r0_1) (View.ld x6 r0_2) (View.ld x7 r0_3) (View.ld x8 r0_4)) (k0_pay7 (View.ld x2 r0_0)) (k0_pay9 (k0_pay2 (View.ld x0 r0_0) (View.ld x5 r0_1) (View.ld x6 r0_2) (View.ld x7 r0_3) (View.ld x8 r0_4)) (View.ld x13 r0_5) (View.ld x14 r0_2) (View.ld x15 r0_3) (View.ld x16 r0_4)) (Scalar.ofBits .f32 0x3C23D70A#32)) (k0_pay13 (View.ld x13 r0_5)) (k0_pay14 (View.ld x14 r0_2)) (View.ld x15 r0_3) (View.ld x16 r0_4))) (k0_pay19 (k0_pay7 (View.ld x2 r0_0)) (k0_pay10 (k0_pay2 (View.ld x0 r0_0) (View.ld x5 r0_1) (View.ld x6 r0_2) (View.ld x7 r0_3) (View.ld x8 r0_4)) (k0_pay7 (View.ld x2 r0_0)) (k0_pay9 (k0_pay2 (View.ld x0 r0_0) (View.ld x5 r0_1) (View.ld x6 r0_2) (View.ld x7 r0_3) (View.ld x8 r0_4)) (View.ld x13 r0_5) (View.ld x14 r0_2) (View.ld x15 r0_3) (View.ld x16 r0_4)) (Scalar.ofBits .f32 0x3C23D70A#32)) (k0_pay16 (k0_pay12 (k0_pay2 (View.ld x0 r0_0) (View.ld x5 r0_1) (View.ld x6 r0_2) (View.ld x7 r0_3) (View.ld x8 r0_4)) (k0_pay7 (View.ld x2 r0_0)) (k0_pay9 (k0_pay2 (View.ld x0 r0_0) (View.ld x5 r0_1) (View.ld x6 r0_2) (View.ld x7 r0_3) (View.ld x8 r0_4)) (View.ld x13 r0_5) (View.ld x14 r0_2) (View.ld x15 r0_3) (View.ld x16 r0_4)) (Scalar.ofBits .f32 0x3C23D70A#32)) (k0_pay13 (View.ld x13 r0_5)) (k0_pay14 (View.ld x14 r0_2)) (View.ld x15 r0_3) (View.ld x16 r0_4)) (View.ld x13 r0_5) (View.ld x14 r0_2) (View.ld x15 r0_3) (View.ld x16 r0_4)) (View.ld x13 r0_5) (View.ld x14 r0_2) (View.ld x15 r0_3) (View.ld x16 r0_4)) (Scalar.ofBits .f32 0x3C23D70A#32) (View.ld x17 r0_5) (View.ld x18 r0_2) (View.ld x19 r0_3) (View.ld x20 r0_4)) (k0_pay28 (View.ld x21 r0_1)) (k0_pay29 (View.ld x22 r0_2)) (View.ld x23 r0_3) (View.ld x24 r0_4) (View.ld x25 r0_5) (View.ld x26 r0_2) (View.ld x27 r0_3) (View.ld x28 r0_4)) (View.ld x29 r0_5) (View.ld x30 r0_2) (View.ld x31 r0_6) (View.ld x32 r0_7) (View.ld x33 r0_5) (View.ld x34 r0_2) (View.ld x35 r0_6) (View.ld x36 r0_7)

def out0_37 (x0 : Vec F S8x256x256 .f32) (x1 : Vec F S8x256x256 .f32) (x2 : Vec F S8x256x256 .f32) (x3 : Vec F S8x256x256 .f32) (x4 : Vec F S8x129 .f32) (x5 : Vec F S256x256 .bf16) (x6 : Vec F S1x256 .f32) (x7 : Vec F S256x128 .bf16) (x8 : Vec F S1x128 .f32) (x9 : Vec F S256x256 .bf16) (x10 : Vec F S1x256 .f32) (x11 : Vec F S256x128 .bf16) (x12 : Vec F S1x128 .f32) (x13 : Vec F S128x256 .bf16) (x14 : Vec F S1x256 .f32) (x15 : Vec F S256x128 .bf16) (x16 : Vec F S1x128 .f32) (x17 : Vec F S128x256 .bf16) (x18 : Vec F S1x256 .f32) (x19 : Vec F S256x128 .bf16) (x20 : Vec F S1x128 .f32) (x21 : Vec F S256x256 .bf16) (x22 : Vec F S1x256 .f32) (x23 : Vec F S256x128 .bf16) (x24 : Vec F S1x128 .f32) (x25 : Vec F S128x256 .bf16) (x26 : Vec F S1x256 .f32) (x27 : Vec F S256x128 .bf16) (x28 : Vec F S1x128 .f32) (x29 : Vec F S128x256 .bf16) (x30 : Vec F S1x256 .f32) (x31 : Vec F S256x1 .f32) (x32 : Vec F S1x1 .f32) (x33 : Vec F S128x256 .f32) (x34 : Vec F S1x256 .f32) (x35 : Vec F S256x1 .f32) (x36 : Vec F S1x1 .f32) : Vec F S8x129 .f32 :=
  View.canon [⟨r0_8, k0_pay33 (core0 x0 x1 x2 x3 x4 x5 x6 x7 x8 x9 x10 x11 x12 x13 x14 x15 x16 x17 x18 x19 x20 x21 x22 x23 x24 x25 x26 x27 x28 x29 x30 x31 x32 x33 x34 x35 x36)⟩]

theorem cover0_37 (p0 : Vec F S8x129 .f32) (y : S8x129.Idx) :
    ∃ pc ∈ ([⟨r0_8, p0⟩] : List (View.Piece (Elt F) S8x129 .f32)), y ∈ pc.1.set :=
  View.cover_of_tiled [⟨r0_8, p0⟩] S8x129.size (by rfl) y

def out0_38 (x0 : Vec F S8x256x256 .f32) (x1 : Vec F S8x256x256 .f32) (x2 : Vec F S8x256x256 .f32) (x3 : Vec F S8x256x256 .f32) (x4 : Vec F S8x129 .f32) (x5 : Vec F S256x256 .bf16) (x6 : Vec F S1x256 .f32) (x7 : Vec F S256x128 .bf16) (x8 : Vec F S1x128 .f32) (x9 : Vec F S256x256 .bf16) (x10 : Vec F S1x256 .f32) (x11 : Vec F S256x128 .bf16) (x12 : Vec F S1x128 .f32) (x13 : Vec F S128x256 .bf16) (x14 : Vec F S1x256 .f32) (x15 : Vec F S256x128 .bf16) (x16 : Vec F S1x128 .f32) (x17 : Vec F S128x256 .bf16) (x18 : Vec F S1x256 .f32) (x19 : Vec F S256x128 .bf16) (x20 : Vec F S1x128 .f32) (x21 : Vec F S256x256 .bf16) (x22 : Vec F S1x256 .f32) (x23 : Vec F S256x128 .bf16) (x24 : Vec F S1x128 .f32) (x25 : Vec F S128x256 .bf16) (x26 : Vec F S1x256 .f32) (x27 : Vec F S256x128 .bf16) (x28 : Vec F S1x128 .f32) (x29 : Vec F S128x256 .bf16) (x30 : Vec F S1x256 .f32) (x31 : Vec F S256x1 .f32) (x32 : Vec F S1x1 .f32) (x33 : Vec F S128x256 .f32) (x34 : Vec F S1x256 .f32) (x35 : Vec F S256x1 .f32) (x36 : Vec F S1x1 .f32) : Vec F S8x129 .f32 :=
  View.canon [⟨r0_8, k0_pay35 (core0 x0 x1 x2 x3 x4 x5 x6 x7 x8 x9 x10 x11 x12 x13 x14 x15 x16 x17 x18 x19 x20 x21 x22 x23 x24 x25 x26 x27 x28 x29 x30 x31 x32 x33 x34 x35 x36)⟩]

theorem cover0_38 (p0 : Vec F S8x129 .f32) (y : S8x129.Idx) :
    ∃ pc ∈ ([⟨r0_8, p0⟩] : List (View.Piece (Elt F) S8x129 .f32)), y ∈ pc.1.set :=
  View.cover_of_tiled [⟨r0_8, p0⟩] S8x129.size (by rfl) y

def out0_39 (x0 : Vec F S8x256x256 .f32) (x1 : Vec F S8x256x256 .f32) (x2 : Vec F S8x256x256 .f32) (x3 : Vec F S8x256x256 .f32) (x4 : Vec F S8x129 .f32) (x5 : Vec F S256x256 .bf16) (x6 : Vec F S1x256 .f32) (x7 : Vec F S256x128 .bf16) (x8 : Vec F S1x128 .f32) (x9 : Vec F S256x256 .bf16) (x10 : Vec F S1x256 .f32) (x11 : Vec F S256x128 .bf16) (x12 : Vec F S1x128 .f32) (x13 : Vec F S128x256 .bf16) (x14 : Vec F S1x256 .f32) (x15 : Vec F S256x128 .bf16) (x16 : Vec F S1x128 .f32) (x17 : Vec F S128x256 .bf16) (x18 : Vec F S1x256 .f32) (x19 : Vec F S256x128 .bf16) (x20 : Vec F S1x128 .f32) (x21 : Vec F S256x256 .bf16) (x22 : Vec F S1x256 .f32) (x23 : Vec F S256x128 .bf16) (x24 : Vec F S1x128 .f32) (x25 : Vec F S128x256 .bf16) (x26 : Vec F S1x256 .f32) (x27 : Vec F S256x128 .bf16) (x28 : Vec F S1x128 .f32) (x29 : Vec F S128x256 .bf16) (x30 : Vec F S1x256 .f32) (x31 : Vec F S256x1 .f32) (x32 : Vec F S1x1 .f32) (x33 : Vec F S128x256 .f32) (x34 : Vec F S1x256 .f32) (x35 : Vec F S256x1 .f32) (x36 : Vec F S1x1 .f32) : Vec F S8x129 .f32 :=
  View.canon [⟨r0_8, k0_pay34 (core0 x0 x1 x2 x3 x4 x5 x6 x7 x8 x9 x10 x11 x12 x13 x14 x15 x16 x17 x18 x19 x20 x21 x22 x23 x24 x25 x26 x27 x28 x29 x30 x31 x32 x33 x34 x35 x36) (View.ld x4 r0_8)⟩]

theorem cover0_39 (p0 : Vec F S8x129 .f32) (y : S8x129.Idx) :
    ∃ pc ∈ ([⟨r0_8, p0⟩] : List (View.Piece (Elt F) S8x129 .f32)), y ∈ pc.1.set :=
  View.cover_of_tiled [⟨r0_8, p0⟩] S8x129.size (by rfl) y

def out0_40 (x0 : Vec F S8x256x256 .f32) (x1 : Vec F S8x256x256 .f32) (x2 : Vec F S8x256x256 .f32) (x3 : Vec F S8x256x256 .f32) (x4 : Vec F S8x129 .f32) (x5 : Vec F S256x256 .bf16) (x6 : Vec F S1x256 .f32) (x7 : Vec F S256x128 .bf16) (x8 : Vec F S1x128 .f32) (x9 : Vec F S256x256 .bf16) (x10 : Vec F S1x256 .f32) (x11 : Vec F S256x128 .bf16) (x12 : Vec F S1x128 .f32) (x13 : Vec F S128x256 .bf16) (x14 : Vec F S1x256 .f32) (x15 : Vec F S256x128 .bf16) (x16 : Vec F S1x128 .f32) (x17 : Vec F S128x256 .bf16) (x18 : Vec F S1x256 .f32) (x19 : Vec F S256x128 .bf16) (x20 : Vec F S1x128 .f32) (x21 : Vec F S256x256 .bf16) (x22 : Vec F S1x256 .f32) (x23 : Vec F S256x128 .bf16) (x24 : Vec F S1x128 .f32) (x25 : Vec F S128x256 .bf16) (x26 : Vec F S1x256 .f32) (x27 : Vec F S256x128 .bf16) (x28 : Vec F S1x128 .f32) (x29 : Vec F S128x256 .bf16) (x30 : Vec F S1x256 .f32) (x31 : Vec F S256x1 .f32) (x32 : Vec F S1x1 .f32) (x33 : Vec F S128x256 .f32) (x34 : Vec F S1x256 .f32) (x35 : Vec F S256x1 .f32) (x36 : Vec F S1x1 .f32) : Vec F S8x129 .f32 :=
  View.canon [⟨r0_8, k0_pay36 (core0 x0 x1 x2 x3 x4 x5 x6 x7 x8 x9 x10 x11 x12 x13 x14 x15 x16 x17 x18 x19 x20 x21 x22 x23 x24 x25 x26 x27 x28 x29 x30 x31 x32 x33 x34 x35 x36) (View.ld x4 r0_8)⟩]

theorem cover0_40 (p0 : Vec F S8x129 .f32) (y : S8x129.Idx) :
    ∃ pc ∈ ([⟨r0_8, p0⟩] : List (View.Piece (Elt F) S8x129 .f32)), y ∈ pc.1.set :=
  View.cover_of_tiled [⟨r0_8, p0⟩] S8x129.size (by rfl) y

set_option maxHeartbeats 2265600 in
theorem sound_kernel (c : Dev nD) (E : Set ℕ) (i : grid0.Coords) (arg1 : Memref sig .tc .vmem S8x256x256 .f32) (harg1 : arg1.IsWhole) (arg2 : Memref sig .tc .vmem S8x256x256 .f32) (harg2 : arg2.IsWhole) (arg3 : Memref sig .tc .vmem S8x256x256 .f32) (harg3 : arg3.IsWhole) (arg4 : Memref sig .tc .vmem S8x256x256 .f32) (harg4 : arg4.IsWhole) (arg5 : Memref sig .tc .vmem S8x129 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x128 .bf16) (harg8 : arg8.IsWhole) (arg9 : Memref sig .tc .vmem S1x128 .f32) (harg9 : arg9.IsWhole) (arg10 : Memref sig .tc .vmem S256x256 .bf16) (harg10 : arg10.IsWhole) (arg11 : Memref sig .tc .vmem S1x256 .f32) (harg11 : arg11.IsWhole) (arg12 : Memref sig .tc .vmem S256x128 .bf16) (harg12 : arg12.IsWhole) (arg13 : Memref sig .tc .vmem S1x128 .f32) (harg13 : arg13.IsWhole) (arg14 : Memref sig .tc .vmem S128x256 .bf16) (harg14 : arg14.IsWhole) (arg15 : Memref sig .tc .vmem S1x256 .f32) (harg15 : arg15.IsWhole) (arg16 : Memref sig .tc .vmem S256x128 .bf16) (harg16 : arg16.IsWhole) (arg17 : Memref sig .tc .vmem S1x128 .f32) (harg17 : arg17.IsWhole) (arg18 : Memref sig .tc .vmem S128x256 .bf16) (harg18 : arg18.IsWhole) (arg19 : Memref sig .tc .vmem S1x256 .f32) (harg19 : arg19.IsWhole) (arg20 : Memref sig .tc .vmem S256x128 .bf16) (harg20 : arg20.IsWhole) (arg21 : Memref sig .tc .vmem S1x128 .f32) (harg21 : arg21.IsWhole) (arg22 : Memref sig .tc .vmem S256x256 .bf16) (harg22 : arg22.IsWhole) (arg23 : Memref sig .tc .vmem S1x256 .f32) (harg23 : arg23.IsWhole) (arg24 : Memref sig .tc .vmem S256x128 .bf16) (harg24 : arg24.IsWhole) (arg25 : Memref sig .tc .vmem S1x128 .f32) (harg25 : arg25.IsWhole) (arg26 : Memref sig .tc .vmem S128x256 .bf16) (harg26 : arg26.IsWhole) (arg27 : Memref sig .tc .vmem S1x256 .f32) (harg27 : arg27.IsWhole) (arg28 : Memref sig .tc .vmem S256x128 .bf16) (harg28 : arg28.IsWhole) (arg29 : Memref sig .tc .vmem S1x128 .f32) (harg29 : arg29.IsWhole) (arg30 : Memref sig .tc .vmem S128x256 .bf16) (harg30 : arg30.IsWhole) (arg31 : Memref sig .tc .vmem S1x256 .f32) (harg31 : arg31.IsWhole) (arg32 : Memref sig .tc .vmem S256x1 .f32) (harg32 : arg32.IsWhole) (arg33 : Memref sig .tc .vmem S1x1 .f32) (harg33 : arg33.IsWhole) (arg34 : Memref sig .tc .vmem S128x256 .f32) (harg34 : arg34.IsWhole) (arg35 : Memref sig .tc .vmem S1x256 .f32) (harg35 : arg35.IsWhole) (arg36 : Memref sig .tc .vmem S256x1 .f32) (harg36 : arg36.IsWhole) (arg37 : Memref sig .tc .vmem S1x1 .f32) (harg37 : arg37.IsWhole) (arg38 : Memref sig .tc .vmem S8x129 .f32) (harg38 : arg38.IsWhole) (arg39 : Memref sig .tc .vmem S8x129 .f32) (harg39 : arg39.IsWhole) (arg40 : Memref sig .tc .vmem S8x129 .f32) (harg40 : arg40.IsWhole) (arg41 : Memref sig .tc .vmem S8x129 .f32) (harg41 : arg41.IsWhole)
    (x0 : Vec F S8x256x256 .f32) (x1 : Vec F S8x256x256 .f32) (x2 : Vec F S8x256x256 .f32) (x3 : Vec F S8x256x256 .f32) (x4 : Vec F S8x129 .f32) (x5 : Vec F S256x256 .bf16) (x6 : Vec F S1x256 .f32) (x7 : Vec F S256x128 .bf16) (x8 : Vec F S1x128 .f32) (x9 : Vec F S256x256 .bf16) (x10 : Vec F S1x256 .f32) (x11 : Vec F S256x128 .bf16) (x12 : Vec F S1x128 .f32) (x13 : Vec F S128x256 .bf16) (x14 : Vec F S1x256 .f32) (x15 : Vec F S256x128 .bf16) (x16 : Vec F S1x128 .f32) (x17 : Vec F S128x256 .bf16) (x18 : Vec F S1x256 .f32) (x19 : Vec F S256x128 .bf16) (x20 : Vec F S1x128 .f32) (x21 : Vec F S256x256 .bf16) (x22 : Vec F S1x256 .f32) (x23 : Vec F S256x128 .bf16) (x24 : Vec F S1x128 .f32) (x25 : Vec F S128x256 .bf16) (x26 : Vec F S1x256 .f32) (x27 : Vec F S256x128 .bf16) (x28 : Vec F S1x128 .f32) (x29 : Vec F S128x256 .bf16) (x30 : Vec F S1x256 .f32) (x31 : Vec F S256x1 .f32) (x32 : Vec F S1x1 .f32) (x33 : Vec F S128x256 .f32) (x34 : Vec F S1x256 .f32) (x35 : Vec F S256x1 .f32) (x36 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare x30 ∗ owns (c : Thread nD τ) arg32 fullShare x31 ∗ owns (c : Thread nD τ) arg33 fullShare x32 ∗ owns (c : Thread nD τ) arg34 fullShare x33 ∗ owns (c : Thread nD τ) arg35 fullShare x34 ∗ owns (c : Thread nD τ) arg36 fullShare x35 ∗ owns (c : Thread nD τ) arg37 fullShare x36 ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare x30 ∗ owns (c : Thread nD τ) arg32 fullShare x31 ∗ owns (c : Thread nD τ) arg33 fullShare x32 ∗ owns (c : Thread nD τ) arg34 fullShare x33 ∗ owns (c : Thread nD τ) arg35 fullShare x34 ∗ owns (c : Thread nD τ) arg36 fullShare x35 ∗ owns (c : Thread nD τ) arg37 fullShare x36 ∗ owns (c : Thread nD τ) arg38 fullShare (out0_37 x0 x1 x2 x3 x4 x5 x6 x7 x8 x9 x10 x11 x12 x13 x14 x15 x16 x17 x18 x19 x20 x21 x22 x23 x24 x25 x26 x27 x28 x29 x30 x31 x32 x33 x34 x35 x36) ∗ owns (c : Thread nD τ) arg39 fullShare (out0_38 x0 x1 x2 x3 x4 x5 x6 x7 x8 x9 x10 x11 x12 x13 x14 x15 x16 x17 x18 x19 x20 x21 x22 x23 x24 x25 x26 x27 x28 x29 x30 x31 x32 x33 x34 x35 x36) ∗ owns (c : Thread nD τ) arg40 fullShare (out0_39 x0 x1 x2 x3 x4 x5 x6 x7 x8 x9 x10 x11 x12 x13 x14 x15 x16 x17 x18 x19 x20 x21 x22 x23 x24 x25 x26 x27 x28 x29 x30 x31 x32 x33 x34 x35 x36) ∗ owns (c : Thread nD τ) arg41 fullShare (out0_40 x0 x1 x2 x3 x4 x5 x6 x7 x8 x9 x10 x11 x12 x13 x14 x15 x16 x17 x18 x19 x20 x21 x22 x23 x24 x25 x26 x27 x28 x29 x30 x31 x32 x33 x34 x35 x36)) -∗ K ⟨⟩))
      ⊢ wp frame (wpE (defs₀ (F := F)) Variants.none c none) E (cc0_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41) K := by
  simp only [cc0_body_eq_skeleton]; unfold cc0_body_skel
  simp only [k0_part10_eq_skeleton]; unfold k0_part10_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  simp only [k0_part7_eq_skeleton]; unfold k0_part7_skel
  simp only [k0_part8_eq_skeleton]; unfold k0_part8_skel
  simp only [k0_part9_eq_skeleton]; unfold k0_part9_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩, ⟨%d37, %f37, -, H37⟩, ⟨%d38, %f38, -, H38⟩, ⟨%d39, %f39, -, H39⟩, ⟨%d40, %f40, -, H40⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33 hf34 hf35 hf36
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists f34; isplitr; · ipureintro; rfl
    iexact H34
  isplitl [H35]
  · iexists f35; isplitr; · ipureintro; rfl
    iexact H35
  isplitl [H36]
  · iexists f36; isplitr; · ipureintro; rfl
    iexact H36
  isplitl [H37]
  · iexists _; isplitr
    swap; · iexact H37
    ipureintro
    try dsimp only
    exact View.read_writes_eq_canon _ _ _ (cover0_37 _)
  isplitl [H38]
  · iexists _; isplitr
    swap; · iexact H38
    ipureintro
    try dsimp only
    exact View.read_writes_eq_canon _ _ _ (cover0_38 _)
  isplitl [H39]
  · iexists _; isplitr
    swap; · iexact H39
    ipureintro
    try dsimp only
    exact View.read_writes_eq_canon _ _ _ (cover0_39 _)
  iexists _; isplitr
  swap; · iexact H40
  ipureintro
  try dsimp only
  exact View.read_writes_eq_canon _ _ _ (cover0_40 _)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => iblk m c 34 t
    | ⟨35, _⟩ => iblk m c 35 t
    | ⟨36, _⟩ => iblk m c 36 t
    | ⟨37, _⟩ => out0_37 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t)
    | ⟨38, _⟩ => out0_38 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t)
    | ⟨39, _⟩ => out0_39 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t)
    | ⟨40, _⟩ => out0_40 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t)
    | ⟨_ + 41, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = iblk m c 30 t := by dsimp only [dats]
theorem after0_31 (c : Dev nD) (t : Fin cfg0.N) : (dats m 0 c).after 31 t = iblk m c 31 t := by dsimp only [dats]
theorem after0_32 (c : Dev nD) (t : Fin cfg0.N) : (dats m 0 c).after 32 t = iblk m c 32 t := by dsimp only [dats]
theorem after0_33 (c : Dev nD) (t : Fin cfg0.N) : (dats m 0 c).after 33 t = iblk m c 33 t := by dsimp only [dats]
theorem after0_34 (c : Dev nD) (t : Fin cfg0.N) : (dats m 0 c).after 34 t = iblk m c 34 t := by dsimp only [dats]
theorem after0_35 (c : Dev nD) (t : Fin cfg0.N) : (dats m 0 c).after 35 t = iblk m c 35 t := by dsimp only [dats]
theorem after0_36 (c : Dev nD) (t : Fin cfg0.N) : (dats m 0 c).after 36 t = iblk m c 36 t := by dsimp only [dats]
theorem after0_37 (c : Dev nD) (t : Fin cfg0.N) : (dats m 0 c).after 37 t = out0_37 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) := by dsimp only [dats]
theorem after0_38 (c : Dev nD) (t : Fin cfg0.N) : (dats m 0 c).after 38 t = out0_38 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) := by dsimp only [dats]
theorem after0_39 (c : Dev nD) (t : Fin cfg0.N) : (dats m 0 c).after 39 t = out0_39 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) := by dsimp only [dats]
theorem after0_40 (c : Dev nD) (t : Fin cfg0.N) : (dats m 0 c).after 40 t = out0_40 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) := by dsimp only [dats]

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl)
    (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl)
    (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl)
    (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl)
    (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl)
    (fun t => by rw [after0_11]; unfold Dat.blockOf iblk; rw [A_eq]; try rfl) t d).trans
    (by unfold Dat.fetched Dat.blockOf iblk; rw [A_eq]; try rfl)
theorem before0_12 (c : Dev nD) (t : Fin cfg0.N) (d) : (dats m 0 c).before 12 t d = iblk m c 12 t :=
  ((dats m 0 c).before_in_eq_fetched 12 rfl (fun _ => rfl) (fun _ _ _ => rfl)
    (fun t => by rw [after0_12]; unfold Dat.blockOf iblk; rw [A_eq]; try rfl) t d).trans
    (by unfold Dat.fetched Dat.blockOf iblk; rw [A_eq]; try rfl)
theorem before0_13 (c : Dev nD) (t : Fin cfg0.N) (d) : (dats m 0 c).before 13 t d = iblk m c 13 t :=
  ((dats m 0 c).before_in_eq_fetched 13 rfl (fun _ => rfl) (fun _ _ _ => rfl)
    (fun t => by rw [after0_13]; unfold Dat.blockOf iblk; rw [A_eq]; try rfl) t d).trans
    (by unfold Dat.fetched Dat.blockOf iblk; rw [A_eq]; try rfl)
theorem before0_14 (c : Dev nD) (t : Fin cfg0.N) (d) : (dats m 0 c).before 14 t d = iblk m c 14 t :=
  ((dats m 0 c).before_in_eq_fetched 14 rfl (fun _ => rfl) (fun _ _ _ => rfl)
    (fun t => by rw [after0_14]; unfold Dat.blockOf iblk; rw [A_eq]; try rfl) t d).trans
    (by unfold Dat.fetched Dat.blockOf iblk; rw [A_eq]; try rfl)
theorem before0_15 (c : Dev nD) (t : Fin cfg0.N) (d) : (dats m 0 c).before 15 t d = iblk m c 15 t :=
  ((dats m 0 c).before_in_eq_fetched 15 rfl (fun _ => rfl) (fun _ _ _ => rfl)
    (fun t => by rw [after0_15]; unfold Dat.blockOf iblk; rw [A_eq]; try rfl) t d).trans
    (by unfold Dat.fetched Dat.blockOf iblk; rw [A_eq]; try rfl)
theorem before0_16 (c : Dev nD) (t : Fin cfg0.N) (d) : (dats m 0 c).before 16 t d = iblk m c 16 t :=
  ((dats m 0 c).before_in_eq_fetched 16 rfl (fun _ => rfl) (fun _ _ _ => rfl)
    (fun t => by rw [after0_16]; unfold Dat.blockOf iblk; rw [A_eq]; try rfl) t d).trans
    (by unfold Dat.fetched Dat.blockOf iblk; rw [A_eq]; try rfl)
theorem before0_17 (c : Dev nD) (t : Fin cfg0.N) (d) : (dats m 0 c).before 17 t d = iblk m c 17 t :=
  ((dats m 0 c).before_in_eq_fetched 17 rfl (fun _ => rfl) (fun _ _ _ => rfl)
    (fun t => by rw [after0_17]; unfold Dat.blockOf iblk; rw [A_eq]; try rfl) t d).trans
    (by unfold Dat.fetched Dat.blockOf iblk; rw [A_eq]; try rfl)
theorem before0_18 (c : Dev nD) (t : Fin cfg0.N) (d) : (dats m 0 c).before 18 t d = iblk m c 18 t :=
  ((dats m 0 c).before_in_eq_fetched 18 rfl (fun _ => rfl) (fun _ _ _ => rfl)
    (fun t => by rw [after0_18]; unfold Dat.blockOf iblk; rw [A_eq]; try rfl) t d).trans
    (by unfold Dat.fetched Dat.blockOf iblk; rw [A_eq]; try rfl)
theorem before0_19 (c : Dev nD) (t : Fin cfg0.N) (d) : (dats m 0 c).before 19 t d = iblk m c 19 t :=
  ((dats m 0 c).before_in_eq_fetched 19 rfl (fun _ => rfl) (fun _ _ _ => rfl)
    (fun t => by rw [after0_19]; unfold Dat.blockOf iblk; rw [A_eq]; try rfl) t d).trans
    (by unfold Dat.fetched Dat.blockOf iblk; rw [A_eq]; try rfl)
theorem before0_20 (c : Dev nD) (t : Fin cfg0.N) (d) : (dats m 0 c).before 20 t d = iblk m c 20 t :=
  ((dats m 0 c).before_in_eq_fetched 20 rfl (fun _ => rfl) (fun _ _ _ => rfl)
    (fun t => by rw [after0_20]; unfold Dat.blockOf iblk; rw [A_eq]; try rfl) t d).trans
    (by unfold Dat.fetched Dat.blockOf iblk; rw [A_eq]; try rfl)
theorem before0_21 (c : Dev nD) (t : Fin cfg0.N) (d) : (dats m 0 c).before 21 t d = iblk m c 21 t :=
  ((dats m 0 c).before_in_eq_fetched 21 rfl (fun _ => rfl) (fun _ _ _ => rfl)
    (fun t => by rw [after0_21]; unfold Dat.blockOf iblk; rw [A_eq]; try rfl) t d).trans
    (by unfold Dat.fetched Dat.blockOf iblk; rw [A_eq]; try rfl)
theorem before0_22 (c : Dev nD) (t : Fin cfg0.N) (d) : (dats m 0 c).before 22 t d = iblk m c 22 t :=
  ((dats m 0 c).before_in_eq_fetched 22 rfl (fun _ => rfl) (fun _ _ _ => rfl)
    (fun t => by rw [after0_22]; unfold Dat.blockOf iblk; rw [A_eq]; try rfl) t d).trans
    (by unfold Dat.fetched Dat.blockOf iblk; rw [A_eq]; try rfl)
theorem before0_23 (c : Dev nD) (t : Fin cfg0.N) (d) : (dats m 0 c).before 23 t d = iblk m c 23 t :=
  ((dats m 0 c).before_in_eq_fetched 23 rfl (fun _ => rfl) (fun _ _ _ => rfl)
    (fun t => by rw [after0_23]; unfold Dat.blockOf iblk; rw [A_eq]; try rfl) t d).trans
    (by unfold Dat.fetched Dat.blockOf iblk; rw [A_eq]; try rfl)
theorem before0_24 (c : Dev nD) (t : Fin cfg0.N) (d) : (dats m 0 c).before 24 t d = iblk m c 24 t :=
  ((dats m 0 c).before_in_eq_fetched 24 rfl (fun _ => rfl) (fun _ _ _ => rfl)
    (fun t => by rw [after0_24]; unfold Dat.blockOf iblk; rw [A_eq]; try rfl) t d).trans
    (by unfold Dat.fetched Dat.blockOf iblk; rw [A_eq]; try rfl)
theorem before0_25 (c : Dev nD) (t : Fin cfg0.N) (d) : (dats m 0 c).before 25 t d = iblk m c 25 t :=
  ((dats m 0 c).before_in_eq_fetched 25 rfl (fun _ => rfl) (fun _ _ _ => rfl)
    (fun t => by rw [after0_25]; unfold Dat.blockOf iblk; rw [A_eq]; try rfl) t d).trans
    (by unfold Dat.fetched Dat.blockOf iblk; rw [A_eq]; try rfl)
theorem before0_26 (c : Dev nD) (t : Fin cfg0.N) (d) : (dats m 0 c).before 26 t d = iblk m c 26 t :=
  ((dats m 0 c).before_in_eq_fetched 26 rfl (fun _ => rfl) (fun _ _ _ => rfl)
    (fun t => by rw [after0_26]; unfold Dat.blockOf iblk; rw [A_eq]; try rfl) t d).trans
    (by unfold Dat.fetched Dat.blockOf iblk; rw [A_eq]; try rfl)
theorem before0_27 (c : Dev nD) (t : Fin cfg0.N) (d) : (dats m 0 c).before 27 t d = iblk m c 27 t :=
  ((dats m 0 c).before_in_eq_fetched 27 rfl (fun _ => rfl) (fun _ _ _ => rfl)
    (fun t => by rw [after0_27]; unfold Dat.blockOf iblk; rw [A_eq]; try rfl) t d).trans
    (by unfold Dat.fetched Dat.blockOf iblk; rw [A_eq]; try rfl)
theorem before0_28 (c : Dev nD) (t : Fin cfg0.N) (d) : (dats m 0 c).before 28 t d = iblk m c 28 t :=
  ((dats m 0 c).before_in_eq_fetched 28 rfl (fun _ => rfl) (fun _ _ _ => rfl)
    (fun t => by rw [after0_28]; unfold Dat.blockOf iblk; rw [A_eq]; try rfl) t d).trans
    (by unfold Dat.fetched Dat.blockOf iblk; rw [A_eq]; try rfl)
theorem before0_29 (c : Dev nD) (t : Fin cfg0.N) (d) : (dats m 0 c).before 29 t d = iblk m c 29 t :=
  ((dats m 0 c).before_in_eq_fetched 29 rfl (fun _ => rfl) (fun _ _ _ => rfl)
    (fun t => by rw [after0_29]; unfold Dat.blockOf iblk; rw [A_eq]; try rfl) t d).trans
    (by unfold Dat.fetched Dat.blockOf iblk; rw [A_eq]; try rfl)
theorem before0_30 (c : Dev nD) (t : Fin cfg0.N) (d) : (dats m 0 c).before 30 t d = iblk m c 30 t :=
  ((dats m 0 c).before_in_eq_fetched 30 rfl (fun _ => rfl) (fun _ _ _ => rfl)
    (fun t => by rw [after0_30]; unfold Dat.blockOf iblk; rw [A_eq]; try rfl) t d).trans
    (by unfold Dat.fetched Dat.blockOf iblk; rw [A_eq]; try rfl)
theorem before0_31 (c : Dev nD) (t : Fin cfg0.N) (d) : (dats m 0 c).before 31 t d = iblk m c 31 t :=
  ((dats m 0 c).before_in_eq_fetched 31 rfl (fun _ => rfl) (fun _ _ _ => rfl)
    (fun t => by rw [after0_31]; unfold Dat.blockOf iblk; rw [A_eq]; try rfl) t d).trans
    (by unfold Dat.fetched Dat.blockOf iblk; rw [A_eq]; try rfl)
theorem before0_32 (c : Dev nD) (t : Fin cfg0.N) (d) : (dats m 0 c).before 32 t d = iblk m c 32 t :=
  ((dats m 0 c).before_in_eq_fetched 32 rfl (fun _ => rfl) (fun _ _ _ => rfl)
    (fun t => by rw [after0_32]; unfold Dat.blockOf iblk; rw [A_eq]; try rfl) t d).trans
    (by unfold Dat.fetched Dat.blockOf iblk; rw [A_eq]; try rfl)
theorem before0_33 (c : Dev nD) (t : Fin cfg0.N) (d) : (dats m 0 c).before 33 t d = iblk m c 33 t :=
  ((dats m 0 c).before_in_eq_fetched 33 rfl (fun _ => rfl) (fun _ _ _ => rfl)
    (fun t => by rw [after0_33]; unfold Dat.blockOf iblk; rw [A_eq]; try rfl) t d).trans
    (by unfold Dat.fetched Dat.blockOf iblk; rw [A_eq]; try rfl)
theorem before0_34 (c : Dev nD) (t : Fin cfg0.N) (d) : (dats m 0 c).before 34 t d = iblk m c 34 t :=
  ((dats m 0 c).before_in_eq_fetched 34 rfl (fun _ => rfl) (fun _ _ _ => rfl)
    (fun t => by rw [after0_34]; unfold Dat.blockOf iblk; rw [A_eq]; try rfl) t d).trans
    (by unfold Dat.fetched Dat.blockOf iblk; rw [A_eq]; try rfl)
theorem before0_35 (c : Dev nD) (t : Fin cfg0.N) (d) : (dats m 0 c).before 35 t d = iblk m c 35 t :=
  ((dats m 0 c).before_in_eq_fetched 35 rfl (fun _ => rfl) (fun _ _ _ => rfl)
    (fun t => by rw [after0_35]; unfold Dat.blockOf iblk; rw [A_eq]; try rfl) t d).trans
    (by unfold Dat.fetched Dat.blockOf iblk; rw [A_eq]; try rfl)
theorem before0_36 (c : Dev nD) (t : Fin cfg0.N) (d) : (dats m 0 c).before 36 t d = iblk m c 36 t :=
  ((dats m 0 c).before_in_eq_fetched 36 rfl (fun _ => rfl) (fun _ _ _ => rfl)
    (fun t => by rw [after0_36]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d))
    ∗ (∃ d, owns (c : Thread nD τ) (st0_37 t) fullShare ((dats m 0 c).before 37 t d))
    ∗ (∃ d, owns (c : Thread nD τ) (st0_38 t) fullShare ((dats m 0 c).before 38 t d))
    ∗ (∃ d, owns (c : Thread nD τ) (st0_39 t) fullShare ((dats m 0 c).before 39 t d))
    ∗ (∃ d, owns (c : Thread nD τ) (st0_40 t) fullShare ((dats m 0 c).before 40 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t)
    ∗ owns (c : Thread nD τ) (st0_37 t) fullShare ((dats m 0 c).after 37 t)
    ∗ owns (c : Thread nD τ) (st0_38 t) fullShare ((dats m 0 c).after 38 t)
    ∗ owns (c : Thread nD τ) (st0_39 t) fullShare ((dats m 0 c).after 39 t)
    ∗ owns (c : Thread nD τ) (st0_40 t) fullShare ((dats m 0 c).after 40 t))

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32, before0_33, before0_34, before0_35, before0_36]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37, after0_38, after0_39, after0_40]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexists _; iexact H37
  isplitl [H38]; · iexists _; iexact H38
  isplitl [H39]; · iexists _; iexact H39
  isplitl [H40]; · iexists _; iexact H40
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  iexact H40

set_option maxHeartbeats 8000000 in
theorem body_obligation (c : Dev nD) : BodyObligation (dats (F := F) m 0 c) (defs₀ (F := F)) Variants.none () Set.univ := fun t => by
  rw [bigSep_W0, bigSep_W0]
  exact sound_body m c t

set_option backward.isDefEq.respectTransparency.types false in
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- info: 'Cert.Kernel.GenP.run_main' depends on axioms: [propext, Classical.choice, Quot.sound] -/
#guard_msgs in #print axioms run_main

set_option maxHeartbeats 2460000 in
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (V_low m c main_arg5 (by decide)),
      ((h c).2 main_arg6 (Pipeline.mem_restRefs_of main_arg6 (by decide) (by decide))).trans (V_low m c main_arg6 (by decide)),
      ((h c).2 main_arg7 (Pipeline.mem_restRefs_of main_arg7 (by decide) (by decide))).trans (V_low m c main_arg7 (by decide)),
      ((h c).2 main_arg8 (Pipeline.mem_restRefs_of main_arg8 (by decide) (by decide))).trans (V_low m c main_arg8 (by decide)),
      ((h c).2 main_arg9 (Pipeline.mem_restRefs_of main_arg9 (by decide) (by decide))).trans (V_low m c main_arg9 (by decide)),
      ((h c).2 main_arg10 (Pipeline.mem_restRefs_of main_arg10 (by decide) (by decide))).trans (V_low m c main_arg10 (by decide)),
      ((h c).2 main_arg11 (Pipeline.mem_restRefs_of main_arg11 (by decide) (by decide))).trans (V_low m c main_arg11 (by decide)),
      ((h c).2 main_arg12 (Pipeline.mem_restRefs_of main_arg12 (by decide) (by decide))).trans (V_low m c main_arg12 (by decide)),
      ((h c).2 main_arg13 (Pipeline.mem_restRefs_of main_arg13 (by decide) (by decide))).trans (V_low m c main_arg13 (by decide)),
      ((h c).2 main_arg14 (Pipeline.mem_restRefs_of main_arg14 (by decide) (by decide))).trans (V_low m c main_arg14 (by decide)),
      ((h c).2 main_arg15 (Pipeline.mem_restRefs_of main_arg15 (by decide) (by decide))).trans (V_low m c main_arg15 (by decide)),
      ((h c).2 main_arg16 (Pipeline.mem_restRefs_of main_arg16 (by decide) (by decide))).trans (V_low m c main_arg16 (by decide)),
      ((h c).2 main_arg17 (Pipeline.mem_restRefs_of main_arg17 (by decide) (by decide))).trans (V_low m c main_arg17 (by decide)),
      ((h c).2 main_arg18 (Pipeline.mem_restRefs_of main_arg18 (by decide) (by decide))).trans (V_low m c main_arg18 (by decide)),
      ((h c).2 main_arg19 (Pipeline.mem_restRefs_of main_arg19 (by decide) (by decide))).trans (V_low m c main_arg19 (by decide)),
      ((h c).2 main_arg20 (Pipeline.mem_restRefs_of main_arg20 (by decide) (by decide))).trans (V_low m c main_arg20 (by decide)),
      ((h c).2 main_arg21 (Pipeline.mem_restRefs_of main_arg21 (by decide) (by decide))).trans (V_low m c main_arg21 (by decide)),
      ((h c).2 main_arg22 (Pipeline.mem_restRefs_of main_arg22 (by decide) (by decide))).trans (V_low m c main_arg22 (by decide)),
      ((h c).2 main_arg23 (Pipeline.mem_restRefs_of main_arg23 (by decide) (by decide))).trans (V_low m c main_arg23 (by decide)),
      ((h c).2 main_arg24 (Pipeline.mem_restRefs_of main_arg24 (by decide) (by decide))).trans (V_low m c main_arg24 (by decide)),
      ((h c).2 main_arg25 (Pipeline.mem_restRefs_of main_arg25 (by decide) (by decide))).trans (V_low m c main_arg25 (by decide)),
      ((h c).2 main_arg26 (Pipeline.mem_restRefs_of main_arg26 (by decide) (by decide))).trans (V_low m c main_arg26 (by decide)),
      ((h c).2 main_arg27 (Pipeline.mem_restRefs_of main_arg27 (by decide) (by decide))).trans (V_low m c main_arg27 (by decide)),
      ((h c).2 main_arg28 (Pipeline.mem_restRefs_of main_arg28 (by decide) (by decide))).trans (V_low m c main_arg28 (by decide)),
      ((h c).2 main_arg29 (Pipeline.mem_restRefs_of main_arg29 (by decide) (by decide))).trans (V_low m c main_arg29 (by decide)),
      ((h c).2 main_arg30 (Pipeline.mem_restRefs_of main_arg30 (by decide) (by decide))).trans (V_low m c main_arg30 (by decide)),
      ((h c).1 31).trans (((dats m 0 c).arrAt_in 31 rfl _).trans ((A_eq m c 31).trans (V_main_arg31 m c))),
      ((h c).2 main_arg32 (Pipeline.mem_restRefs_of main_arg32 (by decide) (by decide))).trans (V_low m c main_arg32 (by decide)),
      ((h c).1 33).trans (((dats m 0 c).arrAt_in 33 rfl _).trans ((A_eq m c 33).trans (V_main_arg33 m c))),
      ((h c).2 main_arg34 (Pipeline.mem_restRefs_of main_arg34 (by decide) (by decide))).trans (V_low m c main_arg34 (by decide)),
      ((h c).1 35).trans (((dats m 0 c).arrAt_in 35 rfl _).trans ((A_eq m c 35).trans (V_main_arg35 m c))),
      ((h c).2 main_arg36 (Pipeline.mem_restRefs_of main_arg36 (by decide) (by decide))).trans (V_low m c main_arg36 (by decide))⟩) (run_main m ρ)

end Cert.Kernel.GenP

end
-- ==== Proof.KernelIdealFrameP.lean ====
import proofs.«126533_g2000204636238536_pallasbulk_491_2_alg».proof.Proof.Gen.KernelIdeal.Launch
import proofs.«126533_g2000204636238536_pallasbulk_491_2_alg».proof.Proof.Gen.KernelIdeal.Skeleton
import proofs.«126533_g2000204636238536_pallasbulk_491_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.GenP

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

def WritesFrom (k : ℕ) (op : HloOp τ sig (Elt F)) : Prop :=
  ∀ x ∈ op.writes, ∃ y : Ref sig .tc, k ≤ y.idx ∧ Proc.devRef .tc y = x

/-- Every host operation's result has index at least 37. -/
theorem hostOps0_writes : (hostOps0 (F := F)).Forall (WritesFrom 37) := by
  simp only [hostOps0, List.Forall, WritesFrom, StableHlo.nullary_writes, StableHlo.unary_writes, StableHlo.binary_writes,
    StableHlo.ternary_writes, StableHlo.quaternary_writes, StableHlo.reshape_writes, StableHlo.binaryIndexed_writes,
    Finset.mem_singleton, forall_eq]
  repeat' apply And.intro
  all_goals exact ⟨_, by decide, rfl⟩

/-- An argument has index below 37, so no host operation writes it: the region finds it as launched. -/
theorem V_low (c : Dev nD) (b : Ref sig .tc) (hb : b.idx.val < 37) : V m c b = m ((c : Thread nD τ).loc b) :=
  StableHlo.after_of_forall_not_mem (b := Proc.devRef .tc b) _ _ fun op hop hx => by
    obtain ⟨y, hy, he⟩ := List.forall_iff_forall_mem.mp hostOps0_writes op hop _ hx
    exact absurd (Proc.devRef_injective _ he ▸ hy) (not_le.mpr hb)

theorem V_main_arg0 (c : Dev nD) : V m c main_arg0 = m ((c : Thread nD τ).loc main_arg0) := V_low m c _ (by decide)
theorem V_main_arg1 (c : Dev nD) : V m c main_arg1 = m ((c : Thread nD τ).loc main_arg1) := V_low m c _ (by decide)
theorem V_main_arg2 (c : Dev nD) : V m c main_arg2 = m ((c : Thread nD τ).loc main_arg2) := V_low m c _ (by decide)
theorem V_main_arg3 (c : Dev nD) : V m c main_arg3 = m ((c : Thread nD τ).loc main_arg3) := V_low m c _ (by decide)
theorem V_main_arg4 (c : Dev nD) : V m c main_arg4 = m ((c : Thread nD τ).loc main_arg4) := V_low m c _ (by decide)
theorem V_main_arg31 (c : Dev nD) : V m c main_arg31 = m ((c : Thread nD τ).loc main_arg31) := V_low m c _ (by decide)
theorem V_main_arg33 (c : Dev nD) : V m c main_arg33 = m ((c : Thread nD τ).loc main_arg33) := V_low m c _ (by decide)
theorem V_main_arg35 (c : Dev nD) : V m c main_arg35 = m ((c : Thread nD τ).loc main_arg35) := V_low m c _ (by decide)

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev r0_0 : Rect S8x256x256 := Rect.unit (s := S8x256x256) ![0, 0, 0] S8x256x256.size inb_S8x256x256_S8x256x256_0_0_0
abbrev r0_1 : Rect S256x256 := Rect.unit (s := S256x256) ![0, 0] S256x256.size inb_S256x256_S256x256_0_0
abbrev r0_2 : Rect S1x256 := Rect.unit (s := S1x256) ![0, 0] S1x256.size inb_S1x256_S1x256_0_0
abbrev r0_3 : Rect S256x128 := Rect.unit (s := S256x128) ![0, 0] S256x128.size inb_S256x128_S256x128_0_0
abbrev r0_4 : Rect S1x128 := Rect.unit (s := S1x128) ![0, 0] S1x128.size inb_S1x128_S1x128_0_0
abbrev r0_5 : Rect S128x256 := Rect.unit (s := S128x256) ![0, 0] S128x256.size inb_S128x256_S128x256_0_0
abbrev r0_6 : Rect S256x1 := Rect.unit (s := S256x1) ![0, 0] S256x1.size inb_S256x1_S256x1_0_0
abbrev r0_7 : Rect S1x1 := Rect.unit (s := S1x1) ![0, 0] S1x1.size inb_S1x1_S1x1_0_0
abbrev r0_8 : Rect S8x129 := Rect.unit (s := S8x129) ![0, 0] S8x129.size inb_S8x129_S8x129_0_0

/-- The value all four outputs are computed from. -/
def core0 (x0 : Vec F S8x256x256 .f32) (x1 : Vec F S8x256x256 .f32) (x2 : Vec F S8x256x256 .f32) (x3 : Vec F S8x256x256 .f32) (x4 : Vec F S8x129 .f32) (x5 : Vec F S256x256 .bf16) (x6 : Vec F S1x256 .f32) (x7 : Vec F S256x128 .bf16) (x8 : Vec F S1x128 .f32) (x9 : Vec F S256x256 .bf16) (x10 : Vec F S1x256 .f32) (x11 : Vec F S256x128 .bf16) (x12 : Vec F S1x128 .f32) (x13 : Vec F S128x256 .bf16) (x14 : Vec F S1x256 .f32) (x15 : Vec F S256x128 .bf16) (x16 : Vec F S1x128 .f32) (x17 : Vec F S128x256 .bf16) (x18 : Vec F S1x256 .f32) (x19 : Vec F S256x128 .bf16) (x20 : Vec F S1x128 .f32) (x21 : Vec F S256x256 .bf16) (x22 : Vec F S1x256 .f32) (x23 : Vec F S256x128 .bf16) (x24 : Vec F S1x128 .f32) (x25 : Vec F S128x256 .bf16) (x26 : Vec F S1x256 .f32) (x27 : Vec F S256x128 .bf16) (x28 : Vec F S1x128 .f32) (x29 : Vec F S128x256 .bf16) (x30 : Vec F S1x256 .f32) (x31 : Vec F S256x1 .f32) (x32 : Vec F S1x1 .f32) (x33 : Vec F S128x256 .f32) (x34 : Vec F S1x256 .f32) (x35 : Vec F S256x1 .f32) (x36 : Vec F S1x1 .f32) : FVec F S8x129 .f32 :=
  k0_pay32 (k0_pay30 (k0_pay27 (k0_pay7 (View.ld x2 r0_0)) (k0_pay8 (View.ld x3 r0_0)) (k0_pay24 (k0_pay7 (View.ld x2 r0_0)) (k0_pay17 (k0_pay7 (View.ld x2 r0_0)) (k0_pay10 (k0_pay2 (View.ld x0 r0_0) (View.ld x5 r0_1) (View.ld x6 r0_2) (View.ld x7 r0_3) (View.ld x8 r0_4)) (k0_pay7 (View.ld x2 r0_0)) (k0_pay9 (k0_pay2 (View.ld x0 r0_0) (View.ld x5 r0_1) (View.ld x6 r0_2) (View.ld x7 r0_3) (View.ld x8 r0_4)) (View.ld x13 r0_5) (View.ld x14 r0_2) (View.ld x15 r0_3) (View.ld x16 r0_4)) (Scalar.ofBits .f32 0x3C23D70A#32)) (k0_pay16 (k0_pay12 (k0_pay2 (View.ld x0 r0_0) (View.ld x5 r0_1) (View.ld x6 r0_2) (View.ld x7 r0_3) (View.ld x8 r0_4)) (k0_pay7 (View.ld x2 r0_0)) (k0_pay9 (k0_pay2 (View.ld x0 r0_0) (View.ld x5 r0_1) (View.ld x6 r0_2) (View.ld x7 r0_3) (View.ld x8 r0_4)) (View.ld x13 r0_5) (View.ld x14 r0_2) (View.ld x15 r0_3) (View.ld x16 r0_4)) (Scalar.ofBits .f32 0x3C23D70A#32)) (k0_pay13 (View.ld x13 r0_5)) (k0_pay14 (View.ld x14 r0_2)) (View.ld x15 r0_3) (View.ld x16 r0_4))) (k0_pay19 (k0_pay7 (View.ld x2 r0_0)) (k0_pay10 (k0_pay2 (View.ld x0 r0_0) (View.ld x5 r0_1) (View.ld x6 r0_2) (View.ld x7 r0_3) (View.ld x8 r0_4)) (k0_pay7 (View.ld x2 r0_0)) (k0_pay9 (k0_pay2 (View.ld x0 r0_0) (View.ld x5 r0_1) (View.ld x6 r0_2) (View.ld x7 r0_3) (View.ld x8 r0_4)) (View.ld x13 r0_5) (View.ld x14 r0_2) (View.ld x15 r0_3) (View.ld x16 r0_4)) (Scalar.ofBits .f32 0x3C23D70A#32)) (k0_pay16 (k0_pay12 (k0_pay2 (View.ld x0 r0_0) (View.ld x5 r0_1) (View.ld x6 r0_2) (View.ld x7 r0_3) (View.ld x8 r0_4)) (k0_pay7 (View.ld x2 r0_0)) (k0_pay9 (k0_pay2 (View.ld x0 r0_0) (View.ld x5 r0_1) (View.ld x6 r0_2) (View.ld x7 r0_3) (View.ld x8 r0_4)) (View.ld x13 r0_5) (View.ld x14 r0_2) (View.ld x15 r0_3) (View.ld x16 r0_4)) (Scalar.ofBits .f32 0x3C23D70A#32)) (k0_pay13 (View.ld x13 r0_5)) (k0_pay14 (View.ld x14 r0_2)) (View.ld x15 r0_3) (View.ld x16 r0_4)) (View.ld x13 r0_5) (View.ld x14 r0_2) (View.ld x15 r0_3) (View.ld x16 r0_4))) (k0_pay25 (k0_pay8 (View.ld x3 r0_0)) (k0_pay18 (k0_pay8 (View.ld x3 r0_0)) (k0_pay11 (k0_pay6 (k0_pay1 (View.ld x1 r0_0)) (k0_pay3 (View.ld x9 r0_1)) (k0_pay4 (View.ld x10 r0_2)) (k0_pay5 (View.ld x11 r0_3)) (View.ld x12 r0_4)) (k0_pay8 (View.ld x3 r0_0)) (View.ld x17 r0_5) (View.ld x18 r0_2) (View.ld x19 r0_3) (View.ld x20 r0_4)) (k0_pay15 (k0_pay11 (k0_pay6 (k0_pay1 (View.ld x1 r0_0)) (k0_pay3 (View.ld x9 r0_1)) (k0_pay4 (View.ld x10 r0_2)) (k0_pay5 (View.ld x11 r0_3)) (View.ld x12 r0_4)) (k0_pay8 (View.ld x3 r0_0)) (View.ld x17 r0_5) (View.ld x18 r0_2) (View.ld x19 r0_3) (View.ld x20 r0_4)) (View.ld x17 r0_5) (View.ld x18 r0_2) (View.ld x19 r0_3) (View.ld x20 r0_4))) (k0_pay20 (k0_pay8 (View.ld x3 r0_0)) (k0_pay11 (k0_pay6 (k0_pay1 (View.ld x1 r0_0)) (k0_pay3 (View.ld x9 r0_1)) (k0_pay4 (View.ld x10 r0_2)) (k0_pay5 (View.ld x11 r0_3)) (View.ld x12 r0_4)) (k0_pay8 (View.ld x3 r0_0)) (View.ld x17 r0_5) (View.ld x18 r0_2) (View.ld x19 r0_3) (View.ld x20 r0_4)) (k0_pay15 (k0_pay11 (k0_pay6 (k0_pay1 (View.ld x1 r0_0)) (k0_pay3 (View.ld x9 r0_1)) (k0_pay4 (View.ld x10 r0_2)) (k0_pay5 (View.ld x11 r0_3)) (View.ld x12 r0_4)) (k0_pay8 (View.ld x3 r0_0)) (View.ld x17 r0_5) (View.ld x18 r0_2) (View.ld x19 r0_3) (View.ld x20 r0_4)) (View.ld x17 r0_5) (View.ld x18 r0_2) (View.ld x19 r0_3) (View.ld x20 r0_4))) (k0_pay21 (View.ld x17 r0_5)) (k0_pay22 (View.ld x18 r0_2)) (k0_pay23 (View.ld x19 r0_3)) (View.ld x20 r0_4)) (k0_pay26 (k0_pay7 (View.ld x2 r0_0)) (k0_pay17 (k0_pay7 (View.ld x2 r0_0)) (k0_pay10 (k0_pay2 (View.ld x0 r0_0) (View.ld x5 r0_1) (View.ld x6 r0_2) (View.ld x7 r0_3) (View.ld x8 r0_4)) (k0_pay7 (View.ld x2 r0_0)) (k0_pay9 (k0_pay2 (View.ld x0 r0_0) (View.ld x5 r0_1) (View.ld x6 r0_2) (View.ld x7 r0_3) (View.ld x8 r0_4)) (View.ld x13 r0_5) (View.ld x14 r0_2) (View.ld x15 r0_3) (View.ld x16 r0_4)) (Scalar.ofBits .f32 0x3C23D70A#32)) (k0_pay16 (k0_pay12 (k0_pay2 (View.ld x0 r0_0) (View.ld x5 r0_1) (View.ld x6 r0_2) (View.ld x7 r0_3) (View.ld x8 r0_4)) (k0_pay7 (View.ld x2 r0_0)) (k0_pay9 (k0_pay2 (View.ld x0 r0_0) (View.ld x5 r0_1) (View.ld x6 r0_2) (View.ld x7 r0_3) (View.ld x8 r0_4)) (View.ld x13 r0_5) (View.ld x14 r0_2) (View.ld x15 r0_3) (View.ld x16 r0_4)) (Scalar.ofBits .f32 0x3C23D70A#32)) (k0_pay13 (View.ld x13 r0_5)) (k0_pay14 (View.ld x14 r0_2)) (View.ld x15 r0_3) (View.ld x16 r0_4))) (k0_pay19 (k0_pay7 (View.ld x2 r0_0)) (k0_pay10 (k0_pay2 (View.ld x0 r0_0) (View.ld x5 r0_1) (View.ld x6 r0_2) (View.ld x7 r0_3) (View.ld x8 r0_4)) (k0_pay7 (View.ld x2 r0_0)) (k0_pay9 (k0_pay2 (View.ld x0 r0_0) (View.ld x5 r0_1) (View.ld x6 r0_2) (View.ld x7 r0_3) (View.ld x8 r0_4)) (View.ld x13 r0_5) (View.ld x14 r0_2) (View.ld x15 r0_3) (View.ld x16 r0_4)) (Scalar.ofBits .f32 0x3C23D70A#32)) (k0_pay16 (k0_pay12 (k0_pay2 (View.ld x0 r0_0) (View.ld x5 r0_1) (View.ld x6 r0_2) (View.ld x7 r0_3) (View.ld x8 r0_4)) (k0_pay7 (View.ld x2 r0_0)) (k0_pay9 (k0_pay2 (View.ld x0 r0_0) (View.ld x5 r0_1) (View.ld x6 r0_2) (View.ld x7 r0_3) (View.ld x8 r0_4)) (View.ld x13 r0_5) (View.ld x14 r0_2) (View.ld x15 r0_3) (View.ld x16 r0_4)) (Scalar.ofBits .f32 0x3C23D70A#32)) (k0_pay13 (View.ld x13 r0_5)) (k0_pay14 (View.ld x14 r0_2)) (View.ld x15 r0_3) (View.ld x16 r0_4)) (View.ld x13 r0_5) (View.ld x14 r0_2) (View.ld x15 r0_3) (View.ld x16 r0_4)) (View.ld x13 r0_5) (View.ld x14 r0_2) (View.ld x15 r0_3) (View.ld x16 r0_4)) (Scalar.ofBits .f32 0x3C23D70A#32) (View.ld x17 r0_5) (View.ld x18 r0_2) (View.ld x19 r0_3) (View.ld x20 r0_4)) (k0_pay28 (View.ld x21 r0_1)) (k0_pay29 (View.ld x22 r0_2)) (View.ld x23 r0_3) (View.ld x24 r0_4) (View.ld x25 r0_5) (View.ld x26 r0_2) (View.ld x27 r0_3) (View.ld x28 r0_4)) (k0_pay31 (k0_pay27 (k0_pay7 (View.ld x2 r0_0)) (k0_pay8 (View.ld x3 r0_0)) (k0_pay24 (k0_pay7 (View.ld x2 r0_0)) (k0_pay17 (k0_pay7 (View.ld x2 r0_0)) (k0_pay10 (k0_pay2 (View.ld x0 r0_0) (View.ld x5 r0_1) (View.ld x6 r0_2) (View.ld x7 r0_3) (View.ld x8 r0_4)) (k0_pay7 (View.ld x2 r0_0)) (k0_pay9 (k0_pay2 (View.ld x0 r0_0) (View.ld x5 r0_1) (View.ld x6 r0_2) (View.ld x7 r0_3) (View.ld x8 r0_4)) (View.ld x13 r0_5) (View.ld x14 r0_2) (View.ld x15 r0_3) (View.ld x16 r0_4)) (Scalar.ofBits .f32 0x3C23D70A#32)) (k0_pay16 (k0_pay12 (k0_pay2 (View.ld x0 r0_0) (View.ld x5 r0_1) (View.ld x6 r0_2) (View.ld x7 r0_3) (View.ld x8 r0_4)) (k0_pay7 (View.ld x2 r0_0)) (k0_pay9 (k0_pay2 (View.ld x0 r0_0) (View.ld x5 r0_1) (View.ld x6 r0_2) (View.ld x7 r0_3) (View.ld x8 r0_4)) (View.ld x13 r0_5) (View.ld x14 r0_2) (View.ld x15 r0_3) (View.ld x16 r0_4)) (Scalar.ofBits .f32 0x3C23D70A#32)) (k0_pay13 (View.ld x13 r0_5)) (k0_pay14 (View.ld x14 r0_2)) (View.ld x15 r0_3) (View.ld x16 r0_4))) (k0_pay19 (k0_pay7 (View.ld x2 r0_0)) (k0_pay10 (k0_pay2 (View.ld x0 r0_0) (View.ld x5 r0_1) (View.ld x6 r0_2) (View.ld x7 r0_3) (View.ld x8 r0_4)) (k0_pay7 (View.ld x2 r0_0)) (k0_pay9 (k0_pay2 (View.ld x0 r0_0) (View.ld x5 r0_1) (View.ld x6 r0_2) (View.ld x7 r0_3) (View.ld x8 r0_4)) (View.ld x13 r0_5) (View.ld x14 r0_2) (View.ld x15 r0_3) (View.ld x16 r0_4)) (Scalar.ofBits .f32 0x3C23D70A#32)) (k0_pay16 (k0_pay12 (k0_pay2 (View.ld x0 r0_0) (View.ld x5 r0_1) (View.ld x6 r0_2) (View.ld x7 r0_3) (View.ld x8 r0_4)) (k0_pay7 (View.ld x2 r0_0)) (k0_pay9 (k0_pay2 (View.ld x0 r0_0) (View.ld x5 r0_1) (View.ld x6 r0_2) (View.ld x7 r0_3) (View.ld x8 r0_4)) (View.ld x13 r0_5) (View.ld x14 r0_2) (View.ld x15 r0_3) (View.ld x16 r0_4)) (Scalar.ofBits .f32 0x3C23D70A#32)) (k0_pay13 (View.ld x13 r0_5)) (k0_pay14 (View.ld x14 r0_2)) (View.ld x15 r0_3) (View.ld x16 r0_4)) (View.ld x13 r0_5) (View.ld x14 r0_2) (View.ld x15 r0_3) (View.ld x16 r0_4))) (k0_pay25 (k0_pay8 (View.ld x3 r0_0)) (k0_pay18 (k0_pay8 (View.ld x3 r0_0)) (k0_pay11 (k0_pay6 (k0_pay1 (View.ld x1 r0_0)) (k0_pay3 (View.ld x9 r0_1)) (k0_pay4 (View.ld x10 r0_2)) (k0_pay5 (View.ld x11 r0_3)) (View.ld x12 r0_4)) (k0_pay8 (View.ld x3 r0_0)) (View.ld x17 r0_5) (View.ld x18 r0_2) (View.ld x19 r0_3) (View.ld x20 r0_4)) (k0_pay15 (k0_pay11 (k0_pay6 (k0_pay1 (View.ld x1 r0_0)) (k0_pay3 (View.ld x9 r0_1)) (k0_pay4 (View.ld x10 r0_2)) (k0_pay5 (View.ld x11 r0_3)) (View.ld x12 r0_4)) (k0_pay8 (View.ld x3 r0_0)) (View.ld x17 r0_5) (View.ld x18 r0_2) (View.ld x19 r0_3) (View.ld x20 r0_4)) (View.ld x17 r0_5) (View.ld x18 r0_2) (View.ld x19 r0_3) (View.ld x20 r0_4))) (k0_pay20 (k0_pay8 (View.ld x3 r0_0)) (k0_pay11 (k0_pay6 (k0_pay1 (View.ld x1 r0_0)) (k0_pay3 (View.ld x9 r0_1)) (k0_pay4 (View.ld x10 r0_2)) (k0_pay5 (View.ld x11 r0_3)) (View.ld x12 r0_4)) (k0_pay8 (View.ld x3 r0_0)) (View.ld x17 r0_5) (View.ld x18 r0_2) (View.ld x19 r0_3) (View.ld x20 r0_4)) (k0_pay15 (k0_pay11 (k0_pay6 (k0_pay1 (View.ld x1 r0_0)) (k0_pay3 (View.ld x9 r0_1)) (k0_pay4 (View.ld x10 r0_2)) (k0_pay5 (View.ld x11 r0_3)) (View.ld x12 r0_4)) (k0_pay8 (View.ld x3 r0_0)) (View.ld x17 r0_5) (View.ld x18 r0_2) (View.ld x19 r0_3) (View.ld x20 r0_4)) (View.ld x17 r0_5) (View.ld x18 r0_2) (View.ld x19 r0_3) (View.ld x20 r0_4))) (k0_pay21 (View.ld x17 r0_5)) (k0_pay22 (View.ld x18 r0_2)) (k0_pay23 (View.ld x19 r0_3)) (View.ld x20 r0_4)) (k0_pay26 (k0_pay7 (View.ld x2 r0_0)) (k0_pay17 (k0_pay7 (View.ld x2 r0_0)) (k0_pay10 (k0_pay2 (View.ld x0 r0_0) (View.ld x5 r0_1) (View.ld x6 r0_2) (View.ld x7 r0_3) (View.ld x8 r0_4)) (k0_pay7 (View.ld x2 r0_0)) (k0_pay9 (k0_pay2 (View.ld x0 r0_0) (View.ld x5 r0_1) (View.ld x6 r0_2) (View.ld x7 r0_3) (View.ld x8 r0_4)) (View.ld x13 r0_5) (View.ld x14 r0_2) (View.ld x15 r0_3) (View.ld x16 r0_4)) (Scalar.ofBits .f32 0x3C23D70A#32)) (k0_pay16 (k0_pay12 (k0_pay2 (View.ld x0 r0_0) (View.ld x5 r0_1) (View.ld x6 r0_2) (View.ld x7 r0_3) (View.ld x8 r0_4)) (k0_pay7 (View.ld x2 r0_0)) (k0_pay9 (k0_pay2 (View.ld x0 r0_0) (View.ld x5 r0_1) (View.ld x6 r0_2) (View.ld x7 r0_3) (View.ld x8 r0_4)) (View.ld x13 r0_5) (View.ld x14 r0_2) (View.ld x15 r0_3) (View.ld x16 r0_4)) (Scalar.ofBits .f32 0x3C23D70A#32)) (k0_pay13 (View.ld x13 r0_5)) (k0_pay14 (View.ld x14 r0_2)) (View.ld x15 r0_3) (View.ld x16 r0_4))) (k0_pay19 (k0_pay7 (View.ld x2 r0_0)) (k0_pay10 (k0_pay2 (View.ld x0 r0_0) (View.ld x5 r0_1) (View.ld x6 r0_2) (View.ld x7 r0_3) (View.ld x8 r0_4)) (k0_pay7 (View.ld x2 r0_0)) (k0_pay9 (k0_pay2 (View.ld x0 r0_0) (View.ld x5 r0_1) (View.ld x6 r0_2) (View.ld x7 r0_3) (View.ld x8 r0_4)) (View.ld x13 r0_5) (View.ld x14 r0_2) (View.ld x15 r0_3) (View.ld x16 r0_4)) (Scalar.ofBits .f32 0x3C23D70A#32)) (k0_pay16 (k0_pay12 (k0_pay2 (View.ld x0 r0_0) (View.ld x5 r0_1) (View.ld x6 r0_2) (View.ld x7 r0_3) (View.ld x8 r0_4)) (k0_pay7 (View.ld x2 r0_0)) (k0_pay9 (k0_pay2 (View.ld x0 r0_0) (View.ld x5 r0_1) (View.ld x6 r0_2) (View.ld x7 r0_3) (View.ld x8 r0_4)) (View.ld x13 r0_5) (View.ld x14 r0_2) (View.ld x15 r0_3) (View.ld x16 r0_4)) (Scalar.ofBits .f32 0x3C23D70A#32)) (k0_pay13 (View.ld x13 r0_5)) (k0_pay14 (View.ld x14 r0_2)) (View.ld x15 r0_3) (View.ld x16 r0_4)) (View.ld x13 r0_5) (View.ld x14 r0_2) (View.ld x15 r0_3) (View.ld x16 r0_4)) (View.ld x13 r0_5) (View.ld x14 r0_2) (View.ld x15 r0_3) (View.ld x16 r0_4)) (Scalar.ofBits .f32 0x3C23D70A#32) (View.ld x17 r0_5) (View.ld x18 r0_2) (View.ld x19 r0_3) (View.ld x20 r0_4)) (k0_pay28 (View.ld x21 r0_1)) (k0_pay29 (View.ld x22 r0_2)) (View.ld x23 r0_3) (View.ld x24 r0_4) (View.ld x25 r0_5) (View.ld x26 r0_2) (View.ld x27 r0_3) (View.ld x28 r0_4)) (View.ld x29 r0_5) (View.ld x30 r0_2) (View.ld x31 r0_6) (View.ld x32 r0_7) (View.ld x33 r0_5) (View.ld x34 r0_2) (View.ld x35 r0_6) (View.ld x36 r0_7)

def out0_37 (x0 : Vec F S8x256x256 .f32) (x1 : Vec F S8x256x256 .f32) (x2 : Vec F S8x256x256 .f32) (x3 : Vec F S8x256x256 .f32) (x4 : Vec F S8x129 .f32) (x5 : Vec F S256x256 .bf16) (x6 : Vec F S1x256 .f32) (x7 : Vec F S256x128 .bf16) (x8 : Vec F S1x128 .f32) (x9 : Vec F S256x256 .bf16) (x10 : Vec F S1x256 .f32) (x11 : Vec F S256x128 .bf16) (x12 : Vec F S1x128 .f32) (x13 : Vec F S128x256 .bf16) (x14 : Vec F S1x256 .f32) (x15 : Vec F S256x128 .bf16) (x16 : Vec F S1x128 .f32) (x17 : Vec F S128x256 .bf16) (x18 : Vec F S1x256 .f32) (x19 : Vec F S256x128 .bf16) (x20 : Vec F S1x128 .f32) (x21 : Vec F S256x256 .bf16) (x22 : Vec F S1x256 .f32) (x23 : Vec F S256x128 .bf16) (x24 : Vec F S1x128 .f32) (x25 : Vec F S128x256 .bf16) (x26 : Vec F S1x256 .f32) (x27 : Vec F S256x128 .bf16) (x28 : Vec F S1x128 .f32) (x29 : Vec F S128x256 .bf16) (x30 : Vec F S1x256 .f32) (x31 : Vec F S256x1 .f32) (x32 : Vec F S1x1 .f32) (x33 : Vec F S128x256 .f32) (x34 : Vec F S1x256 .f32) (x35 : Vec F S256x1 .f32) (x36 : Vec F S1x1 .f32) : Vec F S8x129 .f32 :=
  View.canon [⟨r0_8, k0_pay33 (core0 x0 x1 x2 x3 x4 x5 x6 x7 x8 x9 x10 x11 x12 x13 x14 x15 x16 x17 x18 x19 x20 x21 x22 x23 x24 x25 x26 x27 x28 x29 x30 x31 x32 x33 x34 x35 x36)⟩]

theorem cover0_37 (p0 : Vec F S8x129 .f32) (y : S8x129.Idx) :
    ∃ pc ∈ ([⟨r0_8, p0⟩] : List (View.Piece (Elt F) S8x129 .f32)), y ∈ pc.1.set :=
  View.cover_of_tiled [⟨r0_8, p0⟩] S8x129.size (by rfl) y

def out0_38 (x0 : Vec F S8x256x256 .f32) (x1 : Vec F S8x256x256 .f32) (x2 : Vec F S8x256x256 .f32) (x3 : Vec F S8x256x256 .f32) (x4 : Vec F S8x129 .f32) (x5 : Vec F S256x256 .bf16) (x6 : Vec F S1x256 .f32) (x7 : Vec F S256x128 .bf16) (x8 : Vec F S1x128 .f32) (x9 : Vec F S256x256 .bf16) (x10 : Vec F S1x256 .f32) (x11 : Vec F S256x128 .bf16) (x12 : Vec F S1x128 .f32) (x13 : Vec F S128x256 .bf16) (x14 : Vec F S1x256 .f32) (x15 : Vec F S256x128 .bf16) (x16 : Vec F S1x128 .f32) (x17 : Vec F S128x256 .bf16) (x18 : Vec F S1x256 .f32) (x19 : Vec F S256x128 .bf16) (x20 : Vec F S1x128 .f32) (x21 : Vec F S256x256 .bf16) (x22 : Vec F S1x256 .f32) (x23 : Vec F S256x128 .bf16) (x24 : Vec F S1x128 .f32) (x25 : Vec F S128x256 .bf16) (x26 : Vec F S1x256 .f32) (x27 : Vec F S256x128 .bf16) (x28 : Vec F S1x128 .f32) (x29 : Vec F S128x256 .bf16) (x30 : Vec F S1x256 .f32) (x31 : Vec F S256x1 .f32) (x32 : Vec F S1x1 .f32) (x33 : Vec F S128x256 .f32) (x34 : Vec F S1x256 .f32) (x35 : Vec F S256x1 .f32) (x36 : Vec F S1x1 .f32) : Vec F S8x129 .f32 :=
  View.canon [⟨r0_8, k0_pay35 (core0 x0 x1 x2 x3 x4 x5 x6 x7 x8 x9 x10 x11 x12 x13 x14 x15 x16 x17 x18 x19 x20 x21 x22 x23 x24 x25 x26 x27 x28 x29 x30 x31 x32 x33 x34 x35 x36)⟩]

theorem cover0_38 (p0 : Vec F S8x129 .f32) (y : S8x129.Idx) :
    ∃ pc ∈ ([⟨r0_8, p0⟩] : List (View.Piece (Elt F) S8x129 .f32)), y ∈ pc.1.set :=
  View.cover_of_tiled [⟨r0_8, p0⟩] S8x129.size (by rfl) y

def out0_39 (x0 : Vec F S8x256x256 .f32) (x1 : Vec F S8x256x256 .f32) (x2 : Vec F S8x256x256 .f32) (x3 : Vec F S8x256x256 .f32) (x4 : Vec F S8x129 .f32) (x5 : Vec F S256x256 .bf16) (x6 : Vec F S1x256 .f32) (x7 : Vec F S256x128 .bf16) (x8 : Vec F S1x128 .f32) (x9 : Vec F S256x256 .bf16) (x10 : Vec F S1x256 .f32) (x11 : Vec F S256x128 .bf16) (x12 : Vec F S1x128 .f32) (x13 : Vec F S128x256 .bf16) (x14 : Vec F S1x256 .f32) (x15 : Vec F S256x128 .bf16) (x16 : Vec F S1x128 .f32) (x17 : Vec F S128x256 .bf16) (x18 : Vec F S1x256 .f32) (x19 : Vec F S256x128 .bf16) (x20 : Vec F S1x128 .f32) (x21 : Vec F S256x256 .bf16) (x22 : Vec F S1x256 .f32) (x23 : Vec F S256x128 .bf16) (x24 : Vec F S1x128 .f32) (x25 : Vec F S128x256 .bf16) (x26 : Vec F S1x256 .f32) (x27 : Vec F S256x128 .bf16) (x28 : Vec F S1x128 .f32) (x29 : Vec F S128x256 .bf16) (x30 : Vec F S1x256 .f32) (x31 : Vec F S256x1 .f32) (x32 : Vec F S1x1 .f32) (x33 : Vec F S128x256 .f32) (x34 : Vec F S1x256 .f32) (x35 : Vec F S256x1 .f32) (x36 : Vec F S1x1 .f32) : Vec F S8x129 .f32 :=
  View.canon [⟨r0_8, k0_pay34 (core0 x0 x1 x2 x3 x4 x5 x6 x7 x8 x9 x10 x11 x12 x13 x14 x15 x16 x17 x18 x19 x20 x21 x22 x23 x24 x25 x26 x27 x28 x29 x30 x31 x32 x33 x34 x35 x36) (View.ld x4 r0_8)⟩]

theorem cover0_39 (p0 : Vec F S8x129 .f32) (y : S8x129.Idx) :
    ∃ pc ∈ ([⟨r0_8, p0⟩] : List (View.Piece (Elt F) S8x129 .f32)), y ∈ pc.1.set :=
  View.cover_of_tiled [⟨r0_8, p0⟩] S8x129.size (by rfl) y

def out0_40 (x0 : Vec F S8x256x256 .f32) (x1 : Vec F S8x256x256 .f32) (x2 : Vec F S8x256x256 .f32) (x3 : Vec F S8x256x256 .f32) (x4 : Vec F S8x129 .f32) (x5 : Vec F S256x256 .bf16) (x6 : Vec F S1x256 .f32) (x7 : Vec F S256x128 .bf16) (x8 : Vec F S1x128 .f32) (x9 : Vec F S256x256 .bf16) (x10 : Vec F S1x256 .f32) (x11 : Vec F S256x128 .bf16) (x12 : Vec F S1x128 .f32) (x13 : Vec F S128x256 .bf16) (x14 : Vec F S1x256 .f32) (x15 : Vec F S256x128 .bf16) (x16 : Vec F S1x128 .f32) (x17 : Vec F S128x256 .bf16) (x18 : Vec F S1x256 .f32) (x19 : Vec F S256x128 .bf16) (x20 : Vec F S1x128 .f32) (x21 : Vec F S256x256 .bf16) (x22 : Vec F S1x256 .f32) (x23 : Vec F S256x128 .bf16) (x24 : Vec F S1x128 .f32) (x25 : Vec F S128x256 .bf16) (x26 : Vec F S1x256 .f32) (x27 : Vec F S256x128 .bf16) (x28 : Vec F S1x128 .f32) (x29 : Vec F S128x256 .bf16) (x30 : Vec F S1x256 .f32) (x31 : Vec F S256x1 .f32) (x32 : Vec F S1x1 .f32) (x33 : Vec F S128x256 .f32) (x34 : Vec F S1x256 .f32) (x35 : Vec F S256x1 .f32) (x36 : Vec F S1x1 .f32) : Vec F S8x129 .f32 :=
  View.canon [⟨r0_8, k0_pay36 (core0 x0 x1 x2 x3 x4 x5 x6 x7 x8 x9 x10 x11 x12 x13 x14 x15 x16 x17 x18 x19 x20 x21 x22 x23 x24 x25 x26 x27 x28 x29 x30 x31 x32 x33 x34 x35 x36) (View.ld x4 r0_8)⟩]

theorem cover0_40 (p0 : Vec F S8x129 .f32) (y : S8x129.Idx) :
    ∃ pc ∈ ([⟨r0_8, p0⟩] : List (View.Piece (Elt F) S8x129 .f32)), y ∈ pc.1.set :=
  View.cover_of_tiled [⟨r0_8, p0⟩] S8x129.size (by rfl) y

set_option maxHeartbeats 2265600 in
theorem sound_kernel (c : Dev nD) (E : Set ℕ) (i : grid0.Coords) (arg1 : Memref sig .tc .vmem S8x256x256 .f32) (harg1 : arg1.IsWhole) (arg2 : Memref sig .tc .vmem S8x256x256 .f32) (harg2 : arg2.IsWhole) (arg3 : Memref sig .tc .vmem S8x256x256 .f32) (harg3 : arg3.IsWhole) (arg4 : Memref sig .tc .vmem S8x256x256 .f32) (harg4 : arg4.IsWhole) (arg5 : Memref sig .tc .vmem S8x129 .f32) (harg5 : arg5.IsWhole) (arg6 : Memref sig .tc .vmem S256x256 .bf16) (harg6 : arg6.IsWhole) (arg7 : Memref sig .tc .vmem S1x256 .f32) (harg7 : arg7.IsWhole) (arg8 : Memref sig .tc .vmem S256x128 .bf16) (harg8 : arg8.IsWhole) (arg9 : Memref sig .tc .vmem S1x128 .f32) (harg9 : arg9.IsWhole) (arg10 : Memref sig .tc .vmem S256x256 .bf16) (harg10 : arg10.IsWhole) (arg11 : Memref sig .tc .vmem S1x256 .f32) (harg11 : arg11.IsWhole) (arg12 : Memref sig .tc .vmem S256x128 .bf16) (harg12 : arg12.IsWhole) (arg13 : Memref sig .tc .vmem S1x128 .f32) (harg13 : arg13.IsWhole) (arg14 : Memref sig .tc .vmem S128x256 .bf16) (harg14 : arg14.IsWhole) (arg15 : Memref sig .tc .vmem S1x256 .f32) (harg15 : arg15.IsWhole) (arg16 : Memref sig .tc .vmem S256x128 .bf16) (harg16 : arg16.IsWhole) (arg17 : Memref sig .tc .vmem S1x128 .f32) (harg17 : arg17.IsWhole) (arg18 : Memref sig .tc .vmem S128x256 .bf16) (harg18 : arg18.IsWhole) (arg19 : Memref sig .tc .vmem S1x256 .f32) (harg19 : arg19.IsWhole) (arg20 : Memref sig .tc .vmem S256x128 .bf16) (harg20 : arg20.IsWhole) (arg21 : Memref sig .tc .vmem S1x128 .f32) (harg21 : arg21.IsWhole) (arg22 : Memref sig .tc .vmem S256x256 .bf16) (harg22 : arg22.IsWhole) (arg23 : Memref sig .tc .vmem S1x256 .f32) (harg23 : arg23.IsWhole) (arg24 : Memref sig .tc .vmem S256x128 .bf16) (harg24 : arg24.IsWhole) (arg25 : Memref sig .tc .vmem S1x128 .f32) (harg25 : arg25.IsWhole) (arg26 : Memref sig .tc .vmem S128x256 .bf16) (harg26 : arg26.IsWhole) (arg27 : Memref sig .tc .vmem S1x256 .f32) (harg27 : arg27.IsWhole) (arg28 : Memref sig .tc .vmem S256x128 .bf16) (harg28 : arg28.IsWhole) (arg29 : Memref sig .tc .vmem S1x128 .f32) (harg29 : arg29.IsWhole) (arg30 : Memref sig .tc .vmem S128x256 .bf16) (harg30 : arg30.IsWhole) (arg31 : Memref sig .tc .vmem S1x256 .f32) (harg31 : arg31.IsWhole) (arg32 : Memref sig .tc .vmem S256x1 .f32) (harg32 : arg32.IsWhole) (arg33 : Memref sig .tc .vmem S1x1 .f32) (harg33 : arg33.IsWhole) (arg34 : Memref sig .tc .vmem S128x256 .f32) (harg34 : arg34.IsWhole) (arg35 : Memref sig .tc .vmem S1x256 .f32) (harg35 : arg35.IsWhole) (arg36 : Memref sig .tc .vmem S256x1 .f32) (harg36 : arg36.IsWhole) (arg37 : Memref sig .tc .vmem S1x1 .f32) (harg37 : arg37.IsWhole) (arg38 : Memref sig .tc .vmem S8x129 .f32) (harg38 : arg38.IsWhole) (arg39 : Memref sig .tc .vmem S8x129 .f32) (harg39 : arg39.IsWhole) (arg40 : Memref sig .tc .vmem S8x129 .f32) (harg40 : arg40.IsWhole) (arg41 : Memref sig .tc .vmem S8x129 .f32) (harg41 : arg41.IsWhole)
    (x0 : Vec F S8x256x256 .f32) (x1 : Vec F S8x256x256 .f32) (x2 : Vec F S8x256x256 .f32) (x3 : Vec F S8x256x256 .f32) (x4 : Vec F S8x129 .f32) (x5 : Vec F S256x256 .bf16) (x6 : Vec F S1x256 .f32) (x7 : Vec F S256x128 .bf16) (x8 : Vec F S1x128 .f32) (x9 : Vec F S256x256 .bf16) (x10 : Vec F S1x256 .f32) (x11 : Vec F S256x128 .bf16) (x12 : Vec F S1x128 .f32) (x13 : Vec F S128x256 .bf16) (x14 : Vec F S1x256 .f32) (x15 : Vec F S256x128 .bf16) (x16 : Vec F S1x128 .f32) (x17 : Vec F S128x256 .bf16) (x18 : Vec F S1x256 .f32) (x19 : Vec F S256x128 .bf16) (x20 : Vec F S1x128 .f32) (x21 : Vec F S256x256 .bf16) (x22 : Vec F S1x256 .f32) (x23 : Vec F S256x128 .bf16) (x24 : Vec F S1x128 .f32) (x25 : Vec F S128x256 .bf16) (x26 : Vec F S1x256 .f32) (x27 : Vec F S256x128 .bf16) (x28 : Vec F S1x128 .f32) (x29 : Vec F S128x256 .bf16) (x30 : Vec F S1x256 .f32) (x31 : Vec F S256x1 .f32) (x32 : Vec F S1x1 .f32) (x33 : Vec F S128x256 .f32) (x34 : Vec F S1x256 .f32) (x35 : Vec F S256x1 .f32) (x36 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare x30 ∗ owns (c : Thread nD τ) arg32 fullShare x31 ∗ owns (c : Thread nD τ) arg33 fullShare x32 ∗ owns (c : Thread nD τ) arg34 fullShare x33 ∗ owns (c : Thread nD τ) arg35 fullShare x34 ∗ owns (c : Thread nD τ) arg36 fullShare x35 ∗ owns (c : Thread nD τ) arg37 fullShare x36 ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare x30 ∗ owns (c : Thread nD τ) arg32 fullShare x31 ∗ owns (c : Thread nD τ) arg33 fullShare x32 ∗ owns (c : Thread nD τ) arg34 fullShare x33 ∗ owns (c : Thread nD τ) arg35 fullShare x34 ∗ owns (c : Thread nD τ) arg36 fullShare x35 ∗ owns (c : Thread nD τ) arg37 fullShare x36 ∗ owns (c : Thread nD τ) arg38 fullShare (out0_37 x0 x1 x2 x3 x4 x5 x6 x7 x8 x9 x10 x11 x12 x13 x14 x15 x16 x17 x18 x19 x20 x21 x22 x23 x24 x25 x26 x27 x28 x29 x30 x31 x32 x33 x34 x35 x36) ∗ owns (c : Thread nD τ) arg39 fullShare (out0_38 x0 x1 x2 x3 x4 x5 x6 x7 x8 x9 x10 x11 x12 x13 x14 x15 x16 x17 x18 x19 x20 x21 x22 x23 x24 x25 x26 x27 x28 x29 x30 x31 x32 x33 x34 x35 x36) ∗ owns (c : Thread nD τ) arg40 fullShare (out0_39 x0 x1 x2 x3 x4 x5 x6 x7 x8 x9 x10 x11 x12 x13 x14 x15 x16 x17 x18 x19 x20 x21 x22 x23 x24 x25 x26 x27 x28 x29 x30 x31 x32 x33 x34 x35 x36) ∗ owns (c : Thread nD τ) arg41 fullShare (out0_40 x0 x1 x2 x3 x4 x5 x6 x7 x8 x9 x10 x11 x12 x13 x14 x15 x16 x17 x18 x19 x20 x21 x22 x23 x24 x25 x26 x27 x28 x29 x30 x31 x32 x33 x34 x35 x36)) -∗ K ⟨⟩))
      ⊢ wp frame (wpE (defs₀ (F := F)) Variants.none c none) E (cc0_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41) K := by
  simp only [cc0_body_eq_skeleton]; unfold cc0_body_skel
  simp only [k0_part10_eq_skeleton]; unfold k0_part10_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  simp only [k0_part7_eq_skeleton]; unfold k0_part7_skel
  simp only [k0_part8_eq_skeleton]; unfold k0_part8_skel
  simp only [k0_part9_eq_skeleton]; unfold k0_part9_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩, ⟨%d37, %f37, -, H37⟩, ⟨%d38, %f38, -, H38⟩, ⟨%d39, %f39, -, H39⟩, ⟨%d40, %f40, -, H40⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33 hf34 hf35 hf36
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists f34; isplitr; · ipureintro; rfl
    iexact H34
  isplitl [H35]
  · iexists f35; isplitr; · ipureintro; rfl
    iexact H35
  isplitl [H36]
  · iexists f36; isplitr; · ipureintro; rfl
    iexact H36
  isplitl [H37]
  · iexists _; isplitr
    swap; · iexact H37
    ipureintro
    try dsimp only
    exact View.read_writes_eq_canon _ _ _ (cover0_37 _)
  isplitl [H38]
  · iexists _; isplitr
    swap; · iexact H38
    ipureintro
    try dsimp only
    exact View.read_writes_eq_canon _ _ _ (cover0_38 _)
  isplitl [H39]
  · iexists _; isplitr
    swap; · iexact H39
    ipureintro
    try dsimp only
    exact View.read_writes_eq_canon _ _ _ (cover0_39 _)
  iexists _; isplitr
  swap; · iexact H40
  ipureintro
  try dsimp only
  exact View.read_writes_eq_canon _ _ _ (cover0_40 _)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => iblk m c 34 t
    | ⟨35, _⟩ => iblk m c 35 t
    | ⟨36, _⟩ => iblk m c 36 t
    | ⟨37, _⟩ => out0_37 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t)
    | ⟨38, _⟩ => out0_38 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t)
    | ⟨39, _⟩ => out0_39 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t)
    | ⟨40, _⟩ => out0_40 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t)
    | ⟨_ + 41, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = iblk m c 30 t := by dsimp only [dats]
theorem after0_31 (c : Dev nD) (t : Fin cfg0.N) : (dats m 0 c).after 31 t = iblk m c 31 t := by dsimp only [dats]
theorem after0_32 (c : Dev nD) (t : Fin cfg0.N) : (dats m 0 c).after 32 t = iblk m c 32 t := by dsimp only [dats]
theorem after0_33 (c : Dev nD) (t : Fin cfg0.N) : (dats m 0 c).after 33 t = iblk m c 33 t := by dsimp only [dats]
theorem after0_34 (c : Dev nD) (t : Fin cfg0.N) : (dats m 0 c).after 34 t = iblk m c 34 t := by dsimp only [dats]
theorem after0_35 (c : Dev nD) (t : Fin cfg0.N) : (dats m 0 c).after 35 t = iblk m c 35 t := by dsimp only [dats]
theorem after0_36 (c : Dev nD) (t : Fin cfg0.N) : (dats m 0 c).after 36 t = iblk m c 36 t := by dsimp only [dats]
theorem after0_37 (c : Dev nD) (t : Fin cfg0.N) : (dats m 0 c).after 37 t = out0_37 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) := by dsimp only [dats]
theorem after0_38 (c : Dev nD) (t : Fin cfg0.N) : (dats m 0 c).after 38 t = out0_38 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) := by dsimp only [dats]
theorem after0_39 (c : Dev nD) (t : Fin cfg0.N) : (dats m 0 c).after 39 t = out0_39 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) := by dsimp only [dats]
theorem after0_40 (c : Dev nD) (t : Fin cfg0.N) : (dats m 0 c).after 40 t = out0_40 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) := by dsimp only [dats]

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl)
    (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl)
    (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl)
    (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl)
    (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl)
    (fun t => by rw [after0_11]; unfold Dat.blockOf iblk; rw [A_eq]; try rfl) t d).trans
    (by unfold Dat.fetched Dat.blockOf iblk; rw [A_eq]; try rfl)
theorem before0_12 (c : Dev nD) (t : Fin cfg0.N) (d) : (dats m 0 c).before 12 t d = iblk m c 12 t :=
  ((dats m 0 c).before_in_eq_fetched 12 rfl (fun _ => rfl) (fun _ _ _ => rfl)
    (fun t => by rw [after0_12]; unfold Dat.blockOf iblk; rw [A_eq]; try rfl) t d).trans
    (by unfold Dat.fetched Dat.blockOf iblk; rw [A_eq]; try rfl)
theorem before0_13 (c : Dev nD) (t : Fin cfg0.N) (d) : (dats m 0 c).before 13 t d = iblk m c 13 t :=
  ((dats m 0 c).before_in_eq_fetched 13 rfl (fun _ => rfl) (fun _ _ _ => rfl)
    (fun t => by rw [after0_13]; unfold Dat.blockOf iblk; rw [A_eq]; try rfl) t d).trans
    (by unfold Dat.fetched Dat.blockOf iblk; rw [A_eq]; try rfl)
theorem before0_14 (c : Dev nD) (t : Fin cfg0.N) (d) : (dats m 0 c).before 14 t d = iblk m c 14 t :=
  ((dats m 0 c).before_in_eq_fetched 14 rfl (fun _ => rfl) (fun _ _ _ => rfl)
    (fun t => by rw [after0_14]; unfold Dat.blockOf iblk; rw [A_eq]; try rfl) t d).trans
    (by unfold Dat.fetched Dat.blockOf iblk; rw [A_eq]; try rfl)
theorem before0_15 (c : Dev nD) (t : Fin cfg0.N) (d) : (dats m 0 c).before 15 t d = iblk m c 15 t :=
  ((dats m 0 c).before_in_eq_fetched 15 rfl (fun _ => rfl) (fun _ _ _ => rfl)
    (fun t => by rw [after0_15]; unfold Dat.blockOf iblk; rw [A_eq]; try rfl) t d).trans
    (by unfold Dat.fetched Dat.blockOf iblk; rw [A_eq]; try rfl)
theorem before0_16 (c : Dev nD) (t : Fin cfg0.N) (d) : (dats m 0 c).before 16 t d = iblk m c 16 t :=
  ((dats m 0 c).before_in_eq_fetched 16 rfl (fun _ => rfl) (fun _ _ _ => rfl)
    (fun t => by rw [after0_16]; unfold Dat.blockOf iblk; rw [A_eq]; try rfl) t d).trans
    (by unfold Dat.fetched Dat.blockOf iblk; rw [A_eq]; try rfl)
theorem before0_17 (c : Dev nD) (t : Fin cfg0.N) (d) : (dats m 0 c).before 17 t d = iblk m c 17 t :=
  ((dats m 0 c).before_in_eq_fetched 17 rfl (fun _ => rfl) (fun _ _ _ => rfl)
    (fun t => by rw [after0_17]; unfold Dat.blockOf iblk; rw [A_eq]; try rfl) t d).trans
    (by unfold Dat.fetched Dat.blockOf iblk; rw [A_eq]; try rfl)
theorem before0_18 (c : Dev nD) (t : Fin cfg0.N) (d) : (dats m 0 c).before 18 t d = iblk m c 18 t :=
  ((dats m 0 c).before_in_eq_fetched 18 rfl (fun _ => rfl) (fun _ _ _ => rfl)
    (fun t => by rw [after0_18]; unfold Dat.blockOf iblk; rw [A_eq]; try rfl) t d).trans
    (by unfold Dat.fetched Dat.blockOf iblk; rw [A_eq]; try rfl)
theorem before0_19 (c : Dev nD) (t : Fin cfg0.N) (d) : (dats m 0 c).before 19 t d = iblk m c 19 t :=
  ((dats m 0 c).before_in_eq_fetched 19 rfl (fun _ => rfl) (fun _ _ _ => rfl)
    (fun t => by rw [after0_19]; unfold Dat.blockOf iblk; rw [A_eq]; try rfl) t d).trans
    (by unfold Dat.fetched Dat.blockOf iblk; rw [A_eq]; try rfl)
theorem before0_20 (c : Dev nD) (t : Fin cfg0.N) (d) : (dats m 0 c).before 20 t d = iblk m c 20 t :=
  ((dats m 0 c).before_in_eq_fetched 20 rfl (fun _ => rfl) (fun _ _ _ => rfl)
    (fun t => by rw [after0_20]; unfold Dat.blockOf iblk; rw [A_eq]; try rfl) t d).trans
    (by unfold Dat.fetched Dat.blockOf iblk; rw [A_eq]; try rfl)
theorem before0_21 (c : Dev nD) (t : Fin cfg0.N) (d) : (dats m 0 c).before 21 t d = iblk m c 21 t :=
  ((dats m 0 c).before_in_eq_fetched 21 rfl (fun _ => rfl) (fun _ _ _ => rfl)
    (fun t => by rw [after0_21]; unfold Dat.blockOf iblk; rw [A_eq]; try rfl) t d).trans
    (by unfold Dat.fetched Dat.blockOf iblk; rw [A_eq]; try rfl)
theorem before0_22 (c : Dev nD) (t : Fin cfg0.N) (d) : (dats m 0 c).before 22 t d = iblk m c 22 t :=
  ((dats m 0 c).before_in_eq_fetched 22 rfl (fun _ => rfl) (fun _ _ _ => rfl)
    (fun t => by rw [after0_22]; unfold Dat.blockOf iblk; rw [A_eq]; try rfl) t d).trans
    (by unfold Dat.fetched Dat.blockOf iblk; rw [A_eq]; try rfl)
theorem before0_23 (c : Dev nD) (t : Fin cfg0.N) (d) : (dats m 0 c).before 23 t d = iblk m c 23 t :=
  ((dats m 0 c).before_in_eq_fetched 23 rfl (fun _ => rfl) (fun _ _ _ => rfl)
    (fun t => by rw [after0_23]; unfold Dat.blockOf iblk; rw [A_eq]; try rfl) t d).trans
    (by unfold Dat.fetched Dat.blockOf iblk; rw [A_eq]; try rfl)
theorem before0_24 (c : Dev nD) (t : Fin cfg0.N) (d) : (dats m 0 c).before 24 t d = iblk m c 24 t :=
  ((dats m 0 c).before_in_eq_fetched 24 rfl (fun _ => rfl) (fun _ _ _ => rfl)
    (fun t => by rw [after0_24]; unfold Dat.blockOf iblk; rw [A_eq]; try rfl) t d).trans
    (by unfold Dat.fetched Dat.blockOf iblk; rw [A_eq]; try rfl)
theorem before0_25 (c : Dev nD) (t : Fin cfg0.N) (d) : (dats m 0 c).before 25 t d = iblk m c 25 t :=
  ((dats m 0 c).before_in_eq_fetched 25 rfl (fun _ => rfl) (fun _ _ _ => rfl)
    (fun t => by rw [after0_25]; unfold Dat.blockOf iblk; rw [A_eq]; try rfl) t d).trans
    (by unfold Dat.fetched Dat.blockOf iblk; rw [A_eq]; try rfl)
theorem before0_26 (c : Dev nD) (t : Fin cfg0.N) (d) : (dats m 0 c).before 26 t d = iblk m c 26 t :=
  ((dats m 0 c).before_in_eq_fetched 26 rfl (fun _ => rfl) (fun _ _ _ => rfl)
    (fun t => by rw [after0_26]; unfold Dat.blockOf iblk; rw [A_eq]; try rfl) t d).trans
    (by unfold Dat.fetched Dat.blockOf iblk; rw [A_eq]; try rfl)
theorem before0_27 (c : Dev nD) (t : Fin cfg0.N) (d) : (dats m 0 c).before 27 t d = iblk m c 27 t :=
  ((dats m 0 c).before_in_eq_fetched 27 rfl (fun _ => rfl) (fun _ _ _ => rfl)
    (fun t => by rw [after0_27]; unfold Dat.blockOf iblk; rw [A_eq]; try rfl) t d).trans
    (by unfold Dat.fetched Dat.blockOf iblk; rw [A_eq]; try rfl)
theorem before0_28 (c : Dev nD) (t : Fin cfg0.N) (d) : (dats m 0 c).before 28 t d = iblk m c 28 t :=
  ((dats m 0 c).before_in_eq_fetched 28 rfl (fun _ => rfl) (fun _ _ _ => rfl)
    (fun t => by rw [after0_28]; unfold Dat.blockOf iblk; rw [A_eq]; try rfl) t d).trans
    (by unfold Dat.fetched Dat.blockOf iblk; rw [A_eq]; try rfl)
theorem before0_29 (c : Dev nD) (t : Fin cfg0.N) (d) : (dats m 0 c).before 29 t d = iblk m c 29 t :=
  ((dats m 0 c).before_in_eq_fetched 29 rfl (fun _ => rfl) (fun _ _ _ => rfl)
    (fun t => by rw [after0_29]; unfold Dat.blockOf iblk; rw [A_eq]; try rfl) t d).trans
    (by unfold Dat.fetched Dat.blockOf iblk; rw [A_eq]; try rfl)
theorem before0_30 (c : Dev nD) (t : Fin cfg0.N) (d) : (dats m 0 c).before 30 t d = iblk m c 30 t :=
  ((dats m 0 c).before_in_eq_fetched 30 rfl (fun _ => rfl) (fun _ _ _ => rfl)
    (fun t => by rw [after0_30]; unfold Dat.blockOf iblk; rw [A_eq]; try rfl) t d).trans
    (by unfold Dat.fetched Dat.blockOf iblk; rw [A_eq]; try rfl)
theorem before0_31 (c : Dev nD) (t : Fin cfg0.N) (d) : (dats m 0 c).before 31 t d = iblk m c 31 t :=
  ((dats m 0 c).before_in_eq_fetched 31 rfl (fun _ => rfl) (fun _ _ _ => rfl)
    (fun t => by rw [after0_31]; unfold Dat.blockOf iblk; rw [A_eq]; try rfl) t d).trans
    (by unfold Dat.fetched Dat.blockOf iblk; rw [A_eq]; try rfl)
theorem before0_32 (c : Dev nD) (t : Fin cfg0.N) (d) : (dats m 0 c).before 32 t d = iblk m c 32 t :=
  ((dats m 0 c).before_in_eq_fetched 32 rfl (fun _ => rfl) (fun _ _ _ => rfl)
    (fun t => by rw [after0_32]; unfold Dat.blockOf iblk; rw [A_eq]; try rfl) t d).trans
    (by unfold Dat.fetched Dat.blockOf iblk; rw [A_eq]; try rfl)
theorem before0_33 (c : Dev nD) (t : Fin cfg0.N) (d) : (dats m 0 c).before 33 t d = iblk m c 33 t :=
  ((dats m 0 c).before_in_eq_fetched 33 rfl (fun _ => rfl) (fun _ _ _ => rfl)
    (fun t => by rw [after0_33]; unfold Dat.blockOf iblk; rw [A_eq]; try rfl) t d).trans
    (by unfold Dat.fetched Dat.blockOf iblk; rw [A_eq]; try rfl)
theorem before0_34 (c : Dev nD) (t : Fin cfg0.N) (d) : (dats m 0 c).before 34 t d = iblk m c 34 t :=
  ((dats m 0 c).before_in_eq_fetched 34 rfl (fun _ => rfl) (fun _ _ _ => rfl)
    (fun t => by rw [after0_34]; unfold Dat.blockOf iblk; rw [A_eq]; try rfl) t d).trans
    (by unfold Dat.fetched Dat.blockOf iblk; rw [A_eq]; try rfl)
theorem before0_35 (c : Dev nD) (t : Fin cfg0.N) (d) : (dats m 0 c).before 35 t d = iblk m c 35 t :=
  ((dats m 0 c).before_in_eq_fetched 35 rfl (fun _ => rfl) (fun _ _ _ => rfl)
    (fun t => by rw [after0_35]; unfold Dat.blockOf iblk; rw [A_eq]; try rfl) t d).trans
    (by unfold Dat.fetched Dat.blockOf iblk; rw [A_eq]; try rfl)
theorem before0_36 (c : Dev nD) (t : Fin cfg0.N) (d) : (dats m 0 c).before 36 t d = iblk m c 36 t :=
  ((dats m 0 c).before_in_eq_fetched 36 rfl (fun _ => rfl) (fun _ _ _ => rfl)
    (fun t => by rw [after0_36]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d))
    ∗ (∃ d, owns (c : Thread nD τ) (st0_37 t) fullShare ((dats m 0 c).before 37 t d))
    ∗ (∃ d, owns (c : Thread nD τ) (st0_38 t) fullShare ((dats m 0 c).before 38 t d))
    ∗ (∃ d, owns (c : Thread nD τ) (st0_39 t) fullShare ((dats m 0 c).before 39 t d))
    ∗ (∃ d, owns (c : Thread nD τ) (st0_40 t) fullShare ((dats m 0 c).before 40 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t)
    ∗ owns (c : Thread nD τ) (st0_37 t) fullShare ((dats m 0 c).after 37 t)
    ∗ owns (c : Thread nD τ) (st0_38 t) fullShare ((dats m 0 c).after 38 t)
    ∗ owns (c : Thread nD τ) (st0_39 t) fullShare ((dats m 0 c).after 39 t)
    ∗ owns (c : Thread nD τ) (st0_40 t) fullShare ((dats m 0 c).after 40 t))

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32, before0_33, before0_34, before0_35, before0_36]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37, after0_38, after0_39, after0_40]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩⟩
  iapply (sound_kernel c Set.univ (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexists _; iexact H37
  isplitl [H38]; · iexists _; iexact H38
  isplitl [H39]; · iexists _; iexact H39
  isplitl [H40]; · iexists _; iexact H40
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  iexact H40

set_option maxHeartbeats 8000000 in
theorem body_obligation (c : Dev nD) : BodyObligation (dats (F := F) m 0 c) (defs₀ (F := F)) Variants.none () Set.univ := fun t => by
  rw [bigSep_W0, bigSep_W0]
  exact sound_body m c t

set_option backward.isDefEq.respectTransparency.types false in
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- info: 'Cert.KernelIdeal.GenP.run_main' depends on axioms: [propext, Classical.choice, Quot.sound] -/
#guard_msgs in #print axioms run_main

set_option maxHeartbeats 2460000 in
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)) :=
  (θ_run defs _ _).mono (fun _ h c => ⟨((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (V_low m c main_arg5 (by decide)),
      ((h c).2 main_arg6 (Pipeline.mem_restRefs_of main_arg6 (by decide) (by decide))).trans (V_low m c main_arg6 (by decide)),
      ((h c).2 main_arg7 (Pipeline.mem_restRefs_of main_arg7 (by decide) (by decide))).trans (V_low m c main_arg7 (by decide)),
      ((h c).2 main_arg8 (Pipeline.mem_restRefs_of main_arg8 (by decide) (by decide))).trans (V_low m c main_arg8 (by decide)),
      ((h c).2 main_arg9 (Pipeline.mem_restRefs_of main_arg9 (by decide) (by decide))).trans (V_low m c main_arg9 (by decide)),
      ((h c).2 main_arg10 (Pipeline.mem_restRefs_of main_arg10 (by decide) (by decide))).trans (V_low m c main_arg10 (by decide)),
      ((h c).2 main_arg11 (Pipeline.mem_restRefs_of main_arg11 (by decide) (by decide))).trans (V_low m c main_arg11 (by decide)),
      ((h c).2 main_arg12 (Pipeline.mem_restRefs_of main_arg12 (by decide) (by decide))).trans (V_low m c main_arg12 (by decide)),
      ((h c).2 main_arg13 (Pipeline.mem_restRefs_of main_arg13 (by decide) (by decide))).trans (V_low m c main_arg13 (by decide)),
      ((h c).2 main_arg14 (Pipeline.mem_restRefs_of main_arg14 (by decide) (by decide))).trans (V_low m c main_arg14 (by decide)),
      ((h c).2 main_arg15 (Pipeline.mem_restRefs_of main_arg15 (by decide) (by decide))).trans (V_low m c main_arg15 (by decide)),
      ((h c).2 main_arg16 (Pipeline.mem_restRefs_of main_arg16 (by decide) (by decide))).trans (V_low m c main_arg16 (by decide)),
      ((h c).2 main_arg17 (Pipeline.mem_restRefs_of main_arg17 (by decide) (by decide))).trans (V_low m c main_arg17 (by decide)),
      ((h c).2 main_arg18 (Pipeline.mem_restRefs_of main_arg18 (by decide) (by decide))).trans (V_low m c main_arg18 (by decide)),
      ((h c).2 main_arg19 (Pipeline.mem_restRefs_of main_arg19 (by decide) (by decide))).trans (V_low m c main_arg19 (by decide)),
      ((h c).2 main_arg20 (Pipeline.mem_restRefs_of main_arg20 (by decide) (by decide))).trans (V_low m c main_arg20 (by decide)),
      ((h c).2 main_arg21 (Pipeline.mem_restRefs_of main_arg21 (by decide) (by decide))).trans (V_low m c main_arg21 (by decide)),
      ((h c).2 main_arg22 (Pipeline.mem_restRefs_of main_arg22 (by decide) (by decide))).trans (V_low m c main_arg22 (by decide)),
      ((h c).2 main_arg23 (Pipeline.mem_restRefs_of main_arg23 (by decide) (by decide))).trans (V_low m c main_arg23 (by decide)),
      ((h c).2 main_arg24 (Pipeline.mem_restRefs_of main_arg24 (by decide) (by decide))).trans (V_low m c main_arg24 (by decide)),
      ((h c).2 main_arg25 (Pipeline.mem_restRefs_of main_arg25 (by decide) (by decide))).trans (V_low m c main_arg25 (by decide)),
      ((h c).2 main_arg26 (Pipeline.mem_restRefs_of main_arg26 (by decide) (by decide))).trans (V_low m c main_arg26 (by decide)),
      ((h c).2 main_arg27 (Pipeline.mem_restRefs_of main_arg27 (by decide) (by decide))).trans (V_low m c main_arg27 (by decide)),
      ((h c).2 main_arg28 (Pipeline.mem_restRefs_of main_arg28 (by decide) (by decide))).trans (V_low m c main_arg28 (by decide)),
      ((h c).2 main_arg29 (Pipeline.mem_restRefs_of main_arg29 (by decide) (by decide))).trans (V_low m c main_arg29 (by decide)),
      ((h c).2 main_arg30 (Pipeline.mem_restRefs_of main_arg30 (by decide) (by decide))).trans (V_low m c main_arg30 (by decide)),
      ((h c).1 31).trans (((dats m 0 c).arrAt_in 31 rfl _).trans ((A_eq m c 31).trans (V_main_arg31 m c))),
      ((h c).2 main_arg32 (Pipeline.mem_restRefs_of main_arg32 (by decide) (by decide))).trans (V_low m c main_arg32 (by decide)),
      ((h c).1 33).trans (((dats m 0 c).arrAt_in 33 rfl _).trans ((A_eq m c 33).trans (V_main_arg33 m c))),
      ((h c).2 main_arg34 (Pipeline.mem_restRefs_of main_arg34 (by decide) (by decide))).trans (V_low m c main_arg34 (by decide)),
      ((h c).1 35).trans (((dats m 0 c).arrAt_in 35 rfl _).trans ((A_eq m c 35).trans (V_main_arg35 m c))),
      ((h c).2 main_arg36 (Pipeline.mem_restRefs_of main_arg36 (by decide) (by decide))).trans (V_low m c main_arg36 (by decide))⟩) (run_main m ρ)

end Cert.KernelIdeal.GenP

end
-- ==== Proof.Spec.lean ====
import Idealize.ShloMosaic.PureOps.Ideal

noncomputable section

namespace Cert.Spec

open Idealize.ShloMosaic

abbrev Mat (R C : Nat) := Fin R → Fin C → EReal
abbrev RowV (C : Nat) := Fin C → EReal

def slope : EReal := Ideal.ofBits .f32 0x3C23D70A#32

def half : EReal := Ideal.ofBits .f32 0x3F000000#32

def logEps : EReal := Ideal.ofBits .f32 0xC2CF3B8F#32

def zeroW : EReal := Ideal.ofBits .f32 0x00000000#32

def negInfW : EReal := Ideal.ofBits .f32 0xFF800000#32

def lin {R K N : Nat} (x : Mat R K) (w : Mat K N) (b : RowV N) : Mat R N :=
  fun r n => (∑ k, x r k * w k n) + b n

def leaky (y : EReal) : EReal := max y (slope * y)

def act {R N : Nat} (y : Mat R N) : Mat R N := fun r n => leaky (y r n)

def mlp2 {R K H N : Nat} (x : Mat R K) (w0 : Mat K H) (b0 : RowV H) (w1 : Mat H N) (b1 : RowV N) : Mat R N :=
  act (lin (act (lin x w0 b0)) w1 b1)

def mlp2n {R K H N : Nat} (x : Mat R K) (w0 : Mat K H) (b0 : RowV H) (w1 : Mat H N) (b1 : RowV N) : Mat R N :=
  lin (act (lin x w0 b0)) w1 b1

def prop {N H : Nat} (a : Mat N N) (msg : Mat N H) : Mat N H := fun i h => ∑ j, a i j * msg j h

structure Body where
  wf00 : Mat 256 256
  bf00 : RowV 256
  wf01 : Mat 256 128
  bf01 : RowV 128
  wf10 : Mat 256 256
  bf10 : RowV 256
  wf11 : Mat 256 128
  bf11 : RowV 128
  wm00 : Mat 128 256
  bm00 : RowV 256
  wm01 : Mat 256 128
  bm01 : RowV 128
  wm10 : Mat 128 256
  bm10 : RowV 256
  wm11 : Mat 256 128
  bm11 : RowV 128

structure Head where
  wg0 : Mat 256 256
  bg0 : RowV 256
  wg1 : Mat 256 128
  bg1 : RowV 128
  wo0 : Mat 128 256
  bo0 : RowV 256
  wo1 : Mat 256 128
  bo1 : RowV 128
  wp0 : Mat 128 256
  bp0 : RowV 256
  wp1 : Mat 256 1
  bp1 : RowV 1
  wa0 : Mat 128 256
  ba0 : RowV 256
  wa1 : Mat 256 1
  ba1 : RowV 1

def toMat {R C : Nat} (x : (⟨2, ![R, C]⟩ : Shape).Idx → EReal) : Mat R C :=
  fun r c => x (fun d => match d with | ⟨0, _⟩ => r | ⟨1, _⟩ => c)

def toRow {C : Nat} (x : (⟨2, ![1, C]⟩ : Shape).Idx → EReal) : RowV C :=
  fun c => x (fun d => match d with | ⟨0, _⟩ => (0 : Fin 1) | ⟨1, _⟩ => c)

def toMat3 {B R C : Nat} (x : (⟨3, ![B, R, C]⟩ : Shape).Idx → EReal) (b : Fin B) : Mat R C :=
  fun r c => x (fun d => match d with | ⟨0, _⟩ => b | ⟨1, _⟩ => r | ⟨2, _⟩ => c)

def toMat4 {B G R C : Nat} (x : (⟨4, ![B, G, R, C]⟩ : Shape).Idx → EReal) (b : Fin B) (g : Fin G) : Mat R C :=
  fun r c => x (fun d => match d with | ⟨0, _⟩ => b | ⟨1, _⟩ => g | ⟨2, _⟩ => r | ⟨3, _⟩ => c)

def sub {R C : Nat} (s : Mat R C) (r0 K N : Nat) (hK : r0 + K ≤ R) (hN : N ≤ C) : Mat K N :=
  fun k n => s ⟨r0 + k.val, by omega⟩ ⟨n.val, by omega⟩

def subRow {R C : Nat} (s : Mat R C) (r N : Nat) (hr : r < R) (hN : N ≤ C) : RowV N :=
  fun n => s ⟨r, hr⟩ ⟨n.val, by omega⟩

def step (a : Mat 256 256) (w0 : Mat 128 256) (b0 : RowV 256) (w1 : Mat 256 128) (b1 : RowV 128)
    (h : Mat 256 128) : Mat 256 128 :=
  fun i k => h i k + prop a (mlp2 h w0 b0 w1 b1) i k

def hfin0 (W : Body) (n0 a0 : Mat 256 256) : Mat 256 128 :=
  (step a0 W.wm00 W.bm00 W.wm01 W.bm01)^[4] (mlp2 n0 W.wf00 W.bf00 W.wf01 W.bf01)

def hfin1 (W : Body) (n1 a1 : Mat 256 256) : Mat 256 128 :=
  (step a1 W.wm10 W.bm10 W.wm11 W.bm11)^[4] (mlp2 n1 W.wf10 W.bf10 W.wf11 W.bf11)

def hcat {R A B C : Nat} (x : Mat R A) (y : Mat R B) : Mat R C :=
  fun r k => if h : k.val < A then x r ⟨k.val, h⟩ else if h' : k.val - A < B then y r ⟨k.val - A, h'⟩ else 0

def gcn (W : Head) (hc : Mat 256 256) : Mat 256 128 := mlp2 hc W.wg0 W.bg0 W.wg1 W.bg1

def swIn (W : Head) (hc : Mat 256 256) : Mat 128 128 := fun s k => gcn W hc ⟨s.val, by omega⟩ k

def sw (W : Head) (hc : Mat 256 256) : Mat 128 128 := mlp2 (swIn W hc) W.wo0 W.bo0 W.wo1 W.bo1

def sp (W : Head) (hc : Mat 256 256) : Fin 128 → EReal := fun s => mlp2n (sw W hc) W.wp0 W.bp0 W.wp1 W.bp1 s 0

def agg (W : Head) (hc : Mat 256 256) : Mat 1 128 := fun _ k => ∑ s, sw W hc s k

def tp (W : Head) (hc : Mat 256 256) : EReal := mlp2n (agg W hc) W.wa0 W.ba0 W.wa1 W.ba1 0 0

def pvOf (spv : Fin 128 → EReal) (t : EReal) : Fin 129 → EReal :=
  fun s => if h : s.val < 128 then spv ⟨s.val, h⟩ else t

def pv (W : Head) (hc : Mat 256 256) : Fin 129 → EReal := pvOf (sp W hc) (tp W hc)

def rmax {n : Nat} (v : Fin n → EReal) : EReal := (Finset.univ : Finset (Fin n)).fold max negInfW v

def logSoftmax {n : Nat} (v : Fin n → EReal) : Fin n → EReal :=
  fun s => (v s - rmax v) - Ideal.log (∑ k, Ideal.exp (v k - rmax v))

def logMask (mk : EReal) : EReal := Scalar.select (Ideal.cmp .ogt mk half) zeroW logEps

def outOf (p mask : Fin 129 → EReal) (j : Fin 4) : Fin 129 → EReal :=
  match j with
  | ⟨0, _⟩ => logSoftmax p
  | ⟨1, _⟩ => fun s => Ideal.exp (logSoftmax p s)
  | ⟨2, _⟩ => logSoftmax (fun s => p s + logMask (mask s))
  | ⟨_ + 3, _⟩ => fun s => Ideal.exp (logSoftmax (fun s => p s + logMask (mask s)) s)

def headOf (W : Head) (hc : Mat 256 256) (mask : Fin 129 → EReal) (j : Fin 4) : Fin 129 → EReal :=
  outOf (pv W hc) mask j

def netOut (B : Body) (W : Head) (n0 n1 a0 a1 : Mat 256 256) (mask : Fin 129 → EReal) (j : Fin 4) : Fin 129 → EReal :=
  headOf W (hcat (hfin0 B n0 a0) (hfin1 B n1 a1)) mask j

def bd {K1 N1 K2 N2 K N : Nat} (A : Mat K1 N1) (B : Mat K2 N2) : Mat K N :=
  fun k n =>
    if h : k.val < K1 ∧ n.val < N1 then A ⟨k.val, h.1⟩ ⟨n.val, h.2⟩
    else if h' : K1 ≤ k.val ∧ N1 ≤ n.val ∧ k.val - K1 < K2 ∧ n.val - N1 < N2 then B ⟨k.val - K1, h'.2.2.1⟩ ⟨n.val - N1, h'.2.2.2⟩
    else 0

def catv {A B C : Nat} (u : RowV A) (v : RowV B) : RowV C :=
  fun k => if h : k.val < A then u ⟨k.val, h⟩ else if h' : k.val - A < B then v ⟨k.val - A, h'⟩ else 0

structure Fused where
  F0 : Mat 512 512
  fb0 : RowV 512
  F1 : Mat 512 256
  fb1 : RowV 256
  G0 : Mat 256 512
  gb0 : RowV 512
  G1 : Mat 512 256
  gb1 : RowV 256

def fuse (W : Body) : Fused where
  F0 := bd W.wf00 W.wf10
  fb0 := catv W.bf00 W.bf10
  F1 := bd W.wf01 W.wf11
  fb1 := catv W.bf01 W.bf11
  G0 := bd W.wm00 W.wm10
  gb0 := catv W.bm00 W.bm10
  G1 := bd W.wm01 W.wm11
  gb1 := catv W.bm01 W.bm11

def colsL {R : Nat} (x : Mat R 256) : Mat R 128 := fun r k => x r ⟨k.val, by omega⟩

def colsR {R : Nat} (x : Mat R 256) : Mat R 128 := fun r k => x r ⟨k.val + 128, by omega⟩

def stepF (U : Fused) (a0 a1 : Mat 256 256) (h : Mat 256 256) : Mat 256 256 :=
  fun i k => h i k + (hcat (prop a0 (colsL (mlp2 h U.G0 U.gb0 U.G1 U.gb1)))
                            (prop a1 (colsR (mlp2 h U.G0 U.gb0 U.G1 U.gb1))) : Mat 256 256) i k

def hfinF (U : Fused) (x : Mat 256 512) (a0 a1 : Mat 256 256) : Mat 256 256 :=
  (stepF U a0 a1)^[4] (mlp2 x U.F0 U.fb0 U.F1 U.fb1)

def fnetOut (U : Fused) (W : Head) (x : Mat 256 512) (a0 a1 : Mat 256 256) (mask : Fin 129 → EReal) (j : Fin 4) :
    Fin 129 → EReal :=
  headOf W (hfinF U x a0 a1) mask j

end Cert.Spec

end
-- ==== Proof.Args.lean ====
import proofs.«126533_g2000204636238536_pallasbulk_491_2_alg».proof.Proof.Spec

noncomputable section

namespace Cert.Spec

open Idealize.ShloMosaic

def aggOf (swM : Mat 128 128) : Mat 1 128 := fun _ k => ∑ s, swM s k

def tpOf (W : Head) (swM : Mat 128 128) : EReal := mlp2n (aggOf swM) W.wa0 W.ba0 W.wa1 W.ba1 0 0

def spOf (W : Head) (swM : Mat 128 128) : Fin 128 → EReal := fun s => mlp2n swM W.wp0 W.bp0 W.wp1 W.bp1 s 0

theorem pv_eq (W : Head) (hc : Mat 256 256) : pv W hc = pvOf (spOf W (sw W hc)) (tpOf W (sw W hc)) := rfl

def toVec {C : Nat} (x : (⟨1, ![C]⟩ : Shape).Idx → EReal) : RowV C :=
  fun c => x (fun d => match d with | ⟨0, _⟩ => c)

def mkBody
    (a5 : (⟨2, ![256, 256]⟩ : Shape).Idx → EReal) (a6 : (⟨1, ![256]⟩ : Shape).Idx → EReal)
    (a7 : (⟨2, ![256, 128]⟩ : Shape).Idx → EReal) (a8 : (⟨1, ![128]⟩ : Shape).Idx → EReal)
    (a9 : (⟨2, ![256, 256]⟩ : Shape).Idx → EReal) (a10 : (⟨1, ![256]⟩ : Shape).Idx → EReal)
    (a11 : (⟨2, ![256, 128]⟩ : Shape).Idx → EReal) (a12 : (⟨1, ![128]⟩ : Shape).Idx → EReal)
    (a13 : (⟨2, ![128, 256]⟩ : Shape).Idx → EReal) (a14 : (⟨1, ![256]⟩ : Shape).Idx → EReal)
    (a15 : (⟨2, ![256, 128]⟩ : Shape).Idx → EReal) (a16 : (⟨1, ![128]⟩ : Shape).Idx → EReal)
    (a17 : (⟨2, ![128, 256]⟩ : Shape).Idx → EReal) (a18 : (⟨1, ![256]⟩ : Shape).Idx → EReal)
    (a19 : (⟨2, ![256, 128]⟩ : Shape).Idx → EReal) (a20 : (⟨1, ![128]⟩ : Shape).Idx → EReal) : Body where
  wf00 := toMat a5
  bf00 := toVec a6
  wf01 := toMat a7
  bf01 := toVec a8
  wf10 := toMat a9
  bf10 := toVec a10
  wf11 := toMat a11
  bf11 := toVec a12
  wm00 := toMat a13
  bm00 := toVec a14
  wm01 := toMat a15
  bm01 := toVec a16
  wm10 := toMat a17
  bm10 := toVec a18
  wm11 := toMat a19
  bm11 := toVec a20

def mkHead
    (a21 : (⟨2, ![256, 256]⟩ : Shape).Idx → EReal) (a22 : (⟨1, ![256]⟩ : Shape).Idx → EReal)
    (a23 : (⟨2, ![256, 128]⟩ : Shape).Idx → EReal) (a24 : (⟨1, ![128]⟩ : Shape).Idx → EReal)
    (a25 : (⟨2, ![128, 256]⟩ : Shape).Idx → EReal) (a26 : (⟨1, ![256]⟩ : Shape).Idx → EReal)
    (a27 : (⟨2, ![256, 128]⟩ : Shape).Idx → EReal) (a28 : (⟨1, ![128]⟩ : Shape).Idx → EReal)
    (a29 : (⟨2, ![128, 256]⟩ : Shape).Idx → EReal) (a30 : (⟨1, ![256]⟩ : Shape).Idx → EReal)
    (a31 : (⟨2, ![256, 1]⟩ : Shape).Idx → EReal) (a32 : (⟨1, ![1]⟩ : Shape).Idx → EReal)
    (a33 : (⟨2, ![128, 256]⟩ : Shape).Idx → EReal) (a34 : (⟨1, ![256]⟩ : Shape).Idx → EReal)
    (a35 : (⟨2, ![256, 1]⟩ : Shape).Idx → EReal) (a36 : (⟨1, ![1]⟩ : Shape).Idx → EReal) : Head where
  wg0 := toMat a21
  bg0 := toVec a22
  wg1 := toMat a23
  bg1 := toVec a24
  wo0 := toMat a25
  bo0 := toVec a26
  wo1 := toMat a27
  bo1 := toVec a28
  wp0 := toMat a29
  bp0 := toVec a30
  wp1 := toMat a31
  bp1 := toVec a32
  wa0 := toMat a33
  ba0 := toVec a34
  wa1 := toMat a35
  ba1 := toVec a36

def mkBodyK
    (x5 : (⟨2, ![256, 256]⟩ : Shape).Idx → EReal) (x6 : (⟨2, ![1, 256]⟩ : Shape).Idx → EReal)
    (x7 : (⟨2, ![256, 128]⟩ : Shape).Idx → EReal) (x8 : (⟨2, ![1, 128]⟩ : Shape).Idx → EReal)
    (x9 : (⟨2, ![256, 256]⟩ : Shape).Idx → EReal) (x10 : (⟨2, ![1, 256]⟩ : Shape).Idx → EReal)
    (x11 : (⟨2, ![256, 128]⟩ : Shape).Idx → EReal) (x12 : (⟨2, ![1, 128]⟩ : Shape).Idx → EReal)
    (x13 : (⟨2, ![128, 256]⟩ : Shape).Idx → EReal) (x14 : (⟨2, ![1, 256]⟩ : Shape).Idx → EReal)
    (x15 : (⟨2, ![256, 128]⟩ : Shape).Idx → EReal) (x16 : (⟨2, ![1, 128]⟩ : Shape).Idx → EReal)
    (x17 : (⟨2, ![128, 256]⟩ : Shape).Idx → EReal) (x18 : (⟨2, ![1, 256]⟩ : Shape).Idx → EReal)
    (x19 : (⟨2, ![256, 128]⟩ : Shape).Idx → EReal) (x20 : (⟨2, ![1, 128]⟩ : Shape).Idx → EReal) : Body where
  wf00 := toMat x5
  bf00 := toRow x6
  wf01 := toMat x7
  bf01 := toRow x8
  wf10 := toMat x9
  bf10 := toRow x10
  wf11 := toMat x11
  bf11 := toRow x12
  wm00 := toMat x13
  bm00 := toRow x14
  wm01 := toMat x15
  bm01 := toRow x16
  wm10 := toMat x17
  bm10 := toRow x18
  wm11 := toMat x19
  bm11 := toRow x20

def mkHeadK
    (x21 : (⟨2, ![256, 256]⟩ : Shape).Idx → EReal) (x22 : (⟨2, ![1, 256]⟩ : Shape).Idx → EReal)
    (x23 : (⟨2, ![256, 128]⟩ : Shape).Idx → EReal) (x24 : (⟨2, ![1, 128]⟩ : Shape).Idx → EReal)
    (x25 : (⟨2, ![128, 256]⟩ : Shape).Idx → EReal) (x26 : (⟨2, ![1, 256]⟩ : Shape).Idx → EReal)
    (x27 : (⟨2, ![256, 128]⟩ : Shape).Idx → EReal) (x28 : (⟨2, ![1, 128]⟩ : Shape).Idx → EReal)
    (x29 : (⟨2, ![128, 256]⟩ : Shape).Idx → EReal) (x30 : (⟨2, ![1, 256]⟩ : Shape).Idx → EReal)
    (x31 : (⟨2, ![256, 1]⟩ : Shape).Idx → EReal) (x32 : (⟨2, ![1, 1]⟩ : Shape).Idx → EReal)
    (x33 : (⟨2, ![128, 256]⟩ : Shape).Idx → EReal) (x34 : (⟨2, ![1, 256]⟩ : Shape).Idx → EReal)
    (x35 : (⟨2, ![256, 1]⟩ : Shape).Idx → EReal) (x36 : (⟨2, ![1, 1]⟩ : Shape).Idx → EReal) : Head where
  wg0 := toMat x21
  bg0 := toRow x22
  wg1 := toMat x23
  bg1 := toRow x24
  wo0 := toMat x25
  bo0 := toRow x26
  wo1 := toMat x27
  bo1 := toRow x28
  wp0 := toMat x29
  bp0 := toRow x30
  wp1 := toMat x31
  bp1 := toRow x32
  wa0 := toMat x33
  ba0 := toRow x34
  wa1 := toMat x35
  ba1 := toRow x36

def slabFused (s : Mat 3552 512) : Fused where
  F0 := sub s 0 512 512 (by omega) (by omega)
  fb0 := subRow s 512 512 (by omega) (by omega)
  F1 := sub s 520 512 256 (by omega) (by omega)
  fb1 := subRow s 1032 256 (by omega) (by omega)
  G0 := sub s 1040 256 512 (by omega) (by omega)
  gb0 := subRow s 1296 512 (by omega) (by omega)
  G1 := sub s 1304 512 256 (by omega) (by omega)
  gb1 := subRow s 1816 256 (by omega) (by omega)

def slabHead (s : Mat 3552 512) : Head where
  wg0 := sub s 1824 256 256 (by omega) (by omega)
  bg0 := subRow s 2080 256 (by omega) (by omega)
  wg1 := sub s 2088 256 128 (by omega) (by omega)
  bg1 := subRow s 2344 128 (by omega) (by omega)
  wo0 := sub s 2352 128 256 (by omega) (by omega)
  bo0 := subRow s 2480 256 (by omega) (by omega)
  wo1 := sub s 2488 256 128 (by omega) (by omega)
  bo1 := subRow s 2744 128 (by omega) (by omega)
  wp0 := sub s 2752 128 256 (by omega) (by omega)
  bp0 := subRow s 2880 256 (by omega) (by omega)
  wp1 := sub s 2888 256 1 (by omega) (by omega)
  bp1 := subRow s 3144 1 (by omega) (by omega)
  wa0 := sub s 3152 128 256 (by omega) (by omega)
  ba0 := subRow s 3280 256 (by omega) (by omega)
  wa1 := sub s 3288 256 1 (by omega) (by omega)
  ba1 := subRow s 3544 1 (by omega) (by omega)

end Cert.Spec

end
-- ==== Proof.KHead.lean ====
import proofs.«126533_g2000204636238536_pallasbulk_491_2_alg».proof.Proof.Gen.KernelIdeal.Skeleton
import proofs.«126533_g2000204636238536_pallasbulk_491_2_alg».proof.Proof.Spec
import proofs.«126533_g2000204636238536_pallasbulk_491_2_alg».proof.Proof.Args
import Idealize.ShloMosaic.Lib.StackMember
import Idealize.ShloMosaic.Lib.ValueLayout

noncomputable section

open scoped BigOperators

namespace Cert.KernelIdeal.KHead

open Idealize.ShloMosaic Idealize.ShloMosaic.ValueIdx

def ofMat {R C : Nat} (m : Spec.Mat R C) : (⟨2, ![R, C]⟩ : Shape).Idx → EReal := fun j => m (j 0) (j 1)

theorem toMat_ofMat {R C : Nat} (m : Spec.Mat R C) : Spec.toMat (ofMat m) = m := rfl

theorem toRow_apply {C : Nat} (x : (⟨2, ![1, C]⟩ : Shape).Idx → EReal) (c : Fin C) :
    Spec.toRow x c = x (ix2 (0 : Fin 1) c) :=
  congrArg x (funext fun d => by match d with | ⟨0, _⟩ => rfl | ⟨1, _⟩ => rfl)

/-- A product into the zero accumulator plus the bias row under every row is `Spec.lin`. -/
theorem lin_fun {M K N : Nat} {φ₁ φ₂ : FTy} (D : DotDims ⟨2, ![M, K]⟩ ⟨2, ![K, N]⟩ ⟨2, ![M, N]⟩)
    (hD : D = DotDims.plain M K N) (A : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) :
    addf (matmul D none A W (constant (F := Ideal) ⟨2, ![M, N]⟩ .f32 0x00000000#32)) (broadcastTo ⟨2, ![M, N]⟩ b hb)
      = ofMat (Spec.lin (Spec.toMat A) (Spec.toMat W) (Spec.toRow b)) := by
  subst hD
  funext j
  obtain ⟨r, n, rfl⟩ : ∃ (r : Fin M) (n : Fin N), j = ix2 r n := ⟨j 0, j 1, eq_ix2 j⟩
  refine (addf_apply _ _ _).trans ?_
  rw [matmul_zero_eq_dotGeneral, StackMember.dotGeneral_plain_apply, broadcastTo_1b_ab_apply, ← toRow_apply b n]
  rfl

theorem leaky_ofMat {R C : Nat} (L : Spec.Mat R C) :
    maximumf (F := Ideal) (φ := .f32) (ofMat L)
        (mulf (broadcast ⟨2, ![R, C]⟩ (Scalar.ofBits (F := Ideal) .f32 0x3C23D70A#32)) (ofMat L))
      = ofMat (Spec.act L) := rfl

theorem truncf_id {s : Shape} {φ ψ : FTy} (a : FVec Ideal s φ) (h : ψ.bits < φ.bits) :
    (truncf ψ a h : FVec Ideal s ψ) = a := rfl

section Layout
variable {α : Type}

theorem castCol_ix2 (X : (⟨2, ![1024, 1]⟩ : Shape).Idx → α)
    (h : (⟨2, ![1024, 1]⟩ : Shape).ShapeCasts ⟨2, ![8, 128]⟩) (bl : Fin 8) (s : Fin 128) :
    shapeCast ⟨2, ![8, 128]⟩ X h (ix2 bl s)
      = X (ix2 (⟨bl.val * 128 + s.val, by have := bl.isLt; have := s.isLt; omega⟩ : Fin 1024) (0 : Fin 1)) := by
  refine shapeCast_apply _ h _ _ ?_
  rw [Shape.rowMajor_val_two, Shape.rowMajor_val_two]
  show (bl.val * 128 + s.val) * 1 + 0 = bl.val * 128 + s.val
  omega

theorem castKeep_ix2 {a : Nat} (X : (⟨1, ![a]⟩ : Shape).Idx → α) (h : (⟨1, ![a]⟩ : Shape).ShapeCasts ⟨2, ![a, 1]⟩)
    (r : Fin a) : shapeCast ⟨2, ![a, 1]⟩ X h (ix2 r (0 : Fin 1)) = X (ix1 r) := by
  refine shapeCast_apply _ h _ _ ?_
  rw [Shape.rowMajor_val_one, Shape.rowMajor_val_two]
  show r.val = r.val * 1 + 0
  omega

theorem bcastCol_ix2 {a b : Nat} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

theorem concat_ix2 (x₁ : (⟨2, ![8, 128]⟩ : Shape).Idx → α) (x₂ : (⟨2, ![8, 1]⟩ : Shape).Idx → α)
    (h : Shape.Concatenates [(⟨2, ![8, 128]⟩ : Shape), ⟨2, ![8, 1]⟩] ⟨2, ![8, 129]⟩ 1) (bl : Fin 8) (s : Fin 129) :
    concatenate ⟨2, ![8, 129]⟩ 1 [⟨⟨2, ![8, 128]⟩, x₁⟩, ⟨⟨2, ![8, 1]⟩, x₂⟩] h (ix2 bl s)
      = if hs : s.val < 128 then x₁ (ix2 bl (⟨s.val, hs⟩ : Fin 128)) else x₂ (ix2 bl (0 : Fin 1)) := by
  split
  · next hs =>
    exact concatenate_pair_apply_left 1 x₁ x₂ h (ix2 bl s) rfl (ix2 bl (⟨s.val, hs⟩ : Fin 128))
      (fun b => by match b with | ⟨0, _⟩ => rfl | ⟨1, _⟩ => rfl)
  · next hs =>
    exact concatenate_pair_apply_right 1 x₁ x₂ h (ix2 bl s) rfl rfl (ix2 bl (0 : Fin 1))
      (fun b hb => by
        match b, hb with
        | ⟨0, _⟩, _ => rfl
        | ⟨1, _⟩, hb => exact absurd rfl hb)
      (by show 0 + 128 = s.val; have := s.isLt; omega)

end Layout

theorem sumRow_ix1 {a b : Nat} (v : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ v 0x00000000#32 h hφ hacc (ix1 r) = ∑ c : Fin b, v (ix2 r c) := by
  refine (Ideal.multiReduction_add_single v _ h hφ hacc (ix1 r)).trans ?_
  refine Finset.sum_congr rfl fun c _ => congrArg v (funext fun d => Fin.ext ?_)
  match d with
  | ⟨0, _⟩ => rfl
  | ⟨1, _⟩ => rfl

theorem maxRow_ix1 {a b : Nat} (v : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (r : Fin a) :
    multiReduction .maximumf [1] ⟨1, ![a]⟩ v 0xFF800000#32 h hφ hacc (ix1 r) = Spec.rmax (fun c : Fin b => v (ix2 r c)) := by
  refine (Ideal.multiReduction_maximumf_single v _ h hφ hacc (ix1 r)).trans ?_
  have e : (v ∘ h.lift (ix1 r)) = fun c : Fin b => v (ix2 r c) :=
    funext fun c => congrArg v (funext fun d => Fin.ext (by
      match d with
      | ⟨0, _⟩ => rfl
      | ⟨1, _⟩ => rfl))
  rw [e]
  rfl

open Cert.KernelIdeal Cert.KernelIdeal.Gen

theorem exp_apply {s : Shape} {φ : FTy} (a : FVec Ideal s φ) (i : s.Idx) : exp a i = Ideal.exp (a i) := rfl

theorem log_apply {s : Shape} {φ : FTy} (a : FVec Ideal s φ) (i : s.Idx) : log a i = Ideal.log (a i) := rfl

/-- Each row is shifted by its own maximum before the log of the summed exponentials is taken off. -/
theorem pay33_row (p : FVec Ideal S8x129 .f32) (bl : Fin 8) (s : Fin 129) :
    Gen.k0_pay33 p (ix2 bl s) = Spec.logSoftmax (fun c : Fin 129 => p (ix2 bl c)) s := by
  have hmax : ∀ (v : FVec Ideal S8x129 .f32) (r : Fin 8),
      multiReduction .maximumf [1] S8 v 0xFF800000#32 reduces_S8x129_S8 (.inl rfl) rfl (ix1 r)
        = Spec.rmax (fun c : Fin 129 => v (ix2 r c)) := fun v r => maxRow_ix1 v _ _ _ r
  have hsum : ∀ (v : FVec Ideal S8x129 .f32) (r : Fin 8),
      multiReduction .add [1] S8 v 0x00000000#32 reduces_S8x129_S8 (.inl rfl) rfl (ix1 r)
        = ∑ c : Fin 129, v (ix2 r c) := fun v r => sumRow_ix1 v _ _ _ r
  unfold Gen.k0_pay33
  simp only [subf_apply, bcastCol_ix2, castKeep_ix2, log_apply, exp_apply, hmax, hsum]
  rfl

/-- Masking only adds `Spec.logMask` of the mask to the scores beforehand. -/
theorem pay34_row (p : FVec Ideal S8x129 .f32) (x4 : Vec Ideal S8x129 .f32) (bl : Fin 8) (s : Fin 129) :
    Gen.k0_pay34 p x4 (ix2 bl s)
      = Spec.logSoftmax (fun c : Fin 129 => p (ix2 bl c) + Spec.logMask (x4 (ix2 bl c))) s := by
  rw [show Gen.k0_pay34 p x4 = Gen.k0_pay33 (addf p (select (cmpf .ogt x4 (broadcast S8x129 (Scalar.ofBits (F := Ideal) .f32 0x3F000000#32)))
      (broadcast S8x129 (Scalar.ofBits (F := Ideal) .f32 0x00000000#32)) (broadcast S8x129 (Scalar.ofBits (F := Ideal) .f32 0xC2CF3B8F#32))))
    from rfl, pay33_row]
  rfl

def rowsFirst (G : Spec.Mat 2048 128) : Spec.Mat 1024 128 :=
  fun q n => G ⟨q.val / 128 * 256 + q.val % 128, by have := q.isLt; omega⟩ n

/-- Where switch `s` of batch element `bl` sits among the 1024 stacked switch rows. -/
def swRow (bl : Fin 8) (s : Fin 128) : Fin 1024 := ⟨bl.val * 128 + s.val, by have := bl.isLt; have := s.isLt; omega⟩

def aggRows (SW : Spec.Mat 1024 128) : Spec.Mat 8 128 := fun bl k => ∑ s : Fin 128, SW (swRow bl s) k

/-- Row `q` of the gathered halves is row `q / 128 · 256 + q % 128` of the whole. -/
theorem firstHalf_ofMat (G : Spec.Mat 2048 128)
    (h1 : (⟨2, ![2048, 128]⟩ : Shape).ShapeCasts ⟨3, ![8, 256, 128]⟩)
    (h2 : (⟨3, ![8, 256, 128]⟩ : Shape).Slices ![0, 0, 0] ⟨3, ![8, 128, 128]⟩)
    (h3 : (⟨3, ![8, 128, 128]⟩ : Shape).ShapeCasts ⟨2, ![1024, 128]⟩) :
    shapeCast ⟨2, ![1024, 128]⟩
        (extractStridedSlice ⟨3, ![8, 128, 128]⟩ ![0, 0, 0] (shapeCast ⟨3, ![8, 256, 128]⟩ (ofMat G) h1) h2) h3
      = ofMat (rowsFirst G) := by
  funext j
  obtain ⟨q, n, rfl⟩ : ∃ (q : Fin 1024) (n : Fin 128), j = ix2 q n := ⟨j 0, j 1, eq_ix2 j⟩
  have hq := q.isLt
  refine (shapeCast_apply _ h3 (ix2 q n)
    (ix3 (⟨q.val / 128, by omega⟩ : Fin 8) (⟨q.val % 128, by omega⟩ : Fin 128) n) ?_).trans ?_
  · rw [Shape.rowMajor_val_three, Shape.rowMajor_val_two]
    show (q.val / 128 * 128 + q.val % 128) * 128 + n.val = q.val * 128 + n.val
    omega
  refine (slice3_axis1_apply 0 _ h2 _ _ _ (⟨q.val % 128, by omega⟩ : Fin 256) (by simp)).trans ?_
  exact shapeCast_apply (ofMat G) h1 _ (ix2 (⟨q.val / 128 * 256 + q.val % 128, by omega⟩ : Fin 2048) n) (by
    rw [Shape.rowMajor_val_three, Shape.rowMajor_val_two]
    rfl)

section Heads

variable (hcv : FVec Ideal S2048x256 .bf16)
  (w21 : Vec Ideal S256x256 .bf16) (w22 : Vec Ideal S1x256 .f32) (w23 : Vec Ideal S256x128 .bf16)
  (w24 : Vec Ideal S1x128 .f32) (w25 : Vec Ideal S128x256 .bf16) (w26 : Vec Ideal S1x256 .f32)
  (w27 : Vec Ideal S256x128 .bf16) (w28 : Vec Ideal S1x128 .f32) (w29 : Vec Ideal S128x256 .bf16)
  (w30 : Vec Ideal S1x256 .f32) (w31 : Vec Ideal S256x1 .f32) (w32 : Vec Ideal S1x1 .f32)
  (w33 : Vec Ideal S128x256 .f32) (w34 : Vec Ideal S1x256 .f32) (w35 : Vec Ideal S256x1 .f32)
  (w36 : Vec Ideal S1x1 .f32)

def pvK : FVec Ideal S8x129 .f32 :=
  Gen.k0_pay32 (Gen.k0_pay30 hcv (Gen.k0_pay28 w21) (Gen.k0_pay29 w22) w23 w24 w25 w26 w27 w28)
    (Gen.k0_pay31 hcv (Gen.k0_pay28 w21) (Gen.k0_pay29 w22) w23 w24 w25 w26 w27 w28) w29 w30 w31 w32 w33 w34 w35 w36

def hcM (bl : Fin 8) : Spec.Mat 256 256 :=
  fun n k => hcv (ix2 (⟨bl.val * 256 + n.val, by have := bl.isLt; have := n.isLt; omega⟩ : Fin 2048) k)

def mk (x4 : Vec Ideal S8x129 .f32) (bl : Fin 8) : Fin 129 → EReal := fun s => x4 (ix2 bl s)

/-- The merge perceptron on all 2048 stacked rows. -/
def gcnAll : Spec.Mat 2048 128 :=
  Spec.mlp2 (Spec.toMat hcv) (Spec.toMat w21) (Spec.toRow w22) (Spec.toMat w23) (Spec.toRow w24)

theorem agg_eq (SW : Spec.Mat 1024 128) :
    Spec.toMat (multiReduction (F := Ideal) .add [1] S8x128 (shapeCast S8x128x128 (ofMat SW : FVec Ideal S1024x128 .f32) shapeCasts_S1024x128_S8x128x128)
        0x00000000#32 reduces_S8x128x128_S8x128 (.inl rfl) rfl) = aggRows SW := by
  funext bl k
  refine (Ideal.multiReduction_add_single _ _ reduces_S8x128x128_S8x128 (.inl rfl) rfl (ix2 bl k)).trans ?_
  refine Finset.sum_congr rfl fun s _ => ?_
  exact shapeCast_apply (ofMat SW) shapeCasts_S1024x128_S8x128x128 _ (ix2 (swRow bl s) k) (by
    rw [Shape.rowMajor_val_three, Shape.rowMajor_val_two]
    rfl)

/-- Perceptrons act row by row, and row `swRow bl s` of the halves is row `bl · 256 + s` of the whole. -/
theorem pvK_apply (bl : Fin 8) (s : Fin 129) :
    pvK hcv w21 w22 w23 w24 w25 w26 w27 w28 w29 w30 w31 w32 w33 w34 w35 w36 (ix2 bl s)
      = Spec.pv (Spec.mkHeadK w21 w22 w23 w24 w25 w26 w27 w28 w29 w30 w31 w32 w33 w34 w35 w36) (hcM hcv bl) s := by
  have hin : (fun (s' : Fin 128) (n : Fin 128) => rowsFirst (gcnAll hcv w21 w22 w23 w24) (swRow bl s') n)
      = Spec.swIn (Spec.mkHeadK w21 w22 w23 w24 w25 w26 w27 w28 w29 w30 w31 w32 w33 w34 w35 w36) (hcM hcv bl) := by
    funext s' n
    have hb := bl.isLt
    have hs' := s'.isLt
    have e : (⟨(swRow bl s').val / 128 * 256 + (swRow bl s').val % 128, by have := (swRow bl s').isLt; omega⟩ : Fin 2048)
        = ⟨bl.val * 256 + s'.val, by omega⟩ :=
      Fin.ext (by show (bl.val * 128 + s'.val) / 128 * 256 + (bl.val * 128 + s'.val) % 128 = bl.val * 256 + s'.val; omega)
    show gcnAll hcv w21 w22 w23 w24 ⟨(swRow bl s').val / 128 * 256 + (swRow bl s').val % 128, _⟩ n = _
    rw [e]
    rfl
  unfold pvK Gen.k0_pay32 Gen.k0_pay31 Gen.k0_pay30 Gen.k0_pay28 Gen.k0_pay29
  simp only [shapeCast_self, truncf_id, leaky_ofMat, toMat_ofMat, firstHalf_ofMat,
    lin_fun dot_S2048x256_S256x256_S2048x256_1_0_0_1_n_n rfl, lin_fun dot_S2048x256_S256x128_S2048x128_1_0_0_1_n_n rfl,
    lin_fun dot_S1024x128_S128x256_S1024x256_1_0_0_1_n_n rfl, lin_fun dot_S1024x256_S256x128_S1024x128_1_0_0_1_n_n rfl,
    lin_fun dot_S1024x256_S256x1_S1024x1_1_0_0_1_n_n rfl, lin_fun dot_S8x128_S128x256_S8x256_1_0_0_1_n_n rfl,
    lin_fun dot_S8x256_S256x1_S8x1_1_0_0_1_n_n rfl]
  rw [concat_ix2, Spec.pv_eq]
  unfold Spec.sw Spec.pvOf
  rw [← hin]
  by_cases hs : s.val < 128
  · rw [dif_pos hs, dif_pos hs, castCol_ix2]
    rfl
  · rw [dif_neg hs, dif_neg hs, agg_eq]
    rfl

theorem pay33_eq (m : Fin 129 → EReal) (bl : Fin 8) (s : Fin 129) :
    Gen.k0_pay33 (pvK hcv w21 w22 w23 w24 w25 w26 w27 w28 w29 w30 w31 w32 w33 w34 w35 w36) (ix2 bl s)
      = Spec.headOf (Spec.mkHeadK w21 w22 w23 w24 w25 w26 w27 w28 w29 w30 w31 w32 w33 w34 w35 w36) (hcM hcv bl) m 0 s := by
  simp only [pay33_row, pvK_apply]
  rfl

theorem pay35_eq (m : Fin 129 → EReal) (bl : Fin 8) (s : Fin 129) :
    Gen.k0_pay35 (pvK hcv w21 w22 w23 w24 w25 w26 w27 w28 w29 w30 w31 w32 w33 w34 w35 w36) (ix2 bl s)
      = Spec.headOf (Spec.mkHeadK w21 w22 w23 w24 w25 w26 w27 w28 w29 w30 w31 w32 w33 w34 w35 w36) (hcM hcv bl) m 1 s := by
  show Ideal.exp (Gen.k0_pay33 (F := Ideal) _ (ix2 bl s)) = _
  simp only [pay33_row, pvK_apply]
  rfl

theorem pay34_eq (x4 : Vec Ideal S8x129 .f32) (bl : Fin 8) (s : Fin 129) :
    Gen.k0_pay34 (pvK hcv w21 w22 w23 w24 w25 w26 w27 w28 w29 w30 w31 w32 w33 w34 w35 w36) x4 (ix2 bl s)
      = Spec.headOf (Spec.mkHeadK w21 w22 w23 w24 w25 w26 w27 w28 w29 w30 w31 w32 w33 w34 w35 w36) (hcM hcv bl)
          (mk x4 bl) 2 s := by
  simp only [pay34_row, pvK_apply]
  rfl

theorem pay36_eq (x4 : Vec Ideal S8x129 .f32) (bl : Fin 8) (s : Fin 129) :
    Gen.k0_pay36 (pvK hcv w21 w22 w23 w24 w25 w26 w27 w28 w29 w30 w31 w32 w33 w34 w35 w36) x4 (ix2 bl s)
      = Spec.headOf (Spec.mkHeadK w21 w22 w23 w24 w25 w26 w27 w28 w29 w30 w31 w32 w33 w34 w35 w36) (hcM hcv bl)
          (mk x4 bl) 3 s := by
  show Ideal.exp (Gen.k0_pay34 _ x4 (ix2 bl s)) = _
  simp only [pay34_row, pvK_apply]
  rfl

end Heads

end Cert.KernelIdeal.KHead

end
-- ==== Proof.KChain.lean ====
import proofs.«126533_g2000204636238536_pallasbulk_491_2_alg».proof.Proof.Gen.KernelIdeal.Skeleton
import proofs.«126533_g2000204636238536_pallasbulk_491_2_alg».proof.Proof.Spec
import proofs.«126533_g2000204636238536_pallasbulk_491_2_alg».proof.Proof.Args
import proofs.«126533_g2000204636238536_pallasbulk_491_2_alg».proof.Proof.KHead
import Idealize.ShloMosaic.Lib.StackMember

noncomputable section

namespace Cert.KernelIdeal.KChain

open Idealize.ShloMosaic Idealize.ShloMosaic.ValueIdx Idealize.SL.Sem
open Cert.KernelIdeal Cert.KernelIdeal.Gen
open Cert

def rows {C : Nat} (x : (⟨2, ![2048, C]⟩ : Shape).Idx → EReal) (bl : Fin 8) : Spec.Mat 256 C :=
  fun n k => x (ix2 ⟨bl.val * 256 + n.val, by have := bl.isLt; have := n.isLt; omega⟩ k)

theorem rows_truncf {C : Nat} {φ ψ : FTy} (x : FVec Ideal ⟨2, ![2048, C]⟩ φ) (h : ψ.bits < φ.bits) (bl : Fin 8) :
    rows (truncf ψ x h) bl = rows x bl := rfl

theorem toMat3_truncf {B R C : Nat} {φ ψ : FTy} (x : FVec Ideal ⟨3, ![B, R, C]⟩ φ) (h : ψ.bits < φ.bits) (b : Fin B) :
    Spec.toMat3 (truncf ψ x h) b = Spec.toMat3 x b := rfl

theorem rows_leaky {C : Nat} (y : FVec Ideal ⟨2, ![2048, C]⟩ .f32) (bl : Fin 8) :
    rows (maximumf y (mulf (broadcast ⟨2, ![2048, C]⟩ (Scalar.ofBits (F := Ideal) .f32 0x3C23D70A#32)) y)) bl
      = Spec.act (rows y bl) := rfl

/-- Row `bl · 256 + n` of the flat view and entry `(bl, n)` of the batched view share a row-major position. -/
theorem rows_cast2 {C : Nat} (v : (⟨3, ![8, 256, C]⟩ : Shape).Idx → EReal)
    (h : (⟨3, ![8, 256, C]⟩ : Shape).ShapeCasts ⟨2, ![2048, C]⟩) (bl : Fin 8) :
    rows (shapeCast ⟨2, ![2048, C]⟩ v h) bl = Spec.toMat3 v bl :=
  funext fun n => funext fun k => shapeCast_apply v h _ _ (by rw [Shape.rowMajor_val_two, Shape.rowMajor_val_three]; rfl)

theorem toMat3_cast3 {C : Nat} (x : (⟨2, ![2048, C]⟩ : Shape).Idx → EReal)
    (h : (⟨2, ![2048, C]⟩ : Shape).ShapeCasts ⟨3, ![8, 256, C]⟩) (bl : Fin 8) :
    Spec.toMat3 (shapeCast ⟨3, ![8, 256, C]⟩ x h) bl = rows x bl :=
  funext fun n => funext fun k => shapeCast_apply x h _ _ (by rw [Shape.rowMajor_val_two, Shape.rowMajor_val_three]; rfl)

/-- Slice `bl` of the batched product sums over that batch element's own 256 nodes. -/
theorem toMat3_mm {φ₁ φ₂ : FTy} (a : FVec Ideal S8x256x256 φ₁) (m : FVec Ideal S8x256x128 φ₂) (bl : Fin 8) :
    Spec.toMat3 (matmul dot_S8x256x256_S8x256x128_S8x256x128_2_1_1_2_0_0 none a m (constant (F := Ideal) S8x256x128 .f32 0x00000000#32)) bl
      = Spec.prop (Spec.toMat3 a bl) (Spec.toMat3 m bl) := by
  rw [matmul_zero_eq_dotGeneral]
  exact funext fun i => funext fun k =>
    StackMember.dotGeneral_stack_apply dot_S8x256x256_S8x256x128_S8x256x128_2_1_1_2_0_0.wf none a m bl i k

theorem rows_cat (x y : FVec Ideal S2048x128 .f32) (h : Shape.Concatenates [S2048x128, S2048x128] S2048x256 1) (bl : Fin 8) :
    rows (concatenate S2048x256 1 [⟨S2048x128, x⟩, ⟨S2048x128, y⟩] h) bl = Spec.hcat (rows x bl) (rows y bl) := by
  funext n k
  unfold Spec.hcat
  by_cases hk : k.val < 128
  · rw [dif_pos hk]
    exact concatenate_pair_apply_left 1 x y h _ rfl _ (fun b => by match b with | ⟨0, _⟩ => rfl | ⟨1, _⟩ => rfl)
  · rw [dif_neg hk, dif_pos (show k.val - 128 < 128 by have := k.isLt; omega)]
    exact concatenate_pair_apply_right 1 x y h _ rfl rfl _
      (fun b hb => by match b with | ⟨0, _⟩ => rfl | ⟨1, _⟩ => exact absurd rfl hb)
      (by show (k.val - 128) + 128 = k.val; omega)

/-- Row `r` of `x · w + b` reads row `r` of `x` only. -/
theorem rows_dense {K N : Nat} {φ₁ φ₂ : FTy} (D : DotDims ⟨2, ![2048, K]⟩ ⟨2, ![K, N]⟩ ⟨2, ![2048, N]⟩)
    (hD : D = DotDims.plain 2048 K N) (x : FVec Ideal ⟨2, ![2048, K]⟩ φ₁) (w : FVec Ideal ⟨2, ![K, N]⟩ φ₂)
    (b : FVec Ideal ⟨2, ![1, N]⟩ .f32) (h : (⟨2, ![1, N]⟩ : Shape).Broadcasts ⟨2, ![2048, N]⟩) (bl : Fin 8) :
    rows (addf (matmul D none x w (constant (F := Ideal) ⟨2, ![2048, N]⟩ .f32 0x00000000#32)) (broadcastTo ⟨2, ![2048, N]⟩ b h)) bl
      = Spec.lin (rows x bl) (Spec.toMat w) (Spec.toRow b) := by
  rw [KHead.lin_fun D hD]
  rfl

theorem rows_add_cast {C : Nat} (x : FVec Ideal ⟨2, ![2048, C]⟩ .f32) (y : FVec Ideal ⟨3, ![8, 256, C]⟩ .f32)
    (h : (⟨3, ![8, 256, C]⟩ : Shape).ShapeCasts ⟨2, ![2048, C]⟩) (bl : Fin 8) :
    rows (addf x (shapeCast ⟨2, ![2048, C]⟩ y h)) bl = fun i k => rows x bl i k + Spec.toMat3 y bl i k :=
  funext fun i => funext fun k => congrArg (rows x bl i k + ·) (congrFun (congrFun (rows_cast2 y h bl) i) k)

section Chain
variable (v0 v1 v2 v3 : Vec Ideal S8x256x256 .f32)
  (w5 : Vec Ideal S256x256 .bf16) (w6 : Vec Ideal S1x256 .f32) (w7 : Vec Ideal S256x128 .bf16) (w8 : Vec Ideal S1x128 .f32)
  (w9 : Vec Ideal S256x256 .bf16) (w10 : Vec Ideal S1x256 .f32) (w11 : Vec Ideal S256x128 .bf16) (w12 : Vec Ideal S1x128 .f32)
  (w13 : Vec Ideal S128x256 .bf16) (w14 : Vec Ideal S1x256 .f32) (w15 : Vec Ideal S256x128 .bf16) (w16 : Vec Ideal S1x128 .f32)
  (w17 : Vec Ideal S128x256 .bf16) (w18 : Vec Ideal S1x256 .f32) (w19 : Vec Ideal S256x128 .bf16) (w20 : Vec Ideal S1x128 .f32)

abbrev g0h0 : FVec Ideal S2048x128 .f32 := k0_pay2 v0 w5 w6 w7 w8
abbrev g0p1 : FVec Ideal S2048x128 .f32 := k0_pay9 (g0h0 v0 w5 w6 w7 w8) w13 w14 w15 w16
abbrev g0h1 : FVec Ideal S2048x128 .f32 :=
  k0_pay10 (g0h0 v0 w5 w6 w7 w8) (k0_pay7 v2) (g0p1 v0 w5 w6 w7 w8 w13 w14 w15 w16) (Scalar.ofBits (F := Ideal) .f32 0x3C23D70A#32)
abbrev g0h1b : FVec Ideal S2048x128 .bf16 :=
  k0_pay12 (g0h0 v0 w5 w6 w7 w8) (k0_pay7 v2) (g0p1 v0 w5 w6 w7 w8 w13 w14 w15 w16) (Scalar.ofBits (F := Ideal) .f32 0x3C23D70A#32)
abbrev g0m2 : FVec Ideal S8x256x128 .bf16 :=
  k0_pay16 (g0h1b v0 v2 w5 w6 w7 w8 w13 w14 w15 w16) (k0_pay13 w13) (k0_pay14 w14) w15 w16
abbrev g0h2 : FVec Ideal S2048x128 .f32 :=
  k0_pay17 (k0_pay7 v2) (g0h1 v0 v2 w5 w6 w7 w8 w13 w14 w15 w16) (g0m2 v0 v2 w5 w6 w7 w8 w13 w14 w15 w16)
abbrev g0m3 : FVec Ideal S2048x128 .bf16 :=
  k0_pay19 (k0_pay7 v2) (g0h1 v0 v2 w5 w6 w7 w8 w13 w14 w15 w16) (g0m2 v0 v2 w5 w6 w7 w8 w13 w14 w15 w16) w13 w14 w15 w16
abbrev g0h3 : FVec Ideal S2048x128 .f32 :=
  k0_pay24 (k0_pay7 v2) (g0h2 v0 v2 w5 w6 w7 w8 w13 w14 w15 w16) (g0m3 v0 v2 w5 w6 w7 w8 w13 w14 w15 w16)
abbrev g0p4 : FVec Ideal S2048x128 .f32 :=
  k0_pay26 (k0_pay7 v2) (g0h2 v0 v2 w5 w6 w7 w8 w13 w14 w15 w16) (g0m3 v0 v2 w5 w6 w7 w8 w13 w14 w15 w16) w13 w14 w15 w16

abbrev g1h0 : FVec Ideal S2048x128 .f32 := k0_pay6 (k0_pay1 v1) (k0_pay3 w9) (k0_pay4 w10) (k0_pay5 w11) w12
abbrev g1h1 : FVec Ideal S2048x128 .f32 := k0_pay11 (g1h0 v1 w9 w10 w11 w12) (k0_pay8 v3) w17 w18 w19 w20
abbrev g1m2 : FVec Ideal S2048x128 .bf16 := k0_pay15 (g1h1 v1 v3 w9 w10 w11 w12 w17 w18 w19 w20) w17 w18 w19 w20
abbrev g1h2 : FVec Ideal S2048x128 .f32 :=
  k0_pay18 (k0_pay8 v3) (g1h1 v1 v3 w9 w10 w11 w12 w17 w18 w19 w20) (g1m2 v1 v3 w9 w10 w11 w12 w17 w18 w19 w20)
abbrev g1h2b : FVec Ideal S2048x128 .bf16 :=
  k0_pay20 (k0_pay8 v3) (g1h1 v1 v3 w9 w10 w11 w12 w17 w18 w19 w20) (g1m2 v1 v3 w9 w10 w11 w12 w17 w18 w19 w20)
abbrev g1h3 : FVec Ideal S2048x128 .f32 :=
  k0_pay25 (k0_pay8 v3) (g1h2 v1 v3 w9 w10 w11 w12 w17 w18 w19 w20) (g1h2b v1 v3 w9 w10 w11 w12 w17 w18 w19 w20)
    (k0_pay21 w17) (k0_pay22 w18) (k0_pay23 w19) w20

def hc : FVec Ideal S2048x256 .bf16 :=
  k0_pay27 (k0_pay7 v2) (k0_pay8 v3) (g0h3 v0 v2 w5 w6 w7 w8 w13 w14 w15 w16) (g1h3 v1 v3 w9 w10 w11 w12 w17 w18 w19 w20)
    (g0p4 v0 v2 w5 w6 w7 w8 w13 w14 w15 w16) (Scalar.ofBits (F := Ideal) .f32 0x3C23D70A#32) w17 w18 w19 w20

/-- Each step stays within a batch element's 256 rows, so on those rows the chain is the per-graph network. -/
theorem hc_rows (bl : Fin 8) :
    rows (hc v0 v1 v2 v3 w5 w6 w7 w8 w9 w10 w11 w12 w13 w14 w15 w16 w17 w18 w19 w20) bl
      = Spec.hcat (Spec.hfin0 (Spec.mkBodyK w5 w6 w7 w8 w9 w10 w11 w12 w13 w14 w15 w16 w17 w18 w19 w20) (Spec.toMat3 v0 bl) (Spec.toMat3 v2 bl))
          (Spec.hfin1 (Spec.mkBodyK w5 w6 w7 w8 w9 w10 w11 w12 w13 w14 w15 w16 w17 w18 w19 w20) (Spec.toMat3 v1 bl) (Spec.toMat3 v3 bl)) := by
  dsimp only [hc, g0h3, g0p4, g1h3, g0m3, g0h2, g1h2b, g1h2, g0m2, g1m2, g0h1b, g0h1, g1h1, g0p1, g0h0, g1h0,
    k0_pay27, k0_pay26, k0_pay25, k0_pay24, k0_pay23, k0_pay22, k0_pay21, k0_pay20, k0_pay19, k0_pay18, k0_pay17, k0_pay16, k0_pay15,
    k0_pay14, k0_pay13, k0_pay12, k0_pay11, k0_pay10, k0_pay9, k0_pay8, k0_pay7, k0_pay6, k0_pay5, k0_pay4, k0_pay3, k0_pay2, k0_pay1]
  simp only [shapeCast_self, rows_truncf, toMat3_truncf, rows_leaky, rows_add_cast, rows_cast2, toMat3_cast3, toMat3_mm, rows_cat,
    rows_dense dot_S2048x256_S256x256_S2048x256_1_0_0_1_n_n rfl, rows_dense dot_S2048x256_S256x128_S2048x128_1_0_0_1_n_n rfl,
    rows_dense dot_S2048x128_S128x256_S2048x256_1_0_0_1_n_n rfl]
  rfl

theorem hc_apply (bl : Fin 8) (n k : Fin 256) :
    hc v0 v1 v2 v3 w5 w6 w7 w8 w9 w10 w11 w12 w13 w14 w15 w16 w17 w18 w19 w20 (ix2 ⟨bl.val * 256 + n.val, by omega⟩ k)
      = (Spec.hcat (Spec.hfin0 (Spec.mkBodyK w5 w6 w7 w8 w9 w10 w11 w12 w13 w14 w15 w16 w17 w18 w19 w20) (Spec.toMat3 v0 bl) (Spec.toMat3 v2 bl))
          (Spec.hfin1 (Spec.mkBodyK w5 w6 w7 w8 w9 w10 w11 w12 w13 w14 w15 w16 w17 w18 w19 w20) (Spec.toMat3 v1 bl) (Spec.toMat3 v3 bl)) : Spec.Mat 256 256) n k :=
  congrFun (congrFun (hc_rows v0 v1 v2 v3 w5 w6 w7 w8 w9 w10 w11 w12 w13 w14 w15 w16 w17 w18 w19 w20 bl) n) k

end Chain

end Cert.KernelIdeal.KChain

end
-- ==== Proof.KValue.lean ====
import proofs.«126533_g2000204636238536_pallasbulk_491_2_alg».proof.Proof.KernelIdealFrameP
import proofs.«126533_g2000204636238536_pallasbulk_491_2_alg».proof.Proof.Args
import proofs.«126533_g2000204636238536_pallasbulk_491_2_alg».proof.Proof.KChain
import proofs.«126533_g2000204636238536_pallasbulk_491_2_alg».proof.Proof.KHead
import Idealize.ShloMosaic.Lib.ValueIdx
import Idealize.ShloMosaic.Lib.Pipeline.Value

noncomputable section

namespace Cert.KernelIdeal.KValue

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

section Body

variable (x0 x1 x2 x3 : Vec Ideal S8x256x256 .f32) (x4 : Vec Ideal S8x129 .f32) (x5 x9 x21 : Vec Ideal S256x256 .bf16)
  (x6 x10 x14 x18 x22 x26 x30 x34 : Vec Ideal S1x256 .f32) (x7 x11 x15 x19 x23 x27 : Vec Ideal S256x128 .bf16)
  (x8 x12 x16 x20 x24 x28 : Vec Ideal S1x128 .f32) (x13 x17 x25 x29 : Vec Ideal S128x256 .bf16)
  (x31 x35 : Vec Ideal S256x1 .f32) (x32 x36 : Vec Ideal S1x1 .f32) (x33 : Vec Ideal S128x256 .f32)

/-- Each result block is a head's function of the scores `P` of the two graphs' concatenated node states. -/
theorem out_eq (P) (hP : P = KHead.pvK (KChain.hc x0 x1 x2 x3 x5 x6 x7 x8 x9 x10 x11 x12 x13 x14 x15 x16 x17 x18 x19 x20) x21 x22 x23 x24 x25 x26 x27 x28 x29 x30 x31 x32 x33 x34 x35 x36) :
    out0_37 x0 x1 x2 x3 x4 x5 x6 x7 x8 x9 x10 x11 x12 x13 x14 x15 x16 x17 x18 x19 x20 x21 x22 x23 x24 x25 x26 x27 x28 x29 x30 x31 x32 x33 x34 x35 x36 = k0_pay33 P ∧ out0_38 x0 x1 x2 x3 x4 x5 x6 x7 x8 x9 x10 x11 x12 x13 x14 x15 x16 x17 x18 x19 x20 x21 x22 x23 x24 x25 x26 x27 x28 x29 x30 x31 x32 x33 x34 x35 x36 = k0_pay35 P
      ∧ out0_39 x0 x1 x2 x3 x4 x5 x6 x7 x8 x9 x10 x11 x12 x13 x14 x15 x16 x17 x18 x19 x20 x21 x22 x23 x24 x25 x26 x27 x28 x29 x30 x31 x32 x33 x34 x35 x36 = k0_pay34 P x4 ∧ out0_40 x0 x1 x2 x3 x4 x5 x6 x7 x8 x9 x10 x11 x12 x13 x14 x15 x16 x17 x18 x19 x20 x21 x22 x23 x24 x25 x26 x27 x28 x29 x30 x31 x32 x33 x34 x35 x36 = k0_pay36 P x4 := by
  subst hP
  refine ⟨?_, ?_, ?_, ?_⟩ <;>
  · first | unfold out0_37 | unfold out0_38 | unfold out0_39 | unfold out0_40
    rw [View.canon_unit_zero hz2]
    simp only [core0, View.ld_unit_zero (S := S8x256x256) hz3, View.ld_unit_zero (S := S256x256) hz2, View.ld_unit_zero (S := S1x256) hz2, View.ld_unit_zero (S := S256x128) hz2, View.ld_unit_zero (S := S1x128) hz2, View.ld_unit_zero (S := S128x256) hz2, View.ld_unit_zero (S := S256x1) hz2, View.ld_unit_zero (S := S1x1) hz2, View.ld_unit_zero (S := S8x129) hz2]
    rfl

/-- Row `bl` of the four result blocks is the network's four results on the blocks' batch element `bl`. -/
theorem out_apply (bl : Fin 8) (s : Fin 129) (N : Fin 4 → EReal)
    (hN : N = fun j => Spec.netOut (Spec.mkBodyK x5 x6 x7 x8 x9 x10 x11 x12 x13 x14 x15 x16 x17 x18 x19 x20) (Spec.mkHeadK x21 x22 x23 x24 x25 x26 x27 x28 x29 x30 x31 x32 x33 x34 x35 x36) (Spec.toMat3 x0 bl) (Spec.toMat3 x1 bl) (Spec.toMat3 x2 bl) (Spec.toMat3 x3 bl) (fun s => x4 (ix2 bl s)) j s) :
    out0_37 x0 x1 x2 x3 x4 x5 x6 x7 x8 x9 x10 x11 x12 x13 x14 x15 x16 x17 x18 x19 x20 x21 x22 x23 x24 x25 x26 x27 x28 x29 x30 x31 x32 x33 x34 x35 x36 (ix2 bl s) = N 0 ∧ out0_38 x0 x1 x2 x3 x4 x5 x6 x7 x8 x9 x10 x11 x12 x13 x14 x15 x16 x17 x18 x19 x20 x21 x22 x23 x24 x25 x26 x27 x28 x29 x30 x31 x32 x33 x34 x35 x36 (ix2 bl s) = N 1
      ∧ out0_39 x0 x1 x2 x3 x4 x5 x6 x7 x8 x9 x10 x11 x12 x13 x14 x15 x16 x17 x18 x19 x20 x21 x22 x23 x24 x25 x26 x27 x28 x29 x30 x31 x32 x33 x34 x35 x36 (ix2 bl s) = N 2 ∧ out0_40 x0 x1 x2 x3 x4 x5 x6 x7 x8 x9 x10 x11 x12 x13 x14 x15 x16 x17 x18 x19 x20 x21 x22 x23 x24 x25 x26 x27 x28 x29 x30 x31 x32 x33 x34 x35 x36 (ix2 bl s) = N 3 := by
  subst hN
  obtain ⟨h0, h1, h2, h3⟩ := out_eq x0 x1 x2 x3 x4 x5 x9 x21 x6 x10 x14 x18 x22 x26 x30 x34 x7 x11 x15 x19 x23 x27 x8 x12 x16 x20 x24 x28 x13 x17 x25 x29 x31 x35 x32 x36 x33 _ rfl
  rw [h0, h1, h2, h3, KHead.pay33_eq _ x21 x22 x23 x24 x25 x26 x27 x28 x29 x30 x31 x32 x33 x34 x35 x36 (KHead.mk x4 bl) bl s, KHead.pay35_eq _ x21 x22 x23 x24 x25 x26 x27 x28 x29 x30 x31 x32 x33 x34 x35 x36 (KHead.mk x4 bl) bl s,
    KHead.pay34_eq _ x21 x22 x23 x24 x25 x26 x27 x28 x29 x30 x31 x32 x33 x34 x35 x36 x4 bl s, KHead.pay36_eq _ x21 x22 x23 x24 x25 x26 x27 x28 x29 x30 x31 x32 x33 x34 x35 x36 x4 bl s]
  unfold Spec.netOut
  refine ⟨?_, ?_, ?_, ?_⟩ <;>
  · congr 1
    funext n k
    exact KChain.hc_apply x0 x1 x2 x3 x5 x6 x7 x8 x9 x10 x11 x12 x13 x14 x15 x16 x17 x18 x19 x20 bl n k

end Body

variable (m : (ℓ : Loc nD τ sig) → Buf (Elt Ideal) ℓ) (ρ : Dev nD → PrngReg)

theorem tlt (t : Fin cfg0.N) : t.val < 2 := lt_of_lt_of_eq t.isLt N_0

/-- Row `bl` of point `t`'s blocks is batch element `8 t + bl`. -/
def brow (t : Fin cfg0.N) (bl : Fin 8) : Fin 16 := ⟨8 * t.val + bl.val, by have := tlt t; omega⟩

theorem idxW : ∀ (t : Fin cfg0.N) (w : Fin 41), decide (4 < w.val ∧ w.val < 37) = true → ∀ a, (win0 w).index t a = 0 :=
  (by decide +kernel : ∀ (t : Fin grid0.N) (w : Fin 41), _)

theorem idxB : ∀ (t : Fin cfg0.N) (w : Fin 41), decide (4 < w.val ∧ w.val < 37) = false →
    ∀ a, (win0 w).index t a * (win0 w).size a = if a.val = 0 then 8 * t.val else 0 :=
  (by decide +kernel : ∀ (t : Fin grid0.N) (w : Fin 41), _)

/-- A block at index zero on every axis reads its array at the same coordinates. -/
theorem whole_blk {G : Pipeline.Grid} (w : Pipeline.Window sig G) (t : Fin G.N) (h : ∀ a, w.index t a = 0) {α : Type}
    {X Y : w.shape.Idx → α} (e : X = Y) (f : (w.xblock (G.coords t)).Idx → w.shape.Idx) (hf : ∀ x a, (f x a : Nat) = x a) :
    (fun x => X ((w.rect t).emb x)) = fun x => Y (f x) :=
  funext fun x => (congrArg X (funext fun a => Fin.ext ((w.rect_emb_val_of_index_zero t a (h a) x).trans (hf x a).symm))).trans
    (congrFun e (f x))

/-- A vector reshaped to a one-row matrix has the vector's entries along that row. -/
theorem row_of {C : Nat} {X : (⟨2, ![1, C]⟩ : Shape).Idx → EReal} {v : (⟨1, ![C]⟩ : Shape).Idx → EReal}
    (h : (⟨1, ![C]⟩ : Shape).ShapeCasts ⟨2, ![1, C]⟩) (e : X = shapeCast (⟨2, ![1, C]⟩ : Shape) v h) :
    Spec.toRow X = Spec.toVec v := by
  subst e
  funext k
  unfold Spec.toRow Spec.toVec
  rw [shapeCast_addUnit_apply]
  congr 1
  funext a
  match a with
  | ⟨0, _⟩ => rfl

section Blocks

variable (c : Dev nD) (t : Fin cfg0.N)

theorem blk5 : (iblk m c 5 t : S256x256.Idx → EReal) = m ((c : Thread nD τ).loc main_arg5) :=
  whole_blk win0_5 t (idxW t 5 rfl)
    (by dsimp only [GenP.V, Gen.hostOps0]; after_results; rfl : (V m c main_v0 : S256x256.Idx → EReal) = m ((c : Thread nD τ).loc main_arg5)) id fun _ _ => rfl

theorem blk6 : Spec.toRow (iblk m c 6 t : S1x256.Idx → EReal) = Spec.toVec (m ((c : Thread nD τ).loc main_arg6) : S256.Idx → EReal) :=
  row_of shapeCasts_S256_S1x256 (whole_blk win0_6 t (idxW t 6 rfl)
    (by dsimp only [GenP.V, Gen.hostOps0]; after_results; rfl : (V m c main_v1 : S1x256.Idx → EReal) = shapeCast S1x256 (m ((c : Thread nD τ).loc main_arg6)) shapeCasts_S256_S1x256) id fun _ _ => rfl)

theorem blk7 : (iblk m c 7 t : S256x128.Idx → EReal) = m ((c : Thread nD τ).loc main_arg7) :=
  whole_blk win0_7 t (idxW t 7 rfl)
    (by dsimp only [GenP.V, Gen.hostOps0]; after_results; rfl : (V m c main_v2 : S256x128.Idx → EReal) = m ((c : Thread nD τ).loc main_arg7)) id fun _ _ => rfl

theorem blk8 : Spec.toRow (iblk m c 8 t : S1x128.Idx → EReal) = Spec.toVec (m ((c : Thread nD τ).loc main_arg8) : S128.Idx → EReal) :=
  row_of shapeCasts_S128_S1x128 (whole_blk win0_8 t (idxW t 8 rfl)
    (by dsimp only [GenP.V, Gen.hostOps0]; after_results; rfl : (V m c main_v3 : S1x128.Idx → EReal) = shapeCast S1x128 (m ((c : Thread nD τ).loc main_arg8)) shapeCasts_S128_S1x128) id fun _ _ => rfl)

theorem blk9 : (iblk m c 9 t : S256x256.Idx → EReal) = m ((c : Thread nD τ).loc main_arg9) :=
  whole_blk win0_9 t (idxW t 9 rfl)
    (by dsimp only [GenP.V, Gen.hostOps0]; after_results; rfl : (V m c main_v4 : S256x256.Idx → EReal) = m ((c : Thread nD τ).loc main_arg9)) id fun _ _ => rfl

theorem blk10 : Spec.toRow (iblk m c 10 t : S1x256.Idx → EReal) = Spec.toVec (m ((c : Thread nD τ).loc main_arg10) : S256.Idx → EReal) :=
  row_of shapeCasts_S256_S1x256 (whole_blk win0_10 t (idxW t 10 rfl)
    (by dsimp only [GenP.V, Gen.hostOps0]; after_results; rfl : (V m c main_v5 : S1x256.Idx → EReal) = shapeCast S1x256 (m ((c : Thread nD τ).loc main_arg10)) shapeCasts_S256_S1x256) id fun _ _ => rfl)

theorem blk11 : (iblk m c 11 t : S256x128.Idx → EReal) = m ((c : Thread nD τ).loc main_arg11) :=
  whole_blk win0_11 t (idxW t 11 rfl)
    (by dsimp only [GenP.V, Gen.hostOps0]; after_results; rfl : (V m c main_v6 : S256x128.Idx → EReal) = m ((c : Thread nD τ).loc main_arg11)) id fun _ _ => rfl

theorem blk12 : Spec.toRow (iblk m c 12 t : S1x128.Idx → EReal) = Spec.toVec (m ((c : Thread nD τ).loc main_arg12) : S128.Idx → EReal) :=
  row_of shapeCasts_S128_S1x128 (whole_blk win0_12 t (idxW t 12 rfl)
    (by dsimp only [GenP.V, Gen.hostOps0]; after_results; rfl : (V m c main_v7 : S1x128.Idx → EReal) = shapeCast S1x128 (m ((c : Thread nD τ).loc main_arg12)) shapeCasts_S128_S1x128) id fun _ _ => rfl)

theorem blk13 : (iblk m c 13 t : S128x256.Idx → EReal) = m ((c : Thread nD τ).loc main_arg13) :=
  whole_blk win0_13 t (idxW t 13 rfl)
    (by dsimp only [GenP.V, Gen.hostOps0]; after_results; rfl : (V m c main_v8 : S128x256.Idx → EReal) = m ((c : Thread nD τ).loc main_arg13)) id fun _ _ => rfl

theorem blk14 : Spec.toRow (iblk m c 14 t : S1x256.Idx → EReal) = Spec.toVec (m ((c : Thread nD τ).loc main_arg14) : S256.Idx → EReal) :=
  row_of shapeCasts_S256_S1x256 (whole_blk win0_14 t (idxW t 14 rfl)
    (by dsimp only [GenP.V, Gen.hostOps0]; after_results; rfl : (V m c main_v9 : S1x256.Idx → EReal) = shapeCast S1x256 (m ((c : Thread nD τ).loc main_arg14)) shapeCasts_S256_S1x256) id fun _ _ => rfl)

theorem blk15 : (iblk m c 15 t : S256x128.Idx → EReal) = m ((c : Thread nD τ).loc main_arg15) :=
  whole_blk win0_15 t (idxW t 15 rfl)
    (by dsimp only [GenP.V, Gen.hostOps0]; after_results; rfl : (V m c main_v10 : S256x128.Idx → EReal) = m ((c : Thread nD τ).loc main_arg15)) id fun _ _ => rfl

theorem blk16 : Spec.toRow (iblk m c 16 t : S1x128.Idx → EReal) = Spec.toVec (m ((c : Thread nD τ).loc main_arg16) : S128.Idx → EReal) :=
  row_of shapeCasts_S128_S1x128 (whole_blk win0_16 t (idxW t 16 rfl)
    (by dsimp only [GenP.V, Gen.hostOps0]; after_results; rfl : (V m c main_v11 : S1x128.Idx → EReal) = shapeCast S1x128 (m ((c : Thread nD τ).loc main_arg16)) shapeCasts_S128_S1x128) id fun _ _ => rfl)

theorem blk17 : (iblk m c 17 t : S128x256.Idx → EReal) = m ((c : Thread nD τ).loc main_arg17) :=
  whole_blk win0_17 t (idxW t 17 rfl)
    (by dsimp only [GenP.V, Gen.hostOps0]; after_results; rfl : (V m c main_v12 : S128x256.Idx → EReal) = m ((c : Thread nD τ).loc main_arg17)) id fun _ _ => rfl

theorem blk18 : Spec.toRow (iblk m c 18 t : S1x256.Idx → EReal) = Spec.toVec (m ((c : Thread nD τ).loc main_arg18) : S256.Idx → EReal) :=
  row_of shapeCasts_S256_S1x256 (whole_blk win0_18 t (idxW t 18 rfl)
    (by dsimp only [GenP.V, Gen.hostOps0]; after_results; rfl : (V m c main_v13 : S1x256.Idx → EReal) = shapeCast S1x256 (m ((c : Thread nD τ).loc main_arg18)) shapeCasts_S256_S1x256) id fun _ _ => rfl)

theorem blk19 : (iblk m c 19 t : S256x128.Idx → EReal) = m ((c : Thread nD τ).loc main_arg19) :=
  whole_blk win0_19 t (idxW t 19 rfl)
    (by dsimp only [GenP.V, Gen.hostOps0]; after_results; rfl : (V m c main_v14 : S256x128.Idx → EReal) = m ((c : Thread nD τ).loc main_arg19)) id fun _ _ => rfl

theorem blk20 : Spec.toRow (iblk m c 20 t : S1x128.Idx → EReal) = Spec.toVec (m ((c : Thread nD τ).loc main_arg20) : S128.Idx → EReal) :=
  row_of shapeCasts_S128_S1x128 (whole_blk win0_20 t (idxW t 20 rfl)
    (by dsimp only [GenP.V, Gen.hostOps0]; after_results; rfl : (V m c main_v15 : S1x128.Idx → EReal) = shapeCast S1x128 (m ((c : Thread nD τ).loc main_arg20)) shapeCasts_S128_S1x128) id fun _ _ => rfl)

theorem blk21 : (iblk m c 21 t : S256x256.Idx → EReal) = m ((c : Thread nD τ).loc main_arg21) :=
  whole_blk win0_21 t (idxW t 21 rfl)
    (by dsimp only [GenP.V, Gen.hostOps0]; after_results; rfl : (V m c main_v16 : S256x256.Idx → EReal) = m ((c : Thread nD τ).loc main_arg21)) id fun _ _ => rfl

theorem blk22 : Spec.toRow (iblk m c 22 t : S1x256.Idx → EReal) = Spec.toVec (m ((c : Thread nD τ).loc main_arg22) : S256.Idx → EReal) :=
  row_of shapeCasts_S256_S1x256 (whole_blk win0_22 t (idxW t 22 rfl)
    (by dsimp only [GenP.V, Gen.hostOps0]; after_results; rfl : (V m c main_v17 : S1x256.Idx → EReal) = shapeCast S1x256 (m ((c : Thread nD τ).loc main_arg22)) shapeCasts_S256_S1x256) id fun _ _ => rfl)

theorem blk23 : (iblk m c 23 t : S256x128.Idx → EReal) = m ((c : Thread nD τ).loc main_arg23) :=
  whole_blk win0_23 t (idxW t 23 rfl)
    (by dsimp only [GenP.V, Gen.hostOps0]; after_results; rfl : (V m c main_v18 : S256x128.Idx → EReal) = m ((c : Thread nD τ).loc main_arg23)) id fun _ _ => rfl

theorem blk24 : Spec.toRow (iblk m c 24 t : S1x128.Idx → EReal) = Spec.toVec (m ((c : Thread nD τ).loc main_arg24) : S128.Idx → EReal) :=
  row_of shapeCasts_S128_S1x128 (whole_blk win0_24 t (idxW t 24 rfl)
    (by dsimp only [GenP.V, Gen.hostOps0]; after_results; rfl : (V m c main_v19 : S1x128.Idx → EReal) = shapeCast S1x128 (m ((c : Thread nD τ).loc main_arg24)) shapeCasts_S128_S1x128) id fun _ _ => rfl)

theorem blk25 : (iblk m c 25 t : S128x256.Idx → EReal) = m ((c : Thread nD τ).loc main_arg25) :=
  whole_blk win0_25 t (idxW t 25 rfl)
    (by dsimp only [GenP.V, Gen.hostOps0]; after_results; rfl : (V m c main_v20 : S128x256.Idx → EReal) = m ((c : Thread nD τ).loc main_arg25)) id fun _ _ => rfl

theorem blk26 : Spec.toRow (iblk m c 26 t : S1x256.Idx → EReal) = Spec.toVec (m ((c : Thread nD τ).loc main_arg26) : S256.Idx → EReal) :=
  row_of shapeCasts_S256_S1x256 (whole_blk win0_26 t (idxW t 26 rfl)
    (by dsimp only [GenP.V, Gen.hostOps0]; after_results; rfl : (V m c main_v21 : S1x256.Idx → EReal) = shapeCast S1x256 (m ((c : Thread nD τ).loc main_arg26)) shapeCasts_S256_S1x256) id fun _ _ => rfl)

theorem blk27 : (iblk m c 27 t : S256x128.Idx → EReal) = m ((c : Thread nD τ).loc main_arg27) :=
  whole_blk win0_27 t (idxW t 27 rfl)
    (by dsimp only [GenP.V, Gen.hostOps0]; after_results; rfl : (V m c main_v22 : S256x128.Idx → EReal) = m ((c : Thread nD τ).loc main_arg27)) id fun _ _ => rfl

theorem blk28 : Spec.toRow (iblk m c 28 t : S1x128.Idx → EReal) = Spec.toVec (m ((c : Thread nD τ).loc main_arg28) : S128.Idx → EReal) :=
  row_of shapeCasts_S128_S1x128 (whole_blk win0_28 t (idxW t 28 rfl)
    (by dsimp only [GenP.V, Gen.hostOps0]; after_results; rfl : (V m c main_v23 : S1x128.Idx → EReal) = shapeCast S1x128 (m ((c : Thread nD τ).loc main_arg28)) shapeCasts_S128_S1x128) id fun _ _ => rfl)

theorem blk29 : (iblk m c 29 t : S128x256.Idx → EReal) = m ((c : Thread nD τ).loc main_arg29) :=
  whole_blk win0_29 t (idxW t 29 rfl)
    (by dsimp only [GenP.V, Gen.hostOps0]; after_results; rfl : (V m c main_v24 : S128x256.Idx → EReal) = m ((c : Thread nD τ).loc main_arg29)) id fun _ _ => rfl

theorem blk30 : Spec.toRow (iblk m c 30 t : S1x256.Idx → EReal) = Spec.toVec (m ((c : Thread nD τ).loc main_arg30) : S256.Idx → EReal) :=
  row_of shapeCasts_S256_S1x256 (whole_blk win0_30 t (idxW t 30 rfl)
    (by dsimp only [GenP.V, Gen.hostOps0]; after_results; rfl : (V m c main_v25 : S1x256.Idx → EReal) = shapeCast S1x256 (m ((c : Thread nD τ).loc main_arg30)) shapeCasts_S256_S1x256) id fun _ _ => rfl)

theorem blk31 : (iblk m c 31 t : S256x1.Idx → EReal) = m ((c : Thread nD τ).loc main_arg31) :=
  whole_blk win0_31 t (idxW t 31 rfl) (V_main_arg31 m c) id fun _ _ => rfl

theorem blk32 : Spec.toRow (iblk m c 32 t : S1x1.Idx → EReal) = Spec.toVec (m ((c : Thread nD τ).loc main_arg32) : S1.Idx → EReal) :=
  row_of shapeCasts_S1_S1x1 (whole_blk win0_32 t (idxW t 32 rfl)
    (by dsimp only [GenP.V, Gen.hostOps0]; after_results; rfl : (V m c main_v26 : S1x1.Idx → EReal) = shapeCast S1x1 (m ((c : Thread nD τ).loc main_arg32)) shapeCasts_S1_S1x1) id fun _ _ => rfl)

theorem blk33 : (iblk m c 33 t : S128x256.Idx → EReal) = m ((c : Thread nD τ).loc main_arg33) :=
  whole_blk win0_33 t (idxW t 33 rfl) (V_main_arg33 m c) id fun _ _ => rfl

theorem blk34 : Spec.toRow (iblk m c 34 t : S1x256.Idx → EReal) = Spec.toVec (m ((c : Thread nD τ).loc main_arg34) : S256.Idx → EReal) :=
  row_of shapeCasts_S256_S1x256 (whole_blk win0_34 t (idxW t 34 rfl)
    (by dsimp only [GenP.V, Gen.hostOps0]; after_results; rfl : (V m c main_v27 : S1x256.Idx → EReal) = shapeCast S1x256 (m ((c : Thread nD τ).loc main_arg34)) shapeCasts_S256_S1x256) id fun _ _ => rfl)

theorem blk35 : (iblk m c 35 t : S256x1.Idx → EReal) = m ((c : Thread nD τ).loc main_arg35) :=
  whole_blk win0_35 t (idxW t 35 rfl) (V_main_arg35 m c) id fun _ _ => rfl

theorem blk36 : Spec.toRow (iblk m c 36 t : S1x1.Idx → EReal) = Spec.toVec (m ((c : Thread nD τ).loc main_arg36) : S1.Idx → EReal) :=
  row_of shapeCasts_S1_S1x1 (whole_blk win0_36 t (idxW t 36 rfl)
    (by dsimp only [GenP.V, Gen.hostOps0]; after_results; rfl : (V m c main_v28 : S1x1.Idx → EReal) = shapeCast S1x1 (m ((c : Thread nD τ).loc main_arg36)) shapeCasts_S1_S1x1) id fun _ _ => rfl)

/-- Rows `8 k …` of the leading axis: element `(bl, s)` of the block is element `(8 k + bl, s)` of the array. -/
theorem emb_rows {off : Fin 2 → Nat} {inb} (k : Nat) (h : ∀ a : Fin 2, off a = if a.val = 0 then 8 * k else 0) (bl : Fin 8) (s : Fin 129)
    (hk : 8 * k + bl.val < 16) :
    (Rect.unit off (⟨2, ![8, 129]⟩ : Shape).size inb : Rect ⟨2, ![16, 129]⟩).emb (ix2 bl s) = ix2 ⟨8 * k + bl.val, hk⟩ s := by
  funext a
  apply Fin.ext
  rw [Rect.emb_apply]
  show off a + 1 * ((ix2 bl s a : Fin _) : Nat) = _
  rw [h]
  match a with
  | ⟨0, _⟩ => show 8 * k + 1 * bl.val = 8 * k + bl.val; omega
  | ⟨1, _⟩ => show 0 + 1 * s.val = s.val; omega

/-- The same for a stack of matrices. -/
theorem emb_rows3 {off : Fin 3 → Nat} {inb} (k : Nat) (h : ∀ a : Fin 3, off a = if a.val = 0 then 8 * k else 0) (bl : Fin 8) (n j : Fin 256)
    (hk : 8 * k + bl.val < 16) :
    (Rect.unit off (⟨3, ![8, 256, 256]⟩ : Shape).size inb : Rect ⟨3, ![16, 256, 256]⟩).emb (ix3 bl n j) = ix3 ⟨8 * k + bl.val, hk⟩ n j := by
  funext a
  apply Fin.ext
  rw [Rect.emb_apply]
  show off a + 1 * ((ix3 bl n j a : Fin _) : Nat) = _
  rw [h]
  match a with
  | ⟨0, _⟩ => show 8 * k + 1 * bl.val = 8 * k + bl.val; omega
  | ⟨1, _⟩ => show 0 + 1 * n.val = n.val; omega
  | ⟨2, _⟩ => show 0 + 1 * j.val = j.val; omega

/-- Two blocks of eight rows cover the sixteen rows. -/
theorem cover_rows {N : Nat} (hN : N = 2) {off : Fin N → Fin 2 → Nat}
    {inb : ∀ t a, off t a + (⟨2, ![8, 129]⟩ : Shape).size a ≤ (⟨2, ![16, 129]⟩ : Shape).size a} (h : ∀ t (a : Fin 2), off t a = if a.val = 0 then 8 * t.val else 0)
    (i : (⟨2, ![16, 129]⟩ : Shape).Idx) :
    ∃ t : Fin N, i ∈ (Rect.unit (off t) (⟨2, ![8, 129]⟩ : Shape).size (inb t) : Rect ⟨2, ![16, 129]⟩).set := by
  have hi0 : (i 0).val < 16 := (i 0).isLt
  have hi1 : (i 1).val < 129 := (i 1).isLt
  refine ⟨⟨(i 0).val / 8, by omega⟩, Rect.mem_set_unit.mpr fun a => ?_⟩
  rw [h]
  match a with
  | ⟨0, _⟩ => show 8 * ((i 0).val / 8) ≤ (i 0).val ∧ (i 0).val < 8 * ((i 0).val / 8) + 8; omega
  | ⟨1, _⟩ => show 0 ≤ (i 1).val ∧ (i 1).val < 0 + 129; omega

theorem blk0_apply (bl : Fin 8) :
    Spec.toMat3 (iblk m c 0 t : S8x256x256.Idx → EReal) bl
      = Spec.toMat3 (m ((c : Thread nD τ).loc main_arg0) : S16x256x256.Idx → EReal) (brow t bl) :=
  funext fun n => funext fun k => (congrArg (V m c main_arg0) (emb_rows3 (off := fun a => win0_0.index t a * win0_0.size a)
    t.val (idxB t 0 rfl) bl n k (brow t bl).isLt)).trans (congrFun (V_main_arg0 m c) _)

theorem blk1_apply (bl : Fin 8) :
    Spec.toMat3 (iblk m c 1 t : S8x256x256.Idx → EReal) bl
      = Spec.toMat3 (m ((c : Thread nD τ).loc main_arg1) : S16x256x256.Idx → EReal) (brow t bl) :=
  funext fun n => funext fun k => (congrArg (V m c main_arg1) (emb_rows3 (off := fun a => win0_1.index t a * win0_1.size a)
    t.val (idxB t 1 rfl) bl n k (brow t bl).isLt)).trans (congrFun (V_main_arg1 m c) _)

theorem blk2_apply (bl : Fin 8) :
    Spec.toMat3 (iblk m c 2 t : S8x256x256.Idx → EReal) bl
      = Spec.toMat3 (m ((c : Thread nD τ).loc main_arg2) : S16x256x256.Idx → EReal) (brow t bl) :=
  funext fun n => funext fun k => (congrArg (V m c main_arg2) (emb_rows3 (off := fun a => win0_2.index t a * win0_2.size a)
    t.val (idxB t 2 rfl) bl n k (brow t bl).isLt)).trans (congrFun (V_main_arg2 m c) _)

theorem blk3_apply (bl : Fin 8) :
    Spec.toMat3 (iblk m c 3 t : S8x256x256.Idx → EReal) bl
      = Spec.toMat3 (m ((c : Thread nD τ).loc main_arg3) : S16x256x256.Idx → EReal) (brow t bl) :=
  funext fun n => funext fun k => (congrArg (V m c main_arg3) (emb_rows3 (off := fun a => win0_3.index t a * win0_3.size a)
    t.val (idxB t 3 rfl) bl n k (brow t bl).isLt)).trans (congrFun (V_main_arg3 m c) _)

theorem blk4_apply (bl : Fin 8) :
    (fun s : Fin 129 => (iblk m c 4 t : S8x129.Idx → EReal) (ix2 bl s))
      = fun s => (m ((c : Thread nD τ).loc main_arg4) : S16x129.Idx → EReal) (ix2 (brow t bl) s) :=
  funext fun s => (congrArg (V m c main_arg4) (emb_rows (off := fun a => win0_4.index t a * win0_4.size a)
    t.val (idxB t 4 rfl) bl s (brow t bl).isLt)).trans (congrFun (V_main_arg4 m c) _)

/-- Row `b` of result `j` is the network's `j`-th output on batch element `b` of the arguments. -/
def KOut (c : Dev nD) (j : Fin 4) : S16x129.Idx → EReal := fun i =>
  Spec.netOut (Spec.mkBody (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20))) (Spec.mkHead (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)))
    (Spec.toMat3 (m ((c : Thread nD τ).loc main_arg0) : S16x256x256.Idx → EReal) (i 0))
    (Spec.toMat3 (m ((c : Thread nD τ).loc main_arg1) : S16x256x256.Idx → EReal) (i 0))
    (Spec.toMat3 (m ((c : Thread nD τ).loc main_arg2) : S16x256x256.Idx → EReal) (i 0))
    (Spec.toMat3 (m ((c : Thread nD τ).loc main_arg3) : S16x256x256.Idx → EReal) (i 0))
    (fun s => (m ((c : Thread nD τ).loc main_arg4) : S16x129.Idx → EReal) (ix2 (i 0) s)) j (i 1)

/-- The network on point `t`'s blocks at their row `bl` is the network on the arguments at batch element `8 t + bl`. -/
theorem net_blocks (bl : Fin 8) (j : Fin 4) (s : Fin 129) :
    Spec.netOut (Spec.mkBodyK (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)) (Spec.mkHeadK (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t))
      (Spec.toMat3 (iblk m c 0 t : S8x256x256.Idx → EReal) bl) (Spec.toMat3 (iblk m c 1 t : S8x256x256.Idx → EReal) bl)
      (Spec.toMat3 (iblk m c 2 t : S8x256x256.Idx → EReal) bl) (Spec.toMat3 (iblk m c 3 t : S8x256x256.Idx → EReal) bl)
      (fun s : Fin 129 => (iblk m c 4 t : S8x129.Idx → EReal) (ix2 bl s)) j s = KOut m c j (ix2 (brow t bl) s) := by
  unfold Spec.mkBodyK Spec.mkHeadK
  rw [blk5 m c t, blk6 m c t, blk7 m c t, blk8 m c t, blk9 m c t, blk10 m c t, blk11 m c t, blk12 m c t, blk13 m c t, blk14 m c t, blk15 m c t, blk16 m c t, blk17 m c t, blk18 m c t, blk19 m c t, blk20 m c t, blk21 m c t, blk22 m c t, blk23 m c t, blk24 m c t, blk25 m c t, blk26 m c t, blk27 m c t, blk28 m c t, blk29 m c t, blk30 m c t, blk31 m c t, blk32 m c t, blk33 m c t, blk34 m c t, blk35 m c t, blk36 m c t, blk0_apply m c t bl, blk1_apply m c t bl, blk2_apply m c t bl, blk3_apply m c t bl, blk4_apply m c t bl]
  rfl

/-- A block whose row `bl` holds row `8 t + bl` of `G` is `G` read through an embedding that sends row `bl` there. -/
theorem rows_eq {f : S8x129.Idx → EReal} {G : S16x129.Idx → EReal} {e : S8x129.Idx → S16x129.Idx} (t : Fin cfg0.N)
    (he : ∀ bl s, e (ix2 bl s) = ix2 (brow t bl) s) (hf : ∀ bl s, f (ix2 bl s) = G (ix2 (brow t bl) s)) :
    f = fun y => G (e y) := by
  funext y
  obtain ⟨bl, s, rfl⟩ : ∃ (bl : Fin 8) (s : Fin 129), y = ix2 bl s := ⟨y 0, y 1, eq_ix2 y⟩
  exact (hf bl s).trans (congrArg G (he bl s).symm)

end Blocks

theorem final37 (c : Dev nD) : (dats m 0 c).arrAt 37 cfg0.N = KOut m c 0 :=
  (dats m 0 c).arrAt_eq_of_cover 37 _ (fun t _ => (congrArg ((cfg0.win 37).cut (grid0.coords t)) (after0_37 m c t)).trans
      (rows_eq (G := KOut m c 0) t
        (fun bl s => emb_rows (off := fun a => win0_37.index t a * win0_37.size a) t.val (idxB t 37 rfl) bl s (brow t bl).isLt)
        fun bl s => (out_apply (bl := bl) (s := s) (hN := rfl) ..).1.trans (net_blocks m c t bl 0 s)))
    fun i => (cover_rows N_0 (off := fun t a => win0_37.index t a * win0_37.size a) (idxB · 37 rfl) i).imp fun t ht =>
      ⟨flush0_37 t, (congrArg (i ∈ ·) (View.set_slice_whole main_v29_0 (win0_37.rect t))).mpr ht⟩

theorem final38 (c : Dev nD) : (dats m 0 c).arrAt 38 cfg0.N = KOut m c 1 :=
  (dats m 0 c).arrAt_eq_of_cover 38 _ (fun t _ => (congrArg ((cfg0.win 38).cut (grid0.coords t)) (after0_38 m c t)).trans
      (rows_eq (G := KOut m c 1) t
        (fun bl s => emb_rows (off := fun a => win0_38.index t a * win0_38.size a) t.val (idxB t 38 rfl) bl s (brow t bl).isLt)
        fun bl s => (out_apply (bl := bl) (s := s) (hN := rfl) ..).2.1.trans (net_blocks m c t bl 1 s)))
    fun i => (cover_rows N_0 (off := fun t a => win0_38.index t a * win0_38.size a) (idxB · 38 rfl) i).imp fun t ht =>
      ⟨flush0_38 t, (congrArg (i ∈ ·) (View.set_slice_whole main_v29_1 (win0_38.rect t))).mpr ht⟩

theorem final39 (c : Dev nD) : (dats m 0 c).arrAt 39 cfg0.N = KOut m c 2 :=
  (dats m 0 c).arrAt_eq_of_cover 39 _ (fun t _ => (congrArg ((cfg0.win 39).cut (grid0.coords t)) (after0_39 m c t)).trans
      (rows_eq (G := KOut m c 2) t
        (fun bl s => emb_rows (off := fun a => win0_39.index t a * win0_39.size a) t.val (idxB t 39 rfl) bl s (brow t bl).isLt)
        fun bl s => (out_apply (bl := bl) (s := s) (hN := rfl) ..).2.2.1.trans (net_blocks m c t bl 2 s)))
    fun i => (cover_rows N_0 (off := fun t a => win0_39.index t a * win0_39.size a) (idxB · 39 rfl) i).imp fun t ht =>
      ⟨flush0_39 t, (congrArg (i ∈ ·) (View.set_slice_whole main_v29_2 (win0_39.rect t))).mpr ht⟩

theorem final40 (c : Dev nD) : (dats m 0 c).arrAt 40 cfg0.N = KOut m c 3 :=
  (dats m 0 c).arrAt_eq_of_cover 40 _ (fun t _ => (congrArg ((cfg0.win 40).cut (grid0.coords t)) (after0_40 m c t)).trans
      (rows_eq (G := KOut m c 3) t
        (fun bl s => emb_rows (off := fun a => win0_40.index t a * win0_40.size a) t.val (idxB t 40 rfl) bl s (brow t bl).isLt)
        fun bl s => (out_apply (bl := bl) (s := s) (hN := rfl) ..).2.2.2.trans (net_blocks m c t bl 3 s)))
    fun i => (cover_rows N_0 (off := fun t a => win0_40.index t a * win0_40.size a) (idxB · 40 rfl) i).imp fun t ht =>
      ⟨flush0_40 t, (congrArg (i ∈ ·) (View.set_slice_whole main_v29_3 (win0_40.rect t))).mpr ht⟩

theorem run : θ_run defs (onTc (τ := τ) (main (F := Ideal))) ⟨m, fun _ => 0, ρ⟩ fun r => ∀ c : Dev nD,
      r.2.mem ((c : Thread nD τ).loc main_v29_0) = KOut m c 0 ∧ r.2.mem ((c : Thread nD τ).loc main_v29_1) = KOut m c 1
      ∧ r.2.mem ((c : Thread nD τ).loc main_v29_2) = KOut m c 2 ∧ r.2.mem ((c : Thread nD τ).loc main_v29_3) = KOut m c 3 :=
  (θ_run defs _ _).mono (fun r h c => ⟨((h c).1 37).trans (final37 m c), ((h c).1 38).trans (final38 m c),
      ((h c).1 39).trans (final39 m c), ((h c).1 40).trans (final40 m c)⟩) (run_main m ρ)

end Cert.KernelIdeal.KValue

end
-- ==== Proof.RPieces.lean ====
import proofs.«126533_g2000204636238536_pallasbulk_491_2_alg».proof.Proof.Gen.ReferenceIdeal.Skeleton
import Idealize.ShloMosaic.Lib.Pipeline.FrameBody

noncomputable section

namespace Cert.ReferenceIdeal.RPieces

open Idealize.ShloMosaic Idealize.SL.Sem
open Cert.ReferenceIdeal Cert.ReferenceIdeal.Gen

variable {F : FTy → Type} [FloatOps F]

abbrev rWa0 : Rect S3552x512 := Rect.unit (s := S3552x512) ![3152, 0] S128x256.size inb_S3552x512_S128x256_3152_0
abbrev rBa0 : Rect S3552x512 := Rect.unit (s := S3552x512) ![3280, 0] S1x256.size inb_S3552x512_S1x256_3280_0
abbrev rWa1 : Rect S3552x512 := Rect.unit (s := S3552x512) ![3288, 0] S256x1.size inb_S3552x512_S256x1_3288_0
abbrev rBa1 : Rect S3552x512 := Rect.unit (s := S3552x512) ![3544, 0] S1x1.size inb_S3552x512_S1x1_3544_0

/-- Row `b` of the mask array. -/
abbrev mrect (b : Nat) (h : b < 16 := by decide) : Rect S16x129x1 :=
  Rect.unit (s := S16x129x1) ![b, 0, 0] S1x129x1.size fun a => match a with
    | ⟨0, _⟩ => h
    | ⟨1, _⟩ => Nat.le_refl _
    | ⟨2, _⟩ => Nat.le_refl _

variable (vsw : FVec F S2048x128 .f32) (vsp : FVec F S2048x1 .f32) (x2 : Vec F S16x129x1 .f32) (x3 : Vec F S3552x512 .f32)

/-- Row `b` of the mask, and the aggregate head's two weights and two biases, as loaded. -/
abbrev mrow (b : Nat) (h : b < 16 := by decide) := View.ld x2 (mrect b h)
abbrev wa0 := View.ld x3 rWa0
abbrev ba0 := View.ld x3 rBa0
abbrev wa1 := View.ld x3 rWa1
abbrev ba1 := View.ld x3 rBa1

def sl0 : FVec F S128x1 .f32 :=
  extractStridedSlice S128x1 ![0, 0] vsp slices_S2048x1_o0_0_S128x1

def hid0 (v231 : Vec F S128x256 .f32) (v233 : Vec F S1x256 .f32) : FVec F S1x256 .f32 :=
  have v227 : FVec F S128x128 .f32 := extractStridedSlice S128x128 ![0, 0] vsw slices_S2048x128_o0_0_S128x128
  have v229 : FVec F S128 .f32 := multiReduction .add [0] S128 v227 0x00000000#32 reduces_S128x128_S128 (.inl rfl) rfl
  have v230 : FVec F S1x128 .f32 := shapeCast S1x128 v229 shapeCasts_S128_S1x128
  have v232 : FVec F S128x256 .f32 := shapeCast S128x256 v231 shapeCasts_S128x256_S128x256
  have v234 : FVec F S1x256 .f32 := shapeCast S1x256 v233 shapeCasts_S1x256_S1x256
  have cst_92 : FVec F S1x256 .f32 := constant S1x256 .f32 0x00000000#32
  have v235 : FVec F S1x256 .f32 := matmul dot_S1x128_S128x256_S1x256_1_0_0_1_n_n none v230 v232 cst_92
  have v236 : FVec F S1x256 .f32 := addf v235 v234
  have cst_93 : F .f32 := Scalar.ofBits .f32 0x3C23D70A#32
  have v237 : FVec F S1x256 .f32 := broadcast S1x256 cst_93
  have v238 : FVec F S1x256 .f32 := mulf v237 v236
  have v239 : FVec F S1x256 .f32 := maximumf v236 v238
  v239

def piece0 :=
  k0_pay20 (sl0 vsp) (hid0 vsw (wa0 x3) (ba0 x3)) (wa1 x3) (ba1 x3) (mrow x2 0)

def piece1 :=
  k0_pay28 (k0_pay24 (k0_pay21 vsw) (k0_pay22 vsp) (wa0 x3) (ba0 x3) (wa1 x3) (ba1 x3)) (k0_pay25 (k0_pay21 vsw) (k0_pay22 vsp) (wa0 x3) (ba0 x3) (wa1 x3) (ba1 x3))
    (k0_pay26 (k0_pay21 vsw) (k0_pay22 vsp) (wa0 x3) (ba0 x3) (wa1 x3) (ba1 x3) (mrow x2 1))
    (k0_pay27 (k0_pay21 vsw) (k0_pay22 vsp) (wa0 x3) (ba0 x3) (wa1 x3) (ba1 x3) (mrow x2 1))

def piece2 :=
  k0_pay32 (k0_pay29 vsw vsp (wa0 x3) (ba0 x3) (wa1 x3) (ba1 x3)) (k0_pay30 vsw vsp (wa0 x3) (ba0 x3) (wa1 x3) (ba1 x3))
    (k0_pay31 vsw vsp (wa0 x3) (ba0 x3) (wa1 x3) (ba1 x3)) (mrow x2 2)

def piece3 :=
  k0_pay35 (k0_pay33 vsp) (k0_pay34 vsw (wa0 x3) (ba0 x3)) (wa1 x3) (ba1 x3) (mrow x2 3)

def piece4 :=
  k0_pay43 (k0_pay39 (k0_pay36 vsw) (k0_pay37 vsp) (wa0 x3) (ba0 x3) (wa1 x3) (ba1 x3)) (k0_pay40 (k0_pay36 vsw) (k0_pay37 vsp) (wa0 x3) (ba0 x3) (wa1 x3) (ba1 x3))
    (k0_pay41 (k0_pay36 vsw) (k0_pay37 vsp) (wa0 x3) (ba0 x3) (wa1 x3) (ba1 x3) (mrow x2 4))
    (k0_pay42 (k0_pay36 vsw) (k0_pay37 vsp) (wa0 x3) (ba0 x3) (wa1 x3) (ba1 x3) (mrow x2 4))

def piece5 :=
  k0_pay47 (k0_pay44 vsw vsp (wa0 x3) (ba0 x3) (wa1 x3) (ba1 x3)) (k0_pay45 vsw vsp (wa0 x3) (ba0 x3) (wa1 x3) (ba1 x3))
    (k0_pay46 vsw vsp (wa0 x3) (ba0 x3) (wa1 x3) (ba1 x3)) (mrow x2 5)

def piece6 :=
  k0_pay50 (k0_pay48 vsp) (k0_pay49 vsw (wa0 x3) (ba0 x3)) (wa1 x3) (ba1 x3) (mrow x2 6)

def piece7 :=
  k0_pay58 (k0_pay54 (k0_pay51 vsw) (k0_pay52 vsp) (wa0 x3) (ba0 x3) (wa1 x3) (ba1 x3)) (k0_pay55 (k0_pay51 vsw) (k0_pay52 vsp) (wa0 x3) (ba0 x3) (wa1 x3) (ba1 x3))
    (k0_pay56 (k0_pay51 vsw) (k0_pay52 vsp) (wa0 x3) (ba0 x3) (wa1 x3) (ba1 x3) (mrow x2 7))
    (k0_pay57 (k0_pay51 vsw) (k0_pay52 vsp) (wa0 x3) (ba0 x3) (wa1 x3) (ba1 x3) (mrow x2 7))

def piece8 :=
  k0_pay62 (k0_pay59 vsw vsp (wa0 x3) (ba0 x3) (wa1 x3) (ba1 x3)) (k0_pay60 vsw vsp (wa0 x3) (ba0 x3) (wa1 x3) (ba1 x3))
    (k0_pay61 vsw vsp (wa0 x3) (ba0 x3) (wa1 x3) (ba1 x3)) (mrow x2 8)

def piece9 :=
  k0_pay65 (k0_pay63 vsp) (k0_pay64 vsw (wa0 x3) (ba0 x3)) (wa1 x3) (ba1 x3) (mrow x2 9)

def piece10 :=
  k0_pay73 (k0_pay69 (k0_pay66 vsw) (k0_pay67 vsp) (wa0 x3) (ba0 x3) (wa1 x3) (ba1 x3)) (k0_pay70 (k0_pay66 vsw) (k0_pay67 vsp) (wa0 x3) (ba0 x3) (wa1 x3) (ba1 x3))
    (k0_pay71 (k0_pay66 vsw) (k0_pay67 vsp) (wa0 x3) (ba0 x3) (wa1 x3) (ba1 x3) (mrow x2 10))
    (k0_pay72 (k0_pay66 vsw) (k0_pay67 vsp) (wa0 x3) (ba0 x3) (wa1 x3) (ba1 x3) (mrow x2 10))

def piece11 :=
  k0_pay77 (k0_pay74 vsw vsp (wa0 x3) (ba0 x3) (wa1 x3) (ba1 x3)) (k0_pay75 vsw vsp (wa0 x3) (ba0 x3) (wa1 x3) (ba1 x3))
    (k0_pay76 vsw vsp (wa0 x3) (ba0 x3) (wa1 x3) (ba1 x3)) (mrow x2 11)

def piece12 :=
  k0_pay80 (k0_pay78 vsp) (k0_pay79 vsw (wa0 x3) (ba0 x3)) (wa1 x3) (ba1 x3) (mrow x2 12)

def piece13 :=
  k0_pay88 (k0_pay84 (k0_pay81 vsw) (k0_pay82 vsp) (wa0 x3) (ba0 x3) (wa1 x3) (ba1 x3)) (k0_pay85 (k0_pay81 vsw) (k0_pay82 vsp) (wa0 x3) (ba0 x3) (wa1 x3) (ba1 x3))
    (k0_pay86 (k0_pay81 vsw) (k0_pay82 vsp) (wa0 x3) (ba0 x3) (wa1 x3) (ba1 x3) (mrow x2 13))
    (k0_pay87 (k0_pay81 vsw) (k0_pay82 vsp) (wa0 x3) (ba0 x3) (wa1 x3) (ba1 x3) (mrow x2 13))

def piece14 :=
  k0_pay92 (k0_pay89 vsw vsp (wa0 x3) (ba0 x3) (wa1 x3) (ba1 x3)) (k0_pay90 vsw vsp (wa0 x3) (ba0 x3) (wa1 x3) (ba1 x3))
    (k0_pay91 vsw vsp (wa0 x3) (ba0 x3) (wa1 x3) (ba1 x3)) (mrow x2 14)

def piece15 :=
  k0_pay1 (k0_pay95 (k0_pay93 vsp) (k0_pay94 vsw (wa0 x3) (ba0 x3)) (wa1 x3) (ba1 x3)) (k0_pay96 (k0_pay93 vsp) (k0_pay94 vsw (wa0 x3) (ba0 x3)) (wa1 x3) (ba1 x3))
    (k0_pay97 (k0_pay93 vsp) (k0_pay94 vsw (wa0 x3) (ba0 x3)) (wa1 x3) (ba1 x3)) (k0_pay98 (mrow x2 15))
    (Scalar.ofBits .f32 0xC2CF3B8F#32) (k0_pay99 (F := F))

end Cert.ReferenceIdeal.RPieces

end
-- ==== Proof.RChain.lean ====
import proofs.«126533_g2000204636238536_pallasbulk_491_2_alg».proof.Proof.Gen.ReferenceIdeal.Skeleton
import proofs.«126533_g2000204636238536_pallasbulk_491_2_alg».proof.Proof.RPieces
import Idealize.ShloMosaic.Lib.Pipeline.FrameBody

set_option maxRecDepth 16384

noncomputable section

namespace Cert.ReferenceIdeal.RChain

open Idealize.ShloMosaic Idealize.SL.Sem
open Cert.ReferenceIdeal.Gen

variable {F : FTy → Type} [FloatOps F]

abbrev rX := Rect.unit (s := S16x256x512) ![0, 0, 0] S16x256x512.size inb_S16x256x512_S16x256x512_0_0_0
abbrev rA := Rect.unit (s := S16x2x256x256) ![0, 0, 0, 0] S16x2x256x256.size inb_S16x2x256x256_S16x2x256x256_0_0_0_0

abbrev s0 := Rect.unit (s := S3552x512) ![0, 0] S512x512.size inb_S3552x512_S512x512_0_0
abbrev s512 := Rect.unit (s := S3552x512) ![512, 0] S1x512.size inb_S3552x512_S1x512_512_0
abbrev s520 := Rect.unit (s := S3552x512) ![520, 0] S512x256.size inb_S3552x512_S512x256_520_0
abbrev s1032 := Rect.unit (s := S3552x512) ![1032, 0] S1x256.size inb_S3552x512_S1x256_1032_0
abbrev s1040 := Rect.unit (s := S3552x512) ![1040, 0] S256x512.size inb_S3552x512_S256x512_1040_0
abbrev s1296 := Rect.unit (s := S3552x512) ![1296, 0] S1x512.size inb_S3552x512_S1x512_1296_0
abbrev s1304 := Rect.unit (s := S3552x512) ![1304, 0] S512x256.size inb_S3552x512_S512x256_1304_0
abbrev s1816 := Rect.unit (s := S3552x512) ![1816, 0] S1x256.size inb_S3552x512_S1x256_1816_0
abbrev s1824 := Rect.unit (s := S3552x512) ![1824, 0] S256x256.size inb_S3552x512_S256x256_1824_0
abbrev s2080 := Rect.unit (s := S3552x512) ![2080, 0] S1x256.size inb_S3552x512_S1x256_2080_0
abbrev s2088 := Rect.unit (s := S3552x512) ![2088, 0] S256x128.size inb_S3552x512_S256x128_2088_0
abbrev s2344 := Rect.unit (s := S3552x512) ![2344, 0] S1x128.size inb_S3552x512_S1x128_2344_0
abbrev s2352 := Rect.unit (s := S3552x512) ![2352, 0] S128x256.size inb_S3552x512_S128x256_2352_0
abbrev s2480 := Rect.unit (s := S3552x512) ![2480, 0] S1x256.size inb_S3552x512_S1x256_2480_0
abbrev s2488 := Rect.unit (s := S3552x512) ![2488, 0] S256x128.size inb_S3552x512_S256x128_2488_0
abbrev s2744 := Rect.unit (s := S3552x512) ![2744, 0] S1x128.size inb_S3552x512_S1x128_2744_0
abbrev s2752 := Rect.unit (s := S3552x512) ![2752, 0] S128x256.size inb_S3552x512_S128x256_2752_0
abbrev s2880 := Rect.unit (s := S3552x512) ![2880, 0] S1x256.size inb_S3552x512_S1x256_2880_0
abbrev s2888 := Rect.unit (s := S3552x512) ![2888, 0] S256x1.size inb_S3552x512_S256x1_2888_0
abbrev s3144 := Rect.unit (s := S3552x512) ![3144, 0] S1x1.size inb_S3552x512_S1x1_3144_0

/-- Row `b` of the output. -/
abbrev rO (b : Nat) (h : b < 16 := by decide) : Rect S16x129x4 :=
  Rect.unit (s := S16x129x4) ![b, 0, 0] S1x129x4.size fun a => match a with
    | ⟨0, _⟩ => h
    | ⟨1, _⟩ => Nat.le_refl _
    | ⟨2, _⟩ => Nat.le_refl _

variable (x0 : Vec F S16x256x512 .f32) (x1 : Vec F S16x2x256x256 .f32) (x2 : Vec F S16x129x1 .f32) (x3 : Vec F S3552x512 .f32)

def n22 :=
  k0_pay2 (View.ld x0 rX) (View.ld x3 s0) (View.ld x3 s512) (View.ld x3 s520) (View.ld x3 s1032)

def n24 :=
  k0_pay3 (View.ld x1 rA)

def n31 :=
  k0_pay4 (View.ld x0 rX) (View.ld x3 s0) (View.ld x3 s512) (View.ld x3 s520) (View.ld x3 s1032) (View.ld x3 s1040) (View.ld x3 s1296)

def n33 :=
  k0_pay5 (View.ld x0 rX) (View.ld x3 s0) (View.ld x3 s512) (View.ld x3 s520) (View.ld x3 s1032) (View.ld x3 s1040) (View.ld x3 s1296)

def n56 :=
  k0_pay6 (n22 x0 x3) (n24 x1) (n31 x0 x3) (n33 x0 x3) (View.ld x3 s1304) (View.ld x3 s1816)

def n73 :=
  k0_pay7 (n22 x0 x3) (n24 x1) (n31 x0 x3) (n33 x0 x3) (View.ld x3 s1304) (View.ld x3 s1816) (View.ld x3 s1040) (View.ld x3 s1296) (View.ld x3 s1304) (View.ld x3 s1816)

def c35 : F .f32 := Scalar.ofBits .f32 0x3C23D70A#32

def n88 :=
  k0_pay8 (n24 x1) (n56 x0 x1 x3) (n73 x0 x1 x3) (c35 (F := F))

def n113 :=
  k0_pay10 (n24 x1) (n56 x0 x1 x3) (n73 x0 x1 x3) (c35 (F := F)) (View.ld x3 s1040) (View.ld x3 s1296) (View.ld x3 s1304) (View.ld x3 s1816)

def n117 :=
  k0_pay11 (n24 x1) (n56 x0 x1 x3) (n73 x0 x1 x3) (c35 (F := F)) (View.ld x3 s1040) (View.ld x3 s1296) (View.ld x3 s1304) (View.ld x3 s1816)

def pre : FVec F S4096x256 .f32 :=
  k0_pay12 (n24 x1) (n88 x0 x1 x3) (n113 x0 x1 x3) (n117 x0 x1 x3) (View.ld x3 s1040) (View.ld x3 s1296) (View.ld x3 s1304) (View.ld x3 s1816) (View.ld x3 s1824)

def n158 :=
  k0_pay13 (View.ld x3 s2080)

def n199 :=
  k0_pay14 (pre x0 x1 x3) (n158 x3) (View.ld x3 s2088) (View.ld x3 s2344) (View.ld x3 s2352) (View.ld x3 s2480)

def n201 :=
  k0_pay15 (View.ld x3 s2488)

def sw : FVec F S2048x128 .f32 :=
  k0_pay16 (n199 x0 x1 x3) (n201 x3) (View.ld x3 s2744)

def sp : FVec F S2048x1 .f32 :=
  k0_pay17 (n199 x0 x1 x3) (n201 x3) (View.ld x3 s2744) (View.ld x3 s2752) (View.ld x3 s2880) (View.ld x3 s2888) (View.ld x3 s3144)

def out0_4 : Vec F S16x129x4 .f32 :=
  View.canon [⟨rO 15, RPieces.piece15 (sw x0 x1 x3) (sp x0 x1 x3) x2 x3⟩,
    ⟨rO 14, RPieces.piece14 (sw x0 x1 x3) (sp x0 x1 x3) x2 x3⟩,
    ⟨rO 13, RPieces.piece13 (sw x0 x1 x3) (sp x0 x1 x3) x2 x3⟩,
    ⟨rO 12, RPieces.piece12 (sw x0 x1 x3) (sp x0 x1 x3) x2 x3⟩,
    ⟨rO 11, RPieces.piece11 (sw x0 x1 x3) (sp x0 x1 x3) x2 x3⟩,
    ⟨rO 10, RPieces.piece10 (sw x0 x1 x3) (sp x0 x1 x3) x2 x3⟩,
    ⟨rO 9, RPieces.piece9 (sw x0 x1 x3) (sp x0 x1 x3) x2 x3⟩,
    ⟨rO 8, RPieces.piece8 (sw x0 x1 x3) (sp x0 x1 x3) x2 x3⟩,
    ⟨rO 7, RPieces.piece7 (sw x0 x1 x3) (sp x0 x1 x3) x2 x3⟩,
    ⟨rO 6, RPieces.piece6 (sw x0 x1 x3) (sp x0 x1 x3) x2 x3⟩,
    ⟨rO 5, RPieces.piece5 (sw x0 x1 x3) (sp x0 x1 x3) x2 x3⟩,
    ⟨rO 4, RPieces.piece4 (sw x0 x1 x3) (sp x0 x1 x3) x2 x3⟩,
    ⟨rO 3, RPieces.piece3 (sw x0 x1 x3) (sp x0 x1 x3) x2 x3⟩,
    ⟨rO 2, RPieces.piece2 (sw x0 x1 x3) (sp x0 x1 x3) x2 x3⟩,
    ⟨rO 1, RPieces.piece1 (sw x0 x1 x3) (sp x0 x1 x3) x2 x3⟩,
    ⟨rO 0, RPieces.piece0 (sw x0 x1 x3) (sp x0 x1 x3) x2 x3⟩]

theorem cover0_4 (p0 p1 p2 p3 p4 p5 p6 p7 p8 p9 p10 p11 p12 p13 p14 p15 : Vec F S1x129x4 .f32) (y : S16x129x4.Idx) :
    ∃ pc ∈ ([⟨rO 15, p15⟩, ⟨rO 14, p14⟩, ⟨rO 13, p13⟩, ⟨rO 12, p12⟩, ⟨rO 11, p11⟩, ⟨rO 10, p10⟩, ⟨rO 9, p9⟩, ⟨rO 8, p8⟩, ⟨rO 7, p7⟩, ⟨rO 6, p6⟩, ⟨rO 5, p5⟩, ⟨rO 4, p4⟩, ⟨rO 3, p3⟩, ⟨rO 2, p2⟩, ⟨rO 1, p1⟩, ⟨rO 0, p0⟩] : List (View.Piece (Elt F) S16x129x4 .f32)), y ∈ pc.1.set :=
  View.cover_of_tiled (s := S16x129x4) _ S1x129x4.size (by rfl) y

end Cert.ReferenceIdeal.RChain

end
-- ==== Proof.RBody.lean ====
import proofs.«126533_g2000204636238536_pallasbulk_491_2_alg».proof.Proof.RChain
import proofs.«126533_g2000204636238536_pallasbulk_491_2_alg».proof.Proof.Gen.ReferenceIdeal.Launch
import proofs.«126533_g2000204636238536_pallasbulk_491_2_alg».proof.Proof.Gen.ReferenceIdeal.Points
import Idealize.ShloMosaic.Lib.Pipeline.FrameBody
import Idealize.ShloMosaic.Lib.Ring

set_option maxRecDepth 16384

noncomputable section

namespace Cert.ReferenceIdeal.RBody

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.ReferenceIdeal.Gen

variable {F : FTy → Type} [FloatOps F]

local notation "𝕄" => MT nD τ sig Unit (Elt F) ℕ (UR sig nD τ) ℕ

set_option maxHeartbeats 8000000 in
/-- The body leaves the inputs as found and stores the sixteen rows of `out0_4`, which cover the output. -/
theorem sound_kernel (c : Dev nD) (E : Set ℕ) (i : grid0.Coords) (arg1 : Memref sig .tc .vmem S16x256x512 .f32) (harg1 : arg1.IsWhole) (arg2 : Memref sig .tc .vmem S16x2x256x256 .f32) (harg2 : arg2.IsWhole) (arg3 : Memref sig .tc .vmem S16x129x1 .f32) (harg3 : arg3.IsWhole) (arg4 : Memref sig .tc .vmem S3552x512 .f32) (harg4 : arg4.IsWhole) (arg5 : Memref sig .tc .vmem S16x129x4 .f32) (harg5 : arg5.IsWhole)
    (x0 : Vec F S16x256x512 .f32) (x1 : Vec F S16x2x256x256 .f32) (x2 : Vec F S16x129x1 .f32) (x3 : Vec F S3552x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (RChain.out0_4 x0 x1 x2 x3)) -∗ K ⟨⟩))
      ⊢ wp frame (wpE (defs₀ (F := F)) Variants.none c none) E (cc0__kernel_body i arg1 harg1 arg2 harg2 arg3 harg3 arg4 harg4 arg5 harg5) K := by
  simp only [cc0__kernel_body_eq_skeleton, cc0__kernel_body_skel, k0_part27_eq_skeleton, k0_part27_skel, k0_part26_eq_skeleton,
    k0_part26_skel, k0_part25_eq_skeleton, k0_part25_skel, k0_part24_eq_skeleton, k0_part24_skel, k0_part23_eq_skeleton,
    k0_part23_skel, k0_part22_eq_skeleton, k0_part22_skel, k0_part21_eq_skeleton, k0_part21_skel, k0_part20_eq_skeleton,
    k0_part20_skel, k0_part19_eq_skeleton, k0_part19_skel, k0_part18_eq_skeleton, k0_part18_skel, k0_part17_eq_skeleton,
    k0_part17_skel, k0_part16_eq_skeleton, k0_part16_skel, k0_part15_eq_skeleton, k0_part15_skel, k0_part14_eq_skeleton,
    k0_part14_skel, k0_part13_eq_skeleton, k0_part13_skel, k0_part12_eq_skeleton, k0_part12_skel, k0_part11_eq_skeleton,
    k0_part11_skel, k0_part10_eq_skeleton, k0_part10_skel, k0_part9_eq_skeleton, k0_part9_skel, k0_part8_eq_skeleton,
    k0_part8_skel, k0_part7_eq_skeleton, k0_part7_skel, k0_part6_eq_skeleton, k0_part6_skel, k0_part5_eq_skeleton,
    k0_part5_skel, k0_part4_eq_skeleton, k0_part4_skel, k0_part3_eq_skeleton, k0_part3_skel, k0_part2_eq_skeleton,
    k0_part2_skel, k0_part1_eq_skeleton, k0_part1_skel]
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (RChain.cover0_4 _ _ _ _ _ _ _ _ _ _ _ _ _ _ _ _)

end Cert.ReferenceIdeal.RBody

end
-- ==== Proof.RFrame.lean ====
import proofs.«126533_g2000204636238536_pallasbulk_491_2_alg».proof.Proof.Gen.ReferenceIdeal.Skeleton
import proofs.«126533_g2000204636238536_pallasbulk_491_2_alg».proof.Proof.RBody
import Idealize.ShloMosaic.Lib.Pipeline.FrameSuffix
import Idealize.ShloMosaic.Lib.ValueLayout

set_option maxRecDepth 16384

noncomputable section

namespace Cert.ReferenceIdeal.RFrame

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev V0 (c : Dev nD) : Valuation τ sig (Elt F) := StableHlo.after hostOps0 (fun b => m (c, b))
abbrev V (c : Dev nD) (b : Ref sig .tc) : Buf (Elt F) ((c : Thread nD τ).loc b) := V0 m c (Proc.devRef .tc b)

/-- The operation writes only buffers of index at least `k`. -/
def WritesFrom (k : ℕ) (op : HloOp τ sig (Elt F)) : Prop :=
  ∀ x ∈ op.writes, ∃ y : Ref sig .tc, k ≤ y.idx ∧ Proc.devRef .tc y = x

theorem WritesFrom.not_mem {k : ℕ} {op : HloOp τ sig (Elt F)} (h : WritesFrom k op) {r : Ref sig .tc} (hr : r.idx < k) :
    Proc.devRef .tc r ∉ op.writes := fun hb => by
  obtain ⟨y, hy, he⟩ := h _ hb
  exact absurd (Proc.devRef_injective _ he ▸ hy) (not_le.mpr hr)

/-- A buffer whose index is below every written one keeps its contents. -/
theorem after_low {k : ℕ} {ops : List (HloOp τ sig (Elt F))} (hW : ops.Forall (WritesFrom k)) (Wv : Valuation τ sig (Elt F))
    {r : Ref sig .tc} (hr : r.idx < k) : StableHlo.after ops Wv (Proc.devRef .tc r) = Wv (Proc.devRef .tc r) :=
  StableHlo.after_of_forall_not_mem ops Wv fun op hop => (List.forall_iff_forall_mem.mp hW op hop).not_mem hr

/-- The operations before the region write buffers 37 to 258, those after it buffers from 260 on. -/
theorem hostOps_writes : (hostOps0 (F := F)).Forall (WritesFrom 37) ∧ (hostOps1 (F := F)).Forall (WritesFrom 260) := by
  constructor <;>
  · simp only [hostOps0, hostOps1, List.Forall, WritesFrom, StableHlo.nullary_writes, StableHlo.unary_writes, StableHlo.binary_writes,
      StableHlo.ternary_writes, StableHlo.reshape_writes, StableHlo.nary_writes, Finset.mem_singleton, forall_eq]
    repeat' apply And.intro
    all_goals exact ⟨_, by decide, rfl⟩

theorem arr_idx : ∀ w, 37 ≤ (Pipeline.arrRef spec0 w).idx.val ∧ (Pipeline.arrRef spec0 w).idx.val < 260 := by decide +kernel

theorem arr_ne {b : Ref sig .tc} (hb : b.idx.val < 37) (w) : Pipeline.arrRef spec0 w ≠ b :=
  fun e => absurd (e ▸ (arr_idx w).1) (not_le.mpr hb)

theorem single {α : Type _} {P : α → Prop} {l : List α} (h : l.Forall P) : ∀ ops ∈ [l], ∀ op ∈ ops, P op :=
  fun _ hops => List.mem_singleton.mp hops ▸ List.forall_iff_forall_mem.mp h

section Bypass

variable (dats : (p : Fin 1) → (c : Dev nD) → Dat τ (Elt F) Unit ℕ (UR sig nD τ) ℕ (cfgs p) c)

/-- A buffer of index below 37 is no window's array and no operation writes it: it ends as launched. -/
theorem bypass (c : Dev nD) (b : Ref sig .tc) (hb : b.idx.val < 37) :
    Pipeline.afterTail₀ cfgs dats 0 (V0 m) [hostOps1] c b = m ((c : Thread nD τ).loc b) := by
  unfold Pipeline.afterTail₀
  rw [List.flatten_singleton, after_low hostOps_writes.2 _ (hb.trans (by decide)),
    Pipeline.withArrays_of_ne _ c (V0 m c) _ b (arr_ne hb)]
  exact after_low hostOps_writes.1 _ hb

theorem W_main_arg0 (c : Dev nD) :
    Pipeline.afterTail₀ cfgs dats 0 (V0 m) [hostOps1] c main_arg0 = m ((c : Thread nD τ).loc main_arg0) := bypass m dats c _ (by decide)
theorem W_main_arg1 (c : Dev nD) :
    Pipeline.afterTail₀ cfgs dats 0 (V0 m) [hostOps1] c main_arg1 = m ((c : Thread nD τ).loc main_arg1) := bypass m dats c _ (by decide)
theorem W_main_arg2 (c : Dev nD) :
    Pipeline.afterTail₀ cfgs dats 0 (V0 m) [hostOps1] c main_arg2 = m ((c : Thread nD τ).loc main_arg2) := bypass m dats c _ (by decide)
theorem W_main_arg3 (c : Dev nD) :
    Pipeline.afterTail₀ cfgs dats 0 (V0 m) [hostOps1] c main_arg3 = m ((c : Thread nD τ).loc main_arg3) := bypass m dats c _ (by decide)
theorem W_main_arg4 (c : Dev nD) :
    Pipeline.afterTail₀ cfgs dats 0 (V0 m) [hostOps1] c main_arg4 = m ((c : Thread nD τ).loc main_arg4) := bypass m dats c _ (by decide)
theorem W_main_arg5 (c : Dev nD) :
    Pipeline.afterTail₀ cfgs dats 0 (V0 m) [hostOps1] c main_arg5 = m ((c : Thread nD τ).loc main_arg5) := bypass m dats c _ (by decide)
theorem W_main_arg6 (c : Dev nD) :
    Pipeline.afterTail₀ cfgs dats 0 (V0 m) [hostOps1] c main_arg6 = m ((c : Thread nD τ).loc main_arg6) := bypass m dats c _ (by decide)
theorem W_main_arg7 (c : Dev nD) :
    Pipeline.afterTail₀ cfgs dats 0 (V0 m) [hostOps1] c main_arg7 = m ((c : Thread nD τ).loc main_arg7) := bypass m dats c _ (by decide)
theorem W_main_arg8 (c : Dev nD) :
    Pipeline.afterTail₀ cfgs dats 0 (V0 m) [hostOps1] c main_arg8 = m ((c : Thread nD τ).loc main_arg8) := bypass m dats c _ (by decide)
theorem W_main_arg9 (c : Dev nD) :
    Pipeline.afterTail₀ cfgs dats 0 (V0 m) [hostOps1] c main_arg9 = m ((c : Thread nD τ).loc main_arg9) := bypass m dats c _ (by decide)
theorem W_main_arg10 (c : Dev nD) :
    Pipeline.afterTail₀ cfgs dats 0 (V0 m) [hostOps1] c main_arg10 = m ((c : Thread nD τ).loc main_arg10) := bypass m dats c _ (by decide)
theorem W_main_arg11 (c : Dev nD) :
    Pipeline.afterTail₀ cfgs dats 0 (V0 m) [hostOps1] c main_arg11 = m ((c : Thread nD τ).loc main_arg11) := bypass m dats c _ (by decide)
theorem W_main_arg12 (c : Dev nD) :
    Pipeline.afterTail₀ cfgs dats 0 (V0 m) [hostOps1] c main_arg12 = m ((c : Thread nD τ).loc main_arg12) := bypass m dats c _ (by decide)
theorem W_main_arg13 (c : Dev nD) :
    Pipeline.afterTail₀ cfgs dats 0 (V0 m) [hostOps1] c main_arg13 = m ((c : Thread nD τ).loc main_arg13) := bypass m dats c _ (by decide)
theorem W_main_arg14 (c : Dev nD) :
    Pipeline.afterTail₀ cfgs dats 0 (V0 m) [hostOps1] c main_arg14 = m ((c : Thread nD τ).loc main_arg14) := bypass m dats c _ (by decide)
theorem W_main_arg15 (c : Dev nD) :
    Pipeline.afterTail₀ cfgs dats 0 (V0 m) [hostOps1] c main_arg15 = m ((c : Thread nD τ).loc main_arg15) := bypass m dats c _ (by decide)
theorem W_main_arg16 (c : Dev nD) :
    Pipeline.afterTail₀ cfgs dats 0 (V0 m) [hostOps1] c main_arg16 = m ((c : Thread nD τ).loc main_arg16) := bypass m dats c _ (by decide)
theorem W_main_arg17 (c : Dev nD) :
    Pipeline.afterTail₀ cfgs dats 0 (V0 m) [hostOps1] c main_arg17 = m ((c : Thread nD τ).loc main_arg17) := bypass m dats c _ (by decide)
theorem W_main_arg18 (c : Dev nD) :
    Pipeline.afterTail₀ cfgs dats 0 (V0 m) [hostOps1] c main_arg18 = m ((c : Thread nD τ).loc main_arg18) := bypass m dats c _ (by decide)
theorem W_main_arg19 (c : Dev nD) :
    Pipeline.afterTail₀ cfgs dats 0 (V0 m) [hostOps1] c main_arg19 = m ((c : Thread nD τ).loc main_arg19) := bypass m dats c _ (by decide)
theorem W_main_arg20 (c : Dev nD) :
    Pipeline.afterTail₀ cfgs dats 0 (V0 m) [hostOps1] c main_arg20 = m ((c : Thread nD τ).loc main_arg20) := bypass m dats c _ (by decide)
theorem W_main_arg21 (c : Dev nD) :
    Pipeline.afterTail₀ cfgs dats 0 (V0 m) [hostOps1] c main_arg21 = m ((c : Thread nD τ).loc main_arg21) := bypass m dats c _ (by decide)
theorem W_main_arg22 (c : Dev nD) :
    Pipeline.afterTail₀ cfgs dats 0 (V0 m) [hostOps1] c main_arg22 = m ((c : Thread nD τ).loc main_arg22) := bypass m dats c _ (by decide)
theorem W_main_arg23 (c : Dev nD) :
    Pipeline.afterTail₀ cfgs dats 0 (V0 m) [hostOps1] c main_arg23 = m ((c : Thread nD τ).loc main_arg23) := bypass m dats c _ (by decide)
theorem W_main_arg24 (c : Dev nD) :
    Pipeline.afterTail₀ cfgs dats 0 (V0 m) [hostOps1] c main_arg24 = m ((c : Thread nD τ).loc main_arg24) := bypass m dats c _ (by decide)
theorem W_main_arg25 (c : Dev nD) :
    Pipeline.afterTail₀ cfgs dats 0 (V0 m) [hostOps1] c main_arg25 = m ((c : Thread nD τ).loc main_arg25) := bypass m dats c _ (by decide)
theorem W_main_arg26 (c : Dev nD) :
    Pipeline.afterTail₀ cfgs dats 0 (V0 m) [hostOps1] c main_arg26 = m ((c : Thread nD τ).loc main_arg26) := bypass m dats c _ (by decide)
theorem W_main_arg27 (c : Dev nD) :
    Pipeline.afterTail₀ cfgs dats 0 (V0 m) [hostOps1] c main_arg27 = m ((c : Thread nD τ).loc main_arg27) := bypass m dats c _ (by decide)
theorem W_main_arg28 (c : Dev nD) :
    Pipeline.afterTail₀ cfgs dats 0 (V0 m) [hostOps1] c main_arg28 = m ((c : Thread nD τ).loc main_arg28) := bypass m dats c _ (by decide)
theorem W_main_arg29 (c : Dev nD) :
    Pipeline.afterTail₀ cfgs dats 0 (V0 m) [hostOps1] c main_arg29 = m ((c : Thread nD τ).loc main_arg29) := bypass m dats c _ (by decide)
theorem W_main_arg30 (c : Dev nD) :
    Pipeline.afterTail₀ cfgs dats 0 (V0 m) [hostOps1] c main_arg30 = m ((c : Thread nD τ).loc main_arg30) := bypass m dats c _ (by decide)
theorem W_main_arg31 (c : Dev nD) :
    Pipeline.afterTail₀ cfgs dats 0 (V0 m) [hostOps1] c main_arg31 = m ((c : Thread nD τ).loc main_arg31) := bypass m dats c _ (by decide)
theorem W_main_arg32 (c : Dev nD) :
    Pipeline.afterTail₀ cfgs dats 0 (V0 m) [hostOps1] c main_arg32 = m ((c : Thread nD τ).loc main_arg32) := bypass m dats c _ (by decide)
theorem W_main_arg33 (c : Dev nD) :
    Pipeline.afterTail₀ cfgs dats 0 (V0 m) [hostOps1] c main_arg33 = m ((c : Thread nD τ).loc main_arg33) := bypass m dats c _ (by decide)
theorem W_main_arg34 (c : Dev nD) :
    Pipeline.afterTail₀ cfgs dats 0 (V0 m) [hostOps1] c main_arg34 = m ((c : Thread nD τ).loc main_arg34) := bypass m dats c _ (by decide)
theorem W_main_arg35 (c : Dev nD) :
    Pipeline.afterTail₀ cfgs dats 0 (V0 m) [hostOps1] c main_arg35 = m ((c : Thread nD τ).loc main_arg35) := bypass m dats c _ (by decide)
theorem W_main_arg36 (c : Dev nD) :
    Pipeline.afterTail₀ cfgs dats 0 (V0 m) [hostOps1] c main_arg36 = m ((c : Thread nD τ).loc main_arg36) := bypass m dats c _ (by decide)

end Bypass

theorem sfx_sub : ∀ ops ∈ ([hostOps1] : List (List (HloOp τ sig (Elt F)))), ∀ op ∈ ops,
    op.bufs ⊆ Pipeline.tailRefs sig Pipeline.Prefetch.none spec0 :=
  single (hostOps1_sub.imp fun op h => Pipeline.sub_tailRefs _ _ op h fun k => k.elim0)
theorem sfx_fresh : ∀ ops ∈ ([hostOps1] : List (List (HloOp τ sig (Elt F)))), ∀ op ∈ ops, op.fresh = ∅ :=
  single (by simp only [List.Forall]; repeat' constructor)
theorem sfx_keeps : ∀ ops ∈ ([hostOps1] : List (List (HloOp τ sig (Elt F)))), ∀ op ∈ ops,
    ∀ w, Proc.devRef .tc (Pipeline.arrRef spec0 w) ∉ op.writes :=
  single (hostOps_writes.2.imp fun _ h w => h.not_mem (arr_idx w).2)
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) := by
  have h := Pipeline.hmain_around (Ix := Unit) (Name := ℕ) (U := UR sig nD τ) (Lvl := ℕ) cfgs 0 defs₀ 𝒱₀ m (main (F := F)) [hostOps0] [hostOps1]
    (by simp only [List.Forall]; exact hostOps0_sub) (by simp only [List.Forall]; repeat' constructor) main_chain
  rwa [List.flatten_singleton] at h

def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => RChain.out0_4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = RChain.out0_4 (iblk m c 0 t) (iblk m c 1 t) (iblk m c 2 t) (iblk m c 3 t) := by dsimp only [dats]

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (RBody.sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- An unscoped reference of index below 37 is read back as launched. -/
theorem arg_kept {r : PUnit × MemSt nD τ sig (Elt F)}
    (h : Pipeline.FramePost cfgs (dats m) 0 (Pipeline.afterTail₀ cfgs (dats m) 0 (V0 m) [hostOps1]) r) (c : Dev nD) (b : Ref sig .tc)
    (hs : b.isScoped = false) (hb : b.idx.val < 37) : r.2.mem ((c.tc : Thread nD τ).loc b) = m ((c.tc : Thread nD τ).loc b) :=
  ((h c).2 b (Pipeline.mem_restRefs_of b hs (arr_ne hb))).trans (bypass m (dats m) c b hb)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)) :=
  (θ_run defs _ _).mono (fun _ h c => ⟨arg_kept m h c main_arg0 (by decide) (by decide),
      arg_kept m h c main_arg1 (by decide) (by decide),
      arg_kept m h c main_arg2 (by decide) (by decide),
      arg_kept m h c main_arg3 (by decide) (by decide),
      arg_kept m h c main_arg4 (by decide) (by decide),
      arg_kept m h c main_arg5 (by decide) (by decide),
      arg_kept m h c main_arg6 (by decide) (by decide),
      arg_kept m h c main_arg7 (by decide) (by decide),
      arg_kept m h c main_arg8 (by decide) (by decide),
      arg_kept m h c main_arg9 (by decide) (by decide),
      arg_kept m h c main_arg10 (by decide) (by decide),
      arg_kept m h c main_arg11 (by decide) (by decide),
      arg_kept m h c main_arg12 (by decide) (by decide),
      arg_kept m h c main_arg13 (by decide) (by decide),
      arg_kept m h c main_arg14 (by decide) (by decide),
      arg_kept m h c main_arg15 (by decide) (by decide),
      arg_kept m h c main_arg16 (by decide) (by decide),
      arg_kept m h c main_arg17 (by decide) (by decide),
      arg_kept m h c main_arg18 (by decide) (by decide),
      arg_kept m h c main_arg19 (by decide) (by decide),
      arg_kept m h c main_arg20 (by decide) (by decide),
      arg_kept m h c main_arg21 (by decide) (by decide),
      arg_kept m h c main_arg22 (by decide) (by decide),
      arg_kept m h c main_arg23 (by decide) (by decide),
      arg_kept m h c main_arg24 (by decide) (by decide),
      arg_kept m h c main_arg25 (by decide) (by decide),
      arg_kept m h c main_arg26 (by decide) (by decide),
      arg_kept m h c main_arg27 (by decide) (by decide),
      arg_kept m h c main_arg28 (by decide) (by decide),
      arg_kept m h c main_arg29 (by decide) (by decide),
      arg_kept m h c main_arg30 (by decide) (by decide),
      arg_kept m h c main_arg31 (by decide) (by decide),
      arg_kept m h c main_arg32 (by decide) (by decide),
      arg_kept m h c main_arg33 (by decide) (by decide),
      arg_kept m h c main_arg34 (by decide) (by decide),
      arg_kept m h c main_arg35 (by decide) (by decide),
      arg_kept m h c main_arg36 (by decide) (by decide)⟩) (run_main m ρ)

end Cert.ReferenceIdeal.RFrame

end
-- ==== Proof.RFinal.lean ====
import proofs.«126533_g2000204636238536_pallasbulk_491_2_alg».proof.Proof.RFrame

set_option maxRecDepth 16384

noncomputable section

namespace Cert.ReferenceIdeal.RFrame

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

variable (m : (ℓ : Loc nD τ sig) → Buf (Elt F) ℓ)

theorem index0 : ∀ (w : Fin cfg0.W) (t : Fin cfg0.N) (a : Fin (cfg0.win w).shape.rank), (cfg0.win w).index t a = 0 := by
  decide +kernel

/-- An element of a block sits in the array at its own coordinates, so an input's block is its whole array. -/
theorem iblk_0 (c : Dev nD) (t : Fin cfg0.N) : iblk m c 0 t = V m c main_v141 :=
  funext fun y => congrArg (V m c main_v141) (funext fun a => Fin.ext ((cfg0.win 0).rect_emb_val_of_index_zero t a (index0 0 t a) y))
theorem iblk_1 (c : Dev nD) (t : Fin cfg0.N) : iblk m c 1 t = V m c main_v144 :=
  funext fun y => congrArg (V m c main_v144) (funext fun a => Fin.ext ((cfg0.win 1).rect_emb_val_of_index_zero t a (index0 1 t a) y))
theorem iblk_2 (c : Dev nD) (t : Fin cfg0.N) : iblk m c 2 t = V m c main_v145 :=
  funext fun y => congrArg (V m c main_v145) (funext fun a => Fin.ext ((cfg0.win 2).rect_emb_val_of_index_zero t a (index0 2 t a) y))
theorem iblk_3 (c : Dev nD) (t : Fin cfg0.N) : iblk m c 3 t = V m c main_v140 :=
  funext fun y => congrArg (V m c main_v140) (funext fun a => Fin.ext ((cfg0.win 3).rect_emb_val_of_index_zero t a (index0 3 t a) y))

theorem final4 (c : Dev nD) : (dats m 0 c).arrAt 4 cfg0.N
    = RChain.out0_4 (V m c main_v141) (V m c main_v144) (V m c main_v145) (V m c main_v140) := by
  have e (t : Fin cfg0.N) (y : ((cfg0.win 4).xblock (cfg0.grid.coords t)).Idx) : ((cfg0.win 4).blk t).view.emb y = y :=
    funext fun a => Fin.ext ((cfg0.win 4).rect_emb_val_of_index_zero t a (index0 4 t a) y)
  refine (dats m 0 c).arrAt_eq_of_cover 4 _ (fun t _ => ?_) (fun i => ⟨t0_0, flush0_4 _, ?_⟩)
  · show (cfg0.win 4).cut (grid0.coords t) ((dats m 0 c).after 4 t) = _
    rw [after0_4, iblk_0, iblk_1, iblk_2, iblk_3]
    funext y
    rw [View.read_apply]
    exact congrArg (RChain.out0_4 (V m c main_v141) (V m c main_v144) (V m c main_v145) (V m c main_v140)) (e t y).symm
  · exact (congrArg (· ∈ ((cfg0.win 4).blk t0_0).view.set) (e t0_0 i)).mp (View.emb_mem_set _ i)

/-- Column `k` of a 16 × 129 × 4 array, its unit axis dropped, reads at `(b, s)` the array at `(b, s, k)`. -/
theorem col_apply {α : Type} (A : S16x129x4.Idx → α) (k : Fin 4) (h : S16x129x4.Slices ![0, 0, k] S16x129x1)
    (hc : S16x129x1.ShapeCasts S16x129) (b : Fin 16) (s : Fin 129) :
    shapeCast S16x129 (extractStridedSlice (s := S16x129x4) S16x129x1 ![0, 0, k] A h) hc (ix2 b s) = A (ix3 b s k) := by
  rw [shapeCast_apply _ _ (ix2 b s) (ix3 b s (0 : Fin 1)) (by
      rw [Shape.rowMajor_val_three, Shape.rowMajor_val_two]
      show (b.val * 129 + s.val) * 1 + 0 = b.val * 129 + s.val
      omega),
    extractStridedSlice_apply _ _ _ (ix3 b s (0 : Fin 1)) (ix3 b s k) (fun a => by
      match a with
      | ⟨0, _⟩ => exact (Nat.zero_add _).symm
      | ⟨1, _⟩ => exact (Nat.zero_add _).symm
      | ⟨2, _⟩ => rfl)]

/-- From any contents `Wv` at the region's exit, result `k` ends holding column `k` of `main_v146`. -/
theorem tail_res (Wv : Valuation τ sig (Elt F)) (b : Fin 16) (s : Fin 129) :
    StableHlo.after hostOps1 Wv (Proc.devRef .tc main_v148) (ix2 b s) = Wv (Proc.devRef .tc main_v146) (ix3 b s (0 : Fin 4))
    ∧ StableHlo.after hostOps1 Wv (Proc.devRef .tc main_v150) (ix2 b s) = Wv (Proc.devRef .tc main_v146) (ix3 b s (1 : Fin 4))
    ∧ StableHlo.after hostOps1 Wv (Proc.devRef .tc main_v152) (ix2 b s) = Wv (Proc.devRef .tc main_v146) (ix3 b s (2 : Fin 4))
    ∧ StableHlo.after hostOps1 Wv (Proc.devRef .tc main_v154) (ix2 b s) = Wv (Proc.devRef .tc main_v146) (ix3 b s (3 : Fin 4)) := by
  unfold hostOps1
  refine ⟨?_, ?_, ?_, ?_⟩ <;> after_results
  exacts [col_apply _ 0 _ _ b s, col_apply _ 1 _ _ b s, col_apply _ 2 _ _ b s, col_apply _ 3 _ _ b s]

theorem tail_eq (c : Dev nD) (r : Ref sig .tc) : Pipeline.afterTail₀ cfgs (dats m) 0 (V0 m) [hostOps1] c r
    = StableHlo.after hostOps1 (Pipeline.withArrays (cfgs 0).spec c (V0 m c) fun w => (dats m 0 c).arrAt w (cfgs 0).N) (Proc.devRef .tc r) := by
  unfold Pipeline.afterTail₀; rw [List.flatten_singleton]

theorem arr4 (c : Dev nD) (i) : Pipeline.withArrays (cfgs 0).spec c (V0 m c) (fun w => (dats m 0 c).arrAt w (cfgs 0).N) (Proc.devRef .tc main_v146) i
    = (dats m 0 c).arrAt 4 cfg0.N i :=
  congrFun (Pipeline.withArrays_arr spec0 launch0.win.arr_inj c (V0 m c) _ 4) i

theorem res_v148 (c : Dev nD) (b : Fin 16) (s : Fin 129) :
    Pipeline.afterTail₀ cfgs (dats m) 0 (V0 m) [hostOps1] c main_v148 (ix2 b s) = (dats m 0 c).arrAt 4 cfg0.N (ix3 b s (0 : Fin 4)) := by
  rw [tail_eq, (tail_res _ b s).1]; exact arr4 m c _
theorem res_v150 (c : Dev nD) (b : Fin 16) (s : Fin 129) :
    Pipeline.afterTail₀ cfgs (dats m) 0 (V0 m) [hostOps1] c main_v150 (ix2 b s) = (dats m 0 c).arrAt 4 cfg0.N (ix3 b s (1 : Fin 4)) := by
  rw [tail_eq, (tail_res _ b s).2.1]; exact arr4 m c _
theorem res_v152 (c : Dev nD) (b : Fin 16) (s : Fin 129) :
    Pipeline.afterTail₀ cfgs (dats m) 0 (V0 m) [hostOps1] c main_v152 (ix2 b s) = (dats m 0 c).arrAt 4 cfg0.N (ix3 b s (2 : Fin 4)) := by
  rw [tail_eq, (tail_res _ b s).2.2.1]; exact arr4 m c _
theorem res_v154 (c : Dev nD) (b : Fin 16) (s : Fin 129) :
    Pipeline.afterTail₀ cfgs (dats m) 0 (V0 m) [hostOps1] c main_v154 (ix2 b s) = (dats m 0 c).arrAt 4 cfg0.N (ix3 b s (3 : Fin 4)) := by
  rw [tail_eq, (tail_res _ b s).2.2.2]; exact arr4 m c _

variable (r : PUnit × MemSt nD τ sig (Elt F))
    (h : Pipeline.FramePost cfgs (dats m) 0 (Pipeline.afterTail₀ cfgs (dats m) 0 (V0 m) [hostOps1]) r)
include h

theorem post_v148 (c : Dev nD) :
    r.2.mem ((c.tc : Thread nD τ).loc main_v148) = Pipeline.afterTail₀ cfgs (dats m) 0 (V0 m) [hostOps1] c main_v148 :=
  (h c).2 _ (Pipeline.mem_restRefs_of _ (by decide) (by decide))
theorem post_v150 (c : Dev nD) :
    r.2.mem ((c.tc : Thread nD τ).loc main_v150) = Pipeline.afterTail₀ cfgs (dats m) 0 (V0 m) [hostOps1] c main_v150 :=
  (h c).2 _ (Pipeline.mem_restRefs_of _ (by decide) (by decide))
theorem post_v152 (c : Dev nD) :
    r.2.mem ((c.tc : Thread nD τ).loc main_v152) = Pipeline.afterTail₀ cfgs (dats m) 0 (V0 m) [hostOps1] c main_v152 :=
  (h c).2 _ (Pipeline.mem_restRefs_of _ (by decide) (by decide))
theorem post_v154 (c : Dev nD) :
    r.2.mem ((c.tc : Thread nD τ).loc main_v154) = Pipeline.afterTail₀ cfgs (dats m) 0 (V0 m) [hostOps1] c main_v154 :=
  (h c).2 _ (Pipeline.mem_restRefs_of _ (by decide) (by decide))

end Cert.ReferenceIdeal.RFrame

end
-- ==== Proof.LibScatterSet.lean ====
import Mathlib.Data.BitVec
import Idealize.ShloMosaic.Lib.ValueIdx

namespace Cert.LibScatterSet

open Idealize.ShloMosaic Idealize.ShloMosaic.ValueIdx

section General
variable {α : Type} {s si u : Shape} {w : Nat} (d : ScatterDims s si u) (idx : IVec si w) (upd : u.Idx → α)

def step (r : s.Idx → α) (n : Fin u.numel) : s.Idx → α :=
  match d.resultIdx? (u.rowMajor.symm n) idx with
  | some i => fun i' => if i' = i then upd (u.rowMajor.symm n) else r i'
  | none => r

theorem step_apply (r : s.Idx → α) (n : Fin u.numel) (i : s.Idx) :
    step d idx upd r n i = if d.resultIdx? (u.rowMajor.symm n) idx = some i then upd (u.rowMajor.symm n) else r i := by
  unfold step
  cases d.resultIdx? (u.rowMajor.symm n) idx with
  | none => rfl
  | some k => simp only [Option.some.injEq, eq_comm]

/-- When every update position of l that lands at i carries v, the fold holds v at i if one lands there, else what it started from. -/
theorem foldl_step_apply (i : s.Idx) (v : α) : ∀ (l : List (Fin u.numel)) (x : s.Idx → α),
    (∀ n ∈ l, d.resultIdx? (u.rowMajor.symm n) idx = some i → upd (u.rowMajor.symm n) = v) →
      l.foldl (step d idx upd) x i = if ∃ n ∈ l, d.resultIdx? (u.rowMajor.symm n) idx = some i then v else x i
  | [], _, _ => by simp
  | n :: l, x, h => by
    rw [List.foldl_cons, foldl_step_apply i v l _ fun n' hn' => h n' (List.mem_cons_of_mem _ hn'), step_apply]
    by_cases hn : d.resultIdx? (u.rowMajor.symm n) idx = some i
    · simp [hn, h n List.mem_cons_self hn]
    · simp [hn]

/-- No update lands at i: the operand's element stays. -/
theorem scatter_set_apply_none (x : s.Idx → α) (i : s.Idx) (h : ∀ j, d.resultIdx? j idx ≠ some i) :
    Host.scatter d (fun _ b => b) x idx upd i = x i :=
  (foldl_step_apply d idx upd i (x i) _ x fun n _ hn => absurd hn (h _)).trans (ite_self _)

/-- Update j, and no other, lands at i: update j's element is there. -/
theorem scatter_set_apply_some (x : s.Idx → α) (i : s.Idx) (j : u.Idx) (hj : d.resultIdx? j idx = some i)
    (hu : ∀ j', d.resultIdx? j' idx = some i → j' = j) : Host.scatter d (fun _ b => b) x idx upd i = upd j :=
  (foldl_step_apply d idx upd i (upd j) _ x fun n _ hn => by rw [hu _ hn]).trans
    (if_pos ⟨u.rowMajor j, List.mem_finRange _, by rwa [Equiv.symm_apply_apply]⟩)

/-- Update j lands at i exactly when start plus window coordinate is i's coordinate on every operand axis. -/
theorem resultIdx?_eq_some_iff (j : u.Idx) (i : s.Idx) :
    d.resultIdx? j idx = some i ↔ ∀ a, d.start j idx a + (d.window j a : ℤ) = ((i a).val : ℤ) := by
  unfold ScatterDims.resultIdx?
  constructor
  · intro h
    split at h
    · next hall =>
      intro a
      have ea : (d.start j idx a + (d.window j a : ℤ)).toNat = (i a).val := congrArg Fin.val (congrFun (Option.some.inj h) a)
      have := (hall a).1
      omega
    · cases h
  · intro h
    rw [dif_pos fun a => by rw [h a]; exact ⟨Int.natCast_nonneg _, Int.ofNat_lt.mpr (i a).isLt⟩]
    congr 1
    funext a
    refine Fin.ext ?_
    show (d.start j idx a + (d.window j a : ℤ)).toNat = (i a).val
    rw [h a]; rfl

end General

section Rect
variable {α : Type} {R C K N w : Nat} {si u : Shape}

/-- On a rank-2 operand: an update lands at (row start + row window coordinate, column start + column window coordinate). -/
theorem lands_iff (d : ScatterDims ⟨2, ![R, C]⟩ si u) (idx : IVec si w) (j : u.Idx) (i : (⟨2, ![R, C]⟩ : Shape).Idx)
    {r₀ c₀ a b : ℕ} (hs0 : d.start j idx 0 = r₀) (hw0 : d.window j 0 = a) (hs1 : d.start j idx 1 = c₀) (hw1 : d.window j 1 = b) :
    d.resultIdx? j idx = some i ↔ r₀ + a = (i 0).val ∧ c₀ + b = (i 1).val := by
  rw [resultIdx?_eq_some_iff, Fin.forall_fin_two, hs0, hw0, hs1, hw1]
  norm_cast

/-- A K × N block assigned with its corner at (r₀, c₀): the block's element inside the rectangle, the operand's outside. -/
theorem set_block_apply (d : ScatterDims ⟨2, ![R, C]⟩ si ⟨2, ![K, N]⟩)
    (x : (⟨2, ![R, C]⟩ : Shape).Idx → α) (idx : IVec si w) (upd : (⟨2, ![K, N]⟩ : Shape).Idx → α) (r₀ c₀ : ℕ)
    (hiff : ∀ (j : (⟨2, ![K, N]⟩ : Shape).Idx) (i : (⟨2, ![R, C]⟩ : Shape).Idx),
      d.resultIdx? j idx = some i ↔ r₀ + (j 0).val = (i 0).val ∧ c₀ + (j 1).val = (i 1).val)
    (r : Fin R) (c : Fin C) :
    Host.scatter d (fun _ b => b) x idx upd (ix2 r c)
      = if h : (r₀ ≤ r.val ∧ r.val < r₀ + K) ∧ (c₀ ≤ c.val ∧ c.val < c₀ + N) then
          upd (ix2 ⟨r.val - r₀, by omega⟩ ⟨c.val - c₀, by omega⟩)
        else x (ix2 r c) := by
  by_cases h : (r₀ ≤ r.val ∧ r.val < r₀ + K) ∧ (c₀ ≤ c.val ∧ c.val < c₀ + N)
  · rw [dif_pos h]
    refine scatter_set_apply_some d idx upd x _ _ ((hiff _ _).mpr ⟨?_, ?_⟩) fun j' hj' => ?_
    · show r₀ + (r.val - r₀) = r.val
      omega
    · show c₀ + (c.val - c₀) = c.val
      omega
    · obtain ⟨h0, h1⟩ : r₀ + (j' 0).val = r.val ∧ c₀ + (j' 1).val = c.val := (hiff _ _).mp hj'
      funext a
      match a with
      | ⟨0, _⟩ => exact Fin.ext (by show (j' 0).val = r.val - r₀; omega)
      | ⟨1, _⟩ => exact Fin.ext (by show (j' 1).val = c.val - c₀; omega)
  · rw [dif_neg h]
    refine scatter_set_apply_none d idx upd x _ fun j hj => h ?_
    obtain ⟨h0, h1⟩ : r₀ + (j 0).val = r.val ∧ c₀ + (j 1).val = c.val := (hiff _ _).mp hj
    have := idx2_lt0 j
    have := idx2_lt1 j
    omega

/-- One row of N elements assigned at row r₀ from column c₀ on. -/
theorem set_row_apply (d : ScatterDims ⟨2, ![R, C]⟩ si ⟨1, ![N]⟩)
    (x : (⟨2, ![R, C]⟩ : Shape).Idx → α) (idx : IVec si w) (upd : (⟨1, ![N]⟩ : Shape).Idx → α) (r₀ c₀ : ℕ)
    (hiff : ∀ (j : (⟨1, ![N]⟩ : Shape).Idx) (i : (⟨2, ![R, C]⟩ : Shape).Idx),
      d.resultIdx? j idx = some i ↔ r₀ + 0 = (i 0).val ∧ c₀ + (j 0).val = (i 1).val)
    (r : Fin R) (c : Fin C) :
    Host.scatter d (fun _ b => b) x idx upd (ix2 r c)
      = if h : r.val = r₀ ∧ (c₀ ≤ c.val ∧ c.val < c₀ + N) then upd (ix1 ⟨c.val - c₀, by omega⟩) else x (ix2 r c) := by
  by_cases h : r.val = r₀ ∧ (c₀ ≤ c.val ∧ c.val < c₀ + N)
  · rw [dif_pos h]
    refine scatter_set_apply_some d idx upd x _ _ ((hiff _ _).mpr ⟨?_, ?_⟩) fun j' hj' => ?_
    · show r₀ + 0 = r.val
      omega
    · show c₀ + (c.val - c₀) = c.val
      omega
    · have h1' : c₀ + (j' 0).val = c.val := ((hiff _ _).mp hj').2
      funext a
      match a with
      | ⟨0, _⟩ => exact Fin.ext (by show (j' 0).val = c.val - c₀; omega)
  · rw [dif_neg h]
    refine scatter_set_apply_none d idx upd x _ fun j hj => h ?_
    obtain ⟨h0, h1⟩ : r₀ + 0 = r.val ∧ c₀ + (j 0).val = c.val := (hiff _ _).mp hj
    have : (j 0).val < N := (j 0).isLt
    omega

end Rect

section Families
variable {R C K N w n : Nat} {s u : Shape} {uw : List (Fin u.rank)} {iw sd : List (Fin s.rank)}

/-- Scatter indices one vector of n components: the start on an operand axis the map names is the component in that axis's position. -/
theorem start_mem (wf : ScatterDims.WF s ⟨1, ![n]⟩ u uw iw sd 0) (j : u.Idx) (idx : IVec ⟨1, ![n]⟩ w) (a : Fin s.rank) (ha : a ∈ sd)
    (k : Fin n) (hk : sd.idxOf a = k.val) :
    (⟨uw, iw, sd, 0, wf⟩ : ScatterDims s ⟨1, ![n]⟩ u).start j idx a = (idx (ix1 k)).toInt := by
  unfold ScatterDims.start
  rw [dif_pos ha]
  congr 2
  funext b
  match b with
  | ⟨0, _⟩ => exact Fin.ext hk

abbrev blk2Dims (R C K N : Nat) (wf : ScatterDims.WF ⟨2, ![R, C]⟩ ⟨1, ![2]⟩ ⟨2, ![K, N]⟩ [0, 1] [] [0, 1] 0) :
    ScatterDims ⟨2, ![R, C]⟩ ⟨1, ![2]⟩ ⟨2, ![K, N]⟩ := ⟨[0, 1], [], [0, 1], 0, wf⟩

abbrev blk1Dims (R C K N : Nat) (wf : ScatterDims.WF ⟨2, ![R, C]⟩ ⟨1, ![1]⟩ ⟨2, ![K, N]⟩ [0, 1] [] [0] 0) :
    ScatterDims ⟨2, ![R, C]⟩ ⟨1, ![1]⟩ ⟨2, ![K, N]⟩ := ⟨[0, 1], [], [0], 0, wf⟩

abbrev row1Dims (R C N : Nat) (wf : ScatterDims.WF ⟨2, ![R, C]⟩ ⟨1, ![1]⟩ ⟨1, ![N]⟩ [0] [0] [0] 0) :
    ScatterDims ⟨2, ![R, C]⟩ ⟨1, ![1]⟩ ⟨1, ![N]⟩ := ⟨[0], [0], [0], 0, wf⟩

abbrev row2Dims (R C N : Nat) (wf : ScatterDims.WF ⟨2, ![R, C]⟩ ⟨1, ![2]⟩ ⟨1, ![N]⟩ [0] [0] [0, 1] 0) :
    ScatterDims ⟨2, ![R, C]⟩ ⟨1, ![2]⟩ ⟨1, ![N]⟩ := ⟨[0], [0], [0, 1], 0, wf⟩

theorem blk2_iff (wf) (idx : IVec ⟨1, ![2]⟩ w) (r₀ c₀ : ℕ) (hr : (idx (ix1 0)).toInt = r₀) (hc : (idx (ix1 1)).toInt = c₀) (j i) :
    (blk2Dims R C K N wf).resultIdx? j idx = some i ↔ r₀ + (j 0).val = (i 0).val ∧ c₀ + (j 1).val = (i 1).val :=
  lands_iff _ idx j i ((start_mem wf j idx 0 (by simp) 0 rfl).trans hr) rfl ((start_mem wf j idx 1 (by simp) 1 rfl).trans hc) rfl

theorem blk1_iff (wf) (idx : IVec ⟨1, ![1]⟩ w) (r₀ : ℕ) (hr : (idx (ix1 0)).toInt = r₀) (j i) :
    (blk1Dims R C K N wf).resultIdx? j idx = some i ↔ r₀ + (j 0).val = (i 0).val ∧ 0 + (j 1).val = (i 1).val :=
  lands_iff _ idx j i ((start_mem wf j idx 0 (by simp) 0 rfl).trans hr) rfl (dif_neg (by simp)) rfl

theorem row1_iff (wf) (idx : IVec ⟨1, ![1]⟩ w) (r₀ : ℕ) (hr : (idx (ix1 0)).toInt = r₀) (j i) :
    (row1Dims R C N wf).resultIdx? j idx = some i ↔ r₀ + 0 = (i 0).val ∧ 0 + (j 0).val = (i 1).val :=
  lands_iff _ idx j i ((start_mem wf j idx 0 (by simp) 0 rfl).trans hr) rfl (dif_neg (by simp)) rfl

theorem row2_iff (wf) (idx : IVec ⟨1, ![2]⟩ w) (r₀ c₀ : ℕ) (hr : (idx (ix1 0)).toInt = r₀) (hc : (idx (ix1 1)).toInt = c₀) (j i) :
    (row2Dims R C N wf).resultIdx? j idx = some i ↔ r₀ + 0 = (i 0).val ∧ c₀ + (j 0).val = (i 1).val :=
  lands_iff _ idx j i ((start_mem wf j idx 0 (by simp) 0 rfl).trans hr) rfl ((start_mem wf j idx 1 (by simp) 1 rfl).trans hc) rfl

end Families

end Cert.LibScatterSet
-- ==== Proof.LibStretch.lean ====
import Mathlib.Data.List.Forall2
import Idealize.ShloMosaic.Lib.Pipeline.Frame

namespace Cert.LibStretch

open Idealize.ShloMosaic Idealize.ShloMosaic.StableHlo

variable {τ : Topo} {sig : RefSig} {Val : EltTy → Type}

/-- Operation by operation, the line writes exactly the buffers of the references ys. -/
def WritesAre (ops : List (HloOp τ sig Val)) (ys : List (Ref sig .tc)) : Prop :=
  List.Forall₂ (fun op y => op.writes = {Proc.devRef .tc y}) ops ys

theorem not_mem_writes {ops : List (HloOp τ sig Val)} {ys : List (Ref sig .tc)} (h : WritesAre ops ys)
    {r : Ref sig .tc} (hr : r ∉ ys) : ∀ op ∈ ops, Proc.devRef (τ := τ) .tc r ∉ op.writes := by
  induction h with
  | nil => exact fun _ hop => absurd hop List.not_mem_nil
  | cons hxy _ ih =>
    intro op hop
    rcases List.mem_cons.mp hop with rfl | hop
    · rw [hxy, Finset.mem_singleton]
      exact devRef_ne_of_ne fun e => hr (e ▸ List.mem_cons_self)
    · exact ih (fun hm => hr (List.mem_cons_of_mem _ hm)) op hop

/-- A buffer no operation from position k on writes holds, after the line, what it holds after the first k. -/
theorem after_eq_take {ops : List (HloOp τ sig Val)} {ys : List (Ref sig .tc)} (h : WritesAre ops ys) (k : Nat)
    (W : Valuation τ sig Val) (r : Ref sig .tc) (hr : r ∉ ys.drop k) :
    after ops W (Proc.devRef .tc r) = after (ops.take k) W (Proc.devRef .tc r) := by
  conv_lhs => rw [← List.take_append_drop k ops]
  rw [after_append, after_of_forall_not_mem _ _ (not_mem_writes (List.forall₂_drop k h) hr)]

/-- Cut once more at i ≤ k: the operations i … k-1 run from what the first i left. -/
theorem after_eq_stretch {ops : List (HloOp τ sig Val)} {ys : List (Ref sig .tc)} (h : WritesAre ops ys) (i k : Nat)
    (hik : i ≤ k) (W : Valuation τ sig Val) (r : Ref sig .tc) (hr : r ∉ ys.drop k) :
    after ops W (Proc.devRef .tc r) = after ((ops.take k).drop i) (after (ops.take i) W) (Proc.devRef .tc r) := by
  rw [after_eq_take h k W r hr]
  conv_lhs => rw [← List.take_append_drop i (ops.take k)]
  rw [after_append, List.take_take, Nat.min_eq_left hik]

end Cert.LibStretch
-- ==== Proof.RHost.lean ====
import proofs.«126533_g2000204636238536_pallasbulk_491_2_alg».proof.Proof.Gen.ReferenceIdeal.Launch
import proofs.«126533_g2000204636238536_pallasbulk_491_2_alg».proof.Proof.Args
import proofs.«126533_g2000204636238536_pallasbulk_491_2_alg».proof.Proof.LibScatterSet
import proofs.«126533_g2000204636238536_pallasbulk_491_2_alg».proof.Proof.LibStretch
import Idealize.ShloMosaic.Lib.Pipeline.Value
import Idealize.ShloMosaic.PureOps.Ideal.Laws

noncomputable section

namespace Cert.ReferenceIdeal.RHost

open Idealize.ShloMosaic Idealize.ShloMosaic.TcCoe Idealize.ShloMosaic.ValueIdx
open Idealize.ShloMosaic.StableHlo
open Cert.ReferenceIdeal.Gen
open Cert.LibScatterSet Cert.LibStretch

/-- At rows off … of the slab S stands the weight W, and the bias B is row `row`. -/
abbrev Holds {K N M : ℕ} (S : Spec.Mat 3552 512) (off row : ℕ) (W : Spec.Mat K N) (B : Spec.RowV M) : Prop :=
  (∀ h1 h2, Spec.sub S off K N h1 h2 = W) ∧ (∀ h1 h2, Spec.subRow S row M h1 h2 = B)

section Forms
variable {R C K1 N1 K2 N2 : ℕ}

/-- Two blocks assigned into a zero matrix, the first at (0, 0), the second at the first's extents: the block-diagonal matrix. -/
theorem bd_read {wf1 wf2} {Z : (⟨2, ![R, C]⟩ : Shape).Idx → EReal} {i1 i2 : IVec ⟨1, ![2]⟩ 32}
    {X : (⟨2, ![K1, N1]⟩ : Shape).Idx → EReal} {Y : (⟨2, ![K2, N2]⟩ : Shape).Idx → EReal} {Q : (⟨2, ![R, C]⟩ : Shape).Idx → EReal}
    (hQ : Q = Host.scatter (blk2Dims R C K2 N2 wf2) (fun _ b => b) (Host.scatter (blk2Dims R C K1 N1 wf1) (fun _ b => b) Z i1 X) i2 Y)
    (hZ : ∀ j, Z j = 0) (h10 : (i1 (ix1 0)).toInt = (0 : ℕ)) (h11 : (i1 (ix1 1)).toInt = (0 : ℕ))
    (h20 : (i2 (ix1 0)).toInt = K1) (h21 : (i2 (ix1 1)).toInt = N1) :
    Spec.toMat Q = (Spec.bd (Spec.toMat X) (Spec.toMat Y) : Spec.Mat R C) := by
  subst hQ
  funext k n
  unfold Spec.bd
  show Host.scatter _ _ _ _ _ (ix2 k n) = _
  rw [set_block_apply _ _ i2 Y K1 N1 (blk2_iff wf2 i2 K1 N1 h20 h21), set_block_apply _ Z i1 X 0 0 (blk2_iff wf1 i1 0 0 h10 h11), hZ]
  split_ifs <;> first | rfl | (exfalso; omega)

/-- Two vectors concatenated: the two end to end. -/
theorem cat_read {A B : ℕ} {h : Shape.Concatenates [(⟨1, ![A]⟩ : Shape), ⟨1, ![B]⟩] ⟨1, ![C]⟩ 0}
    {x : (⟨1, ![A]⟩ : Shape).Idx → EReal} {y : (⟨1, ![B]⟩ : Shape).Idx → EReal} {Q : (⟨1, ![C]⟩ : Shape).Idx → EReal}
    (hQ : Q = concatenate ⟨1, ![C]⟩ 0 [⟨⟨1, ![A]⟩, x⟩, ⟨⟨1, ![B]⟩, y⟩] h) (hAB : A + B = C) :
    Spec.toVec Q = (Spec.catv (Spec.toVec x) (Spec.toVec y) : Spec.RowV C) := by
  subst hQ
  funext n
  unfold Spec.catv
  by_cases hn : n.val < A
  · rw [dif_pos hn]
    exact concatenate_pair_apply_left 0 x y h (ix1 n) rfl (ix1 ⟨n.val, hn⟩) (fun b => by match b with | ⟨0, _⟩ => rfl)
  · have hB : n.val - A < B := by have := n.isLt; omega
    rw [dif_neg hn, dif_pos hB]
    exact concatenate_pair_apply_right 0 x y h (ix1 n) rfl rfl (ix1 ⟨n.val - A, hB⟩)
      (fun b hb => by match b with | ⟨0, _⟩ => exact absurd rfl hb) (by show n.val - A + A = n.val; omega)

/-- Two arrays concatenated along the last of three axes: slice by slice, the two side by side. -/
theorem hcat_read {B' R' A₁ A₂ : ℕ} {h : Shape.Concatenates [(⟨3, ![B', R', A₁]⟩ : Shape), ⟨3, ![B', R', A₂]⟩] ⟨3, ![B', R', C]⟩ 2}
    {x : (⟨3, ![B', R', A₁]⟩ : Shape).Idx → EReal} {y : (⟨3, ![B', R', A₂]⟩ : Shape).Idx → EReal}
    {Q : (⟨3, ![B', R', C]⟩ : Shape).Idx → EReal}
    (hQ : Q = concatenate ⟨3, ![B', R', C]⟩ 2 [⟨⟨3, ![B', R', A₁]⟩, x⟩, ⟨⟨3, ![B', R', A₂]⟩, y⟩] h) (hAB : A₁ + A₂ = C) (b : Fin B') :
    Spec.toMat3 Q b = (Spec.hcat (Spec.toMat3 x b) (Spec.toMat3 y b) : Spec.Mat R' C) := by
  subst hQ
  funext r k
  unfold Spec.hcat
  by_cases hk : k.val < A₁
  · rw [dif_pos hk]
    exact concatenate_pair_apply_left 2 x y h (ix3 b r k) rfl (ix3 b r ⟨k.val, hk⟩)
      (fun a => by fin_cases a <;> rfl)
  · have hB : k.val - A₁ < A₂ := by have := k.isLt; omega
    rw [dif_neg hk, dif_pos hB]
    exact concatenate_pair_apply_right 2 x y h (ix3 b r k) rfl rfl (ix3 b r ⟨k.val - A₁, hB⟩)
      (fun a ha => by fin_cases a <;> first | rfl | exact absurd rfl ha)
      (by show k.val - A₁ + A₁ = k.val; omega)

end Forms

variable (m : (ℓ : Loc nD τ sig) → Buf (Elt Ideal) ℓ) (c : Dev nD)

/-- Buffer b after the whole line of operations. -/
abbrev V (b : Ref sig .tc) : Buf (Elt Ideal) ((c : Thread nD τ).loc b) :=
  StableHlo.after (Gen.hostOps0 (F := Ideal)) (fun b => m (c, b)) b

/-- Buffer b before the line. -/
abbrev A (b : Ref sig .tc) : Buf (Elt Ideal) ((c : Thread nD τ).loc b) := m ((c : Thread nD τ).loc b)

/-- The n buffers from index a on. -/
def refsFrom (a : ℕ) : (n : ℕ) → a + n ≤ sig.nNear .tc .hbm → List (Ref sig .tc)
  | 0, _ => []
  | n + 1, h => ⟨.hbm, ⟨a, by omega⟩, rfl⟩ :: refsFrom (a + 1) n (by omega)

/-- The k-th operation of the line writes buffer 37 + k. -/
def resRefs : List (Ref sig .tc) := refsFrom 37 222 (by decide)

theorem writesAre : WritesAre (Gen.hostOps0 (F := Ideal) : List (HloOp τ sig (Elt Ideal))) resRefs := by
  unfold WritesAre Gen.hostOps0 resRefs
  repeat (first | exact List.Forall₂.nil | refine List.Forall₂.cons rfl ?_)

theorem V_arg (r : Ref sig .tc) (hr : r ∉ resRefs) :
    StableHlo.after (Gen.hostOps0 (F := Ideal)) (fun b => m (c, b)) (no_index (Proc.devRef .tc r)) = A m c r := by
  dsimp only [A]
  rw [after_eq_take writesAre 0 _ r (by simpa using hr)]
  rfl

abbrev slabPieces : List ((s : Shape) × (s.Idx → EReal)) :=
  [⟨S520x512, V m c main_v44⟩, ⟨S520x512, V m c main_v53⟩, ⟨S264x512, V m c main_v58⟩, ⟨S520x512, V m c main_v67⟩,
   ⟨S264x512, V m c main_v76⟩, ⟨S264x512, V m c main_v85⟩, ⟨S136x512, V m c main_v94⟩, ⟨S264x512, V m c main_v103⟩,
   ⟨S136x512, V m c main_v112⟩, ⟨S264x512, V m c main_v121⟩, ⟨S136x512, V m c main_v130⟩, ⟨S264x512, V m c main_v139⟩]

local macro "read_stretch " i:num k:num res:ident : tactic => `(tactic| (
  dsimp only [V, slabPieces]
  rw [after_eq_stretch writesAre $i $k (by decide) _ $res (by decide)]
  repeat (rw [after_eq_take writesAre $i]; rotate_left; decide)
  generalize after (List.take $i (Gen.hostOps0 (F := Ideal))) _ = G
  simp only [Gen.hostOps0, List.take, List.drop]
  after_results
  all_goals rfl))

theorem bdF0 : Spec.toMat (V m c main_v8)
    = (Spec.bd (Spec.toMat (V m c main_arg5)) (Spec.toMat (V m c main_arg9)) : Spec.Mat 512 512) := by
  refine' bd_read ?hQ (fun _ => Ideal.ofBits_zero_f32) ?_ ?_ ?_ ?_
  case hQ => read_stretch 0 15 main_v8
  all_goals rfl

theorem bdF1 : Spec.toMat (V m c main_v18)
    = (Spec.bd (Spec.toMat (V m c main_arg7)) (Spec.toMat (V m c main_arg11)) : Spec.Mat 512 256) := by
  refine' bd_read ?hQ (fun _ => Ideal.ofBits_zero_f32) ?_ ?_ ?_ ?_
  case hQ => read_stretch 15 30 main_v18
  all_goals rfl

theorem bdG0 : Spec.toMat (V m c main_v28)
    = (Spec.bd (Spec.toMat (V m c main_arg13)) (Spec.toMat (V m c main_arg17)) : Spec.Mat 256 512) := by
  refine' bd_read ?hQ (fun _ => Ideal.ofBits_zero_f32) ?_ ?_ ?_ ?_
  case hQ => read_stretch 30 45 main_v28
  all_goals rfl

theorem bdG1 : Spec.toMat (V m c main_v38)
    = (Spec.bd (Spec.toMat (V m c main_arg15)) (Spec.toMat (V m c main_arg19)) : Spec.Mat 512 256) := by
  refine' bd_read ?hQ (fun _ => Ideal.ofBits_zero_f32) ?_ ?_ ?_ ?_
  case hQ => read_stretch 45 60 main_v38
  all_goals rfl

theorem catF0 : Spec.toVec (V m c main_v9)
    = (Spec.catv (Spec.toVec (V m c main_arg6)) (Spec.toVec (V m c main_arg10)) : Spec.RowV 512) := by
  refine' cat_read ?hQ rfl
  case hQ => read_stretch 0 15 main_v9

theorem catF1 : Spec.toVec (V m c main_v19)
    = (Spec.catv (Spec.toVec (V m c main_arg8)) (Spec.toVec (V m c main_arg12)) : Spec.RowV 256) := by
  refine' cat_read ?hQ rfl
  case hQ => read_stretch 15 30 main_v19

theorem catG0 : Spec.toVec (V m c main_v29)
    = (Spec.catv (Spec.toVec (V m c main_arg14)) (Spec.toVec (V m c main_arg18)) : Spec.RowV 512) := by
  refine' cat_read ?hQ rfl
  case hQ => read_stretch 30 45 main_v29

theorem catG1 : Spec.toVec (V m c main_v39)
    = (Spec.catv (Spec.toVec (V m c main_arg16)) (Spec.toVec (V m c main_arg20)) : Spec.RowV 256) := by
  refine' cat_read ?hQ rfl
  case hQ => read_stretch 45 60 main_v39

theorem v140_term : (V m c main_v140 : S3552x512.Idx → EReal) = concatenate S3552x512 0 (slabPieces m c)
    concatenates_S520x512_S520x512_S264x512_S520x512_S264x512_S264x512_S136x512_S264x512_S136x512_S264x512_S136x512_S264x512_S3552x512_d0 := by
  read_stretch 216 217 main_v140

/-- The slab as a matrix. -/
abbrev slab : Spec.Mat 3552 512 := Spec.toMat (V m c main_v140)

/-- Piece q of the slab is a block X, then the row Y below it, assigned into Z; it starts at row off, the row counts of the pieces before it. -/
theorem slab_piece {R K N M : ℕ} {sib sir : Shape} (q : Fin 12) (P : (⟨2, ![R, 512]⟩ : Shape).Idx → EReal)
    (hx : (slabPieces m c)[q.val]'q.isLt = ⟨⟨2, ![R, 512]⟩, P⟩) (off row : ℕ)
    (hoff : (([S520x512, S520x512, S264x512, S520x512, S264x512, S264x512, S136x512, S264x512, S136x512, S264x512, S136x512,
      S264x512].take q.val).map fun s : Shape =>
        if h : s.rank = S3552x512.rank then s.size ((0 : Fin S3552x512.rank).cast h.symm) else 0).sum = off)
    {db : ScatterDims ⟨2, ![R, 512]⟩ sib ⟨2, ![K, N]⟩} {dr : ScatterDims ⟨2, ![R, 512]⟩ sir ⟨1, ![M]⟩}
    {Z : (⟨2, ![R, 512]⟩ : Shape).Idx → EReal} {ib : IVec sib 32} {ir : IVec sir 32}
    {X : (⟨2, ![K, N]⟩ : Shape).Idx → EReal} {Y : (⟨1, ![M]⟩ : Shape).Idx → EReal}
    (hP : P = Host.scatter dr (fun _ b => b) (Host.scatter db (fun _ b => b) Z ib X) ir Y)
    (hb : ∀ j i, db.resultIdx? j ib = some i ↔ 0 + (j 0).val = (i 0).val ∧ 0 + (j 1).val = (i 1).val)
    (hr : ∀ j i, dr.resultIdx? j ir = some i ↔ K + 0 = (i 0).val ∧ 0 + (j 0).val = (i 1).val)
    (hrow : row = off + K) (hKR : K < R) : Holds (slab m c) off row (Spec.toMat X) (Spec.toVec Y) := by
  have hs : ∀ (r n : ℕ) (hr : r < R) (hn : n < 512) (h : off + r < 3552),
      V m c main_v140 (ix2 ⟨off + r, h⟩ ⟨n, hn⟩) = P (ix2 ⟨r, hr⟩ ⟨n, hn⟩) := fun r n hr hn h => by
    rw [v140_term]
    exact concatenate_apply_piece 0 (slabPieces m c) _ (ix2 ⟨off + r, h⟩ ⟨n, hn⟩) q.val q.isLt _ P hx rfl off
      (by (first | rw [List.map_take] | rw [← List.map_take]); exact hoff) (ix2 ⟨r, hr⟩ ⟨n, hn⟩)
      (fun b hb => by match b with | ⟨0, _⟩ => exact absurd rfl hb | ⟨1, _⟩ => rfl) rfl
  subst hrow hP
  constructor
  · intro h1 h2
    funext k n
    have hk := k.isLt
    have hn := n.isLt
    show V m c main_v140 (ix2 ⟨off + k.val, _⟩ ⟨n.val, _⟩) = X (ix2 k n)
    rw [hs k.val n.val (by omega) (by omega), set_row_apply dr _ ir Y K 0 hr, set_block_apply db Z ib X 0 0 hb]
    dsimp only
    split_ifs <;> first | rfl | (exfalso; omega)
  · intro h1 h2
    funext n
    have hn := n.isLt
    show V m c main_v140 (ix2 ⟨off + K, _⟩ ⟨n.val, _⟩) = Y (ix1 n)
    rw [hs K n.val hKR (by omega), set_row_apply dr _ ir Y K 0 hr]
    dsimp only
    split_ifs <;> first | rfl | (exfalso; omega)

theorem p0 : Holds (slab m c) 0 512 (Spec.toMat (V m c main_v8)) (Spec.toVec (V m c main_v9)) := by
  refine' slab_piece m c 0 (V m c main_v44) rfl 0 512 (by decide) ?hP ?hb ?hr rfl (by decide)
  case hP => read_stretch 60 68 main_v44
  case hb => exact blk1_iff _ _ 0 rfl
  case hr => exact row1_iff _ _ 512 rfl

theorem p1 : Holds (slab m c) 520 1032 (Spec.toMat (V m c main_v18)) (Spec.toVec (V m c main_v19)) := by
  refine' slab_piece m c 1 (V m c main_v53) rfl 520 1032 (by decide) ?hP ?hb ?hr rfl (by decide)
  case hP => read_stretch 68 82 main_v53
  case hb => exact blk2_iff _ _ 0 0 rfl rfl
  case hr => exact row2_iff _ _ 512 0 rfl rfl

theorem p2 : Holds (slab m c) 1040 1296 (Spec.toMat (V m c main_v28)) (Spec.toVec (V m c main_v29)) := by
  refine' slab_piece m c 2 (V m c main_v58) rfl 1040 1296 (by decide) ?hP ?hb ?hr rfl (by decide)
  case hP => read_stretch 82 90 main_v58
  case hb => exact blk1_iff _ _ 0 rfl
  case hr => exact row1_iff _ _ 256 rfl

theorem p3 : Holds (slab m c) 1304 1816 (Spec.toMat (V m c main_v38)) (Spec.toVec (V m c main_v39)) := by
  refine' slab_piece m c 3 (V m c main_v67) rfl 1304 1816 (by decide) ?hP ?hb ?hr rfl (by decide)
  case hP => read_stretch 90 104 main_v67
  case hb => exact blk2_iff _ _ 0 0 rfl rfl
  case hr => exact row2_iff _ _ 512 0 rfl rfl

theorem p4 : Holds (slab m c) 1824 2080 (Spec.toMat (V m c main_arg21)) (Spec.toVec (V m c main_arg22)) := by
  refine' slab_piece m c 4 (V m c main_v76) rfl 1824 2080 (by decide) ?hP ?hb ?hr rfl (by decide)
  case hP => read_stretch 104 118 main_v76
  case hb => exact blk2_iff _ _ 0 0 rfl rfl
  case hr => exact row2_iff _ _ 256 0 rfl rfl

theorem p5 : Holds (slab m c) 2088 2344 (Spec.toMat (V m c main_arg23)) (Spec.toVec (V m c main_arg24)) := by
  refine' slab_piece m c 5 (V m c main_v85) rfl 2088 2344 (by decide) ?hP ?hb ?hr rfl (by decide)
  case hP => read_stretch 118 132 main_v85
  case hb => exact blk2_iff _ _ 0 0 rfl rfl
  case hr => exact row2_iff _ _ 256 0 rfl rfl

theorem p6 : Holds (slab m c) 2352 2480 (Spec.toMat (V m c main_arg25)) (Spec.toVec (V m c main_arg26)) := by
  refine' slab_piece m c 6 (V m c main_v94) rfl 2352 2480 (by decide) ?hP ?hb ?hr rfl (by decide)
  case hP => read_stretch 132 146 main_v94
  case hb => exact blk2_iff _ _ 0 0 rfl rfl
  case hr => exact row2_iff _ _ 128 0 rfl rfl

theorem p7 : Holds (slab m c) 2488 2744 (Spec.toMat (V m c main_arg27)) (Spec.toVec (V m c main_arg28)) := by
  refine' slab_piece m c 7 (V m c main_v103) rfl 2488 2744 (by decide) ?hP ?hb ?hr rfl (by decide)
  case hP => read_stretch 146 160 main_v103
  case hb => exact blk2_iff _ _ 0 0 rfl rfl
  case hr => exact row2_iff _ _ 256 0 rfl rfl

theorem p8 : Holds (slab m c) 2752 2880 (Spec.toMat (V m c main_arg29)) (Spec.toVec (V m c main_arg30)) := by
  refine' slab_piece m c 8 (V m c main_v112) rfl 2752 2880 (by decide) ?hP ?hb ?hr rfl (by decide)
  case hP => read_stretch 160 174 main_v112
  case hb => exact blk2_iff _ _ 0 0 rfl rfl
  case hr => exact row2_iff _ _ 128 0 rfl rfl

theorem p9 : Holds (slab m c) 2888 3144 (Spec.toMat (V m c main_arg31)) (Spec.toVec (V m c main_arg32)) := by
  refine' slab_piece m c 9 (V m c main_v121) rfl 2888 3144 (by decide) ?hP ?hb ?hr rfl (by decide)
  case hP => read_stretch 174 188 main_v121
  case hb => exact blk2_iff _ _ 0 0 rfl rfl
  case hr => exact row2_iff _ _ 256 0 rfl rfl

theorem p10 : Holds (slab m c) 3152 3280 (Spec.toMat (V m c main_arg33)) (Spec.toVec (V m c main_arg34)) := by
  refine' slab_piece m c 10 (V m c main_v130) rfl 3152 3280 (by decide) ?hP ?hb ?hr rfl (by decide)
  case hP => read_stretch 188 202 main_v130
  case hb => exact blk2_iff _ _ 0 0 rfl rfl
  case hr => exact row2_iff _ _ 128 0 rfl rfl

theorem p11 : Holds (slab m c) 3288 3544 (Spec.toMat (V m c main_arg35)) (Spec.toVec (V m c main_arg36)) := by
  refine' slab_piece m c 11 (V m c main_v139) rfl 3288 3544 (by decide) ?hP ?hb ?hr rfl (by decide)
  case hP => read_stretch 202 216 main_v139
  case hb => exact blk2_iff _ _ 0 0 rfl rfl
  case hr => exact row2_iff _ _ 256 0 rfl rfl

theorem slabFused_eq : Spec.slabFused (Spec.toMat (V m c main_v140))
    = Spec.fuse (Spec.mkBody
        (A m c main_arg5) (A m c main_arg6) (A m c main_arg7) (A m c main_arg8) (A m c main_arg9) (A m c main_arg10)
        (A m c main_arg11) (A m c main_arg12) (A m c main_arg13) (A m c main_arg14) (A m c main_arg15)
        (A m c main_arg16) (A m c main_arg17) (A m c main_arg18) (A m c main_arg19) (A m c main_arg20)) := by
  unfold Spec.slabFused
  rw [(p0 m c).1, (p0 m c).2, (p1 m c).1, (p1 m c).2, (p2 m c).1, (p2 m c).2, (p3 m c).1, (p3 m c).2,
    bdF0, catF0, bdF1, catF1, bdG0, catG0, bdG1, catG1]
  simp (disch := decide) only [V_arg m c]
  rfl

theorem slabHead_eq : Spec.slabHead (Spec.toMat (V m c main_v140))
    = Spec.mkHead
        (A m c main_arg21) (A m c main_arg22) (A m c main_arg23) (A m c main_arg24) (A m c main_arg25)
        (A m c main_arg26) (A m c main_arg27) (A m c main_arg28) (A m c main_arg29) (A m c main_arg30)
        (A m c main_arg31) (A m c main_arg32) (A m c main_arg33) (A m c main_arg34) (A m c main_arg35)
        (A m c main_arg36) := by
  unfold Spec.slabHead
  simp (disch := decide) only [p4 m c, p5 m c, p6 m c, p7 m c, p8 m c, p9 m c, p10 m c, p11 m c, V_arg m c]
  rfl

theorem v141_eq (b : Fin 16) : Spec.toMat3 (V m c main_v141) b
    = (Spec.hcat (Spec.toMat3 (A m c main_arg0) b) (Spec.toMat3 (A m c main_arg1) b) : Spec.Mat 256 512) := by
  rw [← V_arg m c main_arg0 (by decide), ← V_arg m c main_arg1 (by decide)]
  refine' hcat_read ?hQ (by rfl) b
  case hQ => read_stretch 217 218 main_v141

theorem v144_term : (V m c main_v144 : S16x2x256x256.Idx → EReal)
    = concatenate S16x2x256x256 1
        [⟨S16x1x256x256, broadcastInDim S16x1x256x256 ![0, 2, 3] bcast_S16x256x256_S16x1x256x256_0_2_3 (V m c main_arg2)⟩,
         ⟨S16x1x256x256, broadcastInDim S16x1x256x256 ![0, 2, 3] bcast_S16x256x256_S16x1x256x256_0_2_3 (V m c main_arg3)⟩]
        concatenates_S16x1x256x256_S16x1x256x256_S16x2x256x256_d1 := by
  read_stretch 218 221 main_v144

/-- An array given a new unit axis 1, read at an index. -/
theorem bcast_at (x : S16x256x256.Idx → EReal) (b : Fin 16) (r k : Fin 256) :
    broadcastInDim S16x1x256x256 ![0, 2, 3] bcast_S16x256x256_S16x1x256x256_0_2_3 x (ix4 b (0 : Fin 1) r k) = x (ix3 b r k) :=
  broadcastInDim_apply (s := S16x256x256) (t := S16x1x256x256) ![0, 2, 3] _ x _ (ix3 b r k)
    (fun a => by fin_cases a <;> rfl)

theorem v144_eq0 (b : Fin 16) : Spec.toMat4 (V m c main_v144) b 0 = Spec.toMat3 (A m c main_arg2) b := by
  funext r k
  rw [← V_arg m c main_arg2 (by decide)]
  show V m c main_v144 (ix4 b (0 : Fin 2) r k) = V m c main_arg2 (ix3 b r k)
  rw [v144_term, ← bcast_at (V m c main_arg2) b r k]
  exact concatenate_pair_apply_left (t := S16x2x256x256) (s₁ := S16x1x256x256) (s₂ := S16x1x256x256) 1 _ _ _ (ix4 b (0 : Fin 2) r k) rfl
    (ix4 b (0 : Fin 1) r k) (fun a => by fin_cases a <;> rfl)

theorem v144_eq1 (b : Fin 16) : Spec.toMat4 (V m c main_v144) b 1 = Spec.toMat3 (A m c main_arg3) b := by
  funext r k
  rw [← V_arg m c main_arg3 (by decide)]
  show V m c main_v144 (ix4 b (1 : Fin 2) r k) = V m c main_arg3 (ix3 b r k)
  rw [v144_term, ← bcast_at (V m c main_arg3) b r k]
  exact concatenate_pair_apply_right (t := S16x2x256x256) (s₁ := S16x1x256x256) (s₂ := S16x1x256x256) 1 _ _ _ (ix4 b (1 : Fin 2) r k) rfl rfl
    (ix4 b (0 : Fin 1) r k)
    (fun a ha => by fin_cases a <;> first | rfl | exact absurd rfl ha) rfl

theorem v145_eq (b : Fin 16) (s : Fin 129) : V m c main_v145 (ix3 b s 0) = A m c main_arg4 (ix2 b s) := by
  have e : (V m c main_v145 : S16x129x1.Idx → EReal)
      = shapeCast S16x129x1 (V m c main_arg4 : S16x129.Idx → EReal) shapeCasts_S16x129_S16x129x1 := by
    read_stretch 221 222 main_v145
  rw [← V_arg m c main_arg4 (by decide), e]
  refine shapeCast_apply _ _ (ix3 b s 0) (ix2 b s) ?_
  rw [Shape.rowMajor_val_two, Shape.rowMajor_val_three]
  show b.val * 129 + s.val = (b.val * 129 + s.val) * 1 + 0
  omega

end Cert.ReferenceIdeal.RHost
-- ==== Proof.RSwitch.lean ====
import proofs.«126533_g2000204636238536_pallasbulk_491_2_alg».proof.Proof.Gen.ReferenceIdeal.Skeleton
import proofs.«126533_g2000204636238536_pallasbulk_491_2_alg».proof.Proof.Spec
import proofs.«126533_g2000204636238536_pallasbulk_491_2_alg».proof.Proof.Args
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RSwitch

open Idealize.ShloMosaic Idealize.ShloMosaic.ValueIdx Cert.ReferenceIdeal Cert.Spec

theorem leaky_apply {s : Shape} (y : FVec Ideal s .f32) (i : s.Idx) :
    maximumf y (mulf (broadcast s (Scalar.ofBits (F := Ideal) .f32 0x3C23D70A#32)) y) i = leaky (y i) := rfl

/-- A rows-by-columns product added to zero is, entry by entry, the sum over the inner index. -/
theorem matmul2_apply {R K N : Nat} (X : FVec Ideal ⟨2, ![R, K]⟩ .f32) (W : FVec Ideal ⟨2, ![K, N]⟩ .f32) (r : Fin R) (n : Fin N) :
    matmul (DotDims.plain R K N) none X W (constant (F := Ideal) ⟨2, ![R, N]⟩ .f32 0x00000000#32) (ix2 r n)
      = ∑ k : Fin K, X (ix2 r k) * W (ix2 k n) := by
  refine (Ideal.matmul_constant_zero_apply _ none X W (ix2 r n)).trans ?_
  rw [← Equiv.sum_comp (contrEquiv1 (DotDims.plain R K N) K rfl rfl).symm]
  refine Finset.sum_congr rfl fun k _ => ?_
  have hk := contrEquiv1_symm_val (DotDims.plain R K N) K rfl rfl k
  exact congrArg₂ (· * ·) (congrArg X (Shape.idx_ext₂ rfl hk)) (congrArg W (Shape.idx_ext₂ hk rfl))

/-- An affine layer at an entry is lin there, once its input row, weight column and bias entry are known. -/
theorem lin_apply {R R' K N : Nat} (hW : (⟨2, ![K, N]⟩ : Shape).ShapeCasts ⟨2, ![K, N]⟩)
    (hB : (⟨2, ![1, N]⟩ : Shape).ShapeCasts ⟨2, ![1, N]⟩) (hb : (⟨2, ![1, N]⟩ : Shape).Broadcasts ⟨2, ![R, N]⟩)
    (X : FVec Ideal ⟨2, ![R, K]⟩ .f32) (W : FVec Ideal ⟨2, ![K, N]⟩ .f32) (Bv : FVec Ideal ⟨2, ![1, N]⟩ .f32) (r : Fin R) (n : Fin N)
    (x : Mat R' K) (w : Mat K N) (β : RowV N) (r' : Fin R')
    (hX : ∀ k, X (ix2 r k) = x r' k) (hw : ∀ k, W (ix2 k n) = w k n) (hβ : Bv (ix2 (0 : Fin 1) n) = β n) :
    addf (matmul (DotDims.plain R K N) none X (shapeCast ⟨2, ![K, N]⟩ W hW) (constant (F := Ideal) ⟨2, ![R, N]⟩ .f32 0x00000000#32))
        (broadcastTo ⟨2, ![R, N]⟩ (shapeCast ⟨2, ![1, N]⟩ Bv hB) hb) (ix2 r n) = lin x w β r' n := by
  rw [shapeCast_self W hW, shapeCast_self Bv hB]
  exact congrArg₂ (· + ·) ((matmul2_apply X W r n).trans (Finset.sum_congr rfl fun k _ => congrArg₂ (· * ·) (hX k) (hw k)))
    ((broadcastTo_1b_ab_apply Bv hb r n).trans hβ)

/-- Reading a K × N block at row r0 of a wider matrix gives that block of it. -/
theorem ld_sub {R C K N r0 : Nat} (x : Vec Ideal ⟨2, ![R, C]⟩ .f32)
    {inb : ∀ a, (![r0, 0] : Fin 2 → Nat) a + (⟨2, ![K, N]⟩ : Shape).size a ≤ (⟨2, ![R, C]⟩ : Shape).size a}
    (k : Fin K) (n : Fin N) (hK : r0 + K ≤ R := by omega) (hN : N ≤ C := by omega) :
    View.ld x (Rect.unit (s := ⟨2, ![R, C]⟩) ![r0, 0] (⟨2, ![K, N]⟩ : Shape).size inb) (ix2 k n)
      = sub (toMat x) r0 K N hK hN k n := by
  show x _ = x _
  refine congrArg x (Shape.idx_ext₂ ?_ ?_)
  · show r0 + 1 * k.val = r0 + k.val; omega
  · show 0 + 1 * n.val = n.val; omega

/-- Reading one row of N entries at row r0 of a wider matrix gives that row of it. -/
theorem ld_subRow {R C N r0 : Nat} (x : Vec Ideal ⟨2, ![R, C]⟩ .f32)
    {inb : ∀ a, (![r0, 0] : Fin 2 → Nat) a + (⟨2, ![1, N]⟩ : Shape).size a ≤ (⟨2, ![R, C]⟩ : Shape).size a}
    (n : Fin N) (hr : r0 < R := by omega) (hN : N ≤ C := by omega) :
    View.ld x (Rect.unit (s := ⟨2, ![R, C]⟩) ![r0, 0] (⟨2, ![1, N]⟩ : Shape).size inb) (ix2 (0 : Fin 1) n)
      = subRow (toMat x) r0 N hr hN n := by
  show x _ = x _
  refine congrArg x (Shape.idx_ext₂ ?_ ?_)
  · show r0 + 1 * 0 = r0; omega
  · show 0 + 1 * n.val = n.val; omega

theorem hsl16 (i : Fin 16) : S4096x128.Slices ![i.val * 256, 0] S128x128 :=
  ⟨rfl, fun a => match a with
    | ⟨0, _⟩ => (by show i.val * 256 + 128 ≤ 4096; omega)
    | ⟨1, _⟩ => (by show 0 + 128 ≤ 128; omega)⟩

/-- The first 128 rows of each of the sixteen 256-row blocks of y, end to end: row 128 b + s is row 256 b + s. -/
theorem cat16_apply (y : FVec Ideal S4096x128 .f32)
    (h : Shape.Concatenates ((List.ofFn fun i : Fin 16 => (⟨S128x128, extractStridedSlice S128x128 ![i.val * 256, 0] y (hsl16 i)⟩ : (s : Shape) × (s.Idx → Ideal .f32))).map (·.1)) S2048x128 0)
    (b : Fin 16) (s c : Fin 128) :
    concatenate S2048x128 0 (List.ofFn fun i : Fin 16 => ⟨S128x128, extractStridedSlice S128x128 ![i.val * 256, 0] y (hsl16 i)⟩) h
        (ix2 (⟨b.val * 128 + s.val, by omega⟩ : Fin 2048) c)
      = y (ix2 (⟨b.val * 256 + s.val, by omega⟩ : Fin 4096) c) := by
  refine (concatenate_apply_piece (0 : Fin S2048x128.rank) _ h _ b.val (by simp) S128x128 _ (List.getElem_ofFn _) rfl (b.val * 128) ?_ (ix2 s c) ?_ rfl).trans ?_
  · rw [List.map_take, List.map_ofFn, List.map_take, List.map_ofFn]
    show ((List.ofFn fun _ : Fin 16 => 128).take b.val).sum = _
    rw [List.ofFn_const, List.take_replicate, List.sum_replicate, smul_eq_mul, Nat.min_eq_left (by omega)]
  · intro b' hb'
    match b' with
    | ⟨0, _⟩ => exact absurd rfl hb'
    | ⟨1, _⟩ => rfl
  · exact slice2_axis0_apply _ y _ s c _ rfl

/-- The rectangle of the packed matrix that starts at row r0, column 0. -/
abbrev ldw (x3 : Vec Ideal S3552x512 .f32) {r0 : Nat} {sz : Fin 2 → Nat}
    (inb : ∀ a, (![r0, 0] : Fin 2 → Nat) a + sz a ≤ S3552x512.size a) : Vec Ideal ⟨2, sz⟩ .f32 :=
  View.ld x3 (Rect.unit (s := S3552x512) ![r0, 0] sz inb)

def v199T (v157 : FVec Ideal S4096x256 .f32) (x3 : Vec Ideal S3552x512 .f32) : FVec Ideal S2048x256 .f32 :=
  Gen.k0_pay14 v157
    (Gen.k0_pay13 (ldw x3 Gen.inb_S3552x512_S1x256_2080_0))
    (ldw x3 Gen.inb_S3552x512_S256x128_2088_0)
    (ldw x3 Gen.inb_S3552x512_S1x128_2344_0)
    (ldw x3 Gen.inb_S3552x512_S128x256_2352_0)
    (ldw x3 Gen.inb_S3552x512_S1x256_2480_0)

def v201T (x3 : Vec Ideal S3552x512 .f32) : FVec Ideal S256x128 .f32 :=
  Gen.k0_pay15 (ldw x3 Gen.inb_S3552x512_S256x128_2488_0)

def swT (v157 : FVec Ideal S4096x256 .f32) (x3 : Vec Ideal S3552x512 .f32) : FVec Ideal S2048x128 .f32 :=
  Gen.k0_pay16 (v199T v157 x3) (v201T x3) (ldw x3 Gen.inb_S3552x512_S1x128_2744_0)

def spT (v157 : FVec Ideal S4096x256 .f32) (x3 : Vec Ideal S3552x512 .f32) : FVec Ideal S2048x1 .f32 :=
  Gen.k0_pay17 (v199T v157 x3) (v201T x3) (ldw x3 Gen.inb_S3552x512_S1x128_2744_0)
    (ldw x3 Gen.inb_S3552x512_S128x256_2752_0)
    (ldw x3 Gen.inb_S3552x512_S1x256_2880_0)
    (ldw x3 Gen.inb_S3552x512_S256x1_2888_0)
    (ldw x3 Gen.inb_S3552x512_S1x1_3144_0)

section Values
variable (v157 : FVec Ideal S4096x256 .f32) (x3 : Vec Ideal S3552x512 .f32) (hc : Fin 16 → Spec.Mat 256 256)
  (h157 : ∀ (b : Fin 16) (n j : Fin 256), v157 (ix2 (⟨b.val * 256 + n.val, by omega⟩ : Fin 4096) j)
      = ∑ k, hc b n k * (Spec.slabHead (Spec.toMat x3)).wg0 k j)
include h157

/-- The merge perceptron on batch element b's node states, its first 128 rows, then the switch perceptron's first layer. -/
theorem v199T_apply (b : Fin 16) (s : Fin 128) (q : Fin 256) :
    v199T v157 x3 (ix2 (⟨b.val * 128 + s.val, by omega⟩ : Fin 2048) q)
      = act (lin (swIn (slabHead (toMat x3)) (hc b)) (slabHead (toMat x3)).wo0
          (slabHead (toMat x3)).bo0) s q := by
  unfold v199T Gen.k0_pay14 Gen.k0_pay13
  refine (leaky_apply _ _).trans (congrArg leaky (lin_apply _ _ _ _ _ _ _ q _ _ _ s (fun p => ?_)
    (fun p => ld_sub x3 p q) (ld_subRow x3 q)))
  refine (cat16_apply _ _ b s p).trans ((leaky_apply _ _).trans (congrArg leaky ?_))
  refine lin_apply _ _ _ _ _ _ _ p _ _ _ ⟨s.val, by omega⟩ (fun q' => ?_) (fun q' => ld_sub x3 q' p) (ld_subRow x3 p)
  refine (leaky_apply _ _).trans (congrArg leaky (congrArg₂ (· + ·) (h157 b ⟨s.val, by omega⟩ q') ?_))
  rw [shapeCast_self]
  exact (broadcastTo_1b_ab_apply _ _ _ q').trans (ld_subRow x3 q')

theorem swT_apply (b : Fin 16) (s k : Fin 128) :
    swT v157 x3 (ix2 (⟨b.val * 128 + s.val, by omega⟩ : Fin 2048) k)
      = Spec.sw (Spec.slabHead (Spec.toMat x3)) (hc b) s k := by
  unfold swT v201T Gen.k0_pay16 Gen.k0_pay15
  exact (leaky_apply _ _).trans (congrArg leaky (lin_apply _ _ _ _ _ _ _ k _ _ _ s
    (fun q => v199T_apply v157 x3 hc h157 b s q) (fun q => ld_sub x3 q k) (ld_subRow x3 k)))

theorem spT_apply (b : Fin 16) (s : Fin 128) :
    spT v157 x3 (ix2 (⟨b.val * 128 + s.val, by omega⟩ : Fin 2048) (0 : Fin 1))
      = Spec.sp (Spec.slabHead (Spec.toMat x3)) (hc b) s := by
  unfold spT Gen.k0_pay17
  exact lin_apply _ _ _ _ _ _ _ 0 _ _ _ s
    (fun k => (leaky_apply _ _).trans (congrArg leaky (lin_apply _ _ _ _ _ _ _ k _ _ _ s
      (fun q => swT_apply v157 x3 hc h157 b s q) (fun q => ld_sub x3 q k) (ld_subRow x3 k))))
    (fun k => ld_sub x3 k 0) (ld_subRow x3 0)

end Values

end Cert.ReferenceIdeal.RSwitch

end
-- ==== Proof.RStates.lean ====
import proofs.«126533_g2000204636238536_pallasbulk_491_2_alg».proof.Proof.Gen.ReferenceIdeal.Skeleton
import proofs.«126533_g2000204636238536_pallasbulk_491_2_alg».proof.Proof.Spec
import proofs.«126533_g2000204636238536_pallasbulk_491_2_alg».proof.Proof.Args
import proofs.«126533_g2000204636238536_pallasbulk_491_2_alg».proof.Proof.RSwitch

noncomputable section

namespace Cert.ReferenceIdeal.RStates

open Idealize.ShloMosaic Idealize.ShloMosaic.ValueIdx
open Cert.ReferenceIdeal Cert.ReferenceIdeal.Gen Cert.ReferenceIdeal.RSwitch
open scoped BigOperators
open Cert.Spec

theorem toRow_apply {C : Nat} (x : (⟨2, ![1, C]⟩ : Shape).Idx → EReal) (c : Fin C) :
    toRow x c = x (ix2 (0 : Fin 1) c) :=
  congrArg x (funext fun d => match d with | ⟨0, _⟩ => rfl | ⟨1, _⟩ => rfl)

theorem idx_ext3 {n : Fin 3 → ℕ} {x y : (a : Fin 3) → Fin (n a)} (h0 : (x 0 : ℕ) = y 0) (h1 : (x 1 : ℕ) = y 1)
    (h2 : (x 2 : ℕ) = y 2) : x = y :=
  funext fun a => Fin.ext <| match a with | ⟨0, _⟩ => h0 | ⟨1, _⟩ => h1 | ⟨2, _⟩ => h2

def rw256 (b : Fin 16) (n : Fin 256) : Fin 4096 := ⟨b.val * 256 + n.val, by omega⟩

def rows {C : Nat} (v : (⟨2, ![4096, C]⟩ : Shape).Idx → EReal) (b : Fin 16) : Spec.Mat 256 C :=
  fun n k => v (ix2 (rw256 b n) k)

/-- The batched product is, batch element by batch element, the matrix product. -/
theorem bmm_apply (a : FVec Ideal S16x256x256 .f32) (w : FVec Ideal S16x256x128 .f32) (b : Fin 16) (m : Fin 256) (n : Fin 128) :
    matmul dot_S16x256x256_S16x256x128_S16x256x128_2_1_1_2_0_0 none a w (constant (F := Ideal) S16x256x128 .f32 0x00000000#32) (ix3 b m n)
      = ∑ k : Fin 256, a (ix3 b m k) * w (ix3 b k n) := by
  refine (Ideal.matmul_constant_zero_apply _ none a w _).trans ?_
  rw [← Equiv.sum_comp (contrEquiv1 dot_S16x256x256_S16x256x128_S16x256x128_2_1_1_2_0_0 256 rfl rfl).symm]
  refine Finset.sum_congr rfl fun k _ => ?_
  have hk := contrEquiv1_symm_val dot_S16x256x256_S16x256x128_S16x256x128_2_1_1_2_0_0 256 rfl rfl k
  exact congrArg₂ (· * ·) (congrArg a (idx_ext3 rfl rfl hk)) (congrArg w (idx_ext3 rfl hk rfl))

/-- Rows 256 b to 256 b + 255 of the flattened array are batch element b, whichever way the array is reshaped. -/
theorem toMat3_cast {C : Nat} (v : FVec Ideal ⟨2, ![4096, C]⟩ .f32) (h) (b : Fin 16) :
    toMat3 (shapeCast ⟨3, ![16, 256, C]⟩ v h) b = rows v b :=
  funext fun n => funext fun k => shapeCast_apply v h (ix3 b n k) (ix2 (rw256 b n) k) (by
    rw [Shape.rowMajor_val_three, Shape.rowMajor_val_two]; rfl)

theorem rows_cast {C : Nat} (v : FVec Ideal ⟨3, ![16, 256, C]⟩ .f32) (h) (b : Fin 16) :
    rows (shapeCast ⟨2, ![4096, C]⟩ v h) b = toMat3 v b :=
  funext fun n => funext fun k => shapeCast_apply v h (ix2 (rw256 b n) k) (ix3 b n k) (by
    rw [Shape.rowMajor_val_three, Shape.rowMajor_val_two]; rfl)

theorem cat_apply (x y : FVec Ideal S16x256x128 .f32) (h) (b : Fin 16) (n k : Fin 256) :
    concatenate S16x256x256 2 [⟨S16x256x128, x⟩, ⟨S16x256x128, y⟩] h (ix3 b n k)
      = (hcat (toMat3 x b) (toMat3 y b) : Mat 256 256) n k := by
  unfold hcat
  by_cases hk : k.val < 128
  · rw [dif_pos hk]
    exact concatenate_pair_apply_left 2 x y h (ix3 b n k) rfl (ix3 b n ⟨k.val, hk⟩) (fun a => by
      match a with
      | ⟨0, _⟩ => rfl
      | ⟨1, _⟩ => rfl
      | ⟨2, _⟩ => rfl)
  · have hk' : k.val - 128 < 128 := by have := k.isLt; omega
    rw [dif_neg hk, dif_pos hk']
    exact concatenate_pair_apply_right 2 x y h (ix3 b n k) rfl rfl (ix3 b n ⟨k.val - 128, hk'⟩) (fun a => by
      match a with
      | ⟨0, _⟩ => intro _; rfl
      | ⟨1, _⟩ => intro _; rfl
      | ⟨2, _⟩ => intro hne; exact absurd rfl hne) (by show k.val - 128 + 128 = k.val; omega)

/-- Graph g's adjacency matrices times the 128 channels of the messages from channel o on. -/
abbrev half (A : FVec Ideal S16x2x256x256 .f32) (Mc : FVec Ideal S16x256x256 .f32) (g o : Nat)
    (hA : S16x2x256x256.Slices ![0, g, 0, 0] S16x1x256x256) (hM : S16x256x256.Slices ![0, 0, o] S16x256x128) : FVec Ideal S16x256x128 .f32 :=
  matmul dot_S16x256x256_S16x256x128_S16x256x128_2_1_1_2_0_0 none
    (shapeCast S16x256x256 (extractStridedSlice S16x1x256x256 ![0, g, 0, 0] A hA) shapeCasts_S16x1x256x256_S16x256x256)
    (extractStridedSlice S16x256x128 ![0, 0, o] Mc hM) (constant S16x256x128 .f32 0x00000000#32)

theorem half_apply (A : FVec Ideal S16x2x256x256 .f32) (Mc : FVec Ideal S16x256x256 .f32) (g o : Nat) (hA) (hM) (hg : g < 2)
    (ho : o ≤ 128) (b : Fin 16) :
    toMat3 (half A Mc g o hA hM) b = prop (toMat4 A b ⟨g, hg⟩) (fun j h => toMat3 Mc b j ⟨h.val + o, by omega⟩) := by
  funext i h
  refine (bmm_apply _ _ b i h).trans (Finset.sum_congr rfl fun j _ => congrArg₂ (· * ·) ?_ ?_)
  · refine (shapeCast_apply _ _ _ (ix4 b (0 : Fin 1) i j) (by
      rw [Shape.rowMajor_val_four, Shape.rowMajor_val_three]
      show ((b.val * 1 + 0) * 256 + i.val) * 256 + j.val = (b.val * 256 + i.val) * 256 + j.val
      omega)).trans (slice4_axis1_apply g A hA b 0 i j ⟨g, hg⟩ (Nat.add_zero g).symm)
  · exact extractStridedSlice_apply _ Mc hM _ (ix3 b j ⟨h.val + o, by omega⟩) fun ax => by
      match ax with
      | ⟨0, _⟩ => exact (Nat.zero_add _).symm
      | ⟨1, _⟩ => exact (Nat.zero_add _).symm
      | ⟨2, _⟩ => exact Nat.add_comm _ _

/-- The state plus two propagated halves put side by side. -/
theorem join_rows (Hv : FVec Ideal S4096x256 .f32) (x y : FVec Ideal S16x256x128 .f32) (hc) (hs) (b : Fin 16) :
    rows (addf Hv (shapeCast S4096x256 (concatenate S16x256x256 2 [⟨S16x256x128, x⟩, ⟨S16x256x128, y⟩] hc) hs)) b
      = fun i k => rows Hv b i k + (hcat (toMat3 x b) (toMat3 y b) : Mat 256 256) i k := by
  funext i k
  show rows Hv b i k + rows (shapeCast S4096x256 _ hs) b i k = _
  rw [rows_cast]
  exact congrArg (rows Hv b i k + ·) (cat_apply x y hc b i k)

/-- One round on the flattened rows: each graph's adjacency matrices multiply its half of the messages' channels. -/
theorem round_rows (A : FVec Ideal S16x2x256x256 .f32) (Hv Mv : FVec Ideal S4096x256 .f32) (h1) (hA0) (hM0) (hA1) (hM1) (hc) (hs) (b : Fin 16) :
    rows (addf Hv (shapeCast S4096x256 (concatenate S16x256x256 2
        [⟨S16x256x128, half A (shapeCast S16x256x256 Mv h1) 0 0 hA0 hM0⟩, ⟨S16x256x128, half A (shapeCast S16x256x256 Mv h1) 1 128 hA1 hM1⟩] hc) hs)) b
      = fun i k => rows Hv b i k + (hcat (prop (toMat4 A b 0) (colsL (rows Mv b)))
          (prop (toMat4 A b 1) (colsR (rows Mv b))) : Mat 256 256) i k := by
  rw [join_rows, half_apply A _ 0 0 hA0 hM0 (by omega) (by omega), half_apply A _ 1 128 hA1 hM1 (by omega) (by omega), toMat3_cast]
  rfl

theorem leaky_rows {N : Nat} (y : FVec Ideal ⟨2, ![4096, N]⟩ .f32) (b : Fin 16) :
    rows (maximumf y (mulf (broadcast ⟨2, ![4096, N]⟩ (Scalar.ofBits (F := Ideal) .f32 0x3C23D70A#32)) y)) b = act (rows y b) := rfl

theorem mm_rows {K N : Nat} {D : DotDims ⟨2, ![4096, K]⟩ ⟨2, ![K, N]⟩ ⟨2, ![4096, N]⟩} (hD : D = DotDims.plain 4096 K N)
    (a : FVec Ideal ⟨2, ![4096, K]⟩ .f32) (w : FVec Ideal ⟨2, ![K, N]⟩ .f32) (hw) (b : Fin 16) (n : Fin 256) (j : Fin N) :
    rows (matmul D none a (shapeCast ⟨2, ![K, N]⟩ w hw) (constant (F := Ideal) ⟨2, ![4096, N]⟩ .f32 0x00000000#32)) b n j
      = ∑ k, rows a b n k * toMat w k j := by
  subst hD
  rw [shapeCast_self w hw]
  exact matmul2_apply a w (rw256 b n) j

theorem lin_rows {K N : Nat} {D : DotDims ⟨2, ![4096, K]⟩ ⟨2, ![K, N]⟩ ⟨2, ![4096, N]⟩} (hD : D = DotDims.plain 4096 K N)
    (a : FVec Ideal ⟨2, ![4096, K]⟩ .f32) (w : FVec Ideal ⟨2, ![K, N]⟩ .f32) (bias : FVec Ideal ⟨2, ![1, N]⟩ .f32) (hw) (hb) (hbb) (b : Fin 16) :
    rows (addf (matmul D none a (shapeCast ⟨2, ![K, N]⟩ w hw) (constant (F := Ideal) ⟨2, ![4096, N]⟩ .f32 0x00000000#32))
               (broadcastTo ⟨2, ![4096, N]⟩ (shapeCast ⟨2, ![1, N]⟩ bias hb) hbb)) b
      = lin (rows a b) (toMat w) (toRow bias) := by
  subst hD
  funext n j
  exact lin_apply hw hb hbb a w bias (rw256 b n) j _ _ _ n (fun _ => rfl) (fun _ => rfl) (toRow_apply bias j).symm

def ld0 (x0 : Vec Ideal S16x256x512 .f32) : Vec Ideal S16x256x512 .f32 :=
  View.ld (Val := Elt Ideal) x0 (Rect.unit (s := S16x256x512) ![0, 0, 0] S16x256x512.size inb_S16x256x512_S16x256x512_0_0_0)
def ldA (x1 : Vec Ideal S16x2x256x256 .f32) : Vec Ideal S16x2x256x256 .f32 :=
  View.ld (Val := Elt Ideal) x1 (Rect.unit (s := S16x2x256x256) ![0, 0, 0, 0] S16x2x256x256.size inb_S16x2x256x256_S16x2x256x256_0_0_0_0)
section Slab
variable (x3 : Vec Ideal S3552x512 .f32)

def ldF0 : Vec Ideal S512x512 .f32 := ldw x3 inb_S3552x512_S512x512_0_0
def ldfb0 : Vec Ideal S1x512 .f32 := ldw x3 inb_S3552x512_S1x512_512_0
def ldF1 : Vec Ideal S512x256 .f32 := ldw x3 inb_S3552x512_S512x256_520_0
def ldfb1 : Vec Ideal S1x256 .f32 := ldw x3 inb_S3552x512_S1x256_1032_0
def ldG0 : Vec Ideal S256x512 .f32 := ldw x3 inb_S3552x512_S256x512_1040_0
def ldgb0 : Vec Ideal S1x512 .f32 := ldw x3 inb_S3552x512_S1x512_1296_0
def ldG1 : Vec Ideal S512x256 .f32 := ldw x3 inb_S3552x512_S512x256_1304_0
def ldgb1 : Vec Ideal S1x256 .f32 := ldw x3 inb_S3552x512_S1x256_1816_0
def ldg0 : Vec Ideal S256x256 .f32 := ldw x3 inb_S3552x512_S256x256_1824_0

theorem ld0_eq (x0 : Vec Ideal S16x256x512 .f32) : ld0 x0 = x0 :=
  View.ld_unit_zero (S := S16x256x512) (off := ![0, 0, 0])
    (funext fun a => match a with | ⟨0, _⟩ => rfl | ⟨1, _⟩ => rfl | ⟨2, _⟩ => rfl) inb_S16x256x512_S16x256x512_0_0_0 x0

theorem ldA_eq (x1 : Vec Ideal S16x2x256x256 .f32) : ldA x1 = x1 :=
  View.ld_unit_zero (S := S16x2x256x256) (off := ![0, 0, 0, 0])
    (funext fun a => match a with | ⟨0, _⟩ => rfl | ⟨1, _⟩ => rfl | ⟨2, _⟩ => rfl | ⟨3, _⟩ => rfl)
    inb_S16x2x256x256_S16x2x256x256_0_0_0_0 x1

/-- The fused feature and message weights, read out of the packed matrix at their row offsets. -/
def ldU : Fused :=
  ⟨toMat (ldF0 x3), toRow (ldfb0 x3), toMat (ldF1 x3), toRow (ldfb1 x3),
    toMat (ldG0 x3), toRow (ldgb0 x3), toMat (ldG1 x3), toRow (ldgb1 x3)⟩

theorem ldU_eq : ldU x3 = slabFused (toMat x3) := by
  unfold ldU slabFused
  congr 1 <;> funext k <;> first | exact funext fun n => ld_sub x3 k n | exact (toRow_apply _ k).trans (ld_subRow x3 k)

theorem ldg0_eq : toMat (ldg0 x3) = (slabHead (toMat x3)).wg0 :=
  funext fun k => funext fun n => ld_sub x3 k n

end Slab

section States
variable (x0 : Vec Ideal S16x256x512 .f32) (x1 : Vec Ideal S16x2x256x256 .f32) (x3 : Vec Ideal S3552x512 .f32)

def s22 : FVec Ideal S4096x256 .f32 := k0_pay2 (ld0 x0) (ldF0 x3) (ldfb0 x3) (ldF1 x3) (ldfb1 x3)
def s24 : FVec Ideal S16x2x256x256 .f32 := k0_pay3 (ldA x1)
def s31 : FVec Ideal S4096x512 .f32 := k0_pay4 (ld0 x0) (ldF0 x3) (ldfb0 x3) (ldF1 x3) (ldfb1 x3) (ldG0 x3) (ldgb0 x3)
def s33 : FVec Ideal S4096x512 .f32 := k0_pay5 (ld0 x0) (ldF0 x3) (ldfb0 x3) (ldF1 x3) (ldfb1 x3) (ldG0 x3) (ldgb0 x3)
def s56 : FVec Ideal S4096x256 .f32 := k0_pay6 (s22 x0 x3) (s24 x1) (s31 x0 x3) (s33 x0 x3) (ldG1 x3) (ldgb1 x3)
def s73 : FVec Ideal S4096x256 .f32 :=
  k0_pay7 (s22 x0 x3) (s24 x1) (s31 x0 x3) (s33 x0 x3) (ldG1 x3) (ldgb1 x3) (ldG0 x3) (ldgb0 x3) (ldG1 x3) (ldgb1 x3)
def slopeW : Ideal .f32 := Scalar.ofBits (F := Ideal) .f32 0x3C23D70A#32
def s88 : FVec Ideal S4096x256 .f32 := k0_pay8 (s24 x1) (s56 x0 x1 x3) (s73 x0 x1 x3) slopeW
def s113 : FVec Ideal S16x256x128 .f32 :=
  k0_pay10 (s24 x1) (s56 x0 x1 x3) (s73 x0 x1 x3) slopeW (ldG0 x3) (ldgb0 x3) (ldG1 x3) (ldgb1 x3)
def s117 : FVec Ideal S16x256x128 .f32 :=
  k0_pay11 (s24 x1) (s56 x0 x1 x3) (s73 x0 x1 x3) slopeW (ldG0 x3) (ldgb0 x3) (ldG1 x3) (ldgb1 x3)
def pre : FVec Ideal S4096x256 .f32 :=
  k0_pay12 (s24 x1) (s88 x0 x1 x3) (s113 x0 x1 x3) (s117 x0 x1 x3) (ldG0 x3) (ldgb0 x3) (ldG1 x3) (ldgb1 x3) (ldg0 x3)

/-- Batch element b's node states after k rounds, on those weights. -/
def Hk (b : Fin 16) (k : Nat) : Mat 256 256 :=
  (stepF (ldU x3) (toMat4 x1 b 0) (toMat4 x1 b 1))^[k]
    (mlp2 (toMat3 x0 b) (ldU x3).F0 (ldU x3).fb0 (ldU x3).F1 (ldU x3).fb1)

theorem pre_apply (b : Fin 16) (n j : Fin 256) :
    pre x0 x1 x3 (ix2 ⟨b.val * 256 + n.val, by omega⟩ j)
      = ∑ k, Spec.hfinF (Spec.slabFused (Spec.toMat x3)) (Spec.toMat3 x0 b) (Spec.toMat4 x1 b 0) (Spec.toMat4 x1 b 1) n k
          * (Spec.slabHead (Spec.toMat x3)).wg0 k j := by
  show rows (pre x0 x1 x3) b n j = _
  rw [← ldU_eq, ← ldg0_eq]
  have hA : s24 x1 = x1 := (shapeCast_self _ _).trans (ldA_eq x1)
  have h22 : rows (s22 x0 x3) b = Hk x0 x1 x3 b 0 := by
    unfold s22 k0_pay2; dsimp only
    rw [leaky_rows, lin_rows, leaky_rows, lin_rows, rows_cast, shapeCast_self, ld0_eq]
    all_goals rfl
  have h56 : rows (s56 x0 x1 x3) b = Hk x0 x1 x3 b 1 := by
    unfold s56 k0_pay6 s31 s33 k0_pay5; dsimp only
    rw [round_rows, leaky_rows, lin_rows, leaky_rows]
    unfold k0_pay4; dsimp only
    rw [lin_rows, show rows (k0_pay2 (F := Ideal) _ _ _ _ _) b = _ from h22, h22, hA]
    all_goals rfl
  have h88 : rows (s88 x0 x1 x3) b = Hk x0 x1 x3 b 2 := by
    unfold s88 slopeW k0_pay8; dsimp only
    rw [round_rows, leaky_rows]
    unfold s73 k0_pay7; dsimp only
    rw [lin_rows, leaky_rows, lin_rows, show rows (k0_pay6 (F := Ideal) _ _ _ _ _ _) b = _ from h56, h56, hA]
    all_goals rfl
  unfold pre k0_pay12; dsimp only
  rw [mm_rows, round_rows, leaky_rows, lin_rows, leaky_rows, lin_rows, join_rows, h88]
  unfold s113 s117 k0_pay10 k0_pay11; dsimp only
  rw [half_apply _ _ 0 0 _ _ (by omega) (by omega), half_apply _ _ 1 128 _ _ (by omega) (by omega)]
  unfold k0_pay9; dsimp only
  rw [toMat3_cast, leaky_rows, lin_rows, leaky_rows, lin_rows, show rows (k0_pay8 (F := Ideal) _ _ _ _) b = _ from h88, hA]
  all_goals rfl

end States

end Cert.ReferenceIdeal.RStates

end
-- ==== Proof.RTail.lean ====
import proofs.«126533_g2000204636238536_pallasbulk_491_2_alg».proof.Proof.RPieces
import proofs.«126533_g2000204636238536_pallasbulk_491_2_alg».proof.Proof.Spec
import proofs.«126533_g2000204636238536_pallasbulk_491_2_alg».proof.Proof.Args
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RTail

open Idealize.ShloMosaic Idealize.ShloMosaic.ValueIdx
open Cert.ReferenceIdeal Cert.ReferenceIdeal.Gen Cert.ReferenceIdeal.RPieces
open scoped BigOperators

/-- Putting row `s` back into the column index `q` gives `(s, q)`. -/
theorem lift_col {n0 n1 : Nat} (h : (⟨2, ![n0, n1]⟩ : Shape).Reduces [0] ⟨1, ![n1]⟩) (q : Fin n1) (s : Fin n0) :
    h.lift (ix1 q) s = ix2 s q := by
  funext c
  match c with
  | ⟨0, _⟩ => exact Fin.ext rfl
  | ⟨1, _⟩ => exact Fin.ext rfl

/-- Summing down the rows leaves, at column `q`, the sum of that column. -/
theorem colsum_apply {n0 n1 : Nat} (v : FVec Ideal ⟨2, ![n0, n1]⟩ .f32) (acc : BitVec FTy.f32.bits)
    (h : (⟨2, ![n0, n1]⟩ : Shape).Reduces [0] ⟨1, ![n1]⟩) (hφ : FKind.Formats .f32) (hacc : acc = FKind.add.neutral .f32 hφ)
    (q : Fin n1) :
    multiReduction (F := Ideal) .add [0] ⟨1, ![n1]⟩ v acc h hφ hacc (ix1 q) = ∑ s : Fin n0, v (ix2 s q) :=
  (Ideal.multiReduction_add_single v acc h hφ hacc (ix1 q)).trans
    (Finset.sum_congr rfl fun s _ => congrArg v (lift_col h q s))

/-- Taking the maximum down the rows leaves, at column `q`, the fold of `max` over that column. -/
theorem colmax_apply {n0 n1 : Nat} (v : FVec Ideal ⟨2, ![n0, n1]⟩ .f32) (acc : BitVec FTy.f32.bits)
    (h : (⟨2, ![n0, n1]⟩ : Shape).Reduces [0] ⟨1, ![n1]⟩) (hφ : FKind.Formats .f32) (hacc : acc = FKind.maximumf.neutral .f32 hφ)
    (q : Fin n1) :
    multiReduction (F := Ideal) .maximumf [0] ⟨1, ![n1]⟩ v acc h hφ hacc (ix1 q)
      = (Finset.univ : Finset (Fin n0)).fold max (Ideal.ofBits .f32 acc) (fun s => v (ix2 s q)) :=
  (Ideal.multiReduction_maximumf_single v acc h hφ hacc (ix1 q)).trans
    (congrArg (fun f => (Finset.univ : Finset (Fin n0)).fold max (Ideal.ofBits .f32 acc) f)
      (funext fun s => congrArg v (lift_col h q s)))

section MatMul
variable {M K N : Nat} (D : DotDims ⟨2, ![M, K]⟩ ⟨2, ![K, N]⟩ ⟨2, ![M, N]⟩)

/-- An `M × K` by `K × N` product added to zero is, at `(p, q)`, the sum over the inner index. -/
theorem mm_apply (hlc : D.lhsContracting = [(1 : Fin 2)]) (hrc : D.rhsContracting = [(0 : Fin 2)])
    (hl : ∀ j k, (D.lhsIdx j k (0 : Fin 2)).val = (j (0 : Fin 2)).val)
    (hr : ∀ j k, (D.rhsIdx j k (1 : Fin 2)).val = (j (1 : Fin 2)).val) (prec : Option ContractPrecision)
    (lhs : FVec Ideal ⟨2, ![M, K]⟩ .f32) (rhs : FVec Ideal ⟨2, ![K, N]⟩ .f32) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  have hr' : D.contr.rank = 1 := by rw [D.rank_contr, hlc]; rfl
  have hs : D.contr.size ⟨0, by omega⟩ = K := by
    have e := D.size_contr 0 (by rw [hlc]; exact Nat.one_pos)
    rw [e, List.getElem_of_eq hlc]
    rfl
  refine (Ideal.matmul_constant_zero_apply D prec lhs rhs (ix2 p q)).trans ?_
  refine (Equiv.sum_comp (contrEquiv1 D K hr' hs).symm _).symm.trans (Finset.sum_congr rfl fun k _ => ?_)
  have e1 : D.lhsIdx (ix2 p q) ((contrEquiv1 D K hr' hs).symm k) = ix2 p k := by
    funext a
    match a with
    | ⟨0, _⟩ => exact Fin.ext (hl _ _)
    | ⟨1, _⟩ => exact Fin.ext ((D.lhsIdx_val_of_single hlc _ _).trans (contrEquiv1_symm_val D K hr' hs k))
  have e2 : D.rhsIdx (ix2 p q) ((contrEquiv1 D K hr' hs).symm k) = ix2 k q := by
    funext a
    match a with
    | ⟨0, _⟩ => exact Fin.ext ((D.rhsIdx_val_of_single hrc _ _).trans (contrEquiv1_symm_val D K hr' hs k))
    | ⟨1, _⟩ => exact Fin.ext (hr _ _)
  rw [e1, e2]
end MatMul

section Generic
variable {F : FTy → Type} [FloatOps F]

def colMaxB (P : FVec F S129x1 .f32) : FVec F S129x1 .f32 :=
  broadcastTo S129x1 (shapeCast S1x1 (multiReduction .maximumf [0] S1 P 0xFF800000#32 reduces_S129x1_S1 (.inl rfl) rfl)
    shapeCasts_S1_S1x1) broadcasts_S1x1_S129x1

def logSumB (C : FVec F S129x1 .f32) : FVec F S129x1 .f32 :=
  broadcastTo S129x1 (log (shapeCast S1x1 (multiReduction .add [0] S1 (exp C) 0x00000000#32 reduces_S129x1_S1 (.inl rfl) rfl)
    shapeCasts_S1_S1x1)) broadcasts_S1x1_S129x1

/-- log-softmax down a column: the column's maximum is subtracted, then the logarithm of the sum of exponentials. -/
def lsmV (P : FVec F S129x1 .f32) : FVec F S129x1 .f32 :=
  subf (subf P (colMaxB P)) (logSumB (subf P (colMaxB P)))

/-- The mask's term: zero where the mask exceeds one half, `log ε` elsewhere. -/
def maskV (M : Vec F S1x129x1 .f32) : FVec F S129x1 .f32 :=
  select (cmpf .ogt (shapeCast S129x1 M shapeCasts_S1x129x1_S129x1) (broadcast S129x1 (Scalar.ofBits .f32 0x3F000000#32)))
    (broadcast S129x1 (Scalar.ofBits .f32 0x00000000#32)) (broadcast S129x1 (Scalar.ofBits .f32 0xC2CF3B8F#32))

/-- log π, π, masked log π and masked π side by side, as one row of the result. -/
def tailV (P : FVec F S129x1 .f32) (M : Vec F S1x129x1 .f32) : FVec F S1x129x4 .f32 :=
  shapeCast S1x129x4
    (concatenate S129x4 1 [⟨S129x1, lsmV P⟩, ⟨S129x1, exp (lsmV P)⟩, ⟨S129x1, lsmV (addf P (maskV M))⟩,
      ⟨S129x1, exp (lsmV (addf P (maskV M)))⟩] concatenates_S129x1_S129x1_S129x1_S129x1_S129x4_d1)
    shapeCasts_S129x4_S1x129x4

variable (sw : FVec F S128x128 .f32) (sp : FVec F S128x1 .f32) (a : FVec F S1x128 .f32) (h : FVec F S1x256 .f32)
  (W0 : Vec F S128x256 .f32) (B0 : Vec F S1x256 .f32) (W1 : Vec F S256x1 .f32) (B1 : Vec F S1x1 .f32)

abbrev scoresV : FVec F S129x1 .f32 :=
  k0_pay23 sw sp W0 B0 W1 B1

def aggV : FVec F S1x128 .f32 :=
  shapeCast S1x128 (multiReduction .add [0] S128 sw 0x00000000#32 reduces_S128x128_S128 (.inl rfl) rfl) shapeCasts_S128_S1x128

def preV : FVec F S1x256 .f32 :=
  addf (matmul dot_S1x128_S128x256_S1x256_1_0_0_1_n_n none a (shapeCast S128x256 W0 shapeCasts_S128x256_S128x256)
    (constant S1x256 .f32 0x00000000#32)) (shapeCast S1x256 B0 shapeCasts_S1x256_S1x256)

def hidV : FVec F S1x256 .f32 :=
  maximumf (preV a W0 B0) (mulf (broadcast S1x256 (Scalar.ofBits .f32 0x3C23D70A#32)) (preV a W0 B0))

def outV : FVec F S1x1 .f32 :=
  addf (matmul dot_S1x256_S256x1_S1x1_1_0_0_1_n_n none h (shapeCast S256x1 W1 shapeCasts_S256x1_S256x1)
    (constant S1x1 .f32 0x00000000#32)) (shapeCast S1x1 B1 shapeCasts_S1x1_S1x1)

/-- The 129 scores are the 128 priorities followed by the aggregate head's one number. -/
theorem scoresV_eq :
    scoresV sw sp W0 B0 W1 B1
      = concatenate S129x1 0 [⟨S128x1, sp⟩, ⟨S1x1, outV (hidV (aggV sw) W0 B0) W1 B1⟩] concatenates_S128x1_S1x1_S129x1_d0 := rfl
end Generic

section AtIdeal
variable (P : FVec Ideal S129x1 .f32) (M : Vec Ideal S1x129x1 .f32) (s : Fin 129)
  (sw : FVec Ideal S128x128 .f32) (sp : FVec Ideal S128x1 .f32) (a : FVec Ideal S1x128 .f32) (h : FVec Ideal S1x256 .f32)
  (W0 : FVec Ideal S128x256 .f32) (B0 : FVec Ideal S1x256 .f32) (W1 : FVec Ideal S256x1 .f32) (B1 : FVec Ideal S1x1 .f32)

theorem colMaxB_apply :
    colMaxB P (ix2 s (0 : Fin 1)) = Spec.rmax (fun k : Fin 129 => P (ix2 k (0 : Fin 1))) := by
  unfold colMaxB
  exact (broadcastTo_1b_ab_apply _ _ s 0).trans ((shapeCast_a_1a_apply _ _ 0 0).trans (colmax_apply P _ _ _ _ 0))

theorem logSumB_apply :
    logSumB P (ix2 s (0 : Fin 1)) = Ideal.log (∑ k : Fin 129, Ideal.exp (P (ix2 k (0 : Fin 1)))) := by
  unfold logSumB
  exact (broadcastTo_1b_ab_apply _ _ s 0).trans
    (congrArg Ideal.log ((shapeCast_a_1a_apply _ _ 0 0).trans (colsum_apply _ _ _ _ _ 0)))

/-- At a row, `lsmV` is the specification's log-softmax of the column. -/
theorem lsmV_apply :
    lsmV P (ix2 s (0 : Fin 1)) = Spec.logSoftmax (fun k : Fin 129 => P (ix2 k (0 : Fin 1))) s := by
  have hc : ∀ k : Fin 129, subf P (colMaxB P) (ix2 k (0 : Fin 1))
      = P (ix2 k (0 : Fin 1)) - Spec.rmax (fun k : Fin 129 => P (ix2 k (0 : Fin 1))) :=
    fun k => congrArg (fun t => P (ix2 k (0 : Fin 1)) - t) (colMaxB_apply P k)
  unfold lsmV Spec.logSoftmax
  refine (subf_apply _ _ _).trans ?_
  rw [hc s, logSumB_apply]
  exact congrArg (fun t => _ - Ideal.log t) (Finset.sum_congr rfl fun k _ => congrArg Ideal.exp (hc k))

theorem maskV_apply :
    maskV M (ix2 s (0 : Fin 1)) = Spec.logMask (M (ix3 (0 : Fin 1) s (0 : Fin 1))) := by
  unfold maskV Spec.logMask
  show Scalar.select (Ideal.cmp .ogt (shapeCast S129x1 M shapeCasts_S1x129x1_S129x1 (ix2 s (0 : Fin 1))) Spec.half) Spec.zeroW Spec.logEps = _
  rw [shapeCast_1ab_ab_apply]

/-- At a row and a column, `tailV` is the specification's result for the column's scores and mask. -/
theorem tailV_apply (j : Fin 4) :
    tailV P M (ix3 (0 : Fin 1) s j)
      = Spec.outOf (fun k : Fin 129 => P (ix2 k (0 : Fin 1))) (fun k : Fin 129 => M (ix3 (0 : Fin 1) k (0 : Fin 1))) j s := by
  have hm : (fun k : Fin 129 => addf P (maskV M) (ix2 k (0 : Fin 1)))
      = fun k : Fin 129 => P (ix2 k (0 : Fin 1)) + Spec.logMask (M (ix3 (0 : Fin 1) k (0 : Fin 1))) :=
    funext fun k => congrArg (fun t => P (ix2 k (0 : Fin 1)) + t) (maskV_apply M k)
  have hi : ∀ (c : Fin 4) (b : Fin S129x1.rank), b.cast (rfl : S129x1.rank = S129x4.rank) ≠ (1 : Fin 2) →
      ((ix2 s (0 : Fin 1) : S129x1.Idx) b).val = ((ix2 s c : S129x4.Idx) (b.cast rfl)).val := by
    intro c b hb
    match b with
    | ⟨0, _⟩ => rfl
    | ⟨1, _⟩ => exact absurd rfl hb
  unfold tailV
  refine (shapeCast_ab_1ab_apply _ _ 0 s j).trans ?_
  match j with
  | ⟨0, h0⟩ =>
    exact (concatenate_apply_piece _ _ _ (ix2 s ⟨0, h0⟩) 0 (by simp) S129x1 _ rfl rfl 0 rfl (ix2 s (0 : Fin 1)) (hi _) rfl).trans
      (lsmV_apply P s)
  | ⟨1, h1⟩ =>
    exact (concatenate_apply_piece _ _ _ (ix2 s ⟨1, h1⟩) 1 (by simp) S129x1 _ rfl rfl 1 rfl (ix2 s (0 : Fin 1)) (hi _) rfl).trans
      (congrArg Ideal.exp (lsmV_apply P s))
  | ⟨2, h2⟩ =>
    exact (concatenate_apply_piece _ _ _ (ix2 s ⟨2, h2⟩) 2 (by simp) S129x1 _ rfl rfl 2 rfl (ix2 s (0 : Fin 1)) (hi _) rfl).trans
      ((lsmV_apply _ s).trans (congrArg (fun f => Spec.logSoftmax f s) hm))
  | ⟨3, h3⟩ =>
    exact (concatenate_apply_piece _ _ _ (ix2 s ⟨3, h3⟩) 3 (by simp) S129x1 _ rfl rfl 3 rfl (ix2 s (0 : Fin 1)) (hi _) rfl).trans
      (congrArg Ideal.exp ((lsmV_apply _ s).trans (congrArg (fun f => Spec.logSoftmax f s) hm)))

theorem toRow_apply {C : Nat} (x : (⟨2, ![1, C]⟩ : Shape).Idx → EReal) (c : Fin C) :
    Spec.toRow x c = x (ix2 (0 : Fin 1) c) :=
  congrArg x (funext fun d => match d with | ⟨0, _⟩ => rfl | ⟨1, _⟩ => rfl)

theorem aggV_apply (m : Fin 128) :
    aggV sw (ix2 (0 : Fin 1) m) = ∑ s : Fin 128, sw (ix2 s m) := by
  unfold aggV
  exact (shapeCast_a_1a_apply _ _ 0 m).trans (colsum_apply sw _ _ _ _ m)

theorem preV_apply (k : Fin 256) :
    preV a W0 B0 (ix2 (0 : Fin 1) k) = (∑ m : Fin 128, a (ix2 (0 : Fin 1) m) * W0 (ix2 m k)) + B0 (ix2 (0 : Fin 1) k) := by
  unfold preV
  rw [shapeCast_self, shapeCast_self]
  exact congrArg (· + B0 (ix2 (0 : Fin 1) k))
    (mm_apply dot_S1x128_S128x256_S1x256_1_0_0_1_n_n rfl rfl (fun _ _ => rfl) (fun _ _ => rfl) none a W0 0 k)

theorem hidV_apply (k : Fin 256) :
    hidV a W0 B0 (ix2 (0 : Fin 1) k)
      = Spec.leaky ((∑ m : Fin 128, a (ix2 (0 : Fin 1) m) * W0 (ix2 m k)) + B0 (ix2 (0 : Fin 1) k)) := by
  unfold hidV Spec.leaky
  show max (preV a W0 B0 (ix2 (0 : Fin 1) k)) (Spec.slope * preV a W0 B0 (ix2 (0 : Fin 1) k)) = _
  rw [preV_apply]

theorem outV_apply :
    outV h W1 B1 (ix2 (0 : Fin 1) (0 : Fin 1))
      = (∑ k : Fin 256, h (ix2 (0 : Fin 1) k) * W1 (ix2 k (0 : Fin 1))) + B1 (ix2 (0 : Fin 1) (0 : Fin 1)) := by
  unfold outV
  rw [shapeCast_self, shapeCast_self]
  exact congrArg (· + B1 (ix2 (0 : Fin 1) (0 : Fin 1)))
    (mm_apply dot_S1x256_S256x1_S1x1_1_0_0_1_n_n rfl rfl (fun _ _ => rfl) (fun _ _ => rfl) none h W1 0 0)

/-- The aggregate head's number is the specification's two-layer perceptron on the column sums of the embeddings. -/
theorem head_apply :
    outV (hidV (aggV sw) W0 B0) W1 B1 (ix2 (0 : Fin 1) (0 : Fin 1))
      = Spec.mlp2n (Spec.aggOf (Spec.toMat sw)) (Spec.toMat W0) (Spec.toRow B0) (Spec.toMat W1) (Spec.toRow B1) 0 0 := by
  rw [outV_apply]
  unfold Spec.mlp2n Spec.lin Spec.act Spec.aggOf
  simp only [toRow_apply]
  refine congrArg₂ (· + ·) (Finset.sum_congr rfl fun k _ => ?_) rfl
  refine congrArg (· * W1 (ix2 k (0 : Fin 1))) ?_
  rw [hidV_apply]
  refine congrArg (fun t => Spec.leaky (t + B0 (ix2 (0 : Fin 1) k))) (Finset.sum_congr rfl fun m _ => ?_)
  exact congrArg (· * W0 (ix2 m k)) (aggV_apply sw m)

theorem scoresV_apply :
    scoresV sw sp W0 B0 W1 B1 (ix2 s (0 : Fin 1))
      = Spec.pvOf (fun k : Fin 128 => sp (ix2 k (0 : Fin 1)))
          (Spec.mlp2n (Spec.aggOf (Spec.toMat sw)) (Spec.toMat W0) (Spec.toRow B0) (Spec.toMat W1) (Spec.toRow B1) 0 0) s := by
  rw [scoresV_eq]
  unfold Spec.pvOf
  by_cases hs : s.val < 128
  · rw [dif_pos hs]
    refine concatenate_pair_apply_left _ sp (outV (hidV (aggV sw) W0 B0) W1 B1) _ (ix2 s (0 : Fin 1))
      (rfl : S128x1.rank = S129x1.rank) (ix2 (⟨s.val, hs⟩ : Fin 128) (0 : Fin 1)) fun b => ?_
    match b with
    | ⟨0, _⟩ => rfl
    | ⟨1, _⟩ => rfl
  · rw [dif_neg hs]
    refine (concatenate_pair_apply_right _ sp (outV (hidV (aggV sw) W0 B0) W1 B1) _ (ix2 s (0 : Fin 1))
      (rfl : S128x1.rank = S129x1.rank) (rfl : S1x1.rank = S129x1.rank) (ix2 (0 : Fin 1) (0 : Fin 1)) (fun b hb => ?_) ?_).trans
      (head_apply sw W0 B0 W1 B1)
    · match b with
      | ⟨0, _⟩ => exact absurd rfl hb
      | ⟨1, _⟩ => rfl
    · show 0 + 128 = s.val
      have := s.isLt
      omega

end AtIdeal

section Rows

/-- Rows `128·b … 128·b+127` of the switch embeddings. -/
def swRows (vsw : FVec Ideal S2048x128 .f32) (b : Fin 16) : Spec.Mat 128 128 :=
  fun s k => vsw (ix2 ⟨b.val * 128 + s.val, by have := b.isLt; have := s.isLt; omega⟩ k)

/-- Rows `128·b … 128·b+127` of the switch priorities. -/
def spRows (vsp : FVec Ideal S2048x1 .f32) (b : Fin 16) : Fin 128 → EReal :=
  fun s => vsp (ix2 ⟨b.val * 128 + s.val, by have := b.isLt; have := s.isLt; omega⟩ (0 : Fin 1))

def maskRow (x2 : Vec Ideal S16x129x1 .f32) (b : Fin 16) : Fin 129 → EReal :=
  fun s => x2 (ix3 b s (0 : Fin 1))

/-- The specification's four results for batch element `b`, from its rows, its mask row and the slab's aggregate head. -/
def tailSpec (vsw : FVec Ideal S2048x128 .f32) (vsp : FVec Ideal S2048x1 .f32) (x2 : Vec Ideal S16x129x1 .f32)
    (x3 : Vec Ideal S3552x512 .f32) (b : Fin 16) (j : Fin 4) (s : Fin 129) : EReal :=
  Spec.outOf (Spec.pvOf (spRows vsp b) (Spec.tpOf (Spec.slabHead (Spec.toMat x3)) (swRows vsw b))) (maskRow x2 b) j s

theorem sliceSw_toMat (b : Fin 16) (vsw : FVec Ideal S2048x128 .f32) hw :
    Spec.toMat (extractStridedSlice S128x128 ![b.val * 128, 0] vsw hw) = swRows vsw b :=
  funext fun s => funext fun k => slice2_axis0_eq (b.val * 128) vsw hw s k

theorem sliceSp_rows (b : Fin 16) (vsp : FVec Ideal S2048x1 .f32) hp :
    (fun k : Fin 128 => extractStridedSlice S128x1 ![b.val * 128, 0] vsp hp (ix2 k (0 : Fin 1))) = spRows vsp b :=
  funext fun k => slice2_axis0_eq (b.val * 128) vsp hp k 0

theorem ld_mask (b : Fin 16) (x2 : Vec Ideal S16x129x1 .f32) :
    (fun k : Fin 129 => mrow x2 b.val b.isLt (ix3 (0 : Fin 1) k (0 : Fin 1))) = maskRow x2 b := by
  funext k
  unfold maskRow
  refine congrArg x2 (funext fun a => ?_)
  match a with
  | ⟨0, _⟩ => exact Fin.ext (by show b.val + 1 * 0 = b.val; omega)
  | ⟨1, _⟩ => exact Fin.ext (by show 0 + 1 * k.val = k.val; omega)
  | ⟨2, _⟩ => exact Fin.ext (by show 0 + 1 * 0 = 0; rfl)

/-- A block of rows of the slab, read through its rectangle, is that block of the slab as a matrix. -/
theorem ld_sub {K N : Nat} (x3 : Vec Ideal S3552x512 .f32) (r : Nat)
    (inb : ∀ a, (![r, 0] : Fin 2 → Nat) a + (![K, N] : Fin 2 → Nat) a ≤ S3552x512.size a) :
    Spec.toMat (View.ld (Val := Elt Ideal) (e' := .f32) x3 (Rect.unit (s := S3552x512) ![r, 0] ![K, N] inb))
      = Spec.sub (Spec.toMat x3) r K N (inb 0) ((Nat.le_add_left N 0).trans (inb 1)) := by
  funext k n
  refine congrArg x3 (funext fun a => ?_)
  match a with
  | ⟨0, _⟩ => exact Fin.ext (by show r + 1 * k.val = r + k.val; omega)
  | ⟨1, _⟩ => exact Fin.ext (by show 0 + 1 * n.val = n.val; omega)

theorem ld_subRow {N : Nat} (x3 : Vec Ideal S3552x512 .f32) (r : Nat)
    (inb : ∀ a, (![r, 0] : Fin 2 → Nat) a + (![1, N] : Fin 2 → Nat) a ≤ S3552x512.size a) :
    Spec.toRow (View.ld (Val := Elt Ideal) (e' := .f32) x3 (Rect.unit (s := S3552x512) ![r, 0] ![1, N] inb))
      = Spec.subRow (Spec.toMat x3) r N (inb 0) ((Nat.le_add_left N 0).trans (inb 1)) :=
  funext fun n => (toRow_apply _ n).trans (congrFun (congrFun (ld_sub x3 r inb) 0) n)

theorem slW : ∀ b : Fin 16, S2048x128.Slices ![b.val * 128, 0] S128x128 := by decide
theorem slP : ∀ b : Fin 16, S2048x1.Slices ![b.val * 128, 0] S128x1 := by decide

/-- Whatever equals `tailV` of batch element `b`'s slices and mask row is, entry by entry, the specification's tail of `b`. -/
theorem tail_rows (b : Fin 16) {vsw : FVec Ideal S2048x128 .f32} {vsp : FVec Ideal S2048x1 .f32} {x2 : Vec Ideal S16x129x1 .f32}
    {x3 : Vec Ideal S3552x512 .f32} {pc : FVec Ideal S1x129x4 .f32}
    (h : pc = tailV (scoresV (extractStridedSlice S128x128 ![b.val * 128, 0] vsw (slW b)) (extractStridedSlice S128x1 ![b.val * 128, 0] vsp (slP b))
        (wa0 x3) (ba0 x3) (wa1 x3) (ba1 x3)) (mrow x2 b.val b.isLt)) (s : Fin 129) (j : Fin 4) :
    pc (ix3 (0 : Fin 1) s j) = tailSpec vsw vsp x2 x3 b j s := by
  subst h
  refine (tailV_apply _ _ s j).trans ?_
  unfold tailSpec Spec.tpOf
  rw [ld_mask b x2]
  refine congrArg (fun p => Spec.outOf p (maskRow x2 b) j s) (funext fun k => ?_)
  refine (scoresV_apply k _ _ _ _ _ _).trans ?_
  rw [sliceSp_rows, sliceSw_toMat, ld_sub, ld_subRow, ld_sub, ld_subRow]
  rfl

variable (vsw : FVec Ideal S2048x128 .f32) (vsp : FVec Ideal S2048x1 .f32) (x2 : Vec Ideal S16x129x1 .f32)
  (x3 : Vec Ideal S3552x512 .f32) (s : Fin 129) (j : Fin 4)
theorem piece0_apply : piece0 vsw vsp x2 x3 (ix3 (0 : Fin 1) s j) = tailSpec vsw vsp x2 x3 ⟨0, by omega⟩ j s := by
  apply tail_rows 0; rfl

theorem piece1_apply : piece1 vsw vsp x2 x3 (ix3 (0 : Fin 1) s j) = tailSpec vsw vsp x2 x3 ⟨1, by omega⟩ j s := by
  apply tail_rows 1; rfl

theorem piece2_apply : piece2 vsw vsp x2 x3 (ix3 (0 : Fin 1) s j) = tailSpec vsw vsp x2 x3 ⟨2, by omega⟩ j s := by
  apply tail_rows 2; rfl

theorem piece3_apply : piece3 vsw vsp x2 x3 (ix3 (0 : Fin 1) s j) = tailSpec vsw vsp x2 x3 ⟨3, by omega⟩ j s := by
  apply tail_rows 3; rfl

theorem piece4_apply : piece4 vsw vsp x2 x3 (ix3 (0 : Fin 1) s j) = tailSpec vsw vsp x2 x3 ⟨4, by omega⟩ j s := by
  apply tail_rows 4; rfl

theorem piece5_apply : piece5 vsw vsp x2 x3 (ix3 (0 : Fin 1) s j) = tailSpec vsw vsp x2 x3 ⟨5, by omega⟩ j s := by
  apply tail_rows 5; rfl

theorem piece6_apply : piece6 vsw vsp x2 x3 (ix3 (0 : Fin 1) s j) = tailSpec vsw vsp x2 x3 ⟨6, by omega⟩ j s := by
  apply tail_rows 6; rfl

theorem piece7_apply : piece7 vsw vsp x2 x3 (ix3 (0 : Fin 1) s j) = tailSpec vsw vsp x2 x3 ⟨7, by omega⟩ j s := by
  apply tail_rows 7; rfl

theorem piece8_apply : piece8 vsw vsp x2 x3 (ix3 (0 : Fin 1) s j) = tailSpec vsw vsp x2 x3 ⟨8, by omega⟩ j s := by
  apply tail_rows 8; rfl

theorem piece9_apply : piece9 vsw vsp x2 x3 (ix3 (0 : Fin 1) s j) = tailSpec vsw vsp x2 x3 ⟨9, by omega⟩ j s := by
  apply tail_rows 9; rfl

theorem piece10_apply : piece10 vsw vsp x2 x3 (ix3 (0 : Fin 1) s j) = tailSpec vsw vsp x2 x3 ⟨10, by omega⟩ j s := by
  apply tail_rows 10; rfl

theorem piece11_apply : piece11 vsw vsp x2 x3 (ix3 (0 : Fin 1) s j) = tailSpec vsw vsp x2 x3 ⟨11, by omega⟩ j s := by
  apply tail_rows 11; rfl

theorem piece12_apply : piece12 vsw vsp x2 x3 (ix3 (0 : Fin 1) s j) = tailSpec vsw vsp x2 x3 ⟨12, by omega⟩ j s := by
  apply tail_rows 12; rfl

theorem piece13_apply : piece13 vsw vsp x2 x3 (ix3 (0 : Fin 1) s j) = tailSpec vsw vsp x2 x3 ⟨13, by omega⟩ j s := by
  apply tail_rows 13; rfl

theorem piece14_apply : piece14 vsw vsp x2 x3 (ix3 (0 : Fin 1) s j) = tailSpec vsw vsp x2 x3 ⟨14, by omega⟩ j s := by
  apply tail_rows 14; rfl

theorem piece15_apply : piece15 vsw vsp x2 x3 (ix3 (0 : Fin 1) s j) = tailSpec vsw vsp x2 x3 ⟨15, by omega⟩ j s := by
  apply tail_rows 15; rfl

end Rows

end Cert.ReferenceIdeal.RTail

end
-- ==== Proof.RCompose.lean ====
import proofs.«126533_g2000204636238536_pallasbulk_491_2_alg».proof.Proof.RChain
import proofs.«126533_g2000204636238536_pallasbulk_491_2_alg».proof.Proof.RStates
import proofs.«126533_g2000204636238536_pallasbulk_491_2_alg».proof.Proof.RSwitch
import proofs.«126533_g2000204636238536_pallasbulk_491_2_alg».proof.Proof.RTail
import proofs.«126533_g2000204636238536_pallasbulk_491_2_alg».proof.Proof.Spec
import proofs.«126533_g2000204636238536_pallasbulk_491_2_alg».proof.Proof.Args
import Idealize.ShloMosaic.Lib.Pipeline.Value
import Idealize.ShloMosaic.Lib.ValueIdx

noncomputable section

namespace Cert.ReferenceIdeal.RCompose

open Idealize.ShloMosaic Idealize.ShloMosaic.ValueIdx Idealize.SL.Sem
open Cert.ReferenceIdeal Cert.ReferenceIdeal.Gen

variable (x0 : Vec Ideal S16x256x512 .f32) (x1 : Vec Ideal S16x2x256x256 .f32) (x2 : Vec Ideal S16x129x1 .f32)
  (x3 : Vec Ideal S3552x512 .f32)

def hc (b : Fin 16) : Spec.Mat 256 256 :=
  Spec.hfinF (Spec.slabFused (Spec.toMat x3)) (Spec.toMat3 x0 b) (Spec.toMat4 x1 b 0) (Spec.toMat4 x1 b 1)

def gOf (b : Fin 16) (s : Fin 129) (j : Fin 4) : EReal :=
  Spec.fnetOut (Spec.slabFused (Spec.toMat x3)) (Spec.slabHead (Spec.toMat x3)) (Spec.toMat3 x0 b) (Spec.toMat4 x1 b 0)
    (Spec.toMat4 x1 b 1) (fun s => x2 (ix3 b s (0 : Fin 1))) j s

def G : S16x129x4.Idx → EReal := fun i => gOf x0 x1 x2 x3 (i 0) (i 1) (i 2)

-- The rows of the switch embeddings and priorities that belong to one batch element are that element's, so its tail is the fused network there.
theorem tail_eq (b : Fin 16) (j : Fin 4) (s : Fin 129) :
    RTail.tailSpec (RChain.sw (F := Ideal) x0 x1 x3) (RChain.sp (F := Ideal) x0 x1 x3) x2 x3 b j s = gOf x0 x1 x2 x3 b s j := by
  have hsw : RTail.swRows (RChain.sw (F := Ideal) x0 x1 x3) b = Spec.sw (Spec.slabHead (Spec.toMat x3)) (hc x0 x1 x3 b) :=
    funext fun s => funext fun k => RSwitch.swT_apply _ x3 (hc x0 x1 x3) (RStates.pre_apply x0 x1 x3) b s k
  have hsp : RTail.spRows (RChain.sp (F := Ideal) x0 x1 x3) b = Spec.sp (Spec.slabHead (Spec.toMat x3)) (hc x0 x1 x3 b) :=
    funext fun s => RSwitch.spT_apply _ x3 (hc x0 x1 x3) (RStates.pre_apply x0 x1 x3) b s
  unfold RTail.tailSpec
  rw [hsw, hsp]
  rfl

variable {x0 x1 x2 x3}

-- Row `bn` of the result block at local index `(0, s, j)` is the block's index `(bn, s, j)`.
theorem row_ok {bn : Nat} {hb : bn < 16} {P : FVec Ideal S1x129x4 .f32}
    (hP : ∀ (s : Fin 129) (j : Fin 4), P (ix3 (0 : Fin 1) s j)
      = RTail.tailSpec (RChain.sw (F := Ideal) x0 x1 x3) (RChain.sp (F := Ideal) x0 x1 x3) x2 x3 ⟨bn, hb⟩ j s)
    (inb : ∀ a, (![bn, 0, 0] : Fin 3 → Nat) a + S1x129x4.size a ≤ S16x129x4.size a := by decide)
    (x : S1x129x4.Idx) :
    P x = G x0 x1 x2 x3 ((Rect.unit (s := S16x129x4) ![bn, 0, 0] S1x129x4.size inb).emb x) := by
  obtain ⟨u, s, j, rfl⟩ : ∃ u s j, x = ix3 u s j := ⟨_, _, _, eq_ix3 x⟩
  have e : (Rect.unit (s := S16x129x4) ![bn, 0, 0] S1x129x4.size inb).emb (ix3 u s j) = ix3 (⟨bn, hb⟩ : Fin 16) s j := by
    funext a
    apply Fin.ext
    match a with
    | ⟨0, _⟩ => show bn + 1 * u.val = bn; omega
    | ⟨1, _⟩ => show 0 + 1 * s.val = s.val; omega
    | ⟨2, _⟩ => show 0 + 1 * j.val = j.val; omega
  rw [e, Subsingleton.elim u 0, hP, tail_eq]
  rfl

theorem out0_4_apply (x0 : Vec Ideal S16x256x512 .f32) (x1 : Vec Ideal S16x2x256x256 .f32) (x2 : Vec Ideal S16x129x1 .f32)
    (x3 : Vec Ideal S3552x512 .f32) (b : Fin 16) (s : Fin 129) (j : Fin 4) :
    RChain.out0_4 (F := Ideal) x0 x1 x2 x3 (ix3 b s j) = gOf x0 x1 x2 x3 b s j := by
  unfold RChain.out0_4
  refine View.canon_apply_of_pieces (Val := Elt Ideal) (G x0 x1 x2 x3) _ ?_ _ (RChain.cover0_4 ..)
  simp only [List.forall_mem_cons, List.not_mem_nil, false_imp_iff, implies_true, and_true]
  exact ⟨row_ok (RTail.piece15_apply _ _ _ _), row_ok (RTail.piece14_apply _ _ _ _), row_ok (RTail.piece13_apply _ _ _ _),
    row_ok (RTail.piece12_apply _ _ _ _), row_ok (RTail.piece11_apply _ _ _ _), row_ok (RTail.piece10_apply _ _ _ _),
    row_ok (RTail.piece9_apply _ _ _ _), row_ok (RTail.piece8_apply _ _ _ _), row_ok (RTail.piece7_apply _ _ _ _),
    row_ok (RTail.piece6_apply _ _ _ _), row_ok (RTail.piece5_apply _ _ _ _), row_ok (RTail.piece4_apply _ _ _ _),
    row_ok (RTail.piece3_apply _ _ _ _), row_ok (RTail.piece2_apply _ _ _ _), row_ok (RTail.piece1_apply _ _ _ _),
    row_ok (RTail.piece0_apply _ _ _ _)⟩

end Cert.ReferenceIdeal.RCompose

end
-- ==== Proof.Bridge.lean ====
import proofs.«126533_g2000204636238536_pallasbulk_491_2_alg».proof.Proof.Spec
import Mathlib.Algebra.BigOperators.Fin

noncomputable section

namespace Cert.Spec

variable {R K1 K2 N1 N2 : Nat} (x : Mat R K1) (y : Mat R K2) (A : Mat K1 N1) (A' : Mat K2 N2)

@[simp] theorem hcat_left (r : Fin R) (k : Fin K1) : (hcat x y : Mat R (K1 + K2)) r (Fin.castAdd K2 k) = x r k := by
  simp [hcat]

@[simp] theorem hcat_right (r : Fin R) (k : Fin K2) : (hcat x y : Mat R (K1 + K2)) r (Fin.natAdd K1 k) = y r k := by
  simp [hcat]

@[simp] theorem catv_eq (u : RowV N1) (v : RowV N2) :
    (catv u v : RowV (N1 + N2)) = (hcat (fun _ : Fin 1 => u) (fun _ => v) : Mat 1 (N1 + N2)) 0 := rfl

@[simp] theorem bd_ll (k : Fin K1) (n : Fin N1) :
    (bd A A' : Mat (K1 + K2) (N1 + N2)) (Fin.castAdd K2 k) (Fin.castAdd N2 n) = A k n := by simp [bd]

@[simp] theorem bd_lr (k : Fin K1) (n : Fin N2) :
    (bd A A' : Mat (K1 + K2) (N1 + N2)) (Fin.castAdd K2 k) (Fin.natAdd N1 n) = 0 := by simp [bd]

@[simp] theorem bd_rl (k : Fin K2) (n : Fin N1) :
    (bd A A' : Mat (K1 + K2) (N1 + N2)) (Fin.natAdd K1 k) (Fin.castAdd N2 n) = 0 := by simp [bd]

@[simp] theorem bd_rr (k : Fin K2) (n : Fin N2) :
    (bd A A' : Mat (K1 + K2) (N1 + N2)) (Fin.natAdd K1 k) (Fin.natAdd N1 n) = A' k n := by simp [bd]

-- The sum over the fused channels splits into its two halves, and the off-diagonal half is a sum of products with zero.
theorem lin_hcat_bd (u : RowV N1) (u' : RowV N2) :
    lin (hcat x y : Mat R (K1 + K2)) (bd A A' : Mat (K1 + K2) (N1 + N2)) (catv u u' : RowV (N1 + N2))
      = (hcat (lin x A u) (lin y A' u') : Mat R (N1 + N2)) := by
  funext r n
  refine Fin.addCases (fun n => ?_) (fun n => ?_) n <;> simp [lin, Fin.sum_univ_add]

theorem act_hcat : act (hcat x y : Mat R (K1 + K2)) = (hcat (act x) (act y) : Mat R (K1 + K2)) := by
  funext r k
  refine Fin.addCases (fun k => ?_) (fun k => ?_) k <;> simp [act]

theorem mlp2_hcat_bd {H1 H2 : Nat} (w0 : Mat K1 H1) (w0' : Mat K2 H2) (b0 : RowV H1) (b0' : RowV H2)
    (w1 : Mat H1 N1) (w1' : Mat H2 N2) (b1 : RowV N1) (b1' : RowV N2) :
    mlp2 (hcat x y : Mat R (K1 + K2)) (bd w0 w0' : Mat (K1 + K2) (H1 + H2)) (catv b0 b0' : RowV (H1 + H2))
        (bd w1 w1' : Mat (H1 + H2) (N1 + N2)) (catv b1 b1' : RowV (N1 + N2))
      = (hcat (mlp2 x w0 b0 w1 b1) (mlp2 y w0' b0' w1' b1') : Mat R (N1 + N2)) := by
  unfold mlp2
  rw [lin_hcat_bd, act_hcat, lin_hcat_bd, act_hcat]

theorem hcat_add (x' : Mat R K1) (y' : Mat R K2) (r : Fin R) (k : Fin (K1 + K2)) :
    (hcat x y : Mat R (K1 + K2)) r k + (hcat x' y' : Mat R (K1 + K2)) r k
      = (hcat (fun r k => x r k + x' r k) (fun r k => y r k + y' r k) : Mat R (K1 + K2)) r k := by
  refine Fin.addCases (fun k => ?_) (fun k => ?_) k <;> simp

theorem colsL_hcat (p q : Mat R 128) : colsL (hcat p q : Mat R 256) = p := by
  funext r k
  exact hcat_left p q r k

theorem colsR_hcat (p q : Mat R 128) : colsR (hcat p q : Mat R 256) = q := by
  funext r k
  simp [colsR, hcat]

theorem stepF_fuse_hcat (B : Body) (a0 a1 : Mat 256 256) (h0 h1 : Mat 256 128) :
    stepF (fuse B) a0 a1 (hcat h0 h1 : Mat 256 256)
      = (hcat (step a0 B.wm00 B.bm00 B.wm01 B.bm01 h0) (step a1 B.wm10 B.bm10 B.wm11 B.bm11 h1) : Mat 256 256) := by
  funext i k
  simp only [stepF, fuse, mlp2_hcat_bd, colsL_hcat, colsR_hcat]
  exact hcat_add h0 h1 _ _ i k

theorem iterate_stepF_fuse (B : Body) (a0 a1 : Mat 256 256) (n : Nat) (h0 h1 : Mat 256 128) :
    (stepF (fuse B) a0 a1)^[n] (hcat h0 h1 : Mat 256 256)
      = (hcat ((step a0 B.wm00 B.bm00 B.wm01 B.bm01)^[n] h0)
              ((step a1 B.wm10 B.bm10 B.wm11 B.bm11)^[n] h1) : Mat 256 256) := by
  induction n generalizing h0 h1 with
  | zero => rfl
  | succ n ih => rw [Function.iterate_succ_apply, stepF_fuse_hcat, ih]; rfl

theorem fnetOut_fuse (B : Body) (W : Head) (n0 n1 a0 a1 : Mat 256 256) (mask : Fin 129 → EReal) (j : Fin 4) :
    fnetOut (fuse B) W (hcat n0 n1 : Mat 256 512) a0 a1 mask j = netOut B W n0 n1 a0 a1 mask j := by
  unfold fnetOut netOut hfinF hfin0 hfin1
  simp only [fuse, mlp2_hcat_bd]
  exact congrArg (headOf W · mask j) (iterate_stepF_fuse B a0 a1 4 _ _)

end Cert.Spec

end
-- ==== Proof.RValue.lean ====
import proofs.«126533_g2000204636238536_pallasbulk_491_2_alg».proof.Proof.RFinal
import proofs.«126533_g2000204636238536_pallasbulk_491_2_alg».proof.Proof.RHost
import proofs.«126533_g2000204636238536_pallasbulk_491_2_alg».proof.Proof.RCompose
import proofs.«126533_g2000204636238536_pallasbulk_491_2_alg».proof.Proof.Bridge
import proofs.«126533_g2000204636238536_pallasbulk_491_2_alg».proof.Proof.Spec
import proofs.«126533_g2000204636238536_pallasbulk_491_2_alg».proof.Proof.Args
import Idealize.ShloMosaic.Lib.Pipeline.Value
import Idealize.ShloMosaic.Lib.ValueIdx

noncomputable section

namespace Cert.ReferenceIdeal.RValue

open Cert.ReferenceIdeal Cert.ReferenceIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

abbrev A (c : Dev nD) (b : Ref sig .tc) : Buf (Elt Ideal) ((c : Thread nD τ).loc b) := m ((c : Thread nD τ).loc b)

-- Result `j` of the network, graph by graph, on the argument arrays, at batch element `i 0` and action `i 1`.
def ROut (c : Dev nD) (j : Fin 4) : S16x129.Idx → EReal := fun i =>
  Spec.netOut (Spec.mkBody (A m c main_arg5) (A m c main_arg6) (A m c main_arg7) (A m c main_arg8) (A m c main_arg9) (A m c main_arg10) (A m c main_arg11) (A m c main_arg12) (A m c main_arg13) (A m c main_arg14) (A m c main_arg15) (A m c main_arg16) (A m c main_arg17) (A m c main_arg18) (A m c main_arg19) (A m c main_arg20))
    (Spec.mkHead (A m c main_arg21) (A m c main_arg22) (A m c main_arg23) (A m c main_arg24) (A m c main_arg25) (A m c main_arg26) (A m c main_arg27) (A m c main_arg28) (A m c main_arg29) (A m c main_arg30) (A m c main_arg31) (A m c main_arg32) (A m c main_arg33) (A m c main_arg34) (A m c main_arg35) (A m c main_arg36))
    (Spec.toMat3 (A m c main_arg0) (i 0)) (Spec.toMat3 (A m c main_arg1) (i 0))
    (Spec.toMat3 (A m c main_arg2) (i 0)) (Spec.toMat3 (A m c main_arg3) (i 0))
    (fun s => A m c main_arg4 (ix2 (i 0) s)) j (i 1)

-- The fused network on the arrays built from the arguments is the graph-by-graph network on the arguments.
theorem block_value (c : Dev nD) (b : Fin 16) (s : Fin 129) (j : Fin 4) :
    (RFrame.dats m 0 c).arrAt 4 cfg0.N (ix3 b s j) = ROut m c j (ix2 b s) := by
  rw [RFrame.final4 m c, RCompose.out0_4_apply, RCompose.gOf, RHost.slabFused_eq m c, RHost.slabHead_eq m c, RHost.v141_eq m c b,
    RHost.v144_eq0 m c b, RHost.v144_eq1 m c b,
    funext (RHost.v145_eq m c b), Spec.fnetOut_fuse]
  rfl

-- An array that is column `j` of the result block is result `j`.
theorem col (c : Dev nD) (j : Fin 4) (x : S16x129.Idx → EReal)
    (h : ∀ b s, x (ix2 b s) = (RFrame.dats m 0 c).arrAt 4 cfg0.N (ix3 b s j)) : x = ROut m c j :=
  funext fun i => by rw [eq_ix2 i]; exact (h _ _).trans (block_value m c _ _ j)

theorem run : θ_run defs (onTc (τ := τ) (main (F := Ideal))) ⟨m, fun _ => 0, ρ⟩ fun r => ∀ c : Dev nD,
      r.2.mem ((c : Thread nD τ).loc main_v148) = ROut m c 0
      ∧ r.2.mem ((c : Thread nD τ).loc main_v150) = ROut m c 1
      ∧ r.2.mem ((c : Thread nD τ).loc main_v152) = ROut m c 2
      ∧ r.2.mem ((c : Thread nD τ).loc main_v154) = ROut m c 3 :=
  (θ_run defs _ _).mono (fun r h c => ⟨
      ((h c).2 main_v148 (Pipeline.mem_restRefs_of main_v148 rfl (by decide))).trans (col m c 0 _ (RFrame.res_v148 m c)),
      ((h c).2 main_v150 (Pipeline.mem_restRefs_of main_v150 rfl (by decide))).trans (col m c 1 _ (RFrame.res_v150 m c)),
      ((h c).2 main_v152 (Pipeline.mem_restRefs_of main_v152 rfl (by decide))).trans (col m c 2 _ (RFrame.res_v152 m c)),
      ((h c).2 main_v154 (Pipeline.mem_restRefs_of main_v154 rfl (by decide))).trans (col m c 3 _ (RFrame.res_v154 m c))⟩)
    (RFrame.run_main m ρ)

end Cert.ReferenceIdeal.RValue

end
-- ==== Proof.lean ====
import proofs.«126533_g2000204636238536_pallasbulk_491_2_alg».proof.Defs
import proofs.«126533_g2000204636238536_pallasbulk_491_2_alg».proof.Proof.Gen.Kernel
import proofs.«126533_g2000204636238536_pallasbulk_491_2_alg».proof.Proof.Gen.KernelIdeal
import proofs.«126533_g2000204636238536_pallasbulk_491_2_alg».proof.Proof.Gen.ReferenceIdeal
import proofs.«126533_g2000204636238536_pallasbulk_491_2_alg».proof.Proof.Gen.Pre_finite_inputs
import proofs.«126533_g2000204636238536_pallasbulk_491_2_alg».proof.Proof.KernelFrameP
import proofs.«126533_g2000204636238536_pallasbulk_491_2_alg».proof.Proof.KernelIdealFrameP
import proofs.«126533_g2000204636238536_pallasbulk_491_2_alg».proof.Proof.KValue
import proofs.«126533_g2000204636238536_pallasbulk_491_2_alg».proof.Proof.RFrame
import proofs.«126533_g2000204636238536_pallasbulk_491_2_alg».proof.Proof.RValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ => Cert.ReferenceIdeal.RFrame.frame m ρ

-- Two facts about the end of every run hold there together.
theorem θ_run_and {nD : Nat} {τ : Topo} {sig : RefSig} {Val : EltTy → Type} {Λ : Labels} {defs : Defs nD τ sig Val Λ}
    {p : (c : Thread nD τ) → Prog (TpuEff nD τ sig Val Λ c.2) PUnit} {s : MemSt nD τ sig Val}
    {Q Q' : PUnit × MemSt nD τ sig Val → Prop} (h : θ_run defs p s Q) (h' : θ_run defs p s Q') :
    θ_run defs p s fun r => Q r ∧ Q' r :=
  ⟨fun t ht hf => ⟨h.post t ht hf, h'.post t ht hf⟩, h.progress, h.fair⟩

-- Both programs' results are one function of the argument arrays; each program's unchanged arguments are its frame.
theorem algebraic : Cert.algebraic_KernelIdeal_ReferenceIdeal := by
  intro m ρ m' ρ' _ hagree
  have e : ∀ c j, Cert.ReferenceIdeal.RValue.ROut m' c j = Cert.KernelIdeal.KValue.KOut m c j := fun c j => by
    funext i
    simp only [Cert.ReferenceIdeal.RValue.ROut, Cert.ReferenceIdeal.RValue.A, Cert.KernelIdeal.KValue.KOut, hagree c]
  exact ⟨_, _, _, _,
    (θ_run Cert.KernelIdeal.defs _ _).mono (fun r h c => ⟨(h.1 c).1, (h.1 c).2.1, (h.1 c).2.2.1, (h.1 c).2.2.2, h.2 c⟩)
      (θ_run_and (Cert.KernelIdeal.KValue.run m ρ) (Cert.KernelIdeal.GenP.frame m ρ)),
    (θ_run Cert.ReferenceIdeal.defs _ _).mono
      (fun r h c => ⟨(h.1 c).1.trans (e c 0), (h.1 c).2.1.trans (e c 1), (h.1 c).2.2.1.trans (e c 2),
        (h.1 c).2.2.2.trans (e c 3), h.2 c⟩)
      (θ_run_and (Cert.ReferenceIdeal.RValue.run m' ρ') (Cert.ReferenceIdeal.RFrame.frame m' ρ'))⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
